-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v332) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4096x512 : Shape := ⟨3, ![32, 4096, 512]⟩
abbrev S32x8x512 : Shape := ⟨3, ![32, 8, 512]⟩
abbrev S1x8x512 : Shape := ⟨3, ![1, 8, 512]⟩
abbrev S512 : Shape := ⟨1, ![512]⟩
abbrev S512x512 : Shape := ⟨2, ![512, 512]⟩
abbrev S1536x512 : Shape := ⟨2, ![1536, 512]⟩
abbrev S1536 : Shape := ⟨1, ![1536]⟩
abbrev S_ : Shape := ⟨0, ![]⟩

class Facts : Prop where
  bcast_S_S32x4096x512 : S_.BroadcastsInDim S32x4096x512 (![] : Fin 0 → Fin S32x4096x512.rank)
  reducesTo_S32x4096x512_S_d0_1_2 : S32x4096x512.ReducesTo [0, 1, 2] S_
  h_S_ : 0 < S_.numel
  bcast_S_S32x8x512 : S_.BroadcastsInDim S32x8x512 (![] : Fin 0 → Fin S32x8x512.rank)
  reducesTo_S32x8x512_S_d0_1_2 : S32x8x512.ReducesTo [0, 1, 2] S_
  bcast_S_S1x8x512 : S_.BroadcastsInDim S1x8x512 (![] : Fin 0 → Fin S1x8x512.rank)
  reducesTo_S1x8x512_S_d0_1_2 : S1x8x512.ReducesTo [0, 1, 2] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S1536x512 : S_.BroadcastsInDim S1536x512 (![] : Fin 0 → Fin S1536x512.rank)
  reducesTo_S1536x512_S_d0_1 : S1536x512.ReducesTo [0, 1] S_
  bcast_S_S1536 : S_.BroadcastsInDim S1536 (![] : Fin 0 → Fin S1536.rank)
  reducesTo_S1536_S_d0 : S1536.ReducesTo [0] S_

variable [Facts]

def fn_part6 {F : FTy → Type} [FloatOps F] (main_v98 : IVec S_ 1) (main_v101 : IVec S512 1) (main_c_39 : IVec S_ 1) : IVec S_ 1 :=
  let main_v102 : IVec S_ 1 := (fun x v => Host.reduce IntOp.andi x v reducesTo_S512_S_d0 h_S_) main_v101 main_c_39
  let main_v103 : IVec S_ 1 := andi main_v98 main_v102
  main_v103

def fn_part5 {F : FTy → Type} [FloatOps F] (main_arg18 : FVec F S512 .f32) (main_arg19 : FVec F S512x512 .f32) (main_arg20 : FVec F S512 .f32) (main_v83 : IVec S_ 1) (main_v84 : FVec F S512x512 .f32) (main_cst_32 : FVec F S_ .f32) : IVec S_ 1 :=
  let main_v85 : FVec F S512x512 .f32 := broadcastInDim S512x512 ![] bcast_S_S512x512 main_cst_32
  let main_v86 : IVec S512x512 1 := cmpf .olt main_v84 main_v85
  let main_c_33 : IVec S_ 1 := constantI S_ 1 1#1
  let main_v87 : IVec S_ 1 := (fun x v => Host.reduce IntOp.andi x v reducesTo_S512x512_S_d0_1 h_S_) main_v86 main_c_33
  let main_v88 : IVec S_ 1 := andi main_v83 main_v87
  let main_v89 : FVec F S512 .f32 := Host.absf main_arg18
  let main_cst_34 : FVec F S_ .f32 := constant S_ .f32 0x7F800000#32
  let main_v90 : FVec F S512 .f32 := broadcastInDim S512 ![] bcast_S_S512 main_cst_34
  let main_v91 : IVec S512 1 := cmpf .olt main_v89 main_v90
  let main_c_35 : IVec S_ 1 := constantI S_ 1 1#1
  let main_v92 : IVec S_ 1 := (fun x v => Host.reduce IntOp.andi x v reducesTo_S512_S_d0 h_S_) main_v91 main_c_35
  let main_v93 : IVec S_ 1 := andi main_v88 main_v92
  let main_v94 : FVec F S512x512 .f32 := Host.absf main_arg19
  let main_cst_36 : FVec F S_ .f32 := constant S_ .f32 0x7F800000#32
  let main_v95 : FVec F S512x512 .f32 := broadcastInDim S512x512 ![] bcast_S_S512x512 main_cst_36
  let main_v96 : IVec S512x512 1 := cmpf .olt main_v94 main_v95
  let main_c_37 : IVec S_ 1 := constantI S_ 1 1#1
  let main_v97 : IVec S_ 1 := (fun x v => Host.reduce IntOp.andi x v reducesTo_S512x512_S_d0_1 h_S_) main_v96 main_c_37
  let main_v98 : IVec S_ 1 := andi main_v93 main_v97
  let main_v99 : FVec F S512 .f32 := Host.absf main_arg20
  let main_cst_38 : FVec F S_ .f32 := constant S_ .f32 0x7F800000#32
  let main_v100 : FVec F S512 .f32 := broadcastInDim S512 ![] bcast_S_S512 main_cst_38
  let main_v101 : IVec S512 1 := cmpf .olt main_v99 main_v100
  let main_c_39 : IVec S_ 1 := constantI S_ 1 1#1
  fn_part6 (F := F) main_v98 main_v101 main_c_39

def fn_part4 {F : FTy → Type} [FloatOps F] (main_arg14 : FVec F S1536 .f32) (main_arg15 : FVec F S512 .f32) (main_arg16 : FVec F S512 .f32) (main_arg17 : FVec F S512x512 .f32) (main_arg18 : FVec F S512 .f32) (main_arg19 : FVec F S512x512 .f32) (main_arg20 : FVec F S512 .f32) (main_v63 : IVec S_ 1) (main_v67 : IVec S_ 1) : IVec S_ 1 :=
  let main_v68 : IVec S_ 1 := andi main_v63 main_v67
  let main_v69 : FVec F S1536 .f32 := Host.absf main_arg14
  let main_cst_26 : FVec F S_ .f32 := constant S_ .f32 0x7F800000#32
  let main_v70 : FVec F S1536 .f32 := broadcastInDim S1536 ![] bcast_S_S1536 main_cst_26
  let main_v71 : IVec S1536 1 := cmpf .olt main_v69 main_v70
  let main_c_27 : IVec S_ 1 := constantI S_ 1 1#1
  let main_v72 : IVec S_ 1 := (fun x v => Host.reduce IntOp.andi x v reducesTo_S1536_S_d0 h_S_) main_v71 main_c_27
  let main_v73 : IVec S_ 1 := andi main_v68 main_v72
  let main_v74 : FVec F S512 .f32 := Host.absf main_arg15
  let main_cst_28 : FVec F S_ .f32 := constant S_ .f32 0x7F800000#32
  let main_v75 : FVec F S512 .f32 := broadcastInDim S512 ![] bcast_S_S512 main_cst_28
  let main_v76 : IVec S512 1 := cmpf .olt main_v74 main_v75
  let main_c_29 : IVec S_ 1 := constantI S_ 1 1#1
  let main_v77 : IVec S_ 1 := (fun x v => Host.reduce IntOp.andi x v reducesTo_S512_S_d0 h_S_) main_v76 main_c_29
  let main_v78 : IVec S_ 1 := andi main_v73 main_v77
  let main_v79 : FVec F S512 .f32 := Host.absf main_arg16
  let main_cst_30 : FVec F S_ .f32 := constant S_ .f32 0x7F800000#32
  let main_v80 : FVec F S512 .f32 := broadcastInDim S512 ![] bcast_S_S512 main_cst_30
  let main_v81 : IVec S512 1 := cmpf .olt main_v79 main_v80
  let main_c_31 : IVec S_ 1 := constantI S_ 1 1#1
  let main_v82 : IVec S_ 1 := (fun x v => Host.reduce IntOp.andi x v reducesTo_S512_S_d0 h_S_) main_v81 main_c_31
  let main_v83 : IVec S_ 1 := andi main_v78 main_v82
  let main_v84 : FVec F S512x512 .f32 := Host.absf main_arg17
  let main_cst_32 : FVec F S_ .f32 := constant S_ .f32 0x7F800000#32
  fn_part5 (F := F) main_arg18 main_arg19 main_arg20 main_v83 main_v84 main_cst_32

def fn_part3 {F : FTy → Type} [FloatOps F] (main_arg11 : FVec F S1536x512 .f32) (main_arg12 : FVec F S1536x512 .f32) (main_arg13 : FVec F S1536 .f32) (main_arg14 : FVec F S1536 .f32) (main_arg15 : FVec F S512 .f32) (main_arg16 : FVec F S512 .f32) (main_arg17 : FVec F S512x512 .f32) (main_arg18 : FVec F S512 .f32) (main_arg19 : FVec F S512x512 .f32) (main_arg20 : FVec F S512 .f32) (main_v48 : IVec S_ 1) (main_v49 : FVec F S512x512 .f32) (main_v50 : FVec F S512x512 .f32) : IVec S_ 1 :=
  let main_v51 : IVec S512x512 1 := cmpf .olt main_v49 main_v50
  let main_c_19 : IVec S_ 1 := constantI S_ 1 1#1
  let main_v52 : IVec S_ 1 := (fun x v => Host.reduce IntOp.andi x v reducesTo_S512x512_S_d0_1 h_S_) main_v51 main_c_19
  let main_v53 : IVec S_ 1 := andi main_v48 main_v52
  let main_v54 : FVec F S1536x512 .f32 := Host.absf main_arg11
  let main_cst_20 : FVec F S_ .f32 := constant S_ .f32 0x7F800000#32
  let main_v55 : FVec F S1536x512 .f32 := broadcastInDim S1536x512 ![] bcast_S_S1536x512 main_cst_20
  let main_v56 : IVec S1536x512 1 := cmpf .olt main_v54 main_v55
  let main_c_21 : IVec S_ 1 := constantI S_ 1 1#1
  let main_v57 : IVec S_ 1 := (fun x v => Host.reduce IntOp.andi x v reducesTo_S1536x512_S_d0_1 h_S_) main_v56 main_c_21
  let main_v58 : IVec S_ 1 := andi main_v53 main_v57
  let main_v59 : FVec F S1536x512 .f32 := Host.absf main_arg12
  let main_cst_22 : FVec F S_ .f32 := constant S_ .f32 0x7F800000#32
  let main_v60 : FVec F S1536x512 .f32 := broadcastInDim S1536x512 ![] bcast_S_S1536x512 main_cst_22
  let main_v61 : IVec S1536x512 1 := cmpf .olt main_v59 main_v60
  let main_c_23 : IVec S_ 1 := constantI S_ 1 1#1
  let main_v62 : IVec S_ 1 := (fun x v => Host.reduce IntOp.andi x v reducesTo_S1536x512_S_d0_1 h_S_) main_v61 main_c_23
  let main_v63 : IVec S_ 1 := andi main_v58 main_v62
  let main_v64 : FVec F S1536 .f32 := Host.absf main_arg13
  let main_cst_24 : FVec F S_ .f32 := constant S_ .f32 0x7F800000#32
  let main_v65 : FVec F S1536 .f32 := broadcastInDim S1536 ![] bcast_S_S1536 main_cst_24
  let main_v66 : IVec S1536 1 := cmpf .olt main_v64 main_v65
  let main_c_25 : IVec S_ 1 := constantI S_ 1 1#1
  let main_v67 : IVec S_ 1 := (fun x v => Host.reduce IntOp.andi x v reducesTo_S1536_S_d0 h_S_) main_v66 main_c_25
  fn_part4 (F := F) main_arg14 main_arg15 main_arg16 main_arg17 main_arg18 main_arg19 main_arg20 main_v63 main_v67

def fn_part2 {F : FTy → Type} [FloatOps F] (main_arg7 : FVec F S512 .f32) (main_arg8 : FVec F S512x512 .f32) (main_arg9 : FVec F S512x512 .f32) (main_arg10 : FVec F S512x512 .f32) (main_arg11 : FVec F S1536x512 .f32) (main_arg12 : FVec F S1536x512 .f32) (main_arg13 : FVec F S1536 .f32) (main_arg14 : FVec F S1536 .f32) (main_arg15 : FVec F S512 .f32) (main_arg16 : FVec F S512 .f32) (main_arg17 : FVec F S512x512 .f32) (main_arg18 : FVec F S512 .f32) (main_arg19 : FVec F S512x512 .f32) (main_arg20 : FVec F S512 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512x512 .f32 := Host.absf main_arg8
  let main_cst_14 : FVec F S_ .f32 := constant S_ .f32 0x7F800000#32
  let main_v40 : FVec F S512x512 .f32 := broadcastInDim S512x512 ![] bcast_S_S512x512 main_cst_14
  let main_v41 : IVec S512x512 1 := cmpf .olt main_v39 main_v40
  let main_c_15 : IVec S_ 1 := constantI S_ 1 1#1
  let main_v42 : IVec S_ 1 := (fun x v => Host.reduce IntOp.andi x v reducesTo_S512x512_S_d0_1 h_S_) main_v41 main_c_15
  let main_v43 : IVec S_ 1 := andi main_v38 main_v42
  let main_v44 : FVec F S512x512 .f32 := Host.absf main_arg9
  let main_cst_16 : FVec F S_ .f32 := constant S_ .f32 0x7F800000#32
  let main_v45 : FVec F S512x512 .f32 := broadcastInDim S512x512 ![] bcast_S_S512x512 main_cst_16
  let main_v46 : IVec S512x512 1 := cmpf .olt main_v44 main_v45
  let main_c_17 : IVec S_ 1 := constantI S_ 1 1#1
  let main_v47 : IVec S_ 1 := (fun x v => Host.reduce IntOp.andi x v reducesTo_S512x512_S_d0_1 h_S_) main_v46 main_c_17
  let main_v48 : IVec S_ 1 := andi main_v43 main_v47
  let main_v49 : FVec F S512x512 .f32 := Host.absf main_arg10
  let main_cst_18 : FVec F S_ .f32 := constant S_ .f32 0x7F800000#32
  let main_v50 : FVec F S512x512 .f32 := broadcastInDim S512x512 ![] bcast_S_S512x512 main_cst_18
  fn_part3 (F := F) main_arg11 main_arg12 main_arg13 main_arg14 main_arg15 main_arg16 main_arg17 main_arg18 main_arg19 main_arg20 main_v48 main_v49 main_v50

def fn_part1 {F : FTy → Type} [FloatOps F] (main_arg4 : FVec F S512 .f32) (main_arg5 : FVec F S512 .f32) (main_arg6 : FVec F S512 .f32) (main_arg7 : FVec F S512 .f32) (main_arg8 : FVec F S512x512 .f32) (main_arg9 : FVec F S512x512 .f32) (main_arg10 : FVec F S512x512 .f32) (main_arg11 : FVec F S1536x512 .f32) (main_arg12 : FVec F S1536x512 .f32) (main_arg13 : FVec F S1536 .f32) (main_arg14 : FVec F S1536 .f32) (main_arg15 : FVec F S512 .f32) (main_arg16 : FVec F S512 .f32) (main_arg17 : FVec F S512x512 .f32) (main_arg18 : FVec F S512 .f32) (main_arg19 : FVec F S512x512 .f32) (main_arg20 : FVec F S512 .f32) (main_v13 : IVec S_ 1) (main_v16 : IVec S1x8x512 1) : IVec S_ 1 :=
  let main_c_5 : IVec S_ 1 := constantI S_ 1 1#1
  let main_v17 : IVec S_ 1 := (fun x v => Host.reduce IntOp.andi x v reducesTo_S1x8x512_S_d0_1_2 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_v33

def fn {F : FTy → Type} [FloatOps F] (main_arg0 : FVec F S32x4096x512 .f32) (main_arg1 : FVec F S32x8x512 .f32) (main_arg2 : FVec F S1x8x512 .f32) (main_arg3 : FVec F S1x8x512 .f32) (main_arg4 : FVec F S512 .f32) (main_arg5 : FVec F S512 .f32) (main_arg6 : FVec F S512 .f32) (main_arg7 : FVec F S512 .f32) (main_arg8 : FVec F S512x512 .f32) (main_arg9 : FVec F S512x512 .f32) (main_arg10 : FVec F S512x512 .f32) (main_arg11 : FVec F S1536x512 .f32) (main_arg12 : FVec F S1536x512 .f32) (main_arg13 : FVec F S1536 .f32) (main_arg14 : FVec F S1536 .f32) (main_arg15 : FVec F S512 .f32) (main_arg16 : FVec F S512 .f32) (main_arg17 : FVec F S512x512 .f32) (main_arg18 : FVec F S512 .f32) (main_arg19 : FVec F S512x512 .f32) (main_arg20 : FVec F S512 .f32) : IVec S_ 1 :=
  let main_v0 : FVec F S32x4096x512 .f32 := Host.absf main_arg0
  let main_cst : FVec F S_ .f32 := constant S_ .f32 0x7F800000#32
  let main_v1 : FVec F S32x4096x512 .f32 := broadcastInDim S32x4096x512 ![] bcast_S_S32x4096x512 main_cst
  let main_v2 : IVec S32x4096x512 1 := cmpf .olt main_v0 main_v1
  let main_c : IVec S_ 1 := constantI S_ 1 1#1
  let main_v3 : IVec S_ 1 := (fun x v => Host.reduce IntOp.andi x v reducesTo_S32x4096x512_S_d0_1_2 h_S_) main_v2 main_c
  let main_v4 : FVec F S32x8x512 .f32 := Host.absf main_arg1
  let main_cst_0 : FVec F S_ .f32 := constant S_ .f32 0x7F800000#32
  let main_v5 : FVec F S32x8x512 .f32 := broadcastInDim S32x8x512 ![] bcast_S_S32x8x512 main_cst_0
  let main_v6 : IVec S32x8x512 1 := cmpf .olt main_v4 main_v5
  let main_c_1 : IVec S_ 1 := constantI S_ 1 1#1
  let main_v7 : IVec S_ 1 := (fun x v => Host.reduce IntOp.andi x v reducesTo_S32x8x512_S_d0_1_2 h_S_) main_v6 main_c_1
  let main_v8 : IVec S_ 1 := andi main_v3 main_v7
  let main_v9 : FVec F S1x8x512 .f32 := Host.absf main_arg2
  let main_cst_2 : FVec F S_ .f32 := constant S_ .f32 0x7F800000#32
  let main_v10 : FVec F S1x8x512 .f32 := broadcastInDim S1x8x512 ![] bcast_S_S1x8x512 main_cst_2
  let main_v11 : IVec S1x8x512 1 := cmpf .olt main_v9 main_v10
  let main_c_3 : IVec S_ 1 := constantI S_ 1 1#1
  let main_v12 : IVec S_ 1 := (fun x v => Host.reduce IntOp.andi x v reducesTo_S1x8x512_S_d0_1_2 h_S_) main_v11 main_c_3
  let main_v13 : IVec S_ 1 := andi main_v8 main_v12
  let main_v14 : FVec F S1x8x512 .f32 := Host.absf main_arg3
  let main_cst_4 : FVec F S_ .f32 := constant S_ .f32 0x7F800000#32
  let main_v15 : FVec F S1x8x512 .f32 := broadcastInDim S1x8x512 ![] bcast_S_S1x8x512 main_cst_4
  let main_v16 : IVec S1x8x512 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_v13 main_v16
-- ==== Kernel.lean ====
abbrev S32x4096x512 : Shape := ⟨3, ![32, 4096, 512]⟩
abbrev S32x8x512 : Shape := ⟨3, ![32, 8, 512]⟩
abbrev S1x8x512 : Shape := ⟨3, ![1, 8, 512]⟩
abbrev S512 : Shape := ⟨1, ![512]⟩
abbrev S512x512 : Shape := ⟨2, ![512, 512]⟩
abbrev S1536x512 : Shape := ⟨2, ![1536, 512]⟩
abbrev S1536 : Shape := ⟨1, ![1536]⟩
abbrev S512x1536 : Shape := ⟨2, ![512, 1536]⟩
abbrev S1x1024x512 : Shape := ⟨3, ![1, 1024, 512]⟩
abbrev S4096x512 : Shape := ⟨2, ![4096, 512]⟩
abbrev S1024x512 : Shape := ⟨2, ![1024, 512]⟩
abbrev S1024 : Shape := ⟨1, ![1024]⟩
abbrev S1024x1 : Shape := ⟨2, ![1024, 1]⟩
abbrev S1x512 : Shape := ⟨2, ![1, 512]⟩
abbrev S8x512 : Shape := ⟨2, ![8, 512]⟩
abbrev S8 : Shape := ⟨1, ![8]⟩
abbrev S8x1 : Shape := ⟨2, ![8, 1]⟩
abbrev S8x4096 : Shape := ⟨2, ![8, 4096]⟩
abbrev S4096 : Shape := ⟨1, ![4096]⟩
abbrev S1x4096 : Shape := ⟨2, ![1, 4096]⟩
abbrev S8x1536 : Shape := ⟨2, ![8, 1536]⟩
abbrev S1x1536 : Shape := ⟨2, ![1, 1536]⟩

abbrev nBuf : Space → Nat
  | .hbm => 40
  | .vmem => 25
  | .smem => 0
  | _ => 0

abbrev bufTy : (tb : Table) → Fin (tcTables nBuf tb) → BufTy
  | .hbm, ⟨0, _⟩ => ⟨S32x4096x512, .f32⟩
  | .hbm, ⟨1, _⟩ => ⟨S32x8x512, .f32⟩
  | .hbm, ⟨2, _⟩ => ⟨S1x8x512, .f32⟩
  | .hbm, ⟨3, _⟩ => ⟨S1x8x512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S512, .f32⟩
  | .hbm, ⟨8, _⟩ => ⟨S512x512, .f32⟩
  | .hbm, ⟨9, _⟩ => ⟨S512x512, .f32⟩
  | .hbm, ⟨10, _⟩ => ⟨S512x512, .f32⟩
  | .hbm, ⟨11, _⟩ => ⟨S1536x512, .f32⟩
  | .hbm, ⟨12, _⟩ => ⟨S1536x512, .f32⟩
  | .hbm, ⟨13, _⟩ => ⟨S1536, .f32⟩
  | .hbm, ⟨14, _⟩ => ⟨S1536, .f32⟩
  | .hbm, ⟨15, _⟩ => ⟨S512, .f32⟩
  | .hbm, ⟨16, _⟩ => ⟨S512, .f32⟩
  | .hbm, ⟨17, _⟩ => ⟨S512x512, .f32⟩
  | .hbm, ⟨18, _⟩ => ⟨S512, .f32⟩
  | .hbm, ⟨19, _⟩ => ⟨S512x512, .f32⟩
  | .hbm, ⟨20, _⟩ => ⟨S512, .f32⟩
  | .hbm, ⟨21, _⟩ => ⟨S32x8x512, .f32⟩
  | .hbm, ⟨22, _⟩ => ⟨S32x8x512, .f32⟩
  | .hbm, ⟨23, _⟩ => ⟨S32x8x512, .f32⟩
  | .hbm, ⟨24, _⟩ => ⟨S32x8x512, .f32⟩
  | .hbm, ⟨25, _⟩ => ⟨S512x512, .f32⟩
  | .hbm, ⟨26, _⟩ => ⟨S512x512, .bf16⟩
  | .hbm, ⟨27, _⟩ => ⟨S512x512, .f32⟩
  | .hbm, ⟨28, _⟩ => ⟨S512x512, .bf16⟩
  | .hbm, ⟨29, _⟩ => ⟨S512x512, .f32⟩
  | .hbm, ⟨30, _⟩ => ⟨S512x512, .bf16⟩
  | .hbm, ⟨31, _⟩ => ⟨S512x1536, .f32⟩
  | .hbm, ⟨32, _⟩ => ⟨S512x1536, .bf16⟩
  | .hbm, ⟨33, _⟩ => ⟨S512x1536, .f32⟩
  | .hbm, ⟨34, _⟩ => ⟨S512x1536, .bf16⟩
  | .hbm, ⟨35, _⟩ => ⟨S512x512, .f32⟩
  | .hbm, ⟨36, _⟩ => ⟨S512x512, .bf16⟩
  | .hbm, ⟨37, _⟩ => ⟨S512x512, .f32⟩
  | .hbm, ⟨38, _⟩ => ⟨S512x512, .bf16⟩
  | .hbm, ⟨39, _⟩ => ⟨S32x8x512, .f32⟩
  | .local _ .vmem, ⟨0, _⟩ => ⟨S1x1024x512, .f32⟩
  | .local _ .vmem, ⟨1, _⟩ => ⟨S1x1024x512, .f32⟩
  | .local _ .vmem, ⟨2, _⟩ => ⟨S1x8x512, .f32⟩
  | .local _ .vmem, ⟨3, _⟩ => ⟨S1x8x512, .f32⟩
  | .local _ .vmem, ⟨4, _⟩ => ⟨S512, .f32⟩
  | .local _ .vmem, ⟨5, _⟩ => ⟨S512, .f32⟩
  | .local _ .vmem, ⟨6, _⟩ => ⟨S512, .f32⟩
  | .local _ .vmem, ⟨7, _⟩ => ⟨S512, .f32⟩
  | .local _ .vmem, ⟨8, _⟩ => ⟨S512, .f32⟩
  | .local _ .vmem, ⟨9, _⟩ => ⟨S512, .f32⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x1536, .bf16⟩
  | .local _ .vmem, ⟨14, _⟩ => ⟨S512x1536, .bf16⟩
  | .local _ .vmem, ⟨15, _⟩ => ⟨S1536, .f32⟩
  | .local _ .vmem, ⟨16, _⟩ => ⟨S1536, .f32⟩
  | .local _ .vmem, ⟨17, _⟩ => ⟨S512x512, .bf16⟩
  | .local _ .vmem, ⟨18, _⟩ => ⟨S512, .f32⟩
  | .local _ .vmem, ⟨19, _⟩ => ⟨S512x512, .bf16⟩
  | .local _ .vmem, ⟨20, _⟩ => ⟨S512, .f32⟩
  | .local _ .vmem, ⟨21, _⟩ => ⟨S1x8x512, .f32⟩
  | .local _ .vmem, ⟨22, _⟩ => ⟨S1x8x512, .f32⟩
  | .local _ .vmem, ⟨23, _⟩ => ⟨S4096x512, .bf16⟩
  | .local _ .vmem, ⟨24, _⟩ => ⟨S4096x512, .bf16⟩
  | _, _ => ⟨S32x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg19_0 : Ref sig .tc := ⟨.vmem, 21, rfl⟩
abbrev cc0_stg19_1 : Ref sig .tc := ⟨.vmem, 22, rfl⟩
abbrev cc0_scratch0 : Ref sig .tc := ⟨.vmem, 23, rfl⟩
abbrev cc0_scratch1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem19_0 : DmaSem sig := 21
abbrev cc0_sem19_1 : DmaSem sig := 22

abbrev nD : Nat := 1
abbrev τ : Topo := Topo.v7x

variable {F : FTy → Type} [FloatOps F]

abbrev grid0 : Pipeline.Grid := ⟨2, ![32, 4], ![false, false]⟩

def k0_mult1 (i : grid0.Coords) : BitVec 32 :=
  let arg1 : BitVec 32 := BitVec.ofNat 32 (i 1).val
  let c1024_i32 : BitVec 32 := 1024#32
  let v35 : BitVec 32 := Scalar.muli arg1 c1024_i32
  v35
def k0_off1 (i : grid0.Coords) : Fin 2 → Nat :=
  let arg1 : BitVec 32 := BitVec.ofNat 32 (i 1).val
  let c1024_i32 : BitVec 32 := 1024#32
  let v35 : BitVec 32 := Scalar.muli arg1 c1024_i32
  let v36 : BitVec 32 := v35
  let v38 : Index := Scalar.indexCast v36
  let c0_14 : Index := 0#32
  ![v38.toNat, 0]
def k0_cond1 (i : grid0.Coords) : BitVec 1 :=
  let arg1 : BitVec 32 := BitVec.ofNat 32 (i 1).val
  let c3_i32 : BitVec 32 := 3#32
  let v47 : BitVec 1 := Scalar.cmpi .eq arg1 c3_i32
  let v48 : BitVec 32 := Scalar.extui v47
  let c0_i32 : BitVec 32 := 0#32
  let v49 : BitVec 1 := Scalar.cmpi .ne v48 c0_i32
  v49

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_14 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S512x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S512x1536 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S512x1536 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1536 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1536 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S512x512 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S512x512 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 2 → Memref sig .tc .vmem S1x8x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, false]

class Facts₀ : Prop where
  bcast_S1x8x512_S32x8x512_0_1_2 : S1x8x512.BroadcastsInDim S32x8x512 (![0, 1, 2] : Fin 3 → Fin S32x8x512.rank)
  transposes_S512x512_S512x512_1_0 : S512x512.Transposes [1, 0] S512x512
  bitsLt_bf16_f32 : FTy.bits .bf16 < FTy.bits .f32
  transposes_S1536x512_S512x1536_1_0 : S1536x512.Transposes [1, 0] S512x1536
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  inb_S512_S512_0 : ∀ a, (![0] : Fin 1 → Nat) a + S512.size a ≤ S512.size a
  h_S512 : 0 < S512.numel
  reduces_S1024x512_S1024 : S1024x512.Reduces [1] S1024
  shapeCasts_S1024_S1024x1 : S1024.ShapeCasts S1024x1
  broadcasts_S1024x1_S1024x512 : S1024x1.Broadcasts S1024x512
  shapeCasts_S512_S1x512 : S512.ShapeCasts S1x512
  broadcasts_S1x512_S1024x512 : S1x512.Broadcasts S1024x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  h_S1024x512 : 0 < S1024x512.numel
  shapeCasts_S1024x512_S1024x512 : S1024x512.ShapeCasts S1024x512
  inb_S512x1536_S512x1536_0_0 : ∀ a, (![0, 0] : Fin 2 → Nat) a + S512x1536.size a ≤ S512x1536.size a
  h_S512x1536 : 0 < S512x1536.numel
  shapeCasts_S512x1536_S512x1536 : S512x1536.ShapeCasts S512x1536
  inb_S1536_S1536_0 : ∀ a, (![0] : Fin 1 → Nat) a + S1536.size a ≤ S1536.size a
  h_S1536 : 0 < S1536.numel
  inb_S1x8x512_S1x8x512_0_0_0 : ∀ a, (![0, 0, 0] : Fin 3 → Nat) a + S1x8x512.size a ≤ S1x8x512.size a
  h_S1x8x512 : 0 < S1x8x512.numel
  shapeCasts_S1x8x512_S8x512 : S1x8x512.ShapeCasts S8x512
  reduces_S8x512_S8 : S8x512.Reduces [1] S8
  shapeCasts_S8_S8x1 : S8.ShapeCasts S8x1
  broadcasts_S8x1_S8x512 : S8x1.Broadcasts S8x512
  broadcasts_S1x512_S8x512 : S1x512.Broadcasts S8x512
  inb_S4096x512_S4096x512_0_0 : ∀ a, (![0, 0] : Fin 2 → Nat) a + S4096x512.size a ≤ S4096x512.size a
  h_S4096x512 : 0 < S4096x512.numel
  reduces_S8x4096_S4096 : S8x4096.Reduces [0] S4096
  shapeCasts_S4096_S1x4096 : S4096.ShapeCasts S1x4096
  broadcasts_S1x4096_S8x4096 : S1x4096.Broadcasts S8x4096
  shapeCasts_S1536_S1x1536 : S1536.ShapeCasts S1x1536
  broadcasts_S1x1536_S8x1536 : S1x1536.Broadcasts S8x1536
  slices_S8x1536_o0_0_S8x512 : S8x1536.Slices ![0, 0] S8x512
  slices_S8x1536_o0_512_S8x512 : S8x1536.Slices ![0, 512] S8x512
  slices_S8x1536_o0_1024_S8x512 : S8x1536.Slices ![0, 1024] S8x512
  shapeCasts_S8x512_S1x8x512 : S8x512.ShapeCasts S1x8x512
  dot_S1024x512_S512x512_S1024x512_1_0_0_1_n_n_wf : DotDims.WF S1024x512 S512x512 S1024x512 [1] [0] [0] [1] [] []
  dot_S8x512_S512x512_S8x512_1_0_0_1_n_n_wf : DotDims.WF S8x512 S512x512 S8x512 [1] [0] [0] [1] [] []
  dot_S8x512_S4096x512_S8x4096_1_1_0_0_n_n_wf : DotDims.WF S8x512 S4096x512 S8x4096 [1] [1] [0] [0] [] []
  dot_S8x4096_S4096x512_S8x512_1_0_0_1_n_n_wf : DotDims.WF S8x4096 S4096x512 S8x512 [1] [0] [0] [1] [] []
  dot_S8x512_S512x1536_S8x1536_1_0_0_1_n_n_wf : DotDims.WF S8x512 S512x1536 S8x1536 [1] [0] [0] [1] [] []
  hrank0 : 0 < grid0.rank
  k0_mult1_dvd : ∀ i : grid0.Coords, 1024 ∣ (k0_mult1 i).toNat
  k0_off1_inb : ∀ i : grid0.Coords, ∀ a, (k0_off1 i) a + S1024x512.size a ≤ S4096x512.size a
  k0_off1_packedbf16 : ∀ i : grid0.Coords, (Rect.unit (s := S4096x512) (k0_off1 i) S1024x512.size (k0_off1_inb i)).PackedRows (EltTy.packing .bf16)
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x512.size a ≤ S32x4096x512.size a
  hwx0_0 : ∀ i : grid0.Coords, EltTy.bits .f32 = 32 ∨ (Rect.block (s := S32x4096x512) S1x1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x512.size a ≤ S32x8x512.size a
  hwx0_1 : ∀ i : grid0.Coords, EltTy.bits .f32 = 32 ∨ (Rect.block (s := S32x8x512) S1x8x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S512.size a
  hwx0_3 : ∀ i : grid0.Coords, EltTy.bits .f32 = 32 ∨ (Rect.block (s := S512) S512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S512.size a
  hwx0_5 : ∀ i : grid0.Coords, EltTy.bits .f32 = 32 ∨ (Rect.block (s := S512) S512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512.size a ≤ S512.size a
  hwx0_6 : ∀ i : grid0.Coords, EltTy.bits .f32 = 32 ∨ (Rect.block (s := S512) S512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512.size a ≤ S512.size a
  hwx0_7 : ∀ i : grid0.Coords, EltTy.bits .f32 = 32 ∨ (Rect.block (s := S512) S512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512x512.size a ≤ S512x512.size a
  hwx0_8 : ∀ i : grid0.Coords, EltTy.bits .bf16 = 32 ∨ (Rect.block (s := S512x512) S512x512.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512x512.size a ≤ S512x512.size a
  hwx0_9 : ∀ i : grid0.Coords, EltTy.bits .bf16 = 32 ∨ (Rect.block (s := S512x512) S512x512.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S512x512.size a ≤ S512x512.size a
  hwx0_10 : ∀ i : grid0.Coords, EltTy.bits .bf16 = 32 ∨ (Rect.block (s := S512x512) S512x512.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S512x1536.size a ≤ S512x1536.size a
  hwx0_11 : ∀ i : grid0.Coords, EltTy.bits .bf16 = 32 ∨ (Rect.block (s := S512x1536) S512x1536.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S512x1536.size a ≤ S512x1536.size a
  hwx0_12 : ∀ i : grid0.Coords, EltTy.bits .bf16 = 32 ∨ (Rect.block (s := S512x1536) S512x1536.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1536.size a ≤ S1536.size a
  hwx0_13 : ∀ i : grid0.Coords, EltTy.bits .f32 = 32 ∨ (Rect.block (s := S1536) S1536.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1536.size a ≤ S1536.size a
  hwx0_14 : ∀ i : grid0.Coords, EltTy.bits .f32 = 32 ∨ (Rect.block (s := S1536) S1536.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S512x512.size a ≤ S512x512.size a
  hwx0_15 : ∀ i : grid0.Coords, EltTy.bits .bf16 = 32 ∨ (Rect.block (s := S512x512) S512x512.size (cc0_transform_15 i) (hinb0_15 i)).WholeWords (EltTy.packing .bf16)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S512.size a ≤ S512.size a
  hwx0_16 : ∀ i : grid0.Coords, EltTy.bits .f32 = 32 ∨ (Rect.block (s := S512) S512.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S512x512.size a ≤ S512x512.size a
  hwx0_17 : ∀ i : grid0.Coords, EltTy.bits .bf16 = 32 ∨ (Rect.block (s := S512x512) S512x512.size (cc0_transform_17 i) (hinb0_17 i)).WholeWords (EltTy.packing .bf16)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S512.size a ≤ S512.size a
  hwx0_18 : ∀ i : grid0.Coords, EltTy.bits .f32 = 32 ∨ (Rect.block (s := S512) S512.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S1x8x512.size a ≤ S32x8x512.size a
  hwx0_19 : ∀ i : grid0.Coords, EltTy.bits .f32 = 32 ∨ (Rect.block (s := S32x8x512) S1x8x512.size (cc0_transform_19 i) (hinb0_19 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S8x512_S512x512_S8x512_1_0_0_1_n_n : DotDims S8x512 S512x512 S8x512 where
  lhsContracting := [1]
  rhsContracting := [0]
  lhsNonContracting := [0]
  rhsNonContracting := [1]
  lhsBatch := []
  rhsBatch := []
  wf := dot_S8x512_S512x512_S8x512_1_0_0_1_n_n_wf
def dot_S8x512_S4096x512_S8x4096_1_1_0_0_n_n : DotDims S8x512 S4096x512 S8x4096 where
  lhsContracting := [1]
  rhsContracting := [1]
  lhsNonContracting := [0]
  rhsNonContracting := [0]
  lhsBatch := []
  rhsBatch := []
  wf := dot_S8x512_S4096x512_S8x4096_1_1_0_0_n_n_wf
def dot_S8x4096_S4096x512_S8x512_1_0_0_1_n_n : DotDims S8x4096 S4096x512 S8x512 where
  lhsContracting := [1]
  rhsContracting := [0]
  lhsNonContracting := [0]
  rhsNonContracting := [1]
  lhsBatch := []
  rhsBatch := []
  wf := dot_S8x4096_S4096x512_S8x512_1_0_0_1_n_n_wf
def dot_S8x512_S512x1536_S8x1536_1_0_0_1_n_n : DotDims S8x512 S512x1536 S8x1536 where
  lhsContracting := [1]
  rhsContracting := [0]
  lhsNonContracting := [0]
  rhsNonContracting := [1]
  lhsBatch := []
  rhsBatch := []
  wf := dot_S8x512_S512x1536_S8x1536_1_0_0_1_n_n_wf

abbrev win0_0 : Pipeline.Window sig grid0 :=
  Pipeline.Window.ofSpec (Memref.whole main_arg0) S1x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x8x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg15) S512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg16) S512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S512x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v7) S512x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v9) S512x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v11) S512x1536.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v13) S512x1536.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S1536.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S1536.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v15) S512x512.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg18) S512.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v17) S512x512.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_arg20) S512.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v18) S1x8x512.size cc0_transform_19 reads0_19 true false 2 stage0_19 sem0_19
    hrank0 hreads0_19 hinb0_19 nbuf0_19 (Memref.isWhole_whole _) hwx0_19 hstage0_19

abbrev win0 : Fin 20 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | ⟨_ + 20, h⟩ => absurd h (Nat.not_lt.2 (Nat.le_add_left _ _))
abbrev spec0 : Fin 20 → Pipeline.WinSpec sig grid0.rank := fun w => (win0 w).toWinSpec

abbrev idle0 : Fin 20 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun _ => false | 14 => fun _ => false | 15 => fun _ => false | 16 => fun _ => false | 17 => fun _ => false | 18 => fun _ => false | 19 => fun i => !(k0_cond1 i == 1#1) | ⟨_ + 20, h⟩ => absurd h (Nat.not_lt.2 (Nat.le_add_left _ _))

class Facts : Prop extends Facts₀ where

variable [Facts]
-- ==== ReferenceIdeal.lean ====
abbrev S32x4096x512 : Shape := ⟨3, ![32, 4096, 512]⟩
abbrev S32x8x512 : Shape := ⟨3, ![32, 8, 512]⟩
abbrev S1x8x512 : Shape := ⟨3, ![1, 8, 512]⟩
abbrev S512 : Shape := ⟨1, ![512]⟩
abbrev S512x512 : Shape := ⟨2, ![512, 512]⟩
abbrev S1536x512 : Shape := ⟨2, ![1536, 512]⟩
abbrev S1536 : Shape := ⟨1, ![1536]⟩
abbrev S_ : Shape := ⟨0, ![]⟩
abbrev S32x4096 : Shape := ⟨2, ![32, 4096]⟩
abbrev S32x4096x1 : Shape := ⟨3, ![32, 4096, 1]⟩
abbrev S1x1x512 : Shape := ⟨3, ![1, 1, 512]⟩
abbrev S32x8 : Shape := ⟨2, ![32, 8]⟩
abbrev S32x8x1 : Shape := ⟨3, ![32, 8, 1]⟩
abbrev S32x4096x8 : Shape := ⟨3, ![32, 4096, 8]⟩
abbrev S32x8x4096 : Shape := ⟨3, ![32, 8, 4096]⟩
abbrev S32x8x1536 : Shape := ⟨3, ![32, 8, 1536]⟩
abbrev S1x1x1536 : Shape := ⟨3, ![1, 1, 1536]⟩

abbrev nBuf : Space → Nat
  | .hbm => 572
  | .vmem => 0
  | .smem => 0
  | _ => 0

abbrev hbmTy0_0 (i : Nat) : BufTy := match i % 128 with
  | 0 => ⟨S32x4096x512, .f32⟩
  | 1 => ⟨S32x8x512, .f32⟩
  | 2 => ⟨S1x8x512, .f32⟩
  | 3 => ⟨S1x8x512, .f32⟩
  | 4 => ⟨S512, .f32⟩
  | 5 => ⟨S512, .f32⟩
  | 6 => ⟨S512, .f32⟩
  | 7 => ⟨S512, .f32⟩
  | 8 => ⟨S512x512, .f32⟩
  | 9 => ⟨S512x512, .f32⟩
  | 10 => ⟨S512x512, .f32⟩
  | 11 => ⟨S1536x512, .f32⟩
  | 12 => ⟨S1536x512, .f32⟩
  | 13 => ⟨S1536, .f32⟩
  | 14 => ⟨S1536, .f32⟩
  | 15 => ⟨S512, .f32⟩
  | 16 => ⟨S512, .f32⟩
  | 17 => ⟨S512x512, .f32⟩
  | 18 => ⟨S512, .f32⟩
  | 19 => ⟨S512x512, .f32⟩
  | 20 => ⟨S512, .f32⟩
  | 21 => ⟨S32x8x512, .f32⟩
  | 22 => ⟨S32x8x512, .f32⟩
  | 23 => ⟨S32x8x512, .f32⟩
  | 24 => ⟨S32x8x512, .f32⟩
  | 25 => ⟨S_, .f32⟩
  | 26 => ⟨S32x4096, .f32⟩
  | 27 => ⟨S32x4096x1, .f32⟩
  | 28 => ⟨S_, .f32⟩
  | 29 => ⟨S32x4096x1, .f32⟩
  | 30 => ⟨S32x4096x1, .f32⟩
  | 31 => ⟨S_, .i32⟩
  | 32 => ⟨S_, .f32⟩
  | 33 => ⟨S32x4096, .f32⟩
  | 34 => ⟨S32x4096x1, .f32⟩
  | 35 => ⟨S_, .f32⟩
  | 36 => ⟨S32x4096x1, .f32⟩
  | 37 => ⟨S32x4096x1, .f32⟩
  | 38 => ⟨S32x4096x512, .f32⟩
  | 39 => ⟨S32x4096x512, .f32⟩
  | 40 => ⟨S32x4096x512, .f32⟩
  | 41 => ⟨S_, .f32⟩
  | 42 => ⟨S_, .f32⟩
  | 43 => ⟨S_, .f32⟩
  | 44 => ⟨S_, .f32⟩
  | 45 => ⟨S32x4096, .f32⟩
  | 46 => ⟨S32x4096x1, .f32⟩
  | 47 => ⟨S32x4096x1, .f32⟩
  | 48 => ⟨S32x4096x1, .f32⟩
  | 49 => ⟨S_, .f32⟩
  | 50 => ⟨S_, .i1⟩
  | 51 => ⟨S_, .f32⟩
  | 52 => ⟨S_, .f32⟩
  | 53 => ⟨S32x4096x1, .f32⟩
  | 54 => ⟨S32x4096x1, .f32⟩
  | 55 => ⟨S32x4096x512, .f32⟩
  | 56 => ⟨S32x4096x512, .f32⟩
  | 57 => ⟨S_, .f32⟩
  | 58 => ⟨S32x4096x1, .f32⟩
  | 59 => ⟨S32x4096x1, .f32⟩
  | 60 => ⟨S32x4096x1, .f32⟩
  | 61 => ⟨S32x4096x512, .f32⟩
  | 62 => ⟨S32x4096x512, .f32⟩
  | 63 => ⟨S1x1x512, .f32⟩
  | 64 => ⟨S32x4096x512, .f32⟩
  | 65 => ⟨S32x4096x512, .f32⟩
  | 66 => ⟨S1x1x512, .f32⟩
  | 67 => ⟨S32x4096x512, .f32⟩
  | 68 => ⟨S32x4096x512, .f32⟩
  | 69 => ⟨S32x4096x512, .f32⟩
  | 70 => ⟨S32x4096x512, .f32⟩
  | 71 => ⟨S_, .f32⟩
  | 72 => ⟨S32x8, .f32⟩
  | 73 => ⟨S32x8x1, .f32⟩
  | 74 => ⟨S_, .f32⟩
  | 75 => ⟨S32x8x1, .f32⟩
  | 76 => ⟨S32x8x1, .f32⟩
  | 77 => ⟨S_, .i32⟩
  | 78 => ⟨S_, .f32⟩
  | 79 => ⟨S32x8, .f32⟩
  | 80 => ⟨S32x8x1, .f32⟩
  | 81 => ⟨S_, .f32⟩
  | 82 => ⟨S32x8x1, .f32⟩
  | 83 => ⟨S32x8x1, .f32⟩
  | 84 => ⟨S32x8x512, .f32⟩
  | 85 => ⟨S32x8x512, .f32⟩
  | 86 => ⟨S32x8x512, .f32⟩
  | 87 => ⟨S_, .f32⟩
  | 88 => ⟨S_, .f32⟩
  | 89 => ⟨S_, .f32⟩
  | 90 => ⟨S_, .f32⟩
  | 91 => ⟨S32x8, .f32⟩
  | 92 => ⟨S32x8x1, .f32⟩
  | 93 => ⟨S32x8x1, .f32⟩
  | 94 => ⟨S32x8x1, .f32⟩
  | 95 => ⟨S_, .f32⟩
  | 96 => ⟨S_, .i1⟩
  | 97 => ⟨S_, .f32⟩
  | 98 => ⟨S_, .f32⟩
  | 99 => ⟨S32x8x1, .f32⟩
  | 100 => ⟨S32x8x1, .f32⟩
  | 101 => ⟨S32x8x512, .f32⟩
  | 102 => ⟨S32x8x512, .f32⟩
  | 103 => ⟨S_, .f32⟩
  | 104 => ⟨S32x8x1, .f32⟩
  | 105 => ⟨S32x8x1, .f32⟩
  | 106 => ⟨S32x8x1, .f32⟩
  | 107 => ⟨S32x8x512, .f32⟩
  | 108 => ⟨S32x8x512, .f32⟩
  | 109 => ⟨S1x1x512, .f32⟩
  | 110 => ⟨S32x8x512, .f32⟩
  | 111 => ⟨S32x8x512, .f32⟩
  | 112 => ⟨S1x1x512, .f32⟩
  | 113 => ⟨S32x8x512, .f32⟩
  | 114 => ⟨S32x8x512, .f32⟩
  | 115 => ⟨S32x8x512, .f32⟩
  | 116 => ⟨S32x4096x8, .f32⟩
  | 117 => ⟨S_, .f32⟩
  | 118 => ⟨S32x4096, .f32⟩
  | 119 => ⟨S_, .f32⟩
  | 120 => ⟨S32x4096, .f32⟩
  | 121 => ⟨S32x4096, .f32⟩
  | 122 => ⟨S32x4096x1, .f32⟩
  | 123 => ⟨S32x4096x8, .f32⟩
  | 124 => ⟨S32x4096x8, .f32⟩
  | 125 => ⟨S32x4096x8, .f32⟩
  | 126 => ⟨S_, .f32⟩
  | 127 => ⟨S32x4096, .f32⟩
  | _ => ⟨S32x4096x512, .f32⟩

abbrev hbmTy0_1 (i : Nat) : BufTy := match i % 128 with
  | 0 => ⟨S32x4096x1, .f32⟩
  | 1 => ⟨S32x4096x8, .f32⟩
  | 2 => ⟨S32x4096x8, .f32⟩
  | 3 => ⟨S_, .f32⟩
  | 4 => ⟨S32x4096x8, .f32⟩
  | 5 => ⟨S32x4096x8, .f32⟩
  | 6 => ⟨S_, .f32⟩
  | 7 => ⟨S32x4096, .f32⟩
  | 8 => ⟨S32x4096x1, .f32⟩
  | 9 => ⟨S32x4096x8, .f32⟩
  | 10 => ⟨S32x4096x8, .f32⟩
  | 11 => ⟨S32x8x4096, .f32⟩
  | 12 => ⟨S32x8x512, .f32⟩
  | 13 => ⟨S32x8x1536, .f32⟩
  | 14 => ⟨S1x1x1536, .f32⟩
  | 15 => ⟨S32x8x1536, .f32⟩
  | 16 => ⟨S32x8x1536, .f32⟩
  | 17 => ⟨S32x8x1536, .f32⟩
  | 18 => ⟨S1x1x1536, .f32⟩
  | 19 => ⟨S32x8x1536, .f32⟩
  | 20 => ⟨S32x8x1536, .f32⟩
  | 21 => ⟨S32x8x512, .f32⟩
  | 22 => ⟨S32x8x512, .f32⟩
  | 23 => ⟨S32x8x512, .f32⟩
  | 24 => ⟨S32x8x512, .f32⟩
  | 25 => ⟨S32x8x512, .f32⟩
  | 26 => ⟨S32x8x512, .f32⟩
  | 27 => ⟨S32x8x512, .f32⟩
  | 28 => ⟨S32x8x512, .f32⟩
  | 29 => ⟨S32x8x512, .f32⟩
  | 30 => ⟨S_, .f32⟩
  | 31 => ⟨S32x8x512, .f32⟩
  | 32 => ⟨S32x8x512, .f32⟩
  | 33 => ⟨S_, .f32⟩
  | 34 => ⟨S32x8x512, .f32⟩
  | 35 => ⟨S32x8x512, .f32⟩
  | 36 => ⟨S32x8x512, .f32⟩
  | 37 => ⟨S32x8x512, .f32⟩
  | 38 => ⟨S32x8x512, .f32⟩
  | 39 => ⟨S_, .f32⟩
  | 40 => ⟨S32x8x512, .f32⟩
  | 41 => ⟨S32x8x512, .f32⟩
  | 42 => ⟨S_, .f32⟩
  | 43 => ⟨S32x8x512, .f32⟩
  | 44 => ⟨S32x8x512, .f32⟩
  | 45 => ⟨S32x8x512, .f32⟩
  | 46 => ⟨S32x8x512, .f32⟩
  | 47 => ⟨S32x8x512, .f32⟩
  | 48 => ⟨S_, .f32⟩
  | 49 => ⟨S32x8x512, .f32⟩
  | 50 => ⟨S32x8x512, .f32⟩
  | 51 => ⟨S32x8x512, .f32⟩
  | 52 => ⟨S32x8x512, .f32⟩
  | 53 => ⟨S32x8x512, .f32⟩
  | 54 => ⟨S_, .f32⟩
  | 55 => ⟨S32x8, .f32⟩
  | 56 => ⟨S32x8x1, .f32⟩
  | 57 => ⟨S_, .f32⟩
  | 58 => ⟨S32x8x1, .f32⟩
  | 59 => ⟨S32x8x1, .f32⟩
  | 60 => ⟨S_, .i32⟩
  | 61 => ⟨S_, .f32⟩
  | 62 => ⟨S32x8, .f32⟩
  | 63 => ⟨S32x8x1, .f32⟩
  | 64 => ⟨S_, .f32⟩
  | 65 => ⟨S32x8x1, .f32⟩
  | 66 => ⟨S32x8x1, .f32⟩
  | 67 => ⟨S32x8x512, .f32⟩
  | 68 => ⟨S32x8x512, .f32⟩
  | 69 => ⟨S32x8x512, .f32⟩
  | 70 => ⟨S_, .f32⟩
  | 71 => ⟨S_, .f32⟩
  | 72 => ⟨S_, .f32⟩
  | 73 => ⟨S_, .f32⟩
  | 74 => ⟨S32x8, .f32⟩
  | 75 => ⟨S32x8x1, .f32⟩
  | 76 => ⟨S32x8x1, .f32⟩
  | 77 => ⟨S32x8x1, .f32⟩
  | 78 => ⟨S_, .f32⟩
  | 79 => ⟨S_, .i1⟩
  | 80 => ⟨S_, .f32⟩
  | 81 => ⟨S_, .f32⟩
  | 82 => ⟨S32x8x1, .f32⟩
  | 83 => ⟨S32x8x1, .f32⟩
  | 84 => ⟨S32x8x512, .f32⟩
  | 85 => ⟨S32x8x512, .f32⟩
  | 86 => ⟨S_, .f32⟩
  | 87 => ⟨S32x8x1, .f32⟩
  | 88 => ⟨S32x8x1, .f32⟩
  | 89 => ⟨S32x8x1, .f32⟩
  | 90 => ⟨S32x8x512, .f32⟩
  | 91 => ⟨S32x8x512, .f32⟩
  | 92 => ⟨S1x1x512, .f32⟩
  | 93 => ⟨S32x8x512, .f32⟩
  | 94 => ⟨S32x8x512, .f32⟩
  | 95 => ⟨S1x1x512, .f32⟩
  | 96 => ⟨S32x8x512, .f32⟩
  | 97 => ⟨S32x8x512, .f32⟩
  | 98 => ⟨S32x8x512, .f32⟩
  | 99 => ⟨S1x1x512, .f32⟩
  | 100 => ⟨S32x8x512, .f32⟩
  | 101 => ⟨S32x8x512, .f32⟩
  | 102 => ⟨S_, .f32⟩
  | 103 => ⟨S32x8x512, .f32⟩
  | 104 => ⟨S32x8x512, .f32⟩
  | 105 => ⟨S32x8x512, .f32⟩
  | 106 => ⟨S32x8x512, .f32⟩
  | 107 => ⟨S1x1x512, .f32⟩
  | 108 => ⟨S32x8x512, .f32⟩
  | 109 => ⟨S32x8x512, .f32⟩
  | 110 => ⟨S_, .f32⟩
  | 111 => ⟨S32x8, .f32⟩
  | 112 => ⟨S32x8x1, .f32⟩
  | 113 => ⟨S_, .f32⟩
  | 114 => ⟨S32x8x1, .f32⟩
  | 115 => ⟨S32x8x1, .f32⟩
  | 116 => ⟨S_, .i32⟩
  | 117 => ⟨S_, .f32⟩
  | 118 => ⟨S32x8, .f32⟩
  | 119 => ⟨S32x8x1, .f32⟩
  | 120 => ⟨S_, .f32⟩
  | 121 => ⟨S32x8x1, .f32⟩
  | 122 => ⟨S32x8x1, .f32⟩
  | 123 => ⟨S32x8x512, .f32⟩
  | 124 => ⟨S32x8x512, .f32⟩
  | 125 => ⟨S32x8x512, .f32⟩
  | 126 => ⟨S_, .f32⟩
  | 127 => ⟨S_, .f32⟩
  | _ => ⟨S32x4096x512, .f32⟩

abbrev hbmTy0_2 (i : Nat) : BufTy := match i % 128 with
  | 0 => ⟨S_, .f32⟩
  | 1 => ⟨S_, .f32⟩
  | 2 => ⟨S32x8, .f32⟩
  | 3 => ⟨S32x8x1, .f32⟩
  | 4 => ⟨S32x8x1, .f32⟩
  | 5 => ⟨S32x8x1, .f32⟩
  | 6 => ⟨S_, .f32⟩
  | 7 => ⟨S_, .i1⟩
  | 8 => ⟨S_, .f32⟩
  | 9 => ⟨S_, .f32⟩
  | 10 => ⟨S32x8x1, .f32⟩
  | 11 => ⟨S32x8x1, .f32⟩
  | 12 => ⟨S32x8x512, .f32⟩
  | 13 => ⟨S32x8x512, .f32⟩
  | 14 => ⟨S_, .f32⟩
  | 15 => ⟨S32x8x1, .f32⟩
  | 16 => ⟨S32x8x1, .f32⟩
  | 17 => ⟨S32x8x1, .f32⟩
  | 18 => ⟨S32x8x512, .f32⟩
  | 19 => ⟨S32x8x512, .f32⟩
  | 20 => ⟨S1x1x512, .f32⟩
  | 21 => ⟨S32x8x512, .f32⟩
  | 22 => ⟨S32x8x512, .f32⟩
  | 23 => ⟨S1x1x512, .f32⟩
  | 24 => ⟨S32x8x512, .f32⟩
  | 25 => ⟨S32x8x512, .f32⟩
  | 26 => ⟨S32x8x512, .f32⟩
  | 27 => ⟨S32x4096x8, .f32⟩
  | 28 => ⟨S_, .f32⟩
  | 29 => ⟨S32x4096, .f32⟩
  | 30 => ⟨S_, .f32⟩
  | 31 => ⟨S32x4096, .f32⟩
  | 32 => ⟨S32x4096, .f32⟩
  | 33 => ⟨S32x4096x1, .f32⟩
  | 34 => ⟨S32x4096x8, .f32⟩
  | 35 => ⟨S32x4096x8, .f32⟩
  | 36 => ⟨S32x4096x8, .f32⟩
  | 37 => ⟨S_, .f32⟩
  | 38 => ⟨S32x4096, .f32⟩
  | 39 => ⟨S32x4096x1, .f32⟩
  | 40 => ⟨S32x4096x8, .f32⟩
  | 41 => ⟨S32x4096x8, .f32⟩
  | 42 => ⟨S_, .f32⟩
  | 43 => ⟨S32x4096x8, .f32⟩
  | 44 => ⟨S32x4096x8, .f32⟩
  | 45 => ⟨S_, .f32⟩
  | 46 => ⟨S32x4096, .f32⟩
  | 47 => ⟨S32x4096x1, .f32⟩
  | 48 => ⟨S32x4096x8, .f32⟩
  | 49 => ⟨S32x4096x8, .f32⟩
  | 50 => ⟨S32x8x4096, .f32⟩
  | 51 => ⟨S32x8x512, .f32⟩
  | 52 => ⟨S32x8x1536, .f32⟩
  | 53 => ⟨S1x1x1536, .f32⟩
  | 54 => ⟨S32x8x1536, .f32⟩
  | 55 => ⟨S32x8x1536, .f32⟩
  | 56 => ⟨S32x8x1536, .f32⟩
  | 57 => ⟨S1x1x1536, .f32⟩
  | 58 => ⟨S32x8x1536, .f32⟩
  | 59 => ⟨S32x8x1536, .f32⟩
  | 60 => ⟨S32x8x512, .f32⟩
  | 61 => ⟨S32x8x512, .f32⟩
  | 62 => ⟨S32x8x512, .f32⟩
  | 63 => ⟨S32x8x512, .f32⟩
  | 64 => ⟨S32x8x512, .f32⟩
  | 65 => ⟨S32x8x512, .f32⟩
  | 66 => ⟨S32x8x512, .f32⟩
  | 67 => ⟨S32x8x512, .f32⟩
  | 68 => ⟨S32x8x512, .f32⟩
  | 69 => ⟨S_, .f32⟩
  | 70 => ⟨S32x8x512, .f32⟩
  | 71 => ⟨S32x8x512, .f32⟩
  | 72 => ⟨S_, .f32⟩
  | 73 => ⟨S32x8x512, .f32⟩
  | 74 => ⟨S32x8x512, .f32⟩
  | 75 => ⟨S32x8x512, .f32⟩
  | 76 => ⟨S32x8x512, .f32⟩
  | 77 => ⟨S32x8x512, .f32⟩
  | 78 => ⟨S_, .f32⟩
  | 79 => ⟨S32x8x512, .f32⟩
  | 80 => ⟨S32x8x512, .f32⟩
  | 81 => ⟨S_, .f32⟩
  | 82 => ⟨S32x8x512, .f32⟩
  | 83 => ⟨S32x8x512, .f32⟩
  | 84 => ⟨S32x8x512, .f32⟩
  | 85 => ⟨S32x8x512, .f32⟩
  | 86 => ⟨S32x8x512, .f32⟩
  | 87 => ⟨S_, .f32⟩
  | 88 => ⟨S32x8x512, .f32⟩
  | 89 => ⟨S32x8x512, .f32⟩
  | 90 => ⟨S32x8x512, .f32⟩
  | 91 => ⟨S32x8x512, .f32⟩
  | 92 => ⟨S32x8x512, .f32⟩
  | 93 => ⟨S_, .f32⟩
  | 94 => ⟨S32x8, .f32⟩
  | 95 => ⟨S32x8x1, .f32⟩
  | 96 => ⟨S_, .f32⟩
  | 97 => ⟨S32x8x1, .f32⟩
  | 98 => ⟨S32x8x1, .f32⟩
  | 99 => ⟨S_, .i32⟩
  | 100 => ⟨S_, .f32⟩
  | 101 => ⟨S32x8, .f32⟩
  | 102 => ⟨S32x8x1, .f32⟩
  | 103 => ⟨S_, .f32⟩
  | 104 => ⟨S32x8x1, .f32⟩
  | 105 => ⟨S32x8x1, .f32⟩
  | 106 => ⟨S32x8x512, .f32⟩
  | 107 => ⟨S32x8x512, .f32⟩
  | 108 => ⟨S32x8x512, .f32⟩
  | 109 => ⟨S_, .f32⟩
  | 110 => ⟨S_, .f32⟩
  | 111 => ⟨S_, .f32⟩
  | 112 => ⟨S_, .f32⟩
  | 113 => ⟨S32x8, .f32⟩
  | 114 => ⟨S32x8x1, .f32⟩
  | 115 => ⟨S32x8x1, .f32⟩
  | 116 => ⟨S32x8x1, .f32⟩
  | 117 => ⟨S_, .f32⟩
  | 118 => ⟨S_, .i1⟩
  | 119 => ⟨S_, .f32⟩
  | 120 => ⟨S_, .f32⟩
  | 121 => ⟨S32x8x1, .f32⟩
  | 122 => ⟨S32x8x1, .f32⟩
  | 123 => ⟨S32x8x512, .f32⟩
  | 124 => ⟨S32x8x512, .f32⟩
  | 125 => ⟨S_, .f32⟩
  | 126 => ⟨S32x8x1, .f32⟩
  | 127 => ⟨S32x8x1, .f32⟩
  | _ => ⟨S32x4096x512, .f32⟩

abbrev hbmTy0_3 (i : Nat) : BufTy := match i % 128 with
  | 0 => ⟨S32x8x1, .f32⟩
  | 1 => ⟨S32x8x512, .f32⟩
  | 2 => ⟨S32x8x512, .f32⟩
  | 3 => ⟨S1x1x512, .f32⟩
  | 4 => ⟨S32x8x512, .f32⟩
  | 5 => ⟨S32x8x512, .f32⟩
  | 6 => ⟨S1x1x512, .f32⟩
  | 7 => ⟨S32x8x512, .f32⟩
  | 8 => ⟨S32x8x512, .f32⟩
  | 9 => ⟨S32x8x512, .f32⟩
  | 10 => ⟨S1x1x512, .f32⟩
  | 11 => ⟨S32x8x512, .f32⟩
  | 12 => ⟨S32x8x512, .f32⟩
  | 13 => ⟨S_, .f32⟩
  | 14 => ⟨S32x8x512, .f32⟩
  | 15 => ⟨S32x8x512, .f32⟩
  | 16 => ⟨S32x8x512, .f32⟩
  | 17 => ⟨S32x8x512, .f32⟩
  | 18 => ⟨S1x1x512, .f32⟩
  | 19 => ⟨S32x8x512, .f32⟩
  | 20 => ⟨S32x8x512, .f32⟩
  | 21 => ⟨S_, .f32⟩
  | 22 => ⟨S32x8, .f32⟩
  | 23 => ⟨S32x8x1, .f32⟩
  | 24 => ⟨S_, .f32⟩
  | 25 => ⟨S32x8x1, .f32⟩
  | 26 => ⟨S32x8x1, .f32⟩
  | 27 => ⟨S_, .i32⟩
  | 28 => ⟨S_, .f32⟩
  | 29 => ⟨S32x8, .f32⟩
  | 30 => ⟨S32x8x1, .f32⟩
  | 31 => ⟨S_, .f32⟩
  | 32 => ⟨S32x8x1, .f32⟩
  | 33 => ⟨S32x8x1, .f32⟩
  | 34 => ⟨S32x8x512, .f32⟩
  | 35 => ⟨S32x8x512, .f32⟩
  | 36 => ⟨S32x8x512, .f32⟩
  | 37 => ⟨S_, .f32⟩
  | 38 => ⟨S_, .f32⟩
  | 39 => ⟨S_, .f32⟩
  | 40 => ⟨S_, .f32⟩
  | 41 => ⟨S32x8, .f32⟩
  | 42 => ⟨S32x8x1, .f32⟩
  | 43 => ⟨S32x8x1, .f32⟩
  | 44 => ⟨S32x8x1, .f32⟩
  | 45 => ⟨S_, .f32⟩
  | 46 => ⟨S_, .i1⟩
  | 47 => ⟨S_, .f32⟩
  | 48 => ⟨S_, .f32⟩
  | 49 => ⟨S32x8x1, .f32⟩
  | 50 => ⟨S32x8x1, .f32⟩
  | 51 => ⟨S32x8x512, .f32⟩
  | 52 => ⟨S32x8x512, .f32⟩
  | 53 => ⟨S_, .f32⟩
  | 54 => ⟨S32x8x1, .f32⟩
  | 55 => ⟨S32x8x1, .f32⟩
  | 56 => ⟨S32x8x1, .f32⟩
  | 57 => ⟨S32x8x512, .f32⟩
  | 58 => ⟨S32x8x512, .f32⟩
  | 59 => ⟨S1x1x512, .f32⟩
  | 60 => ⟨S32x8x512, .f32⟩
  | 61 => ⟨S32x8x512, .f32⟩
  | 62 => ⟨S1x1x512, .f32⟩
  | 63 => ⟨S32x8x512, .f32⟩
  | 64 => ⟨S32x8x512, .f32⟩
  | 65 => ⟨S32x8x512, .f32⟩
  | 66 => ⟨S32x4096x8, .f32⟩
  | 67 => ⟨S_, .f32⟩
  | 68 => ⟨S32x4096, .f32⟩
  | 69 => ⟨S_, .f32⟩
  | 70 => ⟨S32x4096, .f32⟩
  | 71 => ⟨S32x4096, .f32⟩
  | 72 => ⟨S32x4096x1, .f32⟩
  | 73 => ⟨S32x4096x8, .f32⟩
  | 74 => ⟨S32x4096x8, .f32⟩
  | 75 => ⟨S32x4096x8, .f32⟩
  | 76 => ⟨S_, .f32⟩
  | 77 => ⟨S32x4096, .f32⟩
  | 78 => ⟨S32x4096x1, .f32⟩
  | 79 => ⟨S32x4096x8, .f32⟩
  | 80 => ⟨S32x4096x8, .f32⟩
  | 81 => ⟨S_, .f32⟩
  | 82 => ⟨S32x4096x8, .f32⟩
  | 83 => ⟨S32x4096x8, .f32⟩
  | 84 => ⟨S_, .f32⟩
  | 85 => ⟨S32x4096, .f32⟩
  | 86 => ⟨S32x4096x1, .f32⟩
  | 87 => ⟨S32x4096x8, .f32⟩
  | 88 => ⟨S32x4096x8, .f32⟩
  | 89 => ⟨S32x8x4096, .f32⟩
  | 90 => ⟨S32x8x512, .f32⟩
  | 91 => ⟨S32x8x1536, .f32⟩
  | 92 => ⟨S1x1x1536, .f32⟩
  | 93 => ⟨S32x8x1536, .f32⟩
  | 94 => ⟨S32x8x1536, .f32⟩
  | 95 => ⟨S32x8x1536, .f32⟩
  | 96 => ⟨S1x1x1536, .f32⟩
  | 97 => ⟨S32x8x1536, .f32⟩
  | 98 => ⟨S32x8x1536, .f32⟩
  | 99 => ⟨S32x8x512, .f32⟩
  | 100 => ⟨S32x8x512, .f32⟩
  | 101 => ⟨S32x8x512, .f32⟩
  | 102 => ⟨S32x8x512, .f32⟩
  | 103 => ⟨S32x8x512, .f32⟩
  | 104 => ⟨S32x8x512, .f32⟩
  | 105 => ⟨S32x8x512, .f32⟩
  | 106 => ⟨S32x8x512, .f32⟩
  | 107 => ⟨S32x8x512, .f32⟩
  | 108 => ⟨S_, .f32⟩
  | 109 => ⟨S32x8x512, .f32⟩
  | 110 => ⟨S32x8x512, .f32⟩
  | 111 => ⟨S_, .f32⟩
  | 112 => ⟨S32x8x512, .f32⟩
  | 113 => ⟨S32x8x512, .f32⟩
  | 114 => ⟨S32x8x512, .f32⟩
  | 115 => ⟨S32x8x512, .f32⟩
  | 116 => ⟨S32x8x512, .f32⟩
  | 117 => ⟨S_, .f32⟩
  | 118 => ⟨S32x8x512, .f32⟩
  | 119 => ⟨S32x8x512, .f32⟩
  | 120 => ⟨S_, .f32⟩
  | 121 => ⟨S32x8x512, .f32⟩
  | 122 => ⟨S32x8x512, .f32⟩
  | 123 => ⟨S32x8x512, .f32⟩
  | 124 => ⟨S32x8x512, .f32⟩
  | 125 => ⟨S32x8x512, .f32⟩
  | 126 => ⟨S_, .f32⟩
  | 127 => ⟨S32x8x512, .f32⟩
  | _ => ⟨S32x4096x512, .f32⟩

abbrev hbmTy0_4 (i : Nat) : BufTy := match i % 128 with
  | 0 => ⟨S32x8x512, .f32⟩
  | 1 => ⟨S32x8x512, .f32⟩
  | 2 => ⟨S32x8x512, .f32⟩
  | 3 => ⟨S32x8x512, .f32⟩
  | 4 => ⟨S_, .f32⟩
  | 5 => ⟨S32x8, .f32⟩
  | 6 => ⟨S32x8x1, .f32⟩
  | 7 => ⟨S_, .f32⟩
  | 8 => ⟨S32x8x1, .f32⟩
  | 9 => ⟨S32x8x1, .f32⟩
  | 10 => ⟨S_, .i32⟩
  | 11 => ⟨S_, .f32⟩
  | 12 => ⟨S32x8, .f32⟩
  | 13 => ⟨S32x8x1, .f32⟩
  | 14 => ⟨S_, .f32⟩
  | 15 => ⟨S32x8x1, .f32⟩
  | 16 => ⟨S32x8x1, .f32⟩
  | 17 => ⟨S32x8x512, .f32⟩
  | 18 => ⟨S32x8x512, .f32⟩
  | 19 => ⟨S32x8x512, .f32⟩
  | 20 => ⟨S_, .f32⟩
  | 21 => ⟨S_, .f32⟩
  | 22 => ⟨S_, .f32⟩
  | 23 => ⟨S_, .f32⟩
  | 24 => ⟨S32x8, .f32⟩
  | 25 => ⟨S32x8x1, .f32⟩
  | 26 => ⟨S32x8x1, .f32⟩
  | 27 => ⟨S32x8x1, .f32⟩
  | 28 => ⟨S_, .f32⟩
  | 29 => ⟨S_, .i1⟩
  | 30 => ⟨S_, .f32⟩
  | 31 => ⟨S_, .f32⟩
  | 32 => ⟨S32x8x1, .f32⟩
  | 33 => ⟨S32x8x1, .f32⟩
  | 34 => ⟨S32x8x512, .f32⟩
  | 35 => ⟨S32x8x512, .f32⟩
  | 36 => ⟨S_, .f32⟩
  | 37 => ⟨S32x8x1, .f32⟩
  | 38 => ⟨S32x8x1, .f32⟩
  | 39 => ⟨S32x8x1, .f32⟩
  | 40 => ⟨S32x8x512, .f32⟩
  | 41 => ⟨S32x8x512, .f32⟩
  | 42 => ⟨S1x1x512, .f32⟩
  | 43 => ⟨S32x8x512, .f32⟩
  | 44 => ⟨S32x8x512, .f32⟩
  | 45 => ⟨S1x1x512, .f32⟩
  | 46 => ⟨S32x8x512, .f32⟩
  | 47 => ⟨S32x8x512, .f32⟩
  | 48 => ⟨S32x8x512, .f32⟩
  | 49 => ⟨S1x1x512, .f32⟩
  | 50 => ⟨S32x8x512, .f32⟩
  | 51 => ⟨S32x8x512, .f32⟩
  | 52 => ⟨S_, .f32⟩
  | 53 => ⟨S32x8x512, .f32⟩
  | 54 => ⟨S32x8x512, .f32⟩
  | 55 => ⟨S32x8x512, .f32⟩
  | 56 => ⟨S32x8x512, .f32⟩
  | 57 => ⟨S1x1x512, .f32⟩
  | 58 => ⟨S32x8x512, .f32⟩
  | 59 => ⟨S32x8x512, .f32⟩
  | _ => ⟨S32x4096x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S32x4096x512, .f32⟩

abbrev bufTy : (tb : Table) → Fin (tcTables nBuf tb) → BufTy
  | .hbm, ⟨i, _⟩ => hbmTy i
  | _, _ => ⟨S32x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_cst : Ref sig .tc := ⟨.hbm, 25, rfl⟩
abbrev main_v4 : Ref sig .tc := ⟨.hbm, 26, rfl⟩
abbrev main_v5 : Ref sig .tc := ⟨.hbm, 27, rfl⟩
abbrev main_cst_0 : Ref sig .tc := ⟨.hbm, 28, rfl⟩
abbrev main_v6 : Ref sig .tc := ⟨.hbm, 29, rfl⟩
abbrev main_v7 : Ref sig .tc := ⟨.hbm, 30, rfl⟩
abbrev main_c : Ref sig .tc := ⟨.hbm, 31, rfl⟩
abbrev main_call0_cst : Ref sig .tc := ⟨.hbm, 32, rfl⟩
abbrev main_call0_v0 : Ref sig .tc := ⟨.hbm, 33, rfl⟩
abbrev main_call0_v1 : Ref sig .tc := ⟨.hbm, 34, rfl⟩
abbrev main_call0_cst_0 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_call0_v5 : Ref sig .tc := ⟨.hbm, 39, rfl⟩
abbrev main_call0_v6 : Ref sig .tc := ⟨.hbm, 40, rfl⟩
abbrev main_call0_v7 : Ref sig .tc := ⟨.hbm, 41, rfl⟩
abbrev main_call0_cst_1 : Ref sig .tc := ⟨.hbm, 42, rfl⟩
abbrev main_call0_v8 : Ref sig .tc := ⟨.hbm, 43, rfl⟩
abbrev main_call0_cst_2 : Ref sig .tc := ⟨.hbm, 44, rfl⟩
abbrev main_call0_v9 : Ref sig .tc := ⟨.hbm, 45, rfl⟩
abbrev main_call0_v10 : Ref sig .tc := ⟨.hbm, 46, rfl⟩
abbrev main_call0_v11 : Ref sig .tc := ⟨.hbm, 47, rfl⟩
abbrev main_call0_v12 : Ref sig .tc := ⟨.hbm, 48, rfl⟩
abbrev main_call0_cst_3 : Ref sig .tc := ⟨.hbm, 49, rfl⟩
abbrev main_call0_v13 : Ref sig .tc := ⟨.hbm, 50, rfl⟩
abbrev main_call0_cst_4 : Ref sig .tc := ⟨.hbm, 51, rfl⟩
abbrev main_call0_call0_v0 : Ref sig .tc := ⟨.hbm, 52, rfl⟩
abbrev main_call0_call0_v1 : Ref sig .tc := ⟨.hbm, 53, rfl⟩
abbrev main_v8 : Ref sig .tc := ⟨.hbm, 54, rfl⟩
abbrev main_v9 : Ref sig .tc := ⟨.hbm, 55, rfl⟩
abbrev main_v10 : Ref sig .tc := ⟨.hbm, 56, rfl⟩
abbrev main_cst_1 : Ref sig .tc := ⟨.hbm, 57, rfl⟩
abbrev main_v11 : Ref sig .tc := ⟨.hbm, 58, rfl⟩
abbrev main_v12 : Ref sig .tc := ⟨.hbm, 59, rfl⟩
abbrev main_v13 : Ref sig .tc := ⟨.hbm, 60, rfl⟩
abbrev main_v14 : Ref sig .tc := ⟨.hbm, 61, rfl⟩
abbrev main_v15 : Ref sig .tc := ⟨.hbm, 62, rfl⟩
abbrev main_v16 : Ref sig .tc := ⟨.hbm, 63, rfl⟩
abbrev main_v17 : Ref sig .tc := ⟨.hbm, 64, rfl⟩
abbrev main_v18 : Ref sig .tc := ⟨.hbm, 65, rfl⟩
abbrev main_v19 : Ref sig .tc := ⟨.hbm, 66, rfl⟩
abbrev main_v20 : Ref sig .tc := ⟨.hbm, 67, rfl⟩
abbrev main_v21 : Ref sig .tc := ⟨.hbm, 68, rfl⟩
abbrev main_v22 : Ref sig .tc := ⟨.hbm, 69, rfl⟩
abbrev main_v23 : Ref sig .tc := ⟨.hbm, 70, rfl⟩
abbrev main_cst_2 : Ref sig .tc := ⟨.hbm, 71, rfl⟩
abbrev main_v24 : Ref sig .tc := ⟨.hbm, 72, rfl⟩
abbrev main_v25 : Ref sig .tc := ⟨.hbm, 73, rfl⟩
abbrev main_cst_3 : Ref sig .tc := ⟨.hbm, 74, rfl⟩
abbrev main_v26 : Ref sig .tc := ⟨.hbm, 75, rfl⟩
abbrev main_v27 : Ref sig .tc := ⟨.hbm, 76, rfl⟩
abbrev main_c_4 : Ref sig .tc := ⟨.hbm, 77, rfl⟩
abbrev main_call1_cst : Ref sig .tc := ⟨.hbm, 78, rfl⟩
abbrev main_call1_v0 : Ref sig .tc := ⟨.hbm, 79, rfl⟩
abbrev main_call1_v1 : Ref sig .tc := ⟨.hbm, 80, rfl⟩
abbrev main_call1_cst_0 : Ref sig .tc := ⟨.hbm, 81, rfl⟩
abbrev main_call1_v2 : Ref sig .tc := ⟨.hbm, 82, rfl⟩
abbrev main_call1_v3 : Ref sig .tc := ⟨.hbm, 83, rfl⟩
abbrev main_call1_v4 : Ref sig .tc := ⟨.hbm, 84, rfl⟩
abbrev main_call1_v5 : Ref sig .tc := ⟨.hbm, 85, rfl⟩
abbrev main_call1_v6 : Ref sig .tc := ⟨.hbm, 86, rfl⟩
abbrev main_call1_v7 : Ref sig .tc := ⟨.hbm, 87, rfl⟩
abbrev main_call1_cst_1 : Ref sig .tc := ⟨.hbm, 88, rfl⟩
abbrev main_call1_v8 : Ref sig .tc := ⟨.hbm, 89, rfl⟩
abbrev main_call1_cst_2 : Ref sig .tc := ⟨.hbm, 90, rfl⟩
abbrev main_call1_v9 : Ref sig .tc := ⟨.hbm, 91, rfl⟩
abbrev main_call1_v10 : Ref sig .tc := ⟨.hbm, 92, rfl⟩
abbrev main_call1_v11 : Ref sig .tc := ⟨.hbm, 93, rfl⟩
abbrev main_call1_v12 : Ref sig .tc := ⟨.hbm, 94, rfl⟩
abbrev main_call1_cst_3 : Ref sig .tc := ⟨.hbm, 95, rfl⟩
abbrev main_call1_v13 : Ref sig .tc := ⟨.hbm, 96, rfl⟩
abbrev main_call1_cst_4 : Ref sig .tc := ⟨.hbm, 97, rfl⟩
abbrev main_call1_call0_v0 : Ref sig .tc := ⟨.hbm, 98, rfl⟩
abbrev main_call1_call0_v1 : Ref sig .tc := ⟨.hbm, 99, rfl⟩
abbrev main_v28 : Ref sig .tc := ⟨.hbm, 100, rfl⟩
abbrev main_v29 : Ref sig .tc := ⟨.hbm, 101, rfl⟩
abbrev main_v30 : Ref sig .tc := ⟨.hbm, 102, rfl⟩
abbrev main_cst_5 : Ref sig .tc := ⟨.hbm, 103, rfl⟩
abbrev main_v31 : Ref sig .tc := ⟨.hbm, 104, rfl⟩
abbrev main_v32 : Ref sig .tc := ⟨.hbm, 105, rfl⟩
abbrev main_v33 : Ref sig .tc := ⟨.hbm, 106, rfl⟩
abbrev main_v34 : Ref sig .tc := ⟨.hbm, 107, rfl⟩
abbrev main_v35 : Ref sig .tc := ⟨.hbm, 108, rfl⟩
abbrev main_v36 : Ref sig .tc := ⟨.hbm, 109, rfl⟩
abbrev main_v37 : Ref sig .tc := ⟨.hbm, 110, rfl⟩
abbrev main_v38 : Ref sig .tc := ⟨.hbm, 111, rfl⟩
abbrev main_v39 : Ref sig .tc := ⟨.hbm, 112, rfl⟩
abbrev main_v40 : Ref sig .tc := ⟨.hbm, 113, rfl⟩
abbrev main_v41 : Ref sig .tc := ⟨.hbm, 114, rfl⟩
abbrev main_v42 : Ref sig .tc := ⟨.hbm, 115, rfl⟩
abbrev main_v43 : Ref sig .tc := ⟨.hbm, 116, rfl⟩
abbrev main_cst_6 : Ref sig .tc := ⟨.hbm, 117, rfl⟩
abbrev main_v44 : Ref sig .tc := ⟨.hbm, 118, rfl⟩
abbrev main_cst_7 : Ref sig .tc := ⟨.hbm, 119, rfl⟩
abbrev main_v45 : Ref sig .tc := ⟨.hbm, 120, rfl⟩
abbrev main_v46 : Ref sig .tc := ⟨.hbm, 121, rfl⟩
abbrev main_v47 : Ref sig .tc := ⟨.hbm, 122, rfl⟩
abbrev main_v48 : Ref sig .tc := ⟨.hbm, 123, rfl⟩
abbrev main_v49 : Ref sig .tc := ⟨.hbm, 124, rfl⟩
abbrev main_v50 : Ref sig .tc := ⟨.hbm, 125, rfl⟩
abbrev main_cst_8 : Ref sig .tc := ⟨.hbm, 126, rfl⟩
abbrev main_v51 : Ref sig .tc := ⟨.hbm, 127, rfl⟩
abbrev main_v52 : Ref sig .tc := ⟨.hbm, 128, rfl⟩
abbrev main_v53 : Ref sig .tc := ⟨.hbm, 129, rfl⟩
abbrev main_v54 : Ref sig .tc := ⟨.hbm, 130, rfl⟩
abbrev main_cst_9 : Ref sig .tc := ⟨.hbm, 131, rfl⟩
abbrev main_v55 : Ref sig .tc := ⟨.hbm, 132, rfl⟩
abbrev main_v56 : Ref sig .tc := ⟨.hbm, 133, rfl⟩
abbrev main_cst_10 : Ref sig .tc := ⟨.hbm, 134, rfl⟩
abbrev main_v57 : Ref sig .tc := ⟨.hbm, 135, rfl⟩
abbrev main_v58 : Ref sig .tc := ⟨.hbm, 136, rfl⟩
abbrev main_v59 : Ref sig .tc := ⟨.hbm, 137, rfl⟩
abbrev main_v60 : Ref sig .tc := ⟨.hbm, 138, rfl⟩
abbrev main_v61 : Ref sig .tc := ⟨.hbm, 139, rfl⟩
abbrev main_v62 : Ref sig .tc := ⟨.hbm, 140, rfl⟩
abbrev main_v63 : Ref sig .tc := ⟨.hbm, 141, rfl⟩
abbrev main_v64 : Ref sig .tc := ⟨.hbm, 142, rfl⟩
abbrev main_v65 : Ref sig .tc := ⟨.hbm, 143, rfl⟩
abbrev main_v66 : Ref sig .tc := ⟨.hbm, 144, rfl⟩
abbrev main_v67 : Ref sig .tc := ⟨.hbm, 145, rfl⟩
abbrev main_v68 : Ref sig .tc := ⟨.hbm, 146, rfl⟩
abbrev main_v69 : Ref sig .tc := ⟨.hbm, 147, rfl⟩
abbrev main_v70 : Ref sig .tc := ⟨.hbm, 148, rfl⟩
abbrev main_v71 : Ref sig .tc := ⟨.hbm, 149, rfl⟩
abbrev main_v72 : Ref sig .tc := ⟨.hbm, 150, rfl⟩
abbrev main_v73 : Ref sig .tc := ⟨.hbm, 151, rfl⟩
abbrev main_v74 : Ref sig .tc := ⟨.hbm, 152, rfl⟩
abbrev main_v75 : Ref sig .tc := ⟨.hbm, 153, rfl⟩
abbrev main_v76 : Ref sig .tc := ⟨.hbm, 154, rfl⟩
abbrev main_v77 : Ref sig .tc := ⟨.hbm, 155, rfl⟩
abbrev main_v78 : Ref sig .tc := ⟨.hbm, 156, rfl⟩
abbrev main_v79 : Ref sig .tc := ⟨.hbm, 157, rfl⟩
abbrev main_cst_11 : Ref sig .tc := ⟨.hbm, 158, rfl⟩
abbrev main_v80 : Ref sig .tc := ⟨.hbm, 159, rfl⟩
abbrev main_v81 : Ref sig .tc := ⟨.hbm, 160, rfl⟩
abbrev main_cst_12 : Ref sig .tc := ⟨.hbm, 161, rfl⟩
abbrev main_v82 : Ref sig .tc := ⟨.hbm, 162, rfl⟩
abbrev main_v83 : Ref sig .tc := ⟨.hbm, 163, rfl⟩
abbrev main_v84 : Ref sig .tc := ⟨.hbm, 164, rfl⟩
abbrev main_v85 : Ref sig .tc := ⟨.hbm, 165, rfl⟩
abbrev main_v86 : Ref sig .tc := ⟨.hbm, 166, rfl⟩
abbrev main_cst_13 : Ref sig .tc := ⟨.hbm, 167, rfl⟩
abbrev main_v87 : Ref sig .tc := ⟨.hbm, 168, rfl⟩
abbrev main_v88 : Ref sig .tc := ⟨.hbm, 169, rfl⟩
abbrev main_cst_14 : Ref sig .tc := ⟨.hbm, 170, rfl⟩
abbrev main_v89 : Ref sig .tc := ⟨.hbm, 171, rfl⟩
abbrev main_v90 : Ref sig .tc := ⟨.hbm, 172, rfl⟩
abbrev main_v91 : Ref sig .tc := ⟨.hbm, 173, rfl⟩
abbrev main_v92 : Ref sig .tc := ⟨.hbm, 174, rfl⟩
abbrev main_v93 : Ref sig .tc := ⟨.hbm, 175, rfl⟩
abbrev main_cst_15 : Ref sig .tc := ⟨.hbm, 176, rfl⟩
abbrev main_v94 : Ref sig .tc := ⟨.hbm, 177, rfl⟩
abbrev main_v95 : Ref sig .tc := ⟨.hbm, 178, rfl⟩
abbrev main_v96 : Ref sig .tc := ⟨.hbm, 179, rfl⟩
abbrev main_v97 : Ref sig .tc := ⟨.hbm, 180, rfl⟩
abbrev main_v98 : Ref sig .tc := ⟨.hbm, 181, rfl⟩
abbrev main_cst_16 : Ref sig .tc := ⟨.hbm, 182, rfl⟩
abbrev main_v99 : Ref sig .tc := ⟨.hbm, 183, rfl⟩
abbrev main_v100 : Ref sig .tc := ⟨.hbm, 184, rfl⟩
abbrev main_cst_17 : Ref sig .tc := ⟨.hbm, 185, rfl⟩
abbrev main_v101 : Ref sig .tc := ⟨.hbm, 186, rfl⟩
abbrev main_v102 : Ref sig .tc := ⟨.hbm, 187, rfl⟩
abbrev main_c_18 : Ref sig .tc := ⟨.hbm, 188, rfl⟩
abbrev main_call2_cst : Ref sig .tc := ⟨.hbm, 189, rfl⟩
abbrev main_call2_v0 : Ref sig .tc := ⟨.hbm, 190, rfl⟩
abbrev main_call2_v1 : Ref sig .tc := ⟨.hbm, 191, rfl⟩
abbrev main_call2_cst_0 : Ref sig .tc := ⟨.hbm, 192, rfl⟩
abbrev main_call2_v2 : Ref sig .tc := ⟨.hbm, 193, rfl⟩
abbrev main_call2_v3 : Ref sig .tc := ⟨.hbm, 194, rfl⟩
abbrev main_call2_v4 : Ref sig .tc := ⟨.hbm, 195, rfl⟩
abbrev main_call2_v5 : Ref sig .tc := ⟨.hbm, 196, rfl⟩
abbrev main_call2_v6 : Ref sig .tc := ⟨.hbm, 197, rfl⟩
abbrev main_call2_v7 : Ref sig .tc := ⟨.hbm, 198, rfl⟩
abbrev main_call2_cst_1 : Ref sig .tc := ⟨.hbm, 199, rfl⟩
abbrev main_call2_v8 : Ref sig .tc := ⟨.hbm, 200, rfl⟩
abbrev main_call2_cst_2 : Ref sig .tc := ⟨.hbm, 201, rfl⟩
abbrev main_call2_v9 : Ref sig .tc := ⟨.hbm, 202, rfl⟩
abbrev main_call2_v10 : Ref sig .tc := ⟨.hbm, 203, rfl⟩
abbrev main_call2_v11 : Ref sig .tc := ⟨.hbm, 204, rfl⟩
abbrev main_call2_v12 : Ref sig .tc := ⟨.hbm, 205, rfl⟩
abbrev main_call2_cst_3 : Ref sig .tc := ⟨.hbm, 206, rfl⟩
abbrev main_call2_v13 : Ref sig .tc := ⟨.hbm, 207, rfl⟩
abbrev main_call2_cst_4 : Ref sig .tc := ⟨.hbm, 208, rfl⟩
abbrev main_call2_call0_v0 : Ref sig .tc := ⟨.hbm, 209, rfl⟩
abbrev main_call2_call0_v1 : Ref sig .tc := ⟨.hbm, 210, rfl⟩
abbrev main_v103 : Ref sig .tc := ⟨.hbm, 211, rfl⟩
abbrev main_v104 : Ref sig .tc := ⟨.hbm, 212, rfl⟩
abbrev main_v105 : Ref sig .tc := ⟨.hbm, 213, rfl⟩
abbrev main_cst_19 : Ref sig .tc := ⟨.hbm, 214, rfl⟩
abbrev main_v106 : Ref sig .tc := ⟨.hbm, 215, rfl⟩
abbrev main_v107 : Ref sig .tc := ⟨.hbm, 216, rfl⟩
abbrev main_v108 : Ref sig .tc := ⟨.hbm, 217, rfl⟩
abbrev main_v109 : Ref sig .tc := ⟨.hbm, 218, rfl⟩
abbrev main_v110 : Ref sig .tc := ⟨.hbm, 219, rfl⟩
abbrev main_v111 : Ref sig .tc := ⟨.hbm, 220, rfl⟩
abbrev main_v112 : Ref sig .tc := ⟨.hbm, 221, rfl⟩
abbrev main_v113 : Ref sig .tc := ⟨.hbm, 222, rfl⟩
abbrev main_v114 : Ref sig .tc := ⟨.hbm, 223, rfl⟩
abbrev main_v115 : Ref sig .tc := ⟨.hbm, 224, rfl⟩
abbrev main_v116 : Ref sig .tc := ⟨.hbm, 225, rfl⟩
abbrev main_v117 : Ref sig .tc := ⟨.hbm, 226, rfl⟩
abbrev main_v118 : Ref sig .tc := ⟨.hbm, 227, rfl⟩
abbrev main_v119 : Ref sig .tc := ⟨.hbm, 228, rfl⟩
abbrev main_v120 : Ref sig .tc := ⟨.hbm, 229, rfl⟩
abbrev main_call3_cst : Ref sig .tc := ⟨.hbm, 230, rfl⟩
abbrev main_call3_v0 : Ref sig .tc := ⟨.hbm, 231, rfl⟩
abbrev main_v121 : Ref sig .tc := ⟨.hbm, 232, rfl⟩
abbrev main_v122 : Ref sig .tc := ⟨.hbm, 233, rfl⟩
abbrev main_v123 : Ref sig .tc := ⟨.hbm, 234, rfl⟩
abbrev main_v124 : Ref sig .tc := ⟨.hbm, 235, rfl⟩
abbrev main_v125 : Ref sig .tc := ⟨.hbm, 236, rfl⟩
abbrev main_v126 : Ref sig .tc := ⟨.hbm, 237, rfl⟩
abbrev main_cst_20 : Ref sig .tc := ⟨.hbm, 238, rfl⟩
abbrev main_v127 : Ref sig .tc := ⟨.hbm, 239, rfl⟩
abbrev main_v128 : Ref sig .tc := ⟨.hbm, 240, rfl⟩
abbrev main_cst_21 : Ref sig .tc := ⟨.hbm, 241, rfl⟩
abbrev main_v129 : Ref sig .tc := ⟨.hbm, 242, rfl⟩
abbrev main_v130 : Ref sig .tc := ⟨.hbm, 243, rfl⟩
abbrev main_c_22 : Ref sig .tc := ⟨.hbm, 244, rfl⟩
abbrev main_call4_cst : Ref sig .tc := ⟨.hbm, 245, rfl⟩
abbrev main_call4_v0 : Ref sig .tc := ⟨.hbm, 246, rfl⟩
abbrev main_call4_v1 : Ref sig .tc := ⟨.hbm, 247, rfl⟩
abbrev main_call4_cst_0 : Ref sig .tc := ⟨.hbm, 248, rfl⟩
abbrev main_call4_v2 : Ref sig .tc := ⟨.hbm, 249, rfl⟩
abbrev main_call4_v3 : Ref sig .tc := ⟨.hbm, 250, rfl⟩
abbrev main_call4_v4 : Ref sig .tc := ⟨.hbm, 251, rfl⟩
abbrev main_call4_v5 : Ref sig .tc := ⟨.hbm, 252, rfl⟩
abbrev main_call4_v6 : Ref sig .tc := ⟨.hbm, 253, rfl⟩
abbrev main_call4_v7 : Ref sig .tc := ⟨.hbm, 254, rfl⟩
abbrev main_call4_cst_1 : Ref sig .tc := ⟨.hbm, 255, rfl⟩
abbrev main_call4_v8 : Ref sig .tc := ⟨.hbm, 256, rfl⟩
abbrev main_call4_cst_2 : Ref sig .tc := ⟨.hbm, 257, rfl⟩
abbrev main_call4_v9 : Ref sig .tc := ⟨.hbm, 258, rfl⟩
abbrev main_call4_v10 : Ref sig .tc := ⟨.hbm, 259, rfl⟩
abbrev main_call4_v11 : Ref sig .tc := ⟨.hbm, 260, rfl⟩
abbrev main_call4_v12 : Ref sig .tc := ⟨.hbm, 261, rfl⟩
abbrev main_call4_cst_3 : Ref sig .tc := ⟨.hbm, 262, rfl⟩
abbrev main_call4_v13 : Ref sig .tc := ⟨.hbm, 263, rfl⟩
abbrev main_call4_cst_4 : Ref sig .tc := ⟨.hbm, 264, rfl⟩
abbrev main_call4_call0_v0 : Ref sig .tc := ⟨.hbm, 265, rfl⟩
abbrev main_call4_call0_v1 : Ref sig .tc := ⟨.hbm, 266, rfl⟩
abbrev main_v131 : Ref sig .tc := ⟨.hbm, 267, rfl⟩
abbrev main_v132 : Ref sig .tc := ⟨.hbm, 268, rfl⟩
abbrev main_v133 : Ref sig .tc := ⟨.hbm, 269, rfl⟩
abbrev main_cst_23 : Ref sig .tc := ⟨.hbm, 270, rfl⟩
abbrev main_v134 : Ref sig .tc := ⟨.hbm, 271, rfl⟩
abbrev main_v135 : Ref sig .tc := ⟨.hbm, 272, rfl⟩
abbrev main_v136 : Ref sig .tc := ⟨.hbm, 273, rfl⟩
abbrev main_v137 : Ref sig .tc := ⟨.hbm, 274, rfl⟩
abbrev main_v138 : Ref sig .tc := ⟨.hbm, 275, rfl⟩
abbrev main_v139 : Ref sig .tc := ⟨.hbm, 276, rfl⟩
abbrev main_v140 : Ref sig .tc := ⟨.hbm, 277, rfl⟩
abbrev main_v141 : Ref sig .tc := ⟨.hbm, 278, rfl⟩
abbrev main_v142 : Ref sig .tc := ⟨.hbm, 279, rfl⟩
abbrev main_v143 : Ref sig .tc := ⟨.hbm, 280, rfl⟩
abbrev main_v144 : Ref sig .tc := ⟨.hbm, 281, rfl⟩
abbrev main_v145 : Ref sig .tc := ⟨.hbm, 282, rfl⟩
abbrev main_v146 : Ref sig .tc := ⟨.hbm, 283, rfl⟩
abbrev main_cst_24 : Ref sig .tc := ⟨.hbm, 284, rfl⟩
abbrev main_v147 : Ref sig .tc := ⟨.hbm, 285, rfl⟩
abbrev main_cst_25 : Ref sig .tc := ⟨.hbm, 286, rfl⟩
abbrev main_v148 : Ref sig .tc := ⟨.hbm, 287, rfl⟩
abbrev main_v149 : Ref sig .tc := ⟨.hbm, 288, rfl⟩
abbrev main_v150 : Ref sig .tc := ⟨.hbm, 289, rfl⟩
abbrev main_v151 : Ref sig .tc := ⟨.hbm, 290, rfl⟩
abbrev main_v152 : Ref sig .tc := ⟨.hbm, 291, rfl⟩
abbrev main_v153 : Ref sig .tc := ⟨.hbm, 292, rfl⟩
abbrev main_cst_26 : Ref sig .tc := ⟨.hbm, 293, rfl⟩
abbrev main_v154 : Ref sig .tc := ⟨.hbm, 294, rfl⟩
abbrev main_v155 : Ref sig .tc := ⟨.hbm, 295, rfl⟩
abbrev main_v156 : Ref sig .tc := ⟨.hbm, 296, rfl⟩
abbrev main_v157 : Ref sig .tc := ⟨.hbm, 297, rfl⟩
abbrev main_cst_27 : Ref sig .tc := ⟨.hbm, 298, rfl⟩
abbrev main_v158 : Ref sig .tc := ⟨.hbm, 299, rfl⟩
abbrev main_v159 : Ref sig .tc := ⟨.hbm, 300, rfl⟩
abbrev main_cst_28 : Ref sig .tc := ⟨.hbm, 301, rfl⟩
abbrev main_v160 : Ref sig .tc := ⟨.hbm, 302, rfl⟩
abbrev main_v161 : Ref sig .tc := ⟨.hbm, 303, rfl⟩
abbrev main_v162 : Ref sig .tc := ⟨.hbm, 304, rfl⟩
abbrev main_v163 : Ref sig .tc := ⟨.hbm, 305, rfl⟩
abbrev main_v164 : Ref sig .tc := ⟨.hbm, 306, rfl⟩
abbrev main_v165 : Ref sig .tc := ⟨.hbm, 307, rfl⟩
abbrev main_v166 : Ref sig .tc := ⟨.hbm, 308, rfl⟩
abbrev main_v167 : Ref sig .tc := ⟨.hbm, 309, rfl⟩
abbrev main_v168 : Ref sig .tc := ⟨.hbm, 310, rfl⟩
abbrev main_v169 : Ref sig .tc := ⟨.hbm, 311, rfl⟩
abbrev main_v170 : Ref sig .tc := ⟨.hbm, 312, rfl⟩
abbrev main_v171 : Ref sig .tc := ⟨.hbm, 313, rfl⟩
abbrev main_v172 : Ref sig .tc := ⟨.hbm, 314, rfl⟩
abbrev main_v173 : Ref sig .tc := ⟨.hbm, 315, rfl⟩
abbrev main_v174 : Ref sig .tc := ⟨.hbm, 316, rfl⟩
abbrev main_v175 : Ref sig .tc := ⟨.hbm, 317, rfl⟩
abbrev main_v176 : Ref sig .tc := ⟨.hbm, 318, rfl⟩
abbrev main_v177 : Ref sig .tc := ⟨.hbm, 319, rfl⟩
abbrev main_v178 : Ref sig .tc := ⟨.hbm, 320, rfl⟩
abbrev main_v179 : Ref sig .tc := ⟨.hbm, 321, rfl⟩
abbrev main_v180 : Ref sig .tc := ⟨.hbm, 322, rfl⟩
abbrev main_v181 : Ref sig .tc := ⟨.hbm, 323, rfl⟩
abbrev main_v182 : Ref sig .tc := ⟨.hbm, 324, rfl⟩
abbrev main_cst_29 : Ref sig .tc := ⟨.hbm, 325, rfl⟩
abbrev main_v183 : Ref sig .tc := ⟨.hbm, 326, rfl⟩
abbrev main_v184 : Ref sig .tc := ⟨.hbm, 327, rfl⟩
abbrev main_cst_30 : Ref sig .tc := ⟨.hbm, 328, rfl⟩
abbrev main_v185 : Ref sig .tc := ⟨.hbm, 329, rfl⟩
abbrev main_v186 : Ref sig .tc := ⟨.hbm, 330, rfl⟩
abbrev main_v187 : Ref sig .tc := ⟨.hbm, 331, rfl⟩
abbrev main_v188 : Ref sig .tc := ⟨.hbm, 332, rfl⟩
abbrev main_v189 : Ref sig .tc := ⟨.hbm, 333, rfl⟩
abbrev main_cst_31 : Ref sig .tc := ⟨.hbm, 334, rfl⟩
abbrev main_v190 : Ref sig .tc := ⟨.hbm, 335, rfl⟩
abbrev main_v191 : Ref sig .tc := ⟨.hbm, 336, rfl⟩
abbrev main_cst_32 : Ref sig .tc := ⟨.hbm, 337, rfl⟩
abbrev main_v192 : Ref sig .tc := ⟨.hbm, 338, rfl⟩
abbrev main_v193 : Ref sig .tc := ⟨.hbm, 339, rfl⟩
abbrev main_v194 : Ref sig .tc := ⟨.hbm, 340, rfl⟩
abbrev main_v195 : Ref sig .tc := ⟨.hbm, 341, rfl⟩
abbrev main_v196 : Ref sig .tc := ⟨.hbm, 342, rfl⟩
abbrev main_cst_33 : Ref sig .tc := ⟨.hbm, 343, rfl⟩
abbrev main_v197 : Ref sig .tc := ⟨.hbm, 344, rfl⟩
abbrev main_v198 : Ref sig .tc := ⟨.hbm, 345, rfl⟩
abbrev main_v199 : Ref sig .tc := ⟨.hbm, 346, rfl⟩
abbrev main_v200 : Ref sig .tc := ⟨.hbm, 347, rfl⟩
abbrev main_v201 : Ref sig .tc := ⟨.hbm, 348, rfl⟩
abbrev main_cst_34 : Ref sig .tc := ⟨.hbm, 349, rfl⟩
abbrev main_v202 : Ref sig .tc := ⟨.hbm, 350, rfl⟩
abbrev main_v203 : Ref sig .tc := ⟨.hbm, 351, rfl⟩
abbrev main_cst_35 : Ref sig .tc := ⟨.hbm, 352, rfl⟩
abbrev main_v204 : Ref sig .tc := ⟨.hbm, 353, rfl⟩
abbrev main_v205 : Ref sig .tc := ⟨.hbm, 354, rfl⟩
abbrev main_c_36 : Ref sig .tc := ⟨.hbm, 355, rfl⟩
abbrev main_call5_cst : Ref sig .tc := ⟨.hbm, 356, rfl⟩
abbrev main_call5_v0 : Ref sig .tc := ⟨.hbm, 357, rfl⟩
abbrev main_call5_v1 : Ref sig .tc := ⟨.hbm, 358, rfl⟩
abbrev main_call5_cst_0 : Ref sig .tc := ⟨.hbm, 359, rfl⟩
abbrev main_call5_v2 : Ref sig .tc := ⟨.hbm, 360, rfl⟩
abbrev main_call5_v3 : Ref sig .tc := ⟨.hbm, 361, rfl⟩
abbrev main_call5_v4 : Ref sig .tc := ⟨.hbm, 362, rfl⟩
abbrev main_call5_v5 : Ref sig .tc := ⟨.hbm, 363, rfl⟩
abbrev main_call5_v6 : Ref sig .tc := ⟨.hbm, 364, rfl⟩
abbrev main_call5_v7 : Ref sig .tc := ⟨.hbm, 365, rfl⟩
abbrev main_call5_cst_1 : Ref sig .tc := ⟨.hbm, 366, rfl⟩
abbrev main_call5_v8 : Ref sig .tc := ⟨.hbm, 367, rfl⟩
abbrev main_call5_cst_2 : Ref sig .tc := ⟨.hbm, 368, rfl⟩
abbrev main_call5_v9 : Ref sig .tc := ⟨.hbm, 369, rfl⟩
abbrev main_call5_v10 : Ref sig .tc := ⟨.hbm, 370, rfl⟩
abbrev main_call5_v11 : Ref sig .tc := ⟨.hbm, 371, rfl⟩
abbrev main_call5_v12 : Ref sig .tc := ⟨.hbm, 372, rfl⟩
abbrev main_call5_cst_3 : Ref sig .tc := ⟨.hbm, 373, rfl⟩
abbrev main_call5_v13 : Ref sig .tc := ⟨.hbm, 374, rfl⟩
abbrev main_call5_cst_4 : Ref sig .tc := ⟨.hbm, 375, rfl⟩
abbrev main_call5_call0_v0 : Ref sig .tc := ⟨.hbm, 376, rfl⟩
abbrev main_call5_call0_v1 : Ref sig .tc := ⟨.hbm, 377, rfl⟩
abbrev main_v206 : Ref sig .tc := ⟨.hbm, 378, rfl⟩
abbrev main_v207 : Ref sig .tc := ⟨.hbm, 379, rfl⟩
abbrev main_v208 : Ref sig .tc := ⟨.hbm, 380, rfl⟩
abbrev main_cst_37 : Ref sig .tc := ⟨.hbm, 381, rfl⟩
abbrev main_v209 : Ref sig .tc := ⟨.hbm, 382, rfl⟩
abbrev main_v210 : Ref sig .tc := ⟨.hbm, 383, rfl⟩
abbrev main_v211 : Ref sig .tc := ⟨.hbm, 384, rfl⟩
abbrev main_v212 : Ref sig .tc := ⟨.hbm, 385, rfl⟩
abbrev main_v213 : Ref sig .tc := ⟨.hbm, 386, rfl⟩
abbrev main_v214 : Ref sig .tc := ⟨.hbm, 387, rfl⟩
abbrev main_v215 : Ref sig .tc := ⟨.hbm, 388, rfl⟩
abbrev main_v216 : Ref sig .tc := ⟨.hbm, 389, rfl⟩
abbrev main_v217 : Ref sig .tc := ⟨.hbm, 390, rfl⟩
abbrev main_v218 : Ref sig .tc := ⟨.hbm, 391, rfl⟩
abbrev main_v219 : Ref sig .tc := ⟨.hbm, 392, rfl⟩
abbrev main_v220 : Ref sig .tc := ⟨.hbm, 393, rfl⟩
abbrev main_v221 : Ref sig .tc := ⟨.hbm, 394, rfl⟩
abbrev main_v222 : Ref sig .tc := ⟨.hbm, 395, rfl⟩
abbrev main_v223 : Ref sig .tc := ⟨.hbm, 396, rfl⟩
abbrev main_call6_cst : Ref sig .tc := ⟨.hbm, 397, rfl⟩
abbrev main_call6_v0 : Ref sig .tc := ⟨.hbm, 398, rfl⟩
abbrev main_v224 : Ref sig .tc := ⟨.hbm, 399, rfl⟩
abbrev main_v225 : Ref sig .tc := ⟨.hbm, 400, rfl⟩
abbrev main_v226 : Ref sig .tc := ⟨.hbm, 401, rfl⟩
abbrev main_v227 : Ref sig .tc := ⟨.hbm, 402, rfl⟩
abbrev main_v228 : Ref sig .tc := ⟨.hbm, 403, rfl⟩
abbrev main_v229 : Ref sig .tc := ⟨.hbm, 404, rfl⟩
abbrev main_cst_38 : Ref sig .tc := ⟨.hbm, 405, rfl⟩
abbrev main_v230 : Ref sig .tc := ⟨.hbm, 406, rfl⟩
abbrev main_v231 : Ref sig .tc := ⟨.hbm, 407, rfl⟩
abbrev main_cst_39 : Ref sig .tc := ⟨.hbm, 408, rfl⟩
abbrev main_v232 : Ref sig .tc := ⟨.hbm, 409, rfl⟩
abbrev main_v233 : Ref sig .tc := ⟨.hbm, 410, rfl⟩
abbrev main_c_40 : Ref sig .tc := ⟨.hbm, 411, rfl⟩
abbrev main_call7_cst : Ref sig .tc := ⟨.hbm, 412, rfl⟩
abbrev main_call7_v0 : Ref sig .tc := ⟨.hbm, 413, rfl⟩
abbrev main_call7_v1 : Ref sig .tc := ⟨.hbm, 414, rfl⟩
abbrev main_call7_cst_0 : Ref sig .tc := ⟨.hbm, 415, rfl⟩
abbrev main_call7_v2 : Ref sig .tc := ⟨.hbm, 416, rfl⟩
abbrev main_call7_v3 : Ref sig .tc := ⟨.hbm, 417, rfl⟩
abbrev main_call7_v4 : Ref sig .tc := ⟨.hbm, 418, rfl⟩
abbrev main_call7_v5 : Ref sig .tc := ⟨.hbm, 419, rfl⟩
abbrev main_call7_v6 : Ref sig .tc := ⟨.hbm, 420, rfl⟩
abbrev main_call7_v7 : Ref sig .tc := ⟨.hbm, 421, rfl⟩
abbrev main_call7_cst_1 : Ref sig .tc := ⟨.hbm, 422, rfl⟩
abbrev main_call7_v8 : Ref sig .tc := ⟨.hbm, 423, rfl⟩
abbrev main_call7_cst_2 : Ref sig .tc := ⟨.hbm, 424, rfl⟩
abbrev main_call7_v9 : Ref sig .tc := ⟨.hbm, 425, rfl⟩
abbrev main_call7_v10 : Ref sig .tc := ⟨.hbm, 426, rfl⟩
abbrev main_call7_v11 : Ref sig .tc := ⟨.hbm, 427, rfl⟩
abbrev main_call7_v12 : Ref sig .tc := ⟨.hbm, 428, rfl⟩
abbrev main_call7_cst_3 : Ref sig .tc := ⟨.hbm, 429, rfl⟩
abbrev main_call7_v13 : Ref sig .tc := ⟨.hbm, 430, rfl⟩
abbrev main_call7_cst_4 : Ref sig .tc := ⟨.hbm, 431, rfl⟩
abbrev main_call7_call0_v0 : Ref sig .tc := ⟨.hbm, 432, rfl⟩
abbrev main_call7_call0_v1 : Ref sig .tc := ⟨.hbm, 433, rfl⟩
abbrev main_v234 : Ref sig .tc := ⟨.hbm, 434, rfl⟩
abbrev main_v235 : Ref sig .tc := ⟨.hbm, 435, rfl⟩
abbrev main_v236 : Ref sig .tc := ⟨.hbm, 436, rfl⟩
abbrev main_cst_41 : Ref sig .tc := ⟨.hbm, 437, rfl⟩
abbrev main_v237 : Ref sig .tc := ⟨.hbm, 438, rfl⟩
abbrev main_v238 : Ref sig .tc := ⟨.hbm, 439, rfl⟩
abbrev main_v239 : Ref sig .tc := ⟨.hbm, 440, rfl⟩
abbrev main_v240 : Ref sig .tc := ⟨.hbm, 441, rfl⟩
abbrev main_v241 : Ref sig .tc := ⟨.hbm, 442, rfl⟩
abbrev main_v242 : Ref sig .tc := ⟨.hbm, 443, rfl⟩
abbrev main_v243 : Ref sig .tc := ⟨.hbm, 444, rfl⟩
abbrev main_v244 : Ref sig .tc := ⟨.hbm, 445, rfl⟩
abbrev main_v245 : Ref sig .tc := ⟨.hbm, 446, rfl⟩
abbrev main_v246 : Ref sig .tc := ⟨.hbm, 447, rfl⟩
abbrev main_v247 : Ref sig .tc := ⟨.hbm, 448, rfl⟩
abbrev main_v248 : Ref sig .tc := ⟨.hbm, 449, rfl⟩
abbrev main_v249 : Ref sig .tc := ⟨.hbm, 450, rfl⟩
abbrev main_cst_42 : Ref sig .tc := ⟨.hbm, 451, rfl⟩
abbrev main_v250 : Ref sig .tc := ⟨.hbm, 452, rfl⟩
abbrev main_cst_43 : Ref sig .tc := ⟨.hbm, 453, rfl⟩
abbrev main_v251 : Ref sig .tc := ⟨.hbm, 454, rfl⟩
abbrev main_v252 : Ref sig .tc := ⟨.hbm, 455, rfl⟩
abbrev main_v253 : Ref sig .tc := ⟨.hbm, 456, rfl⟩
abbrev main_v254 : Ref sig .tc := ⟨.hbm, 457, rfl⟩
abbrev main_v255 : Ref sig .tc := ⟨.hbm, 458, rfl⟩
abbrev main_v256 : Ref sig .tc := ⟨.hbm, 459, rfl⟩
abbrev main_cst_44 : Ref sig .tc := ⟨.hbm, 460, rfl⟩
abbrev main_v257 : Ref sig .tc := ⟨.hbm, 461, rfl⟩
abbrev main_v258 : Ref sig .tc := ⟨.hbm, 462, rfl⟩
abbrev main_v259 : Ref sig .tc := ⟨.hbm, 463, rfl⟩
abbrev main_v260 : Ref sig .tc := ⟨.hbm, 464, rfl⟩
abbrev main_cst_45 : Ref sig .tc := ⟨.hbm, 465, rfl⟩
abbrev main_v261 : Ref sig .tc := ⟨.hbm, 466, rfl⟩
abbrev main_v262 : Ref sig .tc := ⟨.hbm, 467, rfl⟩
abbrev main_cst_46 : Ref sig .tc := ⟨.hbm, 468, rfl⟩
abbrev main_v263 : Ref sig .tc := ⟨.hbm, 469, rfl⟩
abbrev main_v264 : Ref sig .tc := ⟨.hbm, 470, rfl⟩
abbrev main_v265 : Ref sig .tc := ⟨.hbm, 471, rfl⟩
abbrev main_v266 : Ref sig .tc := ⟨.hbm, 472, rfl⟩
abbrev main_v267 : Ref sig .tc := ⟨.hbm, 473, rfl⟩
abbrev main_v268 : Ref sig .tc := ⟨.hbm, 474, rfl⟩
abbrev main_v269 : Ref sig .tc := ⟨.hbm, 475, rfl⟩
abbrev main_v270 : Ref sig .tc := ⟨.hbm, 476, rfl⟩
abbrev main_v271 : Ref sig .tc := ⟨.hbm, 477, rfl⟩
abbrev main_v272 : Ref sig .tc := ⟨.hbm, 478, rfl⟩
abbrev main_v273 : Ref sig .tc := ⟨.hbm, 479, rfl⟩
abbrev main_v274 : Ref sig .tc := ⟨.hbm, 480, rfl⟩
abbrev main_v275 : Ref sig .tc := ⟨.hbm, 481, rfl⟩
abbrev main_v276 : Ref sig .tc := ⟨.hbm, 482, rfl⟩
abbrev main_v277 : Ref sig .tc := ⟨.hbm, 483, rfl⟩
abbrev main_v278 : Ref sig .tc := ⟨.hbm, 484, rfl⟩
abbrev main_v279 : Ref sig .tc := ⟨.hbm, 485, rfl⟩
abbrev main_v280 : Ref sig .tc := ⟨.hbm, 486, rfl⟩
abbrev main_v281 : Ref sig .tc := ⟨.hbm, 487, rfl⟩
abbrev main_v282 : Ref sig .tc := ⟨.hbm, 488, rfl⟩
abbrev main_v283 : Ref sig .tc := ⟨.hbm, 489, rfl⟩
abbrev main_v284 : Ref sig .tc := ⟨.hbm, 490, rfl⟩
abbrev main_v285 : Ref sig .tc := ⟨.hbm, 491, rfl⟩
abbrev main_cst_47 : Ref sig .tc := ⟨.hbm, 492, rfl⟩
abbrev main_v286 : Ref sig .tc := ⟨.hbm, 493, rfl⟩
abbrev main_v287 : Ref sig .tc := ⟨.hbm, 494, rfl⟩
abbrev main_cst_48 : Ref sig .tc := ⟨.hbm, 495, rfl⟩
abbrev main_v288 : Ref sig .tc := ⟨.hbm, 496, rfl⟩
abbrev main_v289 : Ref sig .tc := ⟨.hbm, 497, rfl⟩
abbrev main_v290 : Ref sig .tc := ⟨.hbm, 498, rfl⟩
abbrev main_v291 : Ref sig .tc := ⟨.hbm, 499, rfl⟩
abbrev main_v292 : Ref sig .tc := ⟨.hbm, 500, rfl⟩
abbrev main_cst_49 : Ref sig .tc := ⟨.hbm, 501, rfl⟩
abbrev main_v293 : Ref sig .tc := ⟨.hbm, 502, rfl⟩
abbrev main_v294 : Ref sig .tc := ⟨.hbm, 503, rfl⟩
abbrev main_cst_50 : Ref sig .tc := ⟨.hbm, 504, rfl⟩
abbrev main_v295 : Ref sig .tc := ⟨.hbm, 505, rfl⟩
abbrev main_v296 : Ref sig .tc := ⟨.hbm, 506, rfl⟩
abbrev main_v297 : Ref sig .tc := ⟨.hbm, 507, rfl⟩
abbrev main_v298 : Ref sig .tc := ⟨.hbm, 508, rfl⟩
abbrev main_v299 : Ref sig .tc := ⟨.hbm, 509, rfl⟩
abbrev main_cst_51 : Ref sig .tc := ⟨.hbm, 510, rfl⟩
abbrev main_v300 : Ref sig .tc := ⟨.hbm, 511, rfl⟩
abbrev main_v301 : Ref sig .tc := ⟨.hbm, 512, rfl⟩
abbrev main_v302 : Ref sig .tc := ⟨.hbm, 513, rfl⟩
abbrev main_v303 : Ref sig .tc := ⟨.hbm, 514, rfl⟩
abbrev main_v304 : Ref sig .tc := ⟨.hbm, 515, rfl⟩
abbrev main_cst_52 : Ref sig .tc := ⟨.hbm, 516, rfl⟩
abbrev main_v305 : Ref sig .tc := ⟨.hbm, 517, rfl⟩
abbrev main_v306 : Ref sig .tc := ⟨.hbm, 518, rfl⟩
abbrev main_cst_53 : Ref sig .tc := ⟨.hbm, 519, rfl⟩
abbrev main_v307 : Ref sig .tc := ⟨.hbm, 520, rfl⟩
abbrev main_v308 : Ref sig .tc := ⟨.hbm, 521, rfl⟩
abbrev main_c_54 : Ref sig .tc := ⟨.hbm, 522, rfl⟩
abbrev main_call8_cst : Ref sig .tc := ⟨.hbm, 523, rfl⟩
abbrev main_call8_v0 : Ref sig .tc := ⟨.hbm, 524, rfl⟩
abbrev main_call8_v1 : Ref sig .tc := ⟨.hbm, 525, rfl⟩
abbrev main_call8_cst_0 : Ref sig .tc := ⟨.hbm, 526, rfl⟩
abbrev main_call8_v2 : Ref sig .tc := ⟨.hbm, 527, rfl⟩
abbrev main_call8_v3 : Ref sig .tc := ⟨.hbm, 528, rfl⟩
abbrev main_call8_v4 : Ref sig .tc := ⟨.hbm, 529, rfl⟩
abbrev main_call8_v5 : Ref sig .tc := ⟨.hbm, 530, rfl⟩
abbrev main_call8_v6 : Ref sig .tc := ⟨.hbm, 531, rfl⟩
abbrev main_call8_v7 : Ref sig .tc := ⟨.hbm, 532, rfl⟩
abbrev main_call8_cst_1 : Ref sig .tc := ⟨.hbm, 533, rfl⟩
abbrev main_call8_v8 : Ref sig .tc := ⟨.hbm, 534, rfl⟩
abbrev main_call8_cst_2 : Ref sig .tc := ⟨.hbm, 535, rfl⟩
abbrev main_call8_v9 : Ref sig .tc := ⟨.hbm, 536, rfl⟩
abbrev main_call8_v10 : Ref sig .tc := ⟨.hbm, 537, rfl⟩
abbrev main_call8_v11 : Ref sig .tc := ⟨.hbm, 538, rfl⟩
abbrev main_call8_v12 : Ref sig .tc := ⟨.hbm, 539, rfl⟩
abbrev main_call8_cst_3 : Ref sig .tc := ⟨.hbm, 540, rfl⟩
abbrev main_call8_v13 : Ref sig .tc := ⟨.hbm, 541, rfl⟩
abbrev main_call8_cst_4 : Ref sig .tc := ⟨.hbm, 542, rfl⟩
abbrev main_call8_call0_v0 : Ref sig .tc := ⟨.hbm, 543, rfl⟩
abbrev main_call8_call0_v1 : Ref sig .tc := ⟨.hbm, 544, rfl⟩
abbrev main_v309 : Ref sig .tc := ⟨.hbm, 545, rfl⟩
abbrev main_v310 : Ref sig .tc := ⟨.hbm, 546, rfl⟩
abbrev main_v311 : Ref sig .tc := ⟨.hbm, 547, rfl⟩
abbrev main_cst_55 : Ref sig .tc := ⟨.hbm, 548, rfl⟩
abbrev main_v312 : Ref sig .tc := ⟨.hbm, 549, rfl⟩
abbrev main_v313 : Ref sig .tc := ⟨.hbm, 550, rfl⟩
abbrev main_v314 : Ref sig .tc := ⟨.hbm, 551, rfl⟩
abbrev main_v315 : Ref sig .tc := ⟨.hbm, 552, rfl⟩
abbrev main_v316 : Ref sig .tc := ⟨.hbm, 553, rfl⟩
abbrev main_v317 : Ref sig .tc := ⟨.hbm, 554, rfl⟩
abbrev main_v318 : Ref sig .tc := ⟨.hbm, 555, rfl⟩
abbrev main_v319 : Ref sig .tc := ⟨.hbm, 556, rfl⟩
abbrev main_v320 : Ref sig .tc := ⟨.hbm, 557, rfl⟩
abbrev main_v321 : Ref sig .tc := ⟨.hbm, 558, rfl⟩
abbrev main_v322 : Ref sig .tc := ⟨.hbm, 559, rfl⟩
abbrev main_v323 : Ref sig .tc := ⟨.hbm, 560, rfl⟩
abbrev main_v324 : Ref sig .tc := ⟨.hbm, 561, rfl⟩
abbrev main_v325 : Ref sig .tc := ⟨.hbm, 562, rfl⟩
abbrev main_v326 : Ref sig .tc := ⟨.hbm, 563, rfl⟩
abbrev main_call9_cst : Ref sig .tc := ⟨.hbm, 564, rfl⟩
abbrev main_call9_v0 : Ref sig .tc := ⟨.hbm, 565, rfl⟩
abbrev main_v327 : Ref sig .tc := ⟨.hbm, 566, rfl⟩
abbrev main_v328 : Ref sig .tc := ⟨.hbm, 567, rfl⟩
abbrev main_v329 : Ref sig .tc := ⟨.hbm, 568, rfl⟩
abbrev main_v330 : Ref sig .tc := ⟨.hbm, 569, rfl⟩
abbrev main_v331 : Ref sig .tc := ⟨.hbm, 570, rfl⟩
abbrev main_v332 : Ref sig .tc := ⟨.hbm, 571, rfl⟩

abbrev nD : Nat := 1
abbrev τ : Topo := Topo.v7x

variable {F : FTy → Type} [FloatOps F]

class Facts₀ : Prop where
  bcast_S1x8x512_S32x8x512_0_1_2 : S1x8x512.BroadcastsInDim S32x8x512 (![0, 1, 2] : Fin 3 → Fin S32x8x512.rank)
  reducesTo_S32x4096x512_S32x4096_d2 : S32x4096x512.ReducesTo [2] S32x4096
  h_S_ : 0 < S_.numel
  bcast_S32x4096_S32x4096x1_0_1 : S32x4096.BroadcastsInDim S32x4096x1 (![0, 1] : Fin 2 → Fin S32x4096x1.rank)
  bcast_S_S32x4096x1 : S_.BroadcastsInDim S32x4096x1 (![] : Fin 0 → Fin S32x4096x1.rank)
  bcast_S32x4096x1_S32x4096x512_0_1_2 : S32x4096x1.BroadcastsInDim S32x4096x512 (![0, 1, 2] : Fin 3 → Fin S32x4096x512.rank)
  bcast_S512_S1x1x512_2 : S512.BroadcastsInDim S1x1x512 (![2] : Fin 1 → Fin S1x1x512.rank)
  bcast_S1x1x512_S32x4096x512_0_1_2 : S1x1x512.BroadcastsInDim S32x4096x512 (![0, 1, 2] : Fin 3 → Fin S32x4096x512.rank)
  reducesTo_S32x8x512_S32x8_d2 : S32x8x512.ReducesTo [2] S32x8
  bcast_S32x8_S32x8x1_0_1 : S32x8.BroadcastsInDim S32x8x1 (![0, 1] : Fin 2 → Fin S32x8x1.rank)
  bcast_S_S32x8x1 : S_.BroadcastsInDim S32x8x1 (![] : Fin 0 → Fin S32x8x1.rank)
  bcast_S32x8x1_S32x8x512_0_1_2 : S32x8x1.BroadcastsInDim S32x8x512 (![0, 1, 2] : Fin 3 → Fin S32x8x512.rank)
  bcast_S1x1x512_S32x8x512_0_1_2 : S1x1x512.BroadcastsInDim S32x8x512 (![0, 1, 2] : Fin 3 → Fin S32x8x512.rank)
  reducesTo_S32x4096x8_S32x4096_d2 : S32x4096x8.ReducesTo [2] S32x4096
  bcast_S_S32x4096 : S_.BroadcastsInDim S32x4096 (![] : Fin 0 → Fin S32x4096.rank)
  bcast_S32x4096x1_S32x4096x8_0_1_2 : S32x4096x1.BroadcastsInDim S32x4096x8 (![0, 1, 2] : Fin 3 → Fin S32x4096x8.rank)
  bcast_S_S32x4096x8 : S_.BroadcastsInDim S32x4096x8 (![] : Fin 0 → Fin S32x4096x8.rank)
  transposes_S32x4096x8_S32x8x4096_0_2_1 : S32x4096x8.Transposes [0, 2, 1] S32x8x4096
  bcast_S1536_S1x1x1536_2 : S1536.BroadcastsInDim S1x1x1536 (![2] : Fin 1 → Fin S1x1x1536.rank)
  bcast_S1x1x1536_S32x8x1536_0_1_2 : S1x1x1536.BroadcastsInDim S32x8x1536 (![0, 1, 2] : Fin 3 → Fin S32x8x1536.rank)
  slices_S32x8x1536_S32x8x512_0_0_0 : S32x8x1536.Slices ![0, 0, 0] S32x8x512
  slices_S32x8x1536_S32x8x512_0_0_512 : S32x8x1536.Slices ![0, 0, 512] S32x8x512
  slices_S32x8x1536_S32x8x512_0_0_1024 : S32x8x1536.Slices ![0, 0, 1024] S32x8x512
  bcast_S_S32x8x512 : S_.BroadcastsInDim S32x8x512 (![] : Fin 0 → Fin S32x8x512.rank)
  dot_S32x4096x512_S512x512_S32x4096x512_2_1_01_0_n_n_wf : DotDims.WF S32x4096x512 S512x512 S32x4096x512 [2] [1] [0, 1] [0] [] []
  dot_S32x8x512_S512x512_S32x8x512_2_1_01_0_n_n_wf : DotDims.WF S32x8x512 S512x512 S32x8x512 [2] [1] [0, 1] [0] [] []
  dot_S32x4096x512_S32x8x512_S32x4096x8_2_2_1_1_0_0_wf : DotDims.WF S32x4096x512 S32x8x512 S32x4096x8 [2] [2] [1] [1] [0] [0]
  dot_S32x8x4096_S32x4096x512_S32x8x512_2_1_1_2_0_0_wf : DotDims.WF S32x8x4096 S32x4096x512 S32x8x512 [2] [1] [1] [2] [0] [0]
  dot_S32x8x512_S1536x512_S32x8x1536_2_1_01_0_n_n_wf : DotDims.WF S32x8x512 S1536x512 S32x8x1536 [2] [1] [0, 1] [0] [] []

variable [Facts₀]

def dot_S32x4096x512_S512x512_S32x4096x512_2_1_01_0_n_n : DotDims S32x4096x512 S512x512 S32x4096x512 where
  lhsContracting := [2]
  rhsContracting := [1]
  lhsNonContracting := [0, 1]
  rhsNonContracting := [0]
  lhsBatch := []
  rhsBatch := []
  wf := dot_S32x4096x512_S512x512_S32x4096x512_2_1_01_0_n_n_wf
def dot_S32x8x512_S512x512_S32x8x512_2_1_01_0_n_n : DotDims S32x8x512 S512x512 S32x8x512 where
  lhsContracting := [2]
  rhsContracting := [1]
  lhsNonContracting := [0, 1]
  rhsNonContracting := [0]
  lhsBatch := []
  rhsBatch := []
  wf := dot_S32x8x512_S512x512_S32x8x512_2_1_01_0_n_n_wf
def dot_S32x4096x512_S32x8x512_S32x4096x8_2_2_1_1_0_0 : DotDims S32x4096x512 S32x8x512 S32x4096x8 where
  lhsContracting := [2]
  rhsContracting := [2]
  lhsNonContracting := [1]
  rhsNonContracting := [1]
  lhsBatch := [0]
  rhsBatch := [0]
  wf := dot_S32x4096x512_S32x8x512_S32x4096x8_2_2_1_1_0_0_wf
def dot_S32x8x4096_S32x4096x512_S32x8x512_2_1_1_2_0_0 : DotDims S32x8x4096 S32x4096x512 S32x8x512 where
  lhsContracting := [2]
  rhsContracting := [1]
  lhsNonContracting := [1]
  rhsNonContracting := [2]
  lhsBatch := [0]
  rhsBatch := [0]
  wf := dot_S32x8x4096_S32x4096x512_S32x8x512_2_1_1_2_0_0_wf
def dot_S32x8x512_S1536x512_S32x8x1536_2_1_01_0_n_n : DotDims S32x8x512 S1536x512 S32x8x1536 where
  lhsContracting := [2]
  rhsContracting := [1]
  lhsNonContracting := [0, 1]
  rhsNonContracting := [0]
  lhsBatch := []
  rhsBatch := []
  wf := dot_S32x8x512_S1536x512_S32x8x1536_2_1_01_0_n_n_wf

class Facts : Prop extends Facts₀ where

variable [Facts]
-- ==== Proof.KShared.lean ====
import Idealize.ShloMosaic.Lib.Pipeline.Value
import Idealize.ShloMosaic.Lib.Pipeline.FrameBody

noncomputable section

namespace Cert.KShared

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg)

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

theorem zero1 : (![0] : Fin 1 → ℕ) = fun _ => 0 := by
  funext a; match a with | ⟨0, _⟩ => rfl
theorem zero2 : (![0, 0] : Fin 2 → ℕ) = fun _ => 0 := by
  funext a; match a with | ⟨0, _⟩ => rfl | ⟨1, _⟩ => rfl
theorem zero3 : (![0, 0, 0] : Fin 3 → ℕ) = fun _ => 0 := by
  funext a; match a with | ⟨0, _⟩ => rfl | ⟨1, _⟩ => rfl | ⟨2, _⟩ => rfl

theorem readAt_whole_rect {s : Shape} {e : EltTy} (m : Memref sig .tc .vmem s e) (f : m.view.ty.Contents Val)
    {off : Fin s.rank → ℕ} (hz : off = fun _ => 0) (inb : ∀ a, off a + s.size a ≤ s.size a) :
    View.readAt Val m.view (Rect.unit (s := s) off s.size inb).toLoadRect f = m.view.read Val f := by
  rw [View.readAt_eq_ld]; exact View.ld_unit_zero hz inb _

theorem whole_read {s : Shape} {e : EltTy} (m : Memref sig .tc .vmem s e) (h : m.IsWhole) (X : s.Idx → Val e)
    {off : Fin s.rank → ℕ} (hz : off = fun _ => 0) (inb : ∀ a, off a + s.size a ≤ s.size a) :
    View.readAt Val m.view (Rect.unit (s := s) off s.size inb).toLoadRect (h.unread X) = X := by
  rw [readAt_whole_rect m _ hz inb, h.read_unread]

theorem owns_unread (c : Dev nD) {sp : Space} {s : Shape} {e : EltTy} {M : Memref sig .tc sp s e} (h : M.IsWhole)
    (q : PosShare TreeShare) (X : s.Idx → Val e) :
    (owns (c : Thread nD τ) M q X : sProp 𝕄) = iprop(M.view.loc (c : Thread nD τ) ↦[M.view.set]{q} h.unread X) := by
  unfold owns
  have h₁ : iprop(∃ f, ⌜M.view.read Val f = X⌝ ∗ (M.view.loc (c : Thread nD τ) ↦[M.view.set]{q} f))
      ⊢ (M.view.loc (c : Thread nD τ) ↦[M.view.set]{q} h.unread X : sProp 𝕄) := by
    iintro ⟨%f, %hf, H⟩; obtain rfl := h.eq_unread hf; iexact H
  have h₂ : (M.view.loc (c : Thread nD τ) ↦[M.view.set]{q} h.unread X : sProp 𝕄)
      ⊢ iprop(∃ f, ⌜M.view.read Val f = X⌝ ∗ (M.view.loc (c : Thread nD τ) ↦[M.view.set]{q} f)) := by
    iintro H; iexists _; isplitr; · ipureintro; exact h.read_unread _
    iexact H
  exact BI.equiv_iff.mp ⟨h₁, h₂⟩

end Cert.KShared

end
-- ==== Proof.KRunsBits.lean ====
import proofs.«417374_j33956011442443_3_alg».proof.Proof.Gen.Kernel.Frame
import proofs.«417374_j33956011442443_3_alg».proof.Proof.Gen.Kernel.Skeleton
import proofs.«417374_j33956011442443_3_alg».proof.Proof.KShared

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KShared

abbrev lastBlock (i : grid0.Coords) : Prop := k0_cond1 i = 1#1
theorem lastBlock_iff : ∀ t : Fin cfg0.N, lastBlock (grid0.coords t) ↔ t.val % 4 = 3 :=
  (by decide +kernel : ∀ t : Fin grid0.N, lastBlock (grid0.coords t) ↔ t.val % 4 = 3)

set_option maxHeartbeats 1000000 in
-- Away from the last block the body hands every buffer back as it was, but each scratch buffer with the rows of this token block stored: its keys, its values.
theorem runMid (c : Dev nD) (i : grid0.Coords) (arg2 : Memref sig .tc .vmem S1x1024x512 .f32) (harg2 : arg2.IsWhole) (arg3 : Memref sig .tc .vmem S1x8x512 .f32) (harg3 : arg3.IsWhole) (arg4 : Memref sig .tc .vmem S512 .f32) (harg4 : arg4.IsWhole) (arg5 : Memref sig .tc .vmem S512 .f32) (harg5 : arg5.IsWhole) (arg6 : Memref sig .tc .vmem S512 .f32) (harg6 : arg6.IsWhole) (arg7 : Memref sig .tc .vmem S512 .f32) (harg7 : arg7.IsWhole) (arg8 : Memref sig .tc .vmem S512 .f32) (harg8 : arg8.IsWhole) (arg9 : Memref sig .tc .vmem S512 .f32) (harg9 : arg9.IsWhole) (arg10 : Memref sig .tc .vmem S512x512 .bf16) (harg10 : arg10.IsWhole) (arg11 : Memref sig .tc .vmem S512x512 .bf16) (harg11 : arg11.IsWhole) (arg12 : Memref sig .tc .vmem S512x512 .bf16) (harg12 : arg12.IsWhole) (arg13 : Memref sig .tc .vmem S512x1536 .bf16) (harg13 : arg13.IsWhole) (arg14 : Memref sig .tc .vmem S512x1536 .bf16) (harg14 : arg14.IsWhole) (arg15 : Memref sig .tc .vmem S1536 .f32) (harg15 : arg15.IsWhole) (arg16 : Memref sig .tc .vmem S1536 .f32) (harg16 : arg16.IsWhole) (arg17 : Memref sig .tc .vmem S512x512 .bf16) (harg17 : arg17.IsWhole) (arg18 : Memref sig .tc .vmem S512 .f32) (harg18 : arg18.IsWhole) (arg19 : Memref sig .tc .vmem S512x512 .bf16) (harg19 : arg19.IsWhole) (arg20 : Memref sig .tc .vmem S512 .f32) (harg20 : arg20.IsWhole) (arg21 : Memref sig .tc .vmem S1x8x512 .f32) (harg21 : arg21.IsWhole) (arg22 : Memref sig .tc .vmem S4096x512 .bf16) (harg22 : arg22.IsWhole) (arg23 : Memref sig .tc .vmem S4096x512 .bf16) (harg23 : arg23.IsWhole) (hc0 : ¬lastBlock i)
    (x0 : Vec F S1x1024x512 .f32) (x1 : Vec F S1x8x512 .f32) (x2 : Vec F S512 .f32) (x3 : Vec F S512 .f32) (x4 : Vec F S512 .f32) (x5 : Vec F S512 .f32) (x6 : Vec F S512 .f32) (x7 : Vec F S512 .f32) (x8 : Vec F S512x512 .bf16) (x9 : Vec F S512x512 .bf16) (x10 : Vec F S512x512 .bf16) (x11 : Vec F S512x1536 .bf16) (x12 : Vec F S512x1536 .bf16) (x13 : Vec F S1536 .f32) (x14 : Vec F S1536 .f32) (x15 : Vec F S512x512 .bf16) (x16 : Vec F S512 .f32) (x17 : Vec F S512x512 .bf16) (x18 : Vec F S512 .f32) (xs0 xs1 : Vec F S4096x512 .bf16)
    (xo : Vec F S1x8x512 .f32) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare xo ∗ owns (c : Thread nD τ) arg22 fullShare xs0 ∗ owns (c : Thread nD τ) arg23 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare xo
                ∗ (arg22.view.loc (c : Thread nD τ) ↦[arg22.view.set]{fullShare} arg22.view.writes (Elt F) (harg22.unread xs0) [⟨Rect.unit (s := S4096x512) (k0_off1 i) S1024x512.size (k0_off1_inb i), k0_pay1 (k0_pay32 x0 x2 x3 x8)⟩])
                ∗ (arg23.view.loc (c : Thread nD τ) ↦[arg23.view.set]{fullShare} arg23.view.writes (Elt F) (harg23.unread xs1) [⟨Rect.unit (s := S4096x512) (k0_off1 i) S1024x512.size (k0_off1_inb i), k0_pay2 (k0_pay31 x0 x2 x3 x9)⟩])) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp (disch := assumption) only [owns_unread]
  simp only [cc0__fused_kernel_eq_skeleton]; unfold cc0__fused_kernel_skel
  simp only [k0_part8_eq_skeleton]
  iintro ⟨H0, H1, H2, H3, H4, H5, H6, H7, H8, H9, H10, H11, H12, H13, H14, H15, H16, H17, H18, H19, HS0, HS1, Hk⟩
  sl_exec (disch := first | exact hc0)
  sl_step
  iapply Hk
  sl_unfold_run_names
  simp only [whole_read (s := S512) _ _ _ zero1, whole_read (s := S1536) _ _ _ zero1,
    whole_read (s := S512x512) _ _ _ zero2, whole_read (s := S512x1536) _ _ _ zero2,
    whole_read (s := S1x1024x512) _ _ _ zero3, whole_read (s := S1x8x512) _ _ _ zero3,
    readAt_whole_rect (s := S4096x512) _ _ zero2]
  sl_close

end Cert.Kernel.Body

end
-- ==== Proof.KOutOfBits.lean ====
import proofs.«417374_j33956011442443_3_alg».proof.Proof.Gen.Kernel.Skeleton

noncomputable section

namespace Cert.Kernel.Body

open Cert.Kernel Cert.Kernel.Gen
open Idealize.ShloMosaic Idealize.SL.Sem

variable {F : FTy → Type} [FloatOps F]

-- The output piece of a last block as a function of the loaded values: the chain of the body's pure payloads over the keys kv and the values vv.
def outOf (x1 : Vec F S1x8x512 .f32) (x4 x5 x6 x7 : Vec F S512 .f32) (x10 : Vec F S512x512 .bf16)
    (x11 x12 : Vec F S512x1536 .bf16) (x13 x14 : Vec F S1536 .f32) (x15 : Vec F S512x512 .bf16) (x16 : Vec F S512 .f32)
    (x17 : Vec F S512x512 .bf16) (x18 : Vec F S512 .f32) (kv vv : Vec F S4096x512 .bf16) : Vec F S1x8x512 .f32 :=
  have v51 : FVec F S512x512 .bf16 := k0_pay4 x10
  have v53 : FVec F S512x1536 .bf16 := k0_pay5 x11
  have v55 : FVec F S512x1536 .bf16 := k0_pay6 x12
  have v59 : FVec F S512x512 .bf16 := k0_pay7 x15
  have v62 : FVec F S512x512 .bf16 := k0_pay8 x17
  have v69 : FVec F S8x512 .f32 := k0_pay9 x1
  have v80 : FVec F S8x1 .f32 := k0_pay11 x1
  have v82 : FVec F S8x512 .f32 := k0_pay12 x1
  have v83 : FVec F S8x1 .f32 := k0_pay13
  have v126 : FVec F S8x1536 .f32 := k0_pay15 v55 x14 v69
  have v127 : FVec F S8x512 .f32 := k0_pay16 v51 v53 x13 x4 x5 v80 v82 v83 kv vv
  have v128 : FVec F S8x512 .f32 := k0_pay17 v51 v53 x13 x4 x5 v80 v82 v83 kv vv
  have v129 : FVec F S8x512 .f32 := k0_pay18 v51 v53 x13 x4 x5 v80 v82 v83 kv vv
  have v130 : FVec F S8x512 .f32 := k0_pay19 v55 x14 v69
  have v181 : FVec F S8x512 .f32 := k0_pay20 v59 x16 v62 x18 x6 x7 v69 v126 v127 v128 v129 v130
  have v226 : FVec F S8x4096 .bf16 := k0_pay21 v51 x4 x5 v181 kv
  have v256 : FVec F S8x512 .f32 := k0_pay22 v53 v55 x13 x14 v181 v226 vv
  have v277 : FVec F S8x512 .f32 := k0_pay23 v53 v55 x13 x14 x6 v181 v226 vv
  have v293 : FVec F S8x512 .f32 := k0_pay24 v59 x16 v62 x18 x7 v256 v277
  have v322 : FVec F S8x4096 .f32 := k0_pay25 v51 v59 x16 v62 x18 x4 x5 x7 v256 v277 kv
  have v324 : FVec F S1x4096 .f32 := k0_pay26 v51 v59 x16 v62 x18 x4 x5 x7 v256 v277 kv
  have v368 : FVec F S8x512 .f32 := k0_pay27 v53 v55 x13 x14 v293 v322 v324 vv
  have v372 : FVec F S8x1 .f32 := k0_pay28 v53 v55 x13 x14 v293 v322 v324 vv
  have v373 : FVec F S8x512 .f32 := k0_pay29 v53 v55 x13 x14 v293 v322 v324 vv
  k0_pay3 v59 x16 v62 x18 x6 x7 v368 v372 v373

end Cert.Kernel.Body

end
-- ==== Proof.KRunLastBits.lean ====
import proofs.«417374_j33956011442443_3_alg».proof.Proof.KRunsBits
import proofs.«417374_j33956011442443_3_alg».proof.Proof.KOutOfBits
import proofs.«417374_j33956011442443_3_alg».proof.Proof.KShared

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KShared

set_option maxHeartbeats 2000000 in
-- At the last block the same two pieces, and the output block stored whole: the iterations run on the scratch buffers as just stored.
theorem runLast (c : Dev nD) (i : grid0.Coords) (arg2 : Memref sig .tc .vmem S1x1024x512 .f32) (harg2 : arg2.IsWhole) (arg3 : Memref sig .tc .vmem S1x8x512 .f32) (harg3 : arg3.IsWhole) (arg4 : Memref sig .tc .vmem S512 .f32) (harg4 : arg4.IsWhole) (arg5 : Memref sig .tc .vmem S512 .f32) (harg5 : arg5.IsWhole) (arg6 : Memref sig .tc .vmem S512 .f32) (harg6 : arg6.IsWhole) (arg7 : Memref sig .tc .vmem S512 .f32) (harg7 : arg7.IsWhole) (arg8 : Memref sig .tc .vmem S512 .f32) (harg8 : arg8.IsWhole) (arg9 : Memref sig .tc .vmem S512 .f32) (harg9 : arg9.IsWhole) (arg10 : Memref sig .tc .vmem S512x512 .bf16) (harg10 : arg10.IsWhole) (arg11 : Memref sig .tc .vmem S512x512 .bf16) (harg11 : arg11.IsWhole) (arg12 : Memref sig .tc .vmem S512x512 .bf16) (harg12 : arg12.IsWhole) (arg13 : Memref sig .tc .vmem S512x1536 .bf16) (harg13 : arg13.IsWhole) (arg14 : Memref sig .tc .vmem S512x1536 .bf16) (harg14 : arg14.IsWhole) (arg15 : Memref sig .tc .vmem S1536 .f32) (harg15 : arg15.IsWhole) (arg16 : Memref sig .tc .vmem S1536 .f32) (harg16 : arg16.IsWhole) (arg17 : Memref sig .tc .vmem S512x512 .bf16) (harg17 : arg17.IsWhole) (arg18 : Memref sig .tc .vmem S512 .f32) (harg18 : arg18.IsWhole) (arg19 : Memref sig .tc .vmem S512x512 .bf16) (harg19 : arg19.IsWhole) (arg20 : Memref sig .tc .vmem S512 .f32) (harg20 : arg20.IsWhole) (arg21 : Memref sig .tc .vmem S1x8x512 .f32) (harg21 : arg21.IsWhole) (arg22 : Memref sig .tc .vmem S4096x512 .bf16) (harg22 : arg22.IsWhole) (arg23 : Memref sig .tc .vmem S4096x512 .bf16) (harg23 : arg23.IsWhole) (hc0 : lastBlock i)
    (x0 : Vec F S1x1024x512 .f32) (x1 : Vec F S1x8x512 .f32) (x2 : Vec F S512 .f32) (x3 : Vec F S512 .f32) (x4 : Vec F S512 .f32) (x5 : Vec F S512 .f32) (x6 : Vec F S512 .f32) (x7 : Vec F S512 .f32) (x8 : Vec F S512x512 .bf16) (x9 : Vec F S512x512 .bf16) (x10 : Vec F S512x512 .bf16) (x11 : Vec F S512x1536 .bf16) (x12 : Vec F S512x1536 .bf16) (x13 : Vec F S1536 .f32) (x14 : Vec F S1536 .f32) (x15 : Vec F S512x512 .bf16) (x16 : Vec F S512 .f32) (x17 : Vec F S512x512 .bf16) (x18 : Vec F S512 .f32) (xs0 xs1 : Vec F S4096x512 .bf16)
    (xo : Vec F S1x8x512 .f32) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare xo ∗ owns (c : Thread nD τ) arg22 fullShare xs0 ∗ owns (c : Thread nD τ) arg23 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18
                ∗ (arg21.view.loc (c : Thread nD τ) ↦[arg21.view.set]{fullShare} arg21.view.writes (Elt F) (harg21.unread xo) [⟨Rect.unit (s := S1x8x512) ![0, 0, 0] S1x8x512.size inb_S1x8x512_S1x8x512_0_0_0,
                    outOf x1 x4 x5 x6 x7 x10 x11 x12 x13 x14 x15 x16 x17 x18
                      (arg22.view.read (Elt F) (arg22.view.writes (Elt F) (harg22.unread xs0) [⟨Rect.unit (s := S4096x512) (k0_off1 i) S1024x512.size (k0_off1_inb i), k0_pay1 (k0_pay32 x0 x2 x3 x8)⟩]))
                      (arg23.view.read (Elt F) (arg23.view.writes (Elt F) (harg23.unread xs1) [⟨Rect.unit (s := S4096x512) (k0_off1 i) S1024x512.size (k0_off1_inb i), k0_pay2 (k0_pay31 x0 x2 x3 x9)⟩]))⟩])
                ∗ (arg22.view.loc (c : Thread nD τ) ↦[arg22.view.set]{fullShare} arg22.view.writes (Elt F) (harg22.unread xs0) [⟨Rect.unit (s := S4096x512) (k0_off1 i) S1024x512.size (k0_off1_inb i), k0_pay1 (k0_pay32 x0 x2 x3 x8)⟩])
                ∗ (arg23.view.loc (c : Thread nD τ) ↦[arg23.view.set]{fullShare} arg23.view.writes (Elt F) (harg23.unread xs1) [⟨Rect.unit (s := S4096x512) (k0_off1 i) S1024x512.size (k0_off1_inb i), k0_pay2 (k0_pay31 x0 x2 x3 x9)⟩])) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
    simp (disch := assumption) only [owns_unread]
    simp only [cc0__fused_kernel_eq_skeleton]; unfold cc0__fused_kernel_skel
    simp only [k0_part1_eq_skeleton, k0_part2_eq_skeleton, k0_part3_eq_skeleton, k0_part4_eq_skeleton, k0_part5_eq_skeleton, k0_part6_eq_skeleton, k0_part7_eq_skeleton, k0_part8_eq_skeleton]
    iintro ⟨H0, H1, H2, H3, H4, H5, H6, H7, H8, H9, H10, H11, H12, H13, H14, H15, H16, H17, H18, H19, HS0, HS1, Hk⟩
    sl_exec (disch := first | exact hc0)
    sl_step
    iapply Hk
    sl_unfold_run_names
    simp only [whole_read (s := S512) _ _ _ zero1, whole_read (s := S1536) _ _ _ zero1,
      whole_read (s := S512x512) _ _ _ zero2, whole_read (s := S512x1536) _ _ _ zero2,
      whole_read (s := S1x1024x512) _ _ _ zero3, whole_read (s := S1x8x512) _ _ _ zero3,
      readAt_whole_rect (s := S4096x512) _ _ zero2]
    sl_close

end Cert.Kernel.Body

end
-- ==== Proof.KDatBits.lean ====
import proofs.«417374_j33956011442443_3_alg».proof.Proof.KRunLastBits
import Idealize.ShloMosaic.Lib.WritesUnit
import Idealize.ShloMosaic.Lib.ValueIdx

set_option maxRecDepth 16384

noncomputable section

namespace Cert.Kernel.Body

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

section
variable (t : Fin cfg0.N)
abbrev ms0 : Memref sig .tc .vmem S1x1024x512 .f32 := win0_0.stage (cfg0.slots t 0)
abbrev hs0 : (ms0 t).IsWhole := hstage0_0 ((cfg0.slots t 0).cast nbuf0_0)
abbrev ms1 : Memref sig .tc .vmem S1x8x512 .f32 := win0_1.stage (cfg0.slots t 1)
abbrev hs1 : (ms1 t).IsWhole := hstage0_1 ((cfg0.slots t 1).cast nbuf0_1)
abbrev ms2 : Memref sig .tc .vmem S512 .f32 := win0_2.stage (cfg0.slots t 2)
abbrev hs2 : (ms2 t).IsWhole := hstage0_2 ((cfg0.slots t 2).cast nbuf0_2)
abbrev ms3 : Memref sig .tc .vmem S512 .f32 := win0_3.stage (cfg0.slots t 3)
abbrev hs3 : (ms3 t).IsWhole := hstage0_3 ((cfg0.slots t 3).cast nbuf0_3)
abbrev ms4 : Memref sig .tc .vmem S512 .f32 := win0_4.stage (cfg0.slots t 4)
abbrev hs4 : (ms4 t).IsWhole := hstage0_4 ((cfg0.slots t 4).cast nbuf0_4)
abbrev ms5 : Memref sig .tc .vmem S512 .f32 := win0_5.stage (cfg0.slots t 5)
abbrev hs5 : (ms5 t).IsWhole := hstage0_5 ((cfg0.slots t 5).cast nbuf0_5)
abbrev ms6 : Memref sig .tc .vmem S512 .f32 := win0_6.stage (cfg0.slots t 6)
abbrev hs6 : (ms6 t).IsWhole := hstage0_6 ((cfg0.slots t 6).cast nbuf0_6)
abbrev ms7 : Memref sig .tc .vmem S512 .f32 := win0_7.stage (cfg0.slots t 7)
abbrev hs7 : (ms7 t).IsWhole := hstage0_7 ((cfg0.slots t 7).cast nbuf0_7)
abbrev ms8 : Memref sig .tc .vmem S512x512 .bf16 := win0_8.stage (cfg0.slots t 8)
abbrev hs8 : (ms8 t).IsWhole := hstage0_8 ((cfg0.slots t 8).cast nbuf0_8)
abbrev ms9 : Memref sig .tc .vmem S512x512 .bf16 := win0_9.stage (cfg0.slots t 9)
abbrev hs9 : (ms9 t).IsWhole := hstage0_9 ((cfg0.slots t 9).cast nbuf0_9)
abbrev ms10 : Memref sig .tc .vmem S512x512 .bf16 := win0_10.stage (cfg0.slots t 10)
abbrev hs10 : (ms10 t).IsWhole := hstage0_10 ((cfg0.slots t 10).cast nbuf0_10)
abbrev ms11 : Memref sig .tc .vmem S512x1536 .bf16 := win0_11.stage (cfg0.slots t 11)
abbrev hs11 : (ms11 t).IsWhole := hstage0_11 ((cfg0.slots t 11).cast nbuf0_11)
abbrev ms12 : Memref sig .tc .vmem S512x1536 .bf16 := win0_12.stage (cfg0.slots t 12)
abbrev hs12 : (ms12 t).IsWhole := hstage0_12 ((cfg0.slots t 12).cast nbuf0_12)
abbrev ms13 : Memref sig .tc .vmem S1536 .f32 := win0_13.stage (cfg0.slots t 13)
abbrev hs13 : (ms13 t).IsWhole := hstage0_13 ((cfg0.slots t 13).cast nbuf0_13)
abbrev ms14 : Memref sig .tc .vmem S1536 .f32 := win0_14.stage (cfg0.slots t 14)
abbrev hs14 : (ms14 t).IsWhole := hstage0_14 ((cfg0.slots t 14).cast nbuf0_14)
abbrev ms15 : Memref sig .tc .vmem S512x512 .bf16 := win0_15.stage (cfg0.slots t 15)
abbrev hs15 : (ms15 t).IsWhole := hstage0_15 ((cfg0.slots t 15).cast nbuf0_15)
abbrev ms16 : Memref sig .tc .vmem S512 .f32 := win0_16.stage (cfg0.slots t 16)
abbrev hs16 : (ms16 t).IsWhole := hstage0_16 ((cfg0.slots t 16).cast nbuf0_16)
abbrev ms17 : Memref sig .tc .vmem S512x512 .bf16 := win0_17.stage (cfg0.slots t 17)
abbrev hs17 : (ms17 t).IsWhole := hstage0_17 ((cfg0.slots t 17).cast nbuf0_17)
abbrev ms18 : Memref sig .tc .vmem S512 .f32 := win0_18.stage (cfg0.slots t 18)
abbrev hs18 : (ms18 t).IsWhole := hstage0_18 ((cfg0.slots t 18).cast nbuf0_18)
abbrev ms19 : Memref sig .tc .vmem S1x8x512 .f32 := win0_19.stage (cfg0.slots t 19)
abbrev hs19 : (ms19 t).IsWhole := hstage0_19 ((cfg0.slots t 19).cast nbuf0_19)
end
abbrev scK : Memref sig .tc .vmem S4096x512 .bf16 := Memref.whole cc0_scratch0
abbrev scV : Memref sig .tc .vmem S4096x512 .bf16 := Memref.whole cc0_scratch1

theorem PhiA_eq (c : Dev nD) :
    (Pipeline.ΦA spec0 c : sProp 𝕄)
      = iprop(iprop((∃ d, owns (c : Thread nD τ) scK fullShare d) ∗ (∃ d, owns (c : Thread nD τ) scV fullShare d)) ∗ (∃ r, prngReg c r)) := by
  unfold Pipeline.ΦA; rw [scopedRest0_eq]; simp only [scK, scV, owns_whole]; try rfl

theorem live : ∀ (w : Fin cfg0.W) (t : Fin cfg0.N), w ≠ 19 → cfg0.idle w (grid0.coords t) = false := by decide +kernel
theorem idle19 : ∀ t : Fin cfg0.N, ¬lastBlock (grid0.coords t) → cfg0.idle 19 (grid0.coords t) = true := by decide +kernel
theorem noFlush19 : ∀ t : Fin cfg0.N, ¬lastBlock (grid0.coords t) → (cfg0.win 19).flush t = false := by decide +kernel
theorem live19 : ∀ t : Fin cfg0.N, lastBlock (grid0.coords t) → cfg0.idle 19 (grid0.coords t) = false := by decide +kernel
theorem off_eq : ∀ t : Fin cfg0.N, k0_off1 (grid0.coords t) = ![1024 * (t.val % 4), 0] :=
  (by decide +kernel : ∀ t : Fin grid0.N, k0_off1 (grid0.coords t) = ![1024 * (t.val % 4), 0])

def kPiece (c : Dev nD) (t : Fin cfg0.N) : FVec F S1024x512 .bf16 :=
  k0_pay1 (k0_pay32 (iblk m c 0 t) (iblk m c 2 t) (iblk m c 3 t) (iblk m c 8 t))
def vPiece (c : Dev nD) (t : Fin cfg0.N) : FVec F S1024x512 .bf16 :=
  k0_pay2 (k0_pay31 (iblk m c 0 t) (iblk m c 2 t) (iblk m c 3 t) (iblk m c 9 t))

section Rows
variable (M : Memref sig .tc .vmem S4096x512 .bf16) (hM : M.IsWhole) (P : Fin cfg0.N → FVec F S1024x512 .bf16)
  (t : Fin cfg0.N) (xs : Vec F S4096x512 .bf16)

-- A scratch buffer after the stores of point t: the rows of block t % 4 overwritten by P t.
def rowsAfter : Vec F S4096x512 .bf16 :=
  M.view.read (Elt F) (M.view.writes (Elt F) (hM.unread xs)
    [⟨Rect.unit (s := S4096x512) (k0_off1 (grid0.coords t)) S1024x512.size (k0_off1_inb (grid0.coords t)), P t⟩])

theorem rows_new (r : Fin 1024) (e : Fin 512) (ho : 1024 * (t.val % 4) + r.val < 4096) :
    rowsAfter M hM P t xs (ix2 ⟨1024 * (t.val % 4) + r.val, ho⟩ e) = P t (ix2 r e) :=
  View.read_writes_cons_rows_of_mem M.view (hM.unread xs) (k0_off1_inb (grid0.coords t)) (P t) [] (ix2 ⟨_, ho⟩ e) (ix2 r e) (off_eq t) rfl rfl

theorem rows_old (y : S4096x512.Idx) (h : (y 0).val < 1024 * (t.val % 4)) : rowsAfter M hM P t xs y = xs y := by
  unfold rowsAfter
  rw [View.read_writes_cons_rows_of_not_mem M.view (hM.unread xs) (k0_off1_inb (grid0.coords t)) (P t) [] y (off_eq t) rfl (Or.inl h)]
  exact congrFun (hM.read_unread xs) y

-- Before point n the rows of the blocks q < n % 4 of the batch element under way hold what P gives at those blocks' points.
def Good1 (n : ℕ) (hn : n ≤ cfg0.N) : Prop :=
  ∀ (q : ℕ) (hq : q < n % 4) (r : Fin 1024) (e : Fin 512),
    xs (ix2 (⟨1024 * q + r.val, by have := r.isLt; omega⟩ : Fin 4096) e) = P ⟨n - n % 4 + q, by have : cfg0.N = 128 := N_0; omega⟩ (ix2 r e)

-- The stores of point t fill block t % 4's rows and leave the earlier blocks' rows alone.
theorem good1_next (hG : Good1 P xs t.val (Nat.le_of_lt t.isLt)) : Good1 P (rowsAfter M hM P t xs) (t.val + 1) t.isLt := by
  intro q hq r e
  have hN : t.val < 128 := lt_of_lt_of_eq t.isLt (show cfg0.N = 128 from N_0)
  have hr := r.isLt
  by_cases hqt : q = t.val % 4
  · subst hqt
    rw [show (⟨t.val + 1 - (t.val + 1) % 4 + t.val % 4, by omega⟩ : Fin cfg0.N) = t from Fin.ext (by show t.val + 1 - (t.val + 1) % 4 + t.val % 4 = t.val; omega)]
    exact rows_new M hM P t xs r e _
  · rw [show (⟨t.val + 1 - (t.val + 1) % 4 + q, by omega⟩ : Fin cfg0.N) = ⟨t.val - t.val % 4 + q, by omega⟩ from Fin.ext (by show t.val + 1 - (t.val + 1) % 4 + q = t.val - t.val % 4 + q; omega),
      rows_old M hM P t xs _ (by show 1024 * q + r.val < 1024 * (t.val % 4); omega)]
    exact hG q (by omega) r e

-- At a last block the stored rows complete the matrix: block q's rows from block q's point.
theorem full1_last (h3 : t.val % 4 = 3) (hG : Good1 P xs t.val (Nat.le_of_lt t.isLt)) :
    rowsAfter M hM P t xs = fun y => P ⟨t.val - t.val % 4 + (y 0).val / 1024, by have := t.isLt; have := idx2_lt0 y; have : cfg0.N = 128 := N_0; omega⟩
      (ix2 (⟨(y 0).val % 1024, Nat.mod_lt _ (by norm_num)⟩ : Fin 1024) (y 1)) := by
  funext y
  have hN : t.val < 128 := lt_of_lt_of_eq t.isLt (show cfg0.N = 128 from N_0)
  obtain ⟨a, e, rfl⟩ : ∃ (a : Fin 4096) (e : Fin 512), y = ix2 a e := ⟨y 0, y 1, eq_ix2 y⟩
  have ha := a.isLt
  show rowsAfter M hM P t xs (ix2 a e) = P ⟨t.val - t.val % 4 + a.val / 1024, _⟩ (ix2 ⟨a.val % 1024, _⟩ e)
  by_cases hlast : 3072 ≤ a.val
  · rw [show (⟨t.val - t.val % 4 + a.val / 1024, by omega⟩ : Fin cfg0.N) = t from Fin.ext (by show t.val - t.val % 4 + a.val / 1024 = t.val; omega)]
    conv_lhs => rw [show a = (⟨1024 * (t.val % 4) + (⟨a.val % 1024, Nat.mod_lt _ (by norm_num)⟩ : Fin 1024).val, by show 1024 * (t.val % 4) + a.val % 1024 < 4096; omega⟩ : Fin 4096) from
      Fin.ext (by show a.val = 1024 * (t.val % 4) + a.val % 1024; omega)]
    exact rows_new M hM P t xs ⟨a.val % 1024, Nat.mod_lt _ (by norm_num)⟩ e _
  · rw [rows_old M hM P t xs _ (by show a.val < 1024 * (t.val % 4); omega)]
    conv_lhs => rw [show a = (⟨1024 * (a.val / 1024) + (⟨a.val % 1024, Nat.mod_lt _ (by norm_num)⟩ : Fin 1024).val, by show 1024 * (a.val / 1024) + a.val % 1024 < 4096; omega⟩ : Fin 4096) from
      Fin.ext (by show a.val = 1024 * (a.val / 1024) + a.val % 1024; omega)]
    exact hG (a.val / 1024) (by omega) ⟨a.val % 1024, Nat.mod_lt _ (by norm_num)⟩ e

end Rows

def GoodBefore (c : Dev nD) (n : ℕ) (hn : n ≤ cfg0.N) (kv vv : Vec F S4096x512 .bf16) : Prop :=
  Good1 (kPiece m c) kv n hn ∧ Good1 (vPiece m c) vv n hn

def kFull (c : Dev nD) (t : Fin cfg0.N) : Vec F S4096x512 .bf16 := fun y =>
  kPiece m c ⟨t.val - t.val % 4 + (y 0).val / 1024, by have := t.isLt; have := idx2_lt0 y; have : cfg0.N = 128 := N_0; omega⟩
    (ix2 (⟨(y 0).val % 1024, Nat.mod_lt _ (by norm_num)⟩ : Fin 1024) (y 1))
def vFull (c : Dev nD) (t : Fin cfg0.N) : Vec F S4096x512 .bf16 := fun y =>
  vPiece m c ⟨t.val - t.val % 4 + (y 0).val / 1024, by have := t.isLt; have := idx2_lt0 y; have : cfg0.N = 128 := N_0; omega⟩
    (ix2 (⟨(y 0).val % 1024, Nat.mod_lt _ (by norm_num)⟩ : Fin 1024) (y 1))

def PhiS (c : Dev nD) (n : ℕ) (hn : n ≤ cfg0.N) : sProp 𝕄 :=
  iprop(iprop((∃ kv, ∃ vv, ⌜GoodBefore m c n hn kv vv⌝ ∗ owns (c : Thread nD τ) scK fullShare kv ∗ owns (c : Thread nD τ) scV fullShare vv)) ∗ (∃ r, prngReg c r))

def outVal (c : Dev nD) (t : Fin cfg0.N) : Vec F S1x8x512 .f32 :=
  outOf (iblk m c 1 t) (iblk m c 4 t) (iblk m c 5 t) (iblk m c 6 t) (iblk m c 7 t) (iblk m c 10 t) (iblk m c 11 t) (iblk m c 12 t) (iblk m c 13 t) (iblk m c 14 t) (iblk m c 15 t) (iblk m c 16 t) (iblk m c 17 t) (iblk m c 18 t) (kFull m c t) (vFull m c t)

def kAfter (c : Dev nD) (t : Fin cfg0.N) (kv : Vec F S4096x512 .bf16) : Vec F S4096x512 .bf16 :=
  rowsAfter scK (Memref.isWhole_whole _) (kPiece m c) t kv
def vAfter (c : Dev nD) (t : Fin cfg0.N) (vv : Vec F S4096x512 .bf16) : Vec F S4096x512 .bf16 :=
  rowsAfter scV (Memref.isWhole_whole _) (vPiece m c) t vv

theorem good_next (c : Dev nD) (t : Fin cfg0.N) (kv vv : Vec F S4096x512 .bf16)
    (hG : GoodBefore m c t.val (Nat.le_of_lt t.isLt) kv vv) :
    GoodBefore m c (t.val + 1) t.isLt (kAfter m c t kv) (vAfter m c t vv) :=
  ⟨good1_next scK _ (kPiece m c) t kv hG.1, good1_next scV _ (vPiece m c) t vv hG.2⟩

theorem full_last (c : Dev nD) (t : Fin cfg0.N) (h3 : t.val % 4 = 3) (kv vv : Vec F S4096x512 .bf16)
    (hG : GoodBefore m c t.val (Nat.le_of_lt t.isLt) kv vv) :
    kAfter m c t kv = kFull m c t ∧ vAfter m c t vv = vFull m c t :=
  ⟨full1_last scK _ (kPiece m c) t kv h3 hG.1, full1_last scV _ (vPiece m c) t vv h3 hG.2⟩

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => outVal m c t
    | ⟨_ + 20, h⟩ => absurd h (Nat.not_lt.2 (Nat.le_add_left _ _))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem after19 (c : Dev nD) (t : Fin cfg0.N) : (dats m 0 c).after 19 t = outVal m c t := by dsimp only [dats]

theorem leaves_in (c : Dev nD) (w : Fin cfg0.W) (t : Fin cfg0.N) (hw : w ≠ 19) :
    (dats m 0 c).leavesExact w t = owns (c : Thread nD τ) ((cfg0.win w).stage (cfg0.slots t w)) fullShare ((dats m 0 c).after w t) := by
  unfold Dat.leavesExact; rw [live w t hw]

end Cert.Kernel.Body

end
-- ==== Proof.KLastBits.lean ====
import proofs.«417374_j33956011442443_3_alg».proof.Proof.KDatBits

set_option maxRecDepth 16384

noncomputable section

namespace Cert.Kernel.Body

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

set_option maxHeartbeats 1000000 in
-- The stored piece covers the block, and after this point's stores the scratch buffers are the full key and value matrices.
theorem last_out_eq (c : Dev nD) (t : Fin cfg0.N) (h3 : t.val % 4 = 3)
    (kv vv : Vec F S4096x512 .bf16) (hG : GoodBefore m c t.val (Nat.le_of_lt t.isLt) kv vv) (xo : Vec F S1x8x512 .f32) :
    (ms19 t).view.read (Elt F) ((ms19 t).view.writes (Elt F) ((hs19 t).unread xo)
      [⟨Rect.unit (s := S1x8x512) ![0, 0, 0] S1x8x512.size inb_S1x8x512_S1x8x512_0_0_0,
        outOf (iblk m c 1 t) (iblk m c 4 t) (iblk m c 5 t) (iblk m c 6 t) (iblk m c 7 t) (iblk m c 10 t) (iblk m c 11 t) (iblk m c 12 t) (iblk m c 13 t) (iblk m c 14 t) (iblk m c 15 t) (iblk m c 16 t) (iblk m c 17 t) (iblk m c 18 t) (kAfter m c t kv) (vAfter m c t vv)⟩]) = outVal m c t := by
  rw [View.read_writes_eq_canon _ _ _ (View.cover_of_tiledL _ S1x8x512.size (by sl_kernel_rfl))]
  rw [View.canon_unit_zero (by funext a; fin_cases a <;> rfl)]
  obtain ⟨hk, hv⟩ := full_last m c t h3 kv vv hG
  unfold outVal; rw [← hk, ← hv] <;> rfl

end Cert.Kernel.Body

end
-- ==== Proof.KBodyBits.lean ====
import proofs.«417374_j33956011442443_3_alg».proof.Proof.KLastBits

set_option maxRecDepth 16384

noncomputable section

namespace Cert.Kernel.Body

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d))
    ∗ (∃ d, owns (c : Thread nD τ) (ms14 t) fullShare ((dats m 0 c).before 14 t d))
    ∗ (∃ d, owns (c : Thread nD τ) (ms15 t) fullShare ((dats m 0 c).before 15 t d))
    ∗ (∃ d, owns (c : Thread nD τ) (ms16 t) fullShare ((dats m 0 c).before 16 t d))
    ∗ (∃ d, owns (c : Thread nD τ) (ms17 t) fullShare ((dats m 0 c).before 17 t d))
    ∗ (∃ d, owns (c : Thread nD τ) (ms18 t) fullShare ((dats m 0 c).before 18 t d))
    ∗ (∃ d, owns (c : Thread nD τ) (ms19 t) fullShare ((dats m 0 c).before 19 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t)

set_option maxHeartbeats 4000000 in
-- The invariant hands the body the scratch buffers with the earlier blocks' rows; the run gives them back with this block's rows written.
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0_of m (dats m 0 c) rfl (fun _ => rfl), before0_1_of m (dats m 0 c) rfl (fun _ => rfl),
    before0_2_of m (dats m 0 c) rfl (fun _ => rfl), before0_3_of m (dats m 0 c) rfl (fun _ => rfl),
    before0_4_of m (dats m 0 c) rfl (fun _ => rfl), before0_5_of m (dats m 0 c) rfl (fun _ => rfl),
    before0_6_of m (dats m 0 c) rfl (fun _ => rfl), before0_7_of m (dats m 0 c) rfl (fun _ => rfl),
    before0_8_of m (dats m 0 c) rfl (fun _ => rfl), before0_9_of m (dats m 0 c) rfl (fun _ => rfl),
    before0_10_of m (dats m 0 c) rfl (fun _ => rfl), before0_11_of m (dats m 0 c) rfl (fun _ => rfl),
    before0_12_of m (dats m 0 c) rfl (fun _ => rfl), before0_13_of m (dats m 0 c) rfl (fun _ => rfl),
    before0_14_of m (dats m 0 c) rfl (fun _ => rfl), before0_15_of m (dats m 0 c) rfl (fun _ => rfl),
    before0_16_of m (dats m 0 c) rfl (fun _ => rfl), before0_17_of m (dats m 0 c) rfl (fun _ => rfl),
    before0_18_of m (dats m 0 c) rfl (fun _ => rfl)]
  rw [show (dats m 0 c).owesAt () t.succ = (dats m 0 c).owesAt () t.castSucc from rfl,
    show (dats m 0 c).Φ t.succ = PhiS m c (t.val + 1) t.isLt from rfl,
    show (dats m 0 c).Φ t.castSucc = PhiS m c t.val (Nat.le_of_lt t.isLt) from rfl,
    show (dats m 0 c).leavesExact 0 t = owns (c : Thread nD τ) (ms0 t) fullShare (iblk m c 0 t) from leaves_in m c 0 t (by decide),
    show (dats m 0 c).leavesExact 1 t = owns (c : Thread nD τ) (ms1 t) fullShare (iblk m c 1 t) from leaves_in m c 1 t (by decide),
    show (dats m 0 c).leavesExact 2 t = owns (c : Thread nD τ) (ms2 t) fullShare (iblk m c 2 t) from leaves_in m c 2 t (by decide),
    show (dats m 0 c).leavesExact 3 t = owns (c : Thread nD τ) (ms3 t) fullShare (iblk m c 3 t) from leaves_in m c 3 t (by decide),
    show (dats m 0 c).leavesExact 4 t = owns (c : Thread nD τ) (ms4 t) fullShare (iblk m c 4 t) from leaves_in m c 4 t (by decide),
    show (dats m 0 c).leavesExact 5 t = owns (c : Thread nD τ) (ms5 t) fullShare (iblk m c 5 t) from leaves_in m c 5 t (by decide),
    show (dats m 0 c).leavesExact 6 t = owns (c : Thread nD τ) (ms6 t) fullShare (iblk m c 6 t) from leaves_in m c 6 t (by decide),
    show (dats m 0 c).leavesExact 7 t = owns (c : Thread nD τ) (ms7 t) fullShare (iblk m c 7 t) from leaves_in m c 7 t (by decide),
    show (dats m 0 c).leavesExact 8 t = owns (c : Thread nD τ) (ms8 t) fullShare (iblk m c 8 t) from leaves_in m c 8 t (by decide),
    show (dats m 0 c).leavesExact 9 t = owns (c : Thread nD τ) (ms9 t) fullShare (iblk m c 9 t) from leaves_in m c 9 t (by decide),
    show (dats m 0 c).leavesExact 10 t = owns (c : Thread nD τ) (ms10 t) fullShare (iblk m c 10 t) from leaves_in m c 10 t (by decide),
    show (dats m 0 c).leavesExact 11 t = owns (c : Thread nD τ) (ms11 t) fullShare (iblk m c 11 t) from leaves_in m c 11 t (by decide),
    show (dats m 0 c).leavesExact 12 t = owns (c : Thread nD τ) (ms12 t) fullShare (iblk m c 12 t) from leaves_in m c 12 t (by decide),
    show (dats m 0 c).leavesExact 13 t = owns (c : Thread nD τ) (ms13 t) fullShare (iblk m c 13 t) from leaves_in m c 13 t (by decide),
    show (dats m 0 c).leavesExact 14 t = owns (c : Thread nD τ) (ms14 t) fullShare (iblk m c 14 t) from leaves_in m c 14 t (by decide),
    show (dats m 0 c).leavesExact 15 t = owns (c : Thread nD τ) (ms15 t) fullShare (iblk m c 15 t) from leaves_in m c 15 t (by decide),
    show (dats m 0 c).leavesExact 16 t = owns (c : Thread nD τ) (ms16 t) fullShare (iblk m c 16 t) from leaves_in m c 16 t (by decide),
    show (dats m 0 c).leavesExact 17 t = owns (c : Thread nD τ) (ms17 t) fullShare (iblk m c 17 t) from leaves_in m c 17 t (by decide),
    show (dats m 0 c).leavesExact 18 t = owns (c : Thread nD τ) (ms18 t) fullShare (iblk m c 18 t) from leaves_in m c 18 t (by decide)]
  unfold PhiS
  iintro ⟨⟨⟨%kv, %vv, %hG, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  by_cases h3 : t.val % 4 = 3
  · have hl : lastBlock (grid0.coords t) := (lastBlock_iff t).mpr h3
    rw [show (dats m 0 c).leavesExact 19 t = owns (c : Thread nD τ) (ms19 t) fullShare ((dats m 0 c).after 19 t) from by
      unfold Dat.leavesExact; rw [live19 t hl], after19]
    iapply (runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) scK (Memref.isWhole_whole _) scV (Memref.isWhole_whole _) hl (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) kv vv ((dats m 0 c).before 19 t d19) Set.univ _)
    iframe H0 H1 H2 H3 H4 H5 H6 H7 H8 H9 H10 H11 H12 H13 H14 H15 H16 H17 H18 H19 HS0 HS1
    iintro ⟨H0, H1, H2, H3, H4, H5, H6, H7, H8, H9, H10, H11, H12, H13, H14, H15, H16, H17, H18, H19, HS0, HS1⟩
    iframe Hg Ho H0 H1 H2 H3 H4 H5 H6 H7 H8 H9 H10 H11 H12 H13 H14 H15 H16 H17 H18
    isplitl [HS0 HS1]
    · iexists (kAfter m c t kv), (vAfter m c t vv)
      isplitr
      · ipureintro; exact good_next m c t kv vv hG
      isplitl [HS0]
      · unfold owns; iexists _; isplitr; swap; · iexact HS0
        ipureintro; rfl
      · unfold owns; iexists _; isplitr; swap; · iexact HS1
        ipureintro; rfl
    unfold owns; iexists _; isplitr; swap; · iexact H19
    ipureintro
    exact last_out_eq m c t h3 kv vv hG _
  · have hl : ¬lastBlock (grid0.coords t) := fun h => h3 ((lastBlock_iff t).mp h)
    rw [Dat.leavesExact_idle (dats m 0 c) 19 t (idle19 t hl) (noFlush19 t hl)]
    iapply (runMid c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) scK (Memref.isWhole_whole _) scV (Memref.isWhole_whole _) hl (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) kv vv ((dats m 0 c).before 19 t d19) Set.univ _)
    iframe H0 H1 H2 H3 H4 H5 H6 H7 H8 H9 H10 H11 H12 H13 H14 H15 H16 H17 H18 H19 HS0 HS1
    iintro ⟨H0, H1, H2, H3, H4, H5, H6, H7, H8, H9, H10, H11, H12, H13, H14, H15, H16, H17, H18, H19, HS0, HS1⟩
    iframe Hg Ho H0 H1 H2 H3 H4 H5 H6 H7 H8 H9 H10 H11 H12 H13 H14 H15 H16 H17 H18
    isplitl [HS0 HS1]
    · iexists (kAfter m c t kv), (vAfter m c t vv)
      isplitr
      · ipureintro; exact good_next m c t kv vv hG
      isplitl [HS0]
      · unfold owns; iexists _; isplitr; swap; · iexact HS0
        ipureintro; rfl
      · unfold owns; iexists _; isplitr; swap; · iexact HS1
        ipureintro; rfl
    iexists _; iexact H19

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiA_eq]
  unfold PhiS
  iintro ⟨⟨⟨%kv, HS0⟩, ⟨%vv, HS1⟩⟩, Hg⟩
  isplitl [HS0 HS1]
  · iexists kv, vv
    isplitr
    · ipureintro; exact ⟨fun q hq => absurd hq (by omega), fun q hq => absurd hq (by omega)⟩
    isplitl [HS0]
    · iexact HS0
    iexact HS1
  iexact Hg

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl, PhiA_eq]
  unfold PhiS
  iintro ⟨⟨%kv, %vv, -, HS0, HS1⟩, Hg⟩
  isplitl [HS0 HS1]
  · isplitl [HS0]
    · iexists _; iexact HS0
    iexists _; iexact HS1
  iexact Hg

set_option backward.isDefEq.respectTransparency.types false in
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

end Cert.Kernel.Body

end
-- ==== Proof.KRunsIdeal.lean ====
import proofs.«417374_j33956011442443_3_alg».proof.Proof.Gen.KernelIdeal.Frame
import proofs.«417374_j33956011442443_3_alg».proof.Proof.Gen.KernelIdeal.Skeleton
import proofs.«417374_j33956011442443_3_alg».proof.Proof.KShared

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KShared

abbrev lastBlock (i : grid0.Coords) : Prop := k0_cond1 i = 1#1
theorem lastBlock_iff : ∀ t : Fin cfg0.N, lastBlock (grid0.coords t) ↔ t.val % 4 = 3 :=
  (by decide +kernel : ∀ t : Fin grid0.N, lastBlock (grid0.coords t) ↔ t.val % 4 = 3)

set_option maxHeartbeats 1000000 in
-- Away from the last block the body hands every buffer back as it was, but each scratch buffer with the rows of this token block stored: its keys, its values.
theorem runMid (c : Dev nD) (i : grid0.Coords) (arg2 : Memref sig .tc .vmem S1x1024x512 .f32) (harg2 : arg2.IsWhole) (arg3 : Memref sig .tc .vmem S1x8x512 .f32) (harg3 : arg3.IsWhole) (arg4 : Memref sig .tc .vmem S512 .f32) (harg4 : arg4.IsWhole) (arg5 : Memref sig .tc .vmem S512 .f32) (harg5 : arg5.IsWhole) (arg6 : Memref sig .tc .vmem S512 .f32) (harg6 : arg6.IsWhole) (arg7 : Memref sig .tc .vmem S512 .f32) (harg7 : arg7.IsWhole) (arg8 : Memref sig .tc .vmem S512 .f32) (harg8 : arg8.IsWhole) (arg9 : Memref sig .tc .vmem S512 .f32) (harg9 : arg9.IsWhole) (arg10 : Memref sig .tc .vmem S512x512 .bf16) (harg10 : arg10.IsWhole) (arg11 : Memref sig .tc .vmem S512x512 .bf16) (harg11 : arg11.IsWhole) (arg12 : Memref sig .tc .vmem S512x512 .bf16) (harg12 : arg12.IsWhole) (arg13 : Memref sig .tc .vmem S512x1536 .bf16) (harg13 : arg13.IsWhole) (arg14 : Memref sig .tc .vmem S512x1536 .bf16) (harg14 : arg14.IsWhole) (arg15 : Memref sig .tc .vmem S1536 .f32) (harg15 : arg15.IsWhole) (arg16 : Memref sig .tc .vmem S1536 .f32) (harg16 : arg16.IsWhole) (arg17 : Memref sig .tc .vmem S512x512 .bf16) (harg17 : arg17.IsWhole) (arg18 : Memref sig .tc .vmem S512 .f32) (harg18 : arg18.IsWhole) (arg19 : Memref sig .tc .vmem S512x512 .bf16) (harg19 : arg19.IsWhole) (arg20 : Memref sig .tc .vmem S512 .f32) (harg20 : arg20.IsWhole) (arg21 : Memref sig .tc .vmem S1x8x512 .f32) (harg21 : arg21.IsWhole) (arg22 : Memref sig .tc .vmem S4096x512 .bf16) (harg22 : arg22.IsWhole) (arg23 : Memref sig .tc .vmem S4096x512 .bf16) (harg23 : arg23.IsWhole) (hc0 : ¬lastBlock i)
    (x0 : Vec F S1x1024x512 .f32) (x1 : Vec F S1x8x512 .f32) (x2 : Vec F S512 .f32) (x3 : Vec F S512 .f32) (x4 : Vec F S512 .f32) (x5 : Vec F S512 .f32) (x6 : Vec F S512 .f32) (x7 : Vec F S512 .f32) (x8 : Vec F S512x512 .bf16) (x9 : Vec F S512x512 .bf16) (x10 : Vec F S512x512 .bf16) (x11 : Vec F S512x1536 .bf16) (x12 : Vec F S512x1536 .bf16) (x13 : Vec F S1536 .f32) (x14 : Vec F S1536 .f32) (x15 : Vec F S512x512 .bf16) (x16 : Vec F S512 .f32) (x17 : Vec F S512x512 .bf16) (x18 : Vec F S512 .f32) (xs0 xs1 : Vec F S4096x512 .bf16)
    (xo : Vec F S1x8x512 .f32) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare xo ∗ owns (c : Thread nD τ) arg22 fullShare xs0 ∗ owns (c : Thread nD τ) arg23 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare xo
                ∗ (arg22.view.loc (c : Thread nD τ) ↦[arg22.view.set]{fullShare} arg22.view.writes (Elt F) (harg22.unread xs0) [⟨Rect.unit (s := S4096x512) (k0_off1 i) S1024x512.size (k0_off1_inb i), k0_pay1 (k0_pay32 x0 x2 x3 x8)⟩])
                ∗ (arg23.view.loc (c : Thread nD τ) ↦[arg23.view.set]{fullShare} arg23.view.writes (Elt F) (harg23.unread xs1) [⟨Rect.unit (s := S4096x512) (k0_off1 i) S1024x512.size (k0_off1_inb i), k0_pay2 (k0_pay31 x0 x2 x3 x9)⟩])) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp (disch := assumption) only [owns_unread]
  simp only [cc0__fused_kernel_eq_skeleton]; unfold cc0__fused_kernel_skel
  simp only [k0_part8_eq_skeleton]
  iintro ⟨H0, H1, H2, H3, H4, H5, H6, H7, H8, H9, H10, H11, H12, H13, H14, H15, H16, H17, H18, H19, HS0, HS1, Hk⟩
  sl_exec (disch := first | exact hc0)
  sl_step
  iapply Hk
  sl_unfold_run_names
  simp only [whole_read (s := S512) _ _ _ zero1, whole_read (s := S1536) _ _ _ zero1,
    whole_read (s := S512x512) _ _ _ zero2, whole_read (s := S512x1536) _ _ _ zero2,
    whole_read (s := S1x1024x512) _ _ _ zero3, whole_read (s := S1x8x512) _ _ _ zero3,
    readAt_whole_rect (s := S4096x512) _ _ zero2]
  sl_close

end Cert.KernelIdeal.Body

end
-- ==== Proof.KOutOf.lean ====
import proofs.«417374_j33956011442443_3_alg».proof.Proof.Gen.KernelIdeal.Skeleton

noncomputable section

namespace Cert.KernelIdeal.Body

open Cert.KernelIdeal Cert.KernelIdeal.Gen
open Idealize.ShloMosaic Idealize.SL.Sem

variable {F : FTy → Type} [FloatOps F]

-- The output piece of a last block as a function of the loaded values: the chain of the body's pure payloads over the keys kv and the values vv.
def outOf (x1 : Vec F S1x8x512 .f32) (x4 x5 x6 x7 : Vec F S512 .f32) (x10 : Vec F S512x512 .bf16)
    (x11 x12 : Vec F S512x1536 .bf16) (x13 x14 : Vec F S1536 .f32) (x15 : Vec F S512x512 .bf16) (x16 : Vec F S512 .f32)
    (x17 : Vec F S512x512 .bf16) (x18 : Vec F S512 .f32) (kv vv : Vec F S4096x512 .bf16) : Vec F S1x8x512 .f32 :=
  have v51 : FVec F S512x512 .bf16 := k0_pay4 x10
  have v53 : FVec F S512x1536 .bf16 := k0_pay5 x11
  have v55 : FVec F S512x1536 .bf16 := k0_pay6 x12
  have v59 : FVec F S512x512 .bf16 := k0_pay7 x15
  have v62 : FVec F S512x512 .bf16 := k0_pay8 x17
  have v69 : FVec F S8x512 .f32 := k0_pay9 x1
  have v80 : FVec F S8x1 .f32 := k0_pay11 x1
  have v82 : FVec F S8x512 .f32 := k0_pay12 x1
  have v83 : FVec F S8x1 .f32 := k0_pay13
  have v126 : FVec F S8x1536 .f32 := k0_pay15 v55 x14 v69
  have v127 : FVec F S8x512 .f32 := k0_pay16 v51 v53 x13 x4 x5 v80 v82 v83 kv vv
  have v128 : FVec F S8x512 .f32 := k0_pay17 v51 v53 x13 x4 x5 v80 v82 v83 kv vv
  have v129 : FVec F S8x512 .f32 := k0_pay18 v51 v53 x13 x4 x5 v80 v82 v83 kv vv
  have v130 : FVec F S8x512 .f32 := k0_pay19 v55 x14 v69
  have v181 : FVec F S8x512 .f32 := k0_pay20 v59 x16 v62 x18 x6 x7 v69 v126 v127 v128 v129 v130
  have v226 : FVec F S8x4096 .bf16 := k0_pay21 v51 x4 x5 v181 kv
  have v256 : FVec F S8x512 .f32 := k0_pay22 v53 v55 x13 x14 v181 v226 vv
  have v277 : FVec F S8x512 .f32 := k0_pay23 v53 v55 x13 x14 x6 v181 v226 vv
  have v293 : FVec F S8x512 .f32 := k0_pay24 v59 x16 v62 x18 x7 v256 v277
  have v322 : FVec F S8x4096 .f32 := k0_pay25 v51 v59 x16 v62 x18 x4 x5 x7 v256 v277 kv
  have v324 : FVec F S1x4096 .f32 := k0_pay26 v51 v59 x16 v62 x18 x4 x5 x7 v256 v277 kv
  have v368 : FVec F S8x512 .f32 := k0_pay27 v53 v55 x13 x14 v293 v322 v324 vv
  have v372 : FVec F S8x1 .f32 := k0_pay28 v53 v55 x13 x14 v293 v322 v324 vv
  have v373 : FVec F S8x512 .f32 := k0_pay29 v53 v55 x13 x14 v293 v322 v324 vv
  k0_pay3 v59 x16 v62 x18 x6 x7 v368 v372 v373

end Cert.KernelIdeal.Body

end
-- ==== Proof.KRunLastIdeal.lean ====
import proofs.«417374_j33956011442443_3_alg».proof.Proof.KRunsIdeal
import proofs.«417374_j33956011442443_3_alg».proof.Proof.KOutOf
import proofs.«417374_j33956011442443_3_alg».proof.Proof.KShared

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KShared

set_option maxHeartbeats 2000000 in
-- At the last block the same two pieces, and the output block stored whole: the iterations run on the scratch buffers as just stored.
theorem runLast (c : Dev nD) (i : grid0.Coords) (arg2 : Memref sig .tc .vmem S1x1024x512 .f32) (harg2 : arg2.IsWhole) (arg3 : Memref sig .tc .vmem S1x8x512 .f32) (harg3 : arg3.IsWhole) (arg4 : Memref sig .tc .vmem S512 .f32) (harg4 : arg4.IsWhole) (arg5 : Memref sig .tc .vmem S512 .f32) (harg5 : arg5.IsWhole) (arg6 : Memref sig .tc .vmem S512 .f32) (harg6 : arg6.IsWhole) (arg7 : Memref sig .tc .vmem S512 .f32) (harg7 : arg7.IsWhole) (arg8 : Memref sig .tc .vmem S512 .f32) (harg8 : arg8.IsWhole) (arg9 : Memref sig .tc .vmem S512 .f32) (harg9 : arg9.IsWhole) (arg10 : Memref sig .tc .vmem S512x512 .bf16) (harg10 : arg10.IsWhole) (arg11 : Memref sig .tc .vmem S512x512 .bf16) (harg11 : arg11.IsWhole) (arg12 : Memref sig .tc .vmem S512x512 .bf16) (harg12 : arg12.IsWhole) (arg13 : Memref sig .tc .vmem S512x1536 .bf16) (harg13 : arg13.IsWhole) (arg14 : Memref sig .tc .vmem S512x1536 .bf16) (harg14 : arg14.IsWhole) (arg15 : Memref sig .tc .vmem S1536 .f32) (harg15 : arg15.IsWhole) (arg16 : Memref sig .tc .vmem S1536 .f32) (harg16 : arg16.IsWhole) (arg17 : Memref sig .tc .vmem S512x512 .bf16) (harg17 : arg17.IsWhole) (arg18 : Memref sig .tc .vmem S512 .f32) (harg18 : arg18.IsWhole) (arg19 : Memref sig .tc .vmem S512x512 .bf16) (harg19 : arg19.IsWhole) (arg20 : Memref sig .tc .vmem S512 .f32) (harg20 : arg20.IsWhole) (arg21 : Memref sig .tc .vmem S1x8x512 .f32) (harg21 : arg21.IsWhole) (arg22 : Memref sig .tc .vmem S4096x512 .bf16) (harg22 : arg22.IsWhole) (arg23 : Memref sig .tc .vmem S4096x512 .bf16) (harg23 : arg23.IsWhole) (hc0 : lastBlock i)
    (x0 : Vec F S1x1024x512 .f32) (x1 : Vec F S1x8x512 .f32) (x2 : Vec F S512 .f32) (x3 : Vec F S512 .f32) (x4 : Vec F S512 .f32) (x5 : Vec F S512 .f32) (x6 : Vec F S512 .f32) (x7 : Vec F S512 .f32) (x8 : Vec F S512x512 .bf16) (x9 : Vec F S512x512 .bf16) (x10 : Vec F S512x512 .bf16) (x11 : Vec F S512x1536 .bf16) (x12 : Vec F S512x1536 .bf16) (x13 : Vec F S1536 .f32) (x14 : Vec F S1536 .f32) (x15 : Vec F S512x512 .bf16) (x16 : Vec F S512 .f32) (x17 : Vec F S512x512 .bf16) (x18 : Vec F S512 .f32) (xs0 xs1 : Vec F S4096x512 .bf16)
    (xo : Vec F S1x8x512 .f32) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare xo ∗ owns (c : Thread nD τ) arg22 fullShare xs0 ∗ owns (c : Thread nD τ) arg23 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18
                ∗ (arg21.view.loc (c : Thread nD τ) ↦[arg21.view.set]{fullShare} arg21.view.writes (Elt F) (harg21.unread xo) [⟨Rect.unit (s := S1x8x512) ![0, 0, 0] S1x8x512.size inb_S1x8x512_S1x8x512_0_0_0,
                    outOf x1 x4 x5 x6 x7 x10 x11 x12 x13 x14 x15 x16 x17 x18
                      (arg22.view.read (Elt F) (arg22.view.writes (Elt F) (harg22.unread xs0) [⟨Rect.unit (s := S4096x512) (k0_off1 i) S1024x512.size (k0_off1_inb i), k0_pay1 (k0_pay32 x0 x2 x3 x8)⟩]))
                      (arg23.view.read (Elt F) (arg23.view.writes (Elt F) (harg23.unread xs1) [⟨Rect.unit (s := S4096x512) (k0_off1 i) S1024x512.size (k0_off1_inb i), k0_pay2 (k0_pay31 x0 x2 x3 x9)⟩]))⟩])
                ∗ (arg22.view.loc (c : Thread nD τ) ↦[arg22.view.set]{fullShare} arg22.view.writes (Elt F) (harg22.unread xs0) [⟨Rect.unit (s := S4096x512) (k0_off1 i) S1024x512.size (k0_off1_inb i), k0_pay1 (k0_pay32 x0 x2 x3 x8)⟩])
                ∗ (arg23.view.loc (c : Thread nD τ) ↦[arg23.view.set]{fullShare} arg23.view.writes (Elt F) (harg23.unread xs1) [⟨Rect.unit (s := S4096x512) (k0_off1 i) S1024x512.size (k0_off1_inb i), k0_pay2 (k0_pay31 x0 x2 x3 x9)⟩])) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
    simp (disch := assumption) only [owns_unread]
    simp only [cc0__fused_kernel_eq_skeleton]; unfold cc0__fused_kernel_skel
    simp only [k0_part1_eq_skeleton, k0_part2_eq_skeleton, k0_part3_eq_skeleton, k0_part4_eq_skeleton, k0_part5_eq_skeleton, k0_part6_eq_skeleton, k0_part7_eq_skeleton, k0_part8_eq_skeleton]
    iintro ⟨H0, H1, H2, H3, H4, H5, H6, H7, H8, H9, H10, H11, H12, H13, H14, H15, H16, H17, H18, H19, HS0, HS1, Hk⟩
    sl_exec (disch := first | exact hc0)
    sl_step
    iapply Hk
    sl_unfold_run_names
    simp only [whole_read (s := S512) _ _ _ zero1, whole_read (s := S1536) _ _ _ zero1,
      whole_read (s := S512x512) _ _ _ zero2, whole_read (s := S512x1536) _ _ _ zero2,
      whole_read (s := S1x1024x512) _ _ _ zero3, whole_read (s := S1x8x512) _ _ _ zero3,
      readAt_whole_rect (s := S4096x512) _ _ zero2]
    sl_close

end Cert.KernelIdeal.Body

end
-- ==== Proof.KDatIdeal.lean ====
import proofs.«417374_j33956011442443_3_alg».proof.Proof.KRunLastIdeal
import Idealize.ShloMosaic.Lib.WritesUnit
import Idealize.ShloMosaic.Lib.ValueIdx

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

section
variable (t : Fin cfg0.N)
abbrev ms0 : Memref sig .tc .vmem S1x1024x512 .f32 := win0_0.stage (cfg0.slots t 0)
abbrev hs0 : (ms0 t).IsWhole := hstage0_0 ((cfg0.slots t 0).cast nbuf0_0)
abbrev ms1 : Memref sig .tc .vmem S1x8x512 .f32 := win0_1.stage (cfg0.slots t 1)
abbrev hs1 : (ms1 t).IsWhole := hstage0_1 ((cfg0.slots t 1).cast nbuf0_1)
abbrev ms2 : Memref sig .tc .vmem S512 .f32 := win0_2.stage (cfg0.slots t 2)
abbrev hs2 : (ms2 t).IsWhole := hstage0_2 ((cfg0.slots t 2).cast nbuf0_2)
abbrev ms3 : Memref sig .tc .vmem S512 .f32 := win0_3.stage (cfg0.slots t 3)
abbrev hs3 : (ms3 t).IsWhole := hstage0_3 ((cfg0.slots t 3).cast nbuf0_3)
abbrev ms4 : Memref sig .tc .vmem S512 .f32 := win0_4.stage (cfg0.slots t 4)
abbrev hs4 : (ms4 t).IsWhole := hstage0_4 ((cfg0.slots t 4).cast nbuf0_4)
abbrev ms5 : Memref sig .tc .vmem S512 .f32 := win0_5.stage (cfg0.slots t 5)
abbrev hs5 : (ms5 t).IsWhole := hstage0_5 ((cfg0.slots t 5).cast nbuf0_5)
abbrev ms6 : Memref sig .tc .vmem S512 .f32 := win0_6.stage (cfg0.slots t 6)
abbrev hs6 : (ms6 t).IsWhole := hstage0_6 ((cfg0.slots t 6).cast nbuf0_6)
abbrev ms7 : Memref sig .tc .vmem S512 .f32 := win0_7.stage (cfg0.slots t 7)
abbrev hs7 : (ms7 t).IsWhole := hstage0_7 ((cfg0.slots t 7).cast nbuf0_7)
abbrev ms8 : Memref sig .tc .vmem S512x512 .bf16 := win0_8.stage (cfg0.slots t 8)
abbrev hs8 : (ms8 t).IsWhole := hstage0_8 ((cfg0.slots t 8).cast nbuf0_8)
abbrev ms9 : Memref sig .tc .vmem S512x512 .bf16 := win0_9.stage (cfg0.slots t 9)
abbrev hs9 : (ms9 t).IsWhole := hstage0_9 ((cfg0.slots t 9).cast nbuf0_9)
abbrev ms10 : Memref sig .tc .vmem S512x512 .bf16 := win0_10.stage (cfg0.slots t 10)
abbrev hs10 : (ms10 t).IsWhole := hstage0_10 ((cfg0.slots t 10).cast nbuf0_10)
abbrev ms11 : Memref sig .tc .vmem S512x1536 .bf16 := win0_11.stage (cfg0.slots t 11)
abbrev hs11 : (ms11 t).IsWhole := hstage0_11 ((cfg0.slots t 11).cast nbuf0_11)
abbrev ms12 : Memref sig .tc .vmem S512x1536 .bf16 := win0_12.stage (cfg0.slots t 12)
abbrev hs12 : (ms12 t).IsWhole := hstage0_12 ((cfg0.slots t 12).cast nbuf0_12)
abbrev ms13 : Memref sig .tc .vmem S1536 .f32 := win0_13.stage (cfg0.slots t 13)
abbrev hs13 : (ms13 t).IsWhole := hstage0_13 ((cfg0.slots t 13).cast nbuf0_13)
abbrev ms14 : Memref sig .tc .vmem S1536 .f32 := win0_14.stage (cfg0.slots t 14)
abbrev hs14 : (ms14 t).IsWhole := hstage0_14 ((cfg0.slots t 14).cast nbuf0_14)
abbrev ms15 : Memref sig .tc .vmem S512x512 .bf16 := win0_15.stage (cfg0.slots t 15)
abbrev hs15 : (ms15 t).IsWhole := hstage0_15 ((cfg0.slots t 15).cast nbuf0_15)
abbrev ms16 : Memref sig .tc .vmem S512 .f32 := win0_16.stage (cfg0.slots t 16)
abbrev hs16 : (ms16 t).IsWhole := hstage0_16 ((cfg0.slots t 16).cast nbuf0_16)
abbrev ms17 : Memref sig .tc .vmem S512x512 .bf16 := win0_17.stage (cfg0.slots t 17)
abbrev hs17 : (ms17 t).IsWhole := hstage0_17 ((cfg0.slots t 17).cast nbuf0_17)
abbrev ms18 : Memref sig .tc .vmem S512 .f32 := win0_18.stage (cfg0.slots t 18)
abbrev hs18 : (ms18 t).IsWhole := hstage0_18 ((cfg0.slots t 18).cast nbuf0_18)
abbrev ms19 : Memref sig .tc .vmem S1x8x512 .f32 := win0_19.stage (cfg0.slots t 19)
abbrev hs19 : (ms19 t).IsWhole := hstage0_19 ((cfg0.slots t 19).cast nbuf0_19)
end
abbrev scK : Memref sig .tc .vmem S4096x512 .bf16 := Memref.whole cc0_scratch0
abbrev scV : Memref sig .tc .vmem S4096x512 .bf16 := Memref.whole cc0_scratch1

theorem PhiA_eq (c : Dev nD) :
    (Pipeline.ΦA spec0 c : sProp 𝕄)
      = iprop(iprop((∃ d, owns (c : Thread nD τ) scK fullShare d) ∗ (∃ d, owns (c : Thread nD τ) scV fullShare d)) ∗ (∃ r, prngReg c r)) := by
  unfold Pipeline.ΦA; rw [scopedRest0_eq]; simp only [scK, scV, owns_whole]; try rfl

theorem live : ∀ (w : Fin cfg0.W) (t : Fin cfg0.N), w ≠ 19 → cfg0.idle w (grid0.coords t) = false := by decide +kernel
theorem idle19 : ∀ t : Fin cfg0.N, ¬lastBlock (grid0.coords t) → cfg0.idle 19 (grid0.coords t) = true := by decide +kernel
theorem noFlush19 : ∀ t : Fin cfg0.N, ¬lastBlock (grid0.coords t) → (cfg0.win 19).flush t = false := by decide +kernel
theorem live19 : ∀ t : Fin cfg0.N, lastBlock (grid0.coords t) → cfg0.idle 19 (grid0.coords t) = false := by decide +kernel
theorem off_eq : ∀ t : Fin cfg0.N, k0_off1 (grid0.coords t) = ![1024 * (t.val % 4), 0] :=
  (by decide +kernel : ∀ t : Fin grid0.N, k0_off1 (grid0.coords t) = ![1024 * (t.val % 4), 0])

def kPiece (c : Dev nD) (t : Fin cfg0.N) : FVec F S1024x512 .bf16 :=
  k0_pay1 (k0_pay32 (iblk m c 0 t) (iblk m c 2 t) (iblk m c 3 t) (iblk m c 8 t))
def vPiece (c : Dev nD) (t : Fin cfg0.N) : FVec F S1024x512 .bf16 :=
  k0_pay2 (k0_pay31 (iblk m c 0 t) (iblk m c 2 t) (iblk m c 3 t) (iblk m c 9 t))

section Rows
variable (M : Memref sig .tc .vmem S4096x512 .bf16) (hM : M.IsWhole) (P : Fin cfg0.N → FVec F S1024x512 .bf16)
  (t : Fin cfg0.N) (xs : Vec F S4096x512 .bf16)

-- A scratch buffer after the stores of point t: the rows of block t % 4 overwritten by P t.
def rowsAfter : Vec F S4096x512 .bf16 :=
  M.view.read (Elt F) (M.view.writes (Elt F) (hM.unread xs)
    [⟨Rect.unit (s := S4096x512) (k0_off1 (grid0.coords t)) S1024x512.size (k0_off1_inb (grid0.coords t)), P t⟩])

theorem rows_new (r : Fin 1024) (e : Fin 512) (ho : 1024 * (t.val % 4) + r.val < 4096) :
    rowsAfter M hM P t xs (ix2 ⟨1024 * (t.val % 4) + r.val, ho⟩ e) = P t (ix2 r e) :=
  View.read_writes_cons_rows_of_mem M.view (hM.unread xs) (k0_off1_inb (grid0.coords t)) (P t) [] (ix2 ⟨_, ho⟩ e) (ix2 r e) (off_eq t) rfl rfl

theorem rows_old (y : S4096x512.Idx) (h : (y 0).val < 1024 * (t.val % 4)) : rowsAfter M hM P t xs y = xs y := by
  unfold rowsAfter
  rw [View.read_writes_cons_rows_of_not_mem M.view (hM.unread xs) (k0_off1_inb (grid0.coords t)) (P t) [] y (off_eq t) rfl (Or.inl h)]
  exact congrFun (hM.read_unread xs) y

-- Before point n the rows of the blocks q < n % 4 of the batch element under way hold what P gives at those blocks' points.
def Good1 (n : ℕ) (hn : n ≤ cfg0.N) : Prop :=
  ∀ (q : ℕ) (hq : q < n % 4) (r : Fin 1024) (e : Fin 512),
    xs (ix2 (⟨1024 * q + r.val, by have := r.isLt; omega⟩ : Fin 4096) e) = P ⟨n - n % 4 + q, by have : cfg0.N = 128 := N_0; omega⟩ (ix2 r e)

-- The stores of point t fill block t % 4's rows and leave the earlier blocks' rows alone.
theorem good1_next (hG : Good1 P xs t.val (Nat.le_of_lt t.isLt)) : Good1 P (rowsAfter M hM P t xs) (t.val + 1) t.isLt := by
  intro q hq r e
  have hN : t.val < 128 := lt_of_lt_of_eq t.isLt (show cfg0.N = 128 from N_0)
  have hr := r.isLt
  by_cases hqt : q = t.val % 4
  · subst hqt
    rw [show (⟨t.val + 1 - (t.val + 1) % 4 + t.val % 4, by omega⟩ : Fin cfg0.N) = t from Fin.ext (by show t.val + 1 - (t.val + 1) % 4 + t.val % 4 = t.val; omega)]
    exact rows_new M hM P t xs r e _
  · rw [show (⟨t.val + 1 - (t.val + 1) % 4 + q, by omega⟩ : Fin cfg0.N) = ⟨t.val - t.val % 4 + q, by omega⟩ from Fin.ext (by show t.val + 1 - (t.val + 1) % 4 + q = t.val - t.val % 4 + q; omega),
      rows_old M hM P t xs _ (by show 1024 * q + r.val < 1024 * (t.val % 4); omega)]
    exact hG q (by omega) r e

-- At a last block the stored rows complete the matrix: block q's rows from block q's point.
theorem full1_last (h3 : t.val % 4 = 3) (hG : Good1 P xs t.val (Nat.le_of_lt t.isLt)) :
    rowsAfter M hM P t xs = fun y => P ⟨t.val - t.val % 4 + (y 0).val / 1024, by have := t.isLt; have := idx2_lt0 y; have : cfg0.N = 128 := N_0; omega⟩
      (ix2 (⟨(y 0).val % 1024, Nat.mod_lt _ (by norm_num)⟩ : Fin 1024) (y 1)) := by
  funext y
  have hN : t.val < 128 := lt_of_lt_of_eq t.isLt (show cfg0.N = 128 from N_0)
  obtain ⟨a, e, rfl⟩ : ∃ (a : Fin 4096) (e : Fin 512), y = ix2 a e := ⟨y 0, y 1, eq_ix2 y⟩
  have ha := a.isLt
  show rowsAfter M hM P t xs (ix2 a e) = P ⟨t.val - t.val % 4 + a.val / 1024, _⟩ (ix2 ⟨a.val % 1024, _⟩ e)
  by_cases hlast : 3072 ≤ a.val
  · rw [show (⟨t.val - t.val % 4 + a.val / 1024, by omega⟩ : Fin cfg0.N) = t from Fin.ext (by show t.val - t.val % 4 + a.val / 1024 = t.val; omega)]
    conv_lhs => rw [show a = (⟨1024 * (t.val % 4) + (⟨a.val % 1024, Nat.mod_lt _ (by norm_num)⟩ : Fin 1024).val, by show 1024 * (t.val % 4) + a.val % 1024 < 4096; omega⟩ : Fin 4096) from
      Fin.ext (by show a.val = 1024 * (t.val % 4) + a.val % 1024; omega)]
    exact rows_new M hM P t xs ⟨a.val % 1024, Nat.mod_lt _ (by norm_num)⟩ e _
  · rw [rows_old M hM P t xs _ (by show a.val < 1024 * (t.val % 4); omega)]
    conv_lhs => rw [show a = (⟨1024 * (a.val / 1024) + (⟨a.val % 1024, Nat.mod_lt _ (by norm_num)⟩ : Fin 1024).val, by show 1024 * (a.val / 1024) + a.val % 1024 < 4096; omega⟩ : Fin 4096) from
      Fin.ext (by show a.val = 1024 * (a.val / 1024) + a.val % 1024; omega)]
    exact hG (a.val / 1024) (by omega) ⟨a.val % 1024, Nat.mod_lt _ (by norm_num)⟩ e

end Rows

def GoodBefore (c : Dev nD) (n : ℕ) (hn : n ≤ cfg0.N) (kv vv : Vec F S4096x512 .bf16) : Prop :=
  Good1 (kPiece m c) kv n hn ∧ Good1 (vPiece m c) vv n hn

def kFull (c : Dev nD) (t : Fin cfg0.N) : Vec F S4096x512 .bf16 := fun y =>
  kPiece m c ⟨t.val - t.val % 4 + (y 0).val / 1024, by have := t.isLt; have := idx2_lt0 y; have : cfg0.N = 128 := N_0; omega⟩
    (ix2 (⟨(y 0).val % 1024, Nat.mod_lt _ (by norm_num)⟩ : Fin 1024) (y 1))
def vFull (c : Dev nD) (t : Fin cfg0.N) : Vec F S4096x512 .bf16 := fun y =>
  vPiece m c ⟨t.val - t.val % 4 + (y 0).val / 1024, by have := t.isLt; have := idx2_lt0 y; have : cfg0.N = 128 := N_0; omega⟩
    (ix2 (⟨(y 0).val % 1024, Nat.mod_lt _ (by norm_num)⟩ : Fin 1024) (y 1))

def PhiS (c : Dev nD) (n : ℕ) (hn : n ≤ cfg0.N) : sProp 𝕄 :=
  iprop(iprop((∃ kv, ∃ vv, ⌜GoodBefore m c n hn kv vv⌝ ∗ owns (c : Thread nD τ) scK fullShare kv ∗ owns (c : Thread nD τ) scV fullShare vv)) ∗ (∃ r, prngReg c r))

def outVal (c : Dev nD) (t : Fin cfg0.N) : Vec F S1x8x512 .f32 :=
  outOf (iblk m c 1 t) (iblk m c 4 t) (iblk m c 5 t) (iblk m c 6 t) (iblk m c 7 t) (iblk m c 10 t) (iblk m c 11 t) (iblk m c 12 t) (iblk m c 13 t) (iblk m c 14 t) (iblk m c 15 t) (iblk m c 16 t) (iblk m c 17 t) (iblk m c 18 t) (kFull m c t) (vFull m c t)

def kAfter (c : Dev nD) (t : Fin cfg0.N) (kv : Vec F S4096x512 .bf16) : Vec F S4096x512 .bf16 :=
  rowsAfter scK (Memref.isWhole_whole _) (kPiece m c) t kv
def vAfter (c : Dev nD) (t : Fin cfg0.N) (vv : Vec F S4096x512 .bf16) : Vec F S4096x512 .bf16 :=
  rowsAfter scV (Memref.isWhole_whole _) (vPiece m c) t vv

theorem good_next (c : Dev nD) (t : Fin cfg0.N) (kv vv : Vec F S4096x512 .bf16)
    (hG : GoodBefore m c t.val (Nat.le_of_lt t.isLt) kv vv) :
    GoodBefore m c (t.val + 1) t.isLt (kAfter m c t kv) (vAfter m c t vv) :=
  ⟨good1_next scK _ (kPiece m c) t kv hG.1, good1_next scV _ (vPiece m c) t vv hG.2⟩

theorem full_last (c : Dev nD) (t : Fin cfg0.N) (h3 : t.val % 4 = 3) (kv vv : Vec F S4096x512 .bf16)
    (hG : GoodBefore m c t.val (Nat.le_of_lt t.isLt) kv vv) :
    kAfter m c t kv = kFull m c t ∧ vAfter m c t vv = vFull m c t :=
  ⟨full1_last scK _ (kPiece m c) t kv h3 hG.1, full1_last scV _ (vPiece m c) t vv h3 hG.2⟩

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => outVal m c t
    | ⟨_ + 20, h⟩ => absurd h (Nat.not_lt.2 (Nat.le_add_left _ _))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem after19 (c : Dev nD) (t : Fin cfg0.N) : (dats m 0 c).after 19 t = outVal m c t := by dsimp only [dats]

theorem leaves_in (c : Dev nD) (w : Fin cfg0.W) (t : Fin cfg0.N) (hw : w ≠ 19) :
    (dats m 0 c).leavesExact w t = owns (c : Thread nD τ) ((cfg0.win w).stage (cfg0.slots t w)) fullShare ((dats m 0 c).after w t) := by
  unfold Dat.leavesExact; rw [live w t hw]

end Cert.KernelIdeal.Body

end
-- ==== Proof.KLastIdeal.lean ====
import proofs.«417374_j33956011442443_3_alg».proof.Proof.KDatIdeal

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

set_option maxHeartbeats 1000000 in
-- The stored piece covers the block, and after this point's stores the scratch buffers are the full key and value matrices.
theorem last_out_eq (c : Dev nD) (t : Fin cfg0.N) (h3 : t.val % 4 = 3)
    (kv vv : Vec F S4096x512 .bf16) (hG : GoodBefore m c t.val (Nat.le_of_lt t.isLt) kv vv) (xo : Vec F S1x8x512 .f32) :
    (ms19 t).view.read (Elt F) ((ms19 t).view.writes (Elt F) ((hs19 t).unread xo)
      [⟨Rect.unit (s := S1x8x512) ![0, 0, 0] S1x8x512.size inb_S1x8x512_S1x8x512_0_0_0,
        outOf (iblk m c 1 t) (iblk m c 4 t) (iblk m c 5 t) (iblk m c 6 t) (iblk m c 7 t) (iblk m c 10 t) (iblk m c 11 t) (iblk m c 12 t) (iblk m c 13 t) (iblk m c 14 t) (iblk m c 15 t) (iblk m c 16 t) (iblk m c 17 t) (iblk m c 18 t) (kAfter m c t kv) (vAfter m c t vv)⟩]) = outVal m c t := by
  rw [View.read_writes_eq_canon _ _ _ (View.cover_of_tiledL _ S1x8x512.size (by sl_kernel_rfl))]
  rw [View.canon_unit_zero (by funext a; fin_cases a <;> rfl)]
  obtain ⟨hk, hv⟩ := full_last m c t h3 kv vv hG
  unfold outVal; rw [← hk, ← hv] <;> rfl

end Cert.KernelIdeal.Body

end
-- ==== Proof.KBodyIdeal.lean ====
import proofs.«417374_j33956011442443_3_alg».proof.Proof.KLastIdeal

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d))
    ∗ (∃ d, owns (c : Thread nD τ) (ms14 t) fullShare ((dats m 0 c).before 14 t d))
    ∗ (∃ d, owns (c : Thread nD τ) (ms15 t) fullShare ((dats m 0 c).before 15 t d))
    ∗ (∃ d, owns (c : Thread nD τ) (ms16 t) fullShare ((dats m 0 c).before 16 t d))
    ∗ (∃ d, owns (c : Thread nD τ) (ms17 t) fullShare ((dats m 0 c).before 17 t d))
    ∗ (∃ d, owns (c : Thread nD τ) (ms18 t) fullShare ((dats m 0 c).before 18 t d))
    ∗ (∃ d, owns (c : Thread nD τ) (ms19 t) fullShare ((dats m 0 c).before 19 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t)

set_option maxHeartbeats 4000000 in
-- The invariant hands the body the scratch buffers with the earlier blocks' rows; the run gives them back with this block's rows written.
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0_of m (dats m 0 c) rfl (fun _ => rfl), before0_1_of m (dats m 0 c) rfl (fun _ => rfl),
    before0_2_of m (dats m 0 c) rfl (fun _ => rfl), before0_3_of m (dats m 0 c) rfl (fun _ => rfl),
    before0_4_of m (dats m 0 c) rfl (fun _ => rfl), before0_5_of m (dats m 0 c) rfl (fun _ => rfl),
    before0_6_of m (dats m 0 c) rfl (fun _ => rfl), before0_7_of m (dats m 0 c) rfl (fun _ => rfl),
    before0_8_of m (dats m 0 c) rfl (fun _ => rfl), before0_9_of m (dats m 0 c) rfl (fun _ => rfl),
    before0_10_of m (dats m 0 c) rfl (fun _ => rfl), before0_11_of m (dats m 0 c) rfl (fun _ => rfl),
    before0_12_of m (dats m 0 c) rfl (fun _ => rfl), before0_13_of m (dats m 0 c) rfl (fun _ => rfl),
    before0_14_of m (dats m 0 c) rfl (fun _ => rfl), before0_15_of m (dats m 0 c) rfl (fun _ => rfl),
    before0_16_of m (dats m 0 c) rfl (fun _ => rfl), before0_17_of m (dats m 0 c) rfl (fun _ => rfl),
    before0_18_of m (dats m 0 c) rfl (fun _ => rfl)]
  rw [show (dats m 0 c).owesAt () t.succ = (dats m 0 c).owesAt () t.castSucc from rfl,
    show (dats m 0 c).Φ t.succ = PhiS m c (t.val + 1) t.isLt from rfl,
    show (dats m 0 c).Φ t.castSucc = PhiS m c t.val (Nat.le_of_lt t.isLt) from rfl,
    show (dats m 0 c).leavesExact 0 t = owns (c : Thread nD τ) (ms0 t) fullShare (iblk m c 0 t) from leaves_in m c 0 t (by decide),
    show (dats m 0 c).leavesExact 1 t = owns (c : Thread nD τ) (ms1 t) fullShare (iblk m c 1 t) from leaves_in m c 1 t (by decide),
    show (dats m 0 c).leavesExact 2 t = owns (c : Thread nD τ) (ms2 t) fullShare (iblk m c 2 t) from leaves_in m c 2 t (by decide),
    show (dats m 0 c).leavesExact 3 t = owns (c : Thread nD τ) (ms3 t) fullShare (iblk m c 3 t) from leaves_in m c 3 t (by decide),
    show (dats m 0 c).leavesExact 4 t = owns (c : Thread nD τ) (ms4 t) fullShare (iblk m c 4 t) from leaves_in m c 4 t (by decide),
    show (dats m 0 c).leavesExact 5 t = owns (c : Thread nD τ) (ms5 t) fullShare (iblk m c 5 t) from leaves_in m c 5 t (by decide),
    show (dats m 0 c).leavesExact 6 t = owns (c : Thread nD τ) (ms6 t) fullShare (iblk m c 6 t) from leaves_in m c 6 t (by decide),
    show (dats m 0 c).leavesExact 7 t = owns (c : Thread nD τ) (ms7 t) fullShare (iblk m c 7 t) from leaves_in m c 7 t (by decide),
    show (dats m 0 c).leavesExact 8 t = owns (c : Thread nD τ) (ms8 t) fullShare (iblk m c 8 t) from leaves_in m c 8 t (by decide),
    show (dats m 0 c).leavesExact 9 t = owns (c : Thread nD τ) (ms9 t) fullShare (iblk m c 9 t) from leaves_in m c 9 t (by decide),
    show (dats m 0 c).leavesExact 10 t = owns (c : Thread nD τ) (ms10 t) fullShare (iblk m c 10 t) from leaves_in m c 10 t (by decide),
    show (dats m 0 c).leavesExact 11 t = owns (c : Thread nD τ) (ms11 t) fullShare (iblk m c 11 t) from leaves_in m c 11 t (by decide),
    show (dats m 0 c).leavesExact 12 t = owns (c : Thread nD τ) (ms12 t) fullShare (iblk m c 12 t) from leaves_in m c 12 t (by decide),
    show (dats m 0 c).leavesExact 13 t = owns (c : Thread nD τ) (ms13 t) fullShare (iblk m c 13 t) from leaves_in m c 13 t (by decide),
    show (dats m 0 c).leavesExact 14 t = owns (c : Thread nD τ) (ms14 t) fullShare (iblk m c 14 t) from leaves_in m c 14 t (by decide),
    show (dats m 0 c).leavesExact 15 t = owns (c : Thread nD τ) (ms15 t) fullShare (iblk m c 15 t) from leaves_in m c 15 t (by decide),
    show (dats m 0 c).leavesExact 16 t = owns (c : Thread nD τ) (ms16 t) fullShare (iblk m c 16 t) from leaves_in m c 16 t (by decide),
    show (dats m 0 c).leavesExact 17 t = owns (c : Thread nD τ) (ms17 t) fullShare (iblk m c 17 t) from leaves_in m c 17 t (by decide),
    show (dats m 0 c).leavesExact 18 t = owns (c : Thread nD τ) (ms18 t) fullShare (iblk m c 18 t) from leaves_in m c 18 t (by decide)]
  unfold PhiS
  iintro ⟨⟨⟨%kv, %vv, %hG, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  by_cases h3 : t.val % 4 = 3
  · have hl : lastBlock (grid0.coords t) := (lastBlock_iff t).mpr h3
    rw [show (dats m 0 c).leavesExact 19 t = owns (c : Thread nD τ) (ms19 t) fullShare ((dats m 0 c).after 19 t) from by
      unfold Dat.leavesExact; rw [live19 t hl], after19]
    iapply (runLast c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) scK (Memref.isWhole_whole _) scV (Memref.isWhole_whole _) hl (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) kv vv ((dats m 0 c).before 19 t d19) Set.univ _)
    iframe H0 H1 H2 H3 H4 H5 H6 H7 H8 H9 H10 H11 H12 H13 H14 H15 H16 H17 H18 H19 HS0 HS1
    iintro ⟨H0, H1, H2, H3, H4, H5, H6, H7, H8, H9, H10, H11, H12, H13, H14, H15, H16, H17, H18, H19, HS0, HS1⟩
    iframe Hg Ho H0 H1 H2 H3 H4 H5 H6 H7 H8 H9 H10 H11 H12 H13 H14 H15 H16 H17 H18
    isplitl [HS0 HS1]
    · iexists (kAfter m c t kv), (vAfter m c t vv)
      isplitr
      · ipureintro; exact good_next m c t kv vv hG
      isplitl [HS0]
      · unfold owns; iexists _; isplitr; swap; · iexact HS0
        ipureintro; rfl
      · unfold owns; iexists _; isplitr; swap; · iexact HS1
        ipureintro; rfl
    unfold owns; iexists _; isplitr; swap; · iexact H19
    ipureintro
    exact last_out_eq m c t h3 kv vv hG _
  · have hl : ¬lastBlock (grid0.coords t) := fun h => h3 ((lastBlock_iff t).mp h)
    rw [Dat.leavesExact_idle (dats m 0 c) 19 t (idle19 t hl) (noFlush19 t hl)]
    iapply (runMid c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) scK (Memref.isWhole_whole _) scV (Memref.isWhole_whole _) hl (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) kv vv ((dats m 0 c).before 19 t d19) Set.univ _)
    iframe H0 H1 H2 H3 H4 H5 H6 H7 H8 H9 H10 H11 H12 H13 H14 H15 H16 H17 H18 H19 HS0 HS1
    iintro ⟨H0, H1, H2, H3, H4, H5, H6, H7, H8, H9, H10, H11, H12, H13, H14, H15, H16, H17, H18, H19, HS0, HS1⟩
    iframe Hg Ho H0 H1 H2 H3 H4 H5 H6 H7 H8 H9 H10 H11 H12 H13 H14 H15 H16 H17 H18
    isplitl [HS0 HS1]
    · iexists (kAfter m c t kv), (vAfter m c t vv)
      isplitr
      · ipureintro; exact good_next m c t kv vv hG
      isplitl [HS0]
      · unfold owns; iexists _; isplitr; swap; · iexact HS0
        ipureintro; rfl
      · unfold owns; iexists _; isplitr; swap; · iexact HS1
        ipureintro; rfl
    iexists _; iexact H19

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiA_eq]
  unfold PhiS
  iintro ⟨⟨⟨%kv, HS0⟩, ⟨%vv, HS1⟩⟩, Hg⟩
  isplitl [HS0 HS1]
  · iexists kv, vv
    isplitr
    · ipureintro; exact ⟨fun q hq => absurd hq (by omega), fun q hq => absurd hq (by omega)⟩
    isplitl [HS0]
    · iexact HS0
    iexact HS1
  iexact Hg

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl, PhiA_eq]
  unfold PhiS
  iintro ⟨⟨%kv, %vv, -, HS0, HS1⟩, Hg⟩
  isplitl [HS0 HS1]
  · isplitl [HS0]
    · iexists _; iexact HS0
    iexists _; iexact HS1
  iexact Hg

set_option backward.isDefEq.respectTransparency.types false in
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

end Cert.KernelIdeal.Body

end
-- ==== Proof.KFlush.lean ====
import proofs.«417374_j33956011442443_3_alg».proof.Proof.KDatIdeal
import Idealize.ShloMosaic.Lib.Pipeline.Value
import Idealize.ShloMosaic.Lib.ValueIdx

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

theorem idx_facts19 : ∀ t : Fin cfg0.N, win0_19.index t (0 : Fin 3) = t.val / 4 ∧ win0_19.index t (1 : Fin 3) = 0
    ∧ win0_19.index t (2 : Fin 3) = 0 :=
  (by decide +kernel : ∀ t : Fin grid0.N, _)

def lastPt (b : Fin 32) : Fin cfg0.N := ⟨4 * b.val + 3, by have := b.isLt; have : cfg0.N = 128 := N_0; omega⟩

def kResult (c : Dev nD) : Vec F S32x8x512 .f32 := fun y => outVal m c (lastPt (y 0)) (ix3 0 (y 1) (y 2))

theorem kResult_apply (c : Dev nD) (b : Fin 32) (s : Fin 8) (k : Fin 512) :
    kResult m c (ix3 b s k) = outVal m c (lastPt b) (ix3 0 s k) := rfl

theorem flushed19_eq (c : Dev nD) (t : Fin cfg0.N) (hf : (cfg0.win 19).flush t = true) :
    (dats m 0 c).flushed 19 t = ((cfg0.win 19).blk t).view.read (Elt F) (kResult m c) := by
  have h3 : t.val % 4 = 3 := (flush0_19 t).mp hf
  have hN : t.val < 128 := lt_of_lt_of_eq t.isLt (show cfg0.N = 128 from N_0)
  obtain ⟨e0, e1, e2⟩ := idx_facts19 t
  show (cfg0.win 19).cut (grid0.coords t) ((dats m 0 c).after 19 t) = _
  rw [after19]
  funext j
  obtain ⟨u, s, k, rfl⟩ : ∃ (u : Fin 1) (s : Fin 8) (k : Fin 512), j = ix3 u s k := ⟨j 0, j 1, j 2, eq_ix3 j⟩
  have hu : u = 0 := Fin.ext (by have := u.isLt; omega)
  subst hu
  show outVal m c t (ix3 0 s k) = kResult m c (((cfg0.win 19).blk t).view.emb (ix3 0 s k))
  have hemb : ((cfg0.win 19).blk t).view.emb (ix3 0 s k) = ix3 (⟨t.val / 4, by omega⟩ : Fin 32) s k := by
    funext a
    apply Fin.ext
    match a with
    | ⟨0, _⟩ => show win0_19.index t (0 : Fin 3) * 1 + 1 * (0 : Fin 1).val = t.val / 4; rw [e0]; simp
    | ⟨1, _⟩ => show win0_19.index t (1 : Fin 3) * 8 + 1 * s.val = s.val; omega
    | ⟨2, _⟩ => show win0_19.index t (2 : Fin 3) * 512 + 1 * k.val = k.val; omega
  refine Eq.trans ?_ (congrArg (kResult m c) hemb).symm
  rw [kResult_apply]
  exact congrArg (fun p => outVal m c p (ix3 0 s k)) (Fin.ext (by show t.val = 4 * (t.val / 4) + 3; omega))

theorem cover19 (i : S32x8x512.Idx) :
    ∃ t : Fin cfg0.N, (cfg0.win 19).flush t = true ∧ i ∈ ((cfg0.win 19).blk t).view.set := by
  have hb : (i 0).val < 32 := (i 0).isLt
  have hs : (i 1).val < 8 := (i 1).isLt
  have hk : (i 2).val < 512 := (i 2).isLt
  refine ⟨lastPt (i 0), (flush0_19 _).mpr (by show (4 * (i 0).val + 3) % 4 = 3; omega), ?_⟩
  obtain ⟨e0, e1, e2⟩ := idx_facts19 (lastPt (i 0))
  have e0' : win0_19.index (lastPt (i 0)) (0 : Fin 3) = (4 * (i 0).val + 3) / 4 := e0
  show i ∈ ((View.whole main_v18).slice (win0_19.rect (lastPt (i 0)))).set
  rw [View.set_slice_whole, Rect.mem_set_unit]
  intro a
  match a with
  | ⟨0, _⟩ => show win0_19.index (lastPt (i 0)) (0 : Fin 3) * 1 ≤ (i 0).val ∧ (i 0).val < win0_19.index (lastPt (i 0)) (0 : Fin 3) * 1 + 1; omega
  | ⟨1, _⟩ => show win0_19.index (lastPt (i 0)) (1 : Fin 3) * 8 ≤ (i 1).val ∧ (i 1).val < win0_19.index (lastPt (i 0)) (1 : Fin 3) * 8 + 8; omega
  | ⟨2, _⟩ => show win0_19.index (lastPt (i 0)) (2 : Fin 3) * 512 ≤ (i 2).val ∧ (i 2).val < win0_19.index (lastPt (i 0)) (2 : Fin 3) * 512 + 512; omega

theorem final19 (c : Dev nD) : (dats m 0 c).arrAt 19 cfg0.N = kResult m c :=
  (dats m 0 c).arrAt_eq_of_cover 19 (kResult m c) (fun t hf => flushed19_eq m c t hf) (cover19)

end Cert.KernelIdeal.Body

end
-- ==== Proof.KValue.lean ====
import proofs.«417374_j33956011442443_3_alg».proof.Proof.KBodyIdeal
import proofs.«417374_j33956011442443_3_alg».proof.Proof.KFlush

set_option maxRecDepth 16384

noncomputable section

namespace Cert.KernelIdeal.Body

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (m : (ℓ : Loc nD τ sig) → Buf (Elt F) ℓ) (ρ : Dev nD → PrngReg)

set_option maxHeartbeats 1260000 in

theorem kernel_run : θ_run defs (onTc (τ := τ) (main (F := F))) ⟨m, fun _ => 0, ρ⟩ (fun r => ∀ c : Dev nD,
      r.2.mem ((c.tc : Thread nD τ).loc main_v18) = kResult m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun _ h c => ⟨((h c).1 19).trans (final19 m c),
      ((h c).1 0).trans ((((dats m) 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 2).trans ((((dats m) 0 c).arrAt_in 2 rfl _).trans ((A_eq m c 2).trans (V_main_arg4 m c))),
      ((h c).1 3).trans ((((dats m) 0 c).arrAt_in 3 rfl _).trans ((A_eq m c 3).trans (V_main_arg5 m c))),
      ((h c).1 4).trans ((((dats m) 0 c).arrAt_in 4 rfl _).trans ((A_eq m c 4).trans (V_main_arg6 m c))),
      ((h c).1 5).trans ((((dats m) 0 c).arrAt_in 5 rfl _).trans ((A_eq m c 5).trans (V_main_arg7 m c))),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).1 13).trans ((((dats m) 0 c).arrAt_in 13 rfl _).trans ((A_eq m c 13).trans (V_main_arg13 m c))),
      ((h c).1 14).trans ((((dats m) 0 c).arrAt_in 14 rfl _).trans ((A_eq m c 14).trans (V_main_arg14 m c))),
      ((h c).1 6).trans ((((dats m) 0 c).arrAt_in 6 rfl _).trans ((A_eq m c 6).trans (V_main_arg15 m c))),
      ((h c).1 7).trans ((((dats m) 0 c).arrAt_in 7 rfl _).trans ((A_eq m c 7).trans (V_main_arg16 m c))),
      ((h c).2 main_arg17 (Pipeline.mem_restRefs_of main_arg17 (by decide) (by decide))).trans (V_main_arg17 m c),
      ((h c).1 16).trans ((((dats m) 0 c).arrAt_in 16 rfl _).trans ((A_eq m c 16).trans (V_main_arg18 m c))),
      ((h c).2 main_arg19 (Pipeline.mem_restRefs_of main_arg19 (by decide) (by decide))).trans (V_main_arg19 m c),
      ((h c).1 18).trans ((((dats m) 0 c).arrAt_in 18 rfl _).trans ((A_eq m c 18).trans (V_main_arg20 m c)))⟩) (run_main m ρ)

end Cert.KernelIdeal.Body

end
-- ==== Proof.KBlocks.lean ====
import proofs.«417374_j33956011442443_3_alg».proof.Proof.Gen.KernelIdeal.Frame
import Idealize.ShloMosaic.Lib.ValueIdx

noncomputable section

namespace Cert.KernelIdeal.KBlocks

open Idealize.ShloMosaic Idealize.ShloMosaic.TcCoe Cert.KernelIdeal Cert.KernelIdeal.Gen Idealize.ShloMosaic.ValueIdx
open Idealize.SL Idealize.SL.Sem

variable {F : FTy → Type} [FloatOps F]
variable (m : (ℓ : Loc nD τ sig) → Buf (Elt F) ℓ) (c : Dev nD)

variable (t : Fin cfg0.N)

theorem t_lt : t.val < 128 := by
  have h : t.val < grid0.N := t.isLt
  rw [Gen.N_0] at h
  exact h

theorem idx_facts : ∀ t : Fin cfg0.N, win0_0.index t (0 : Fin 3) = t.val / 4 ∧ win0_0.index t (1 : Fin 3) = t.val % 4
    ∧ win0_0.index t (2 : Fin 3) = 0 ∧ win0_1.index t (0 : Fin 3) = t.val / 4 ∧ win0_1.index t (1 : Fin 3) = 0
    ∧ win0_1.index t (2 : Fin 3) = 0 :=
  (by decide +kernel : ∀ t : Fin grid0.N, _)

theorem blk0 (r : Fin 1024) (k : Fin 512) :
    Gen.iblk m c 0 t (ix3 0 r k)
      = Gen.V m c main_arg0 (ix3 (⟨t.val / 4, by have := t_lt t; omega⟩ : Fin 32)
          (⟨1024 * (t.val % 4) + r.val, by have := r.isLt; omega⟩ : Fin 4096) k) := by
  obtain ⟨e0, e1, e2, -, -, -⟩ := idx_facts t
  show Gen.V m c main_arg0 (((cfg0.win 0).blk t).view.emb (ix3 0 r k)) = _
  refine congrArg (Gen.V m c main_arg0) ?_
  funext a
  apply Fin.ext
  match a with
  | ⟨0, _⟩ => show win0_0.index t (0 : Fin 3) * 1 + 1 * (0 : Fin 1).val = t.val / 4; rw [e0]; simp
  | ⟨1, _⟩ => show win0_0.index t (1 : Fin 3) * 1024 + 1 * r.val = 1024 * (t.val % 4) + r.val; omega
  | ⟨2, _⟩ => show win0_0.index t (2 : Fin 3) * 512 + 1 * k.val = k.val; omega

theorem whole (n k : ℕ) : 0 * n + 1 * k = k := by omega

theorem blk1 (s : Fin 8) (k : Fin 512) :
    Gen.iblk m c 1 t (ix3 0 s k)
      = Gen.V m c main_v3 (ix3 (⟨t.val / 4, by have := t_lt t; omega⟩ : Fin 32) s k) := by
  obtain ⟨-, -, -, e0, e1, e2⟩ := idx_facts t
  show Gen.V m c main_v3 (((cfg0.win 1).blk t).view.emb (ix3 0 s k)) = _
  refine congrArg (Gen.V m c main_v3) ?_
  funext a
  apply Fin.ext
  match a with
  | ⟨0, _⟩ => show win0_1.index t (0 : Fin 3) * 1 + 1 * (0 : Fin 1).val = t.val / 4; rw [e0]; simp
  | ⟨1, _⟩ => show win0_1.index t (1 : Fin 3) * 8 + 1 * s.val = s.val; omega
  | ⟨2, _⟩ => show win0_1.index t (2 : Fin 3) * 512 + 1 * k.val = k.val; omega

theorem blk2 (y : S512.Idx) : Gen.iblk m c 2 t y = Gen.V m c main_arg4 y :=
  congrArg (Gen.V m c main_arg4) (funext fun a => Fin.ext (match a with | ⟨0, _⟩ => whole 512 _))

theorem blk3 (y : S512.Idx) : Gen.iblk m c 3 t y = Gen.V m c main_arg5 y :=
  congrArg (Gen.V m c main_arg5) (funext fun a => Fin.ext (match a with | ⟨0, _⟩ => whole 512 _))

theorem blk4 (y : S512.Idx) : Gen.iblk m c 4 t y = Gen.V m c main_arg6 y :=
  congrArg (Gen.V m c main_arg6) (funext fun a => Fin.ext (match a with | ⟨0, _⟩ => whole 512 _))

theorem blk5 (y : S512.Idx) : Gen.iblk m c 5 t y = Gen.V m c main_arg7 y :=
  congrArg (Gen.V m c main_arg7) (funext fun a => Fin.ext (match a with | ⟨0, _⟩ => whole 512 _))

theorem blk6 (y : S512.Idx) : Gen.iblk m c 6 t y = Gen.V m c main_arg15 y :=
  congrArg (Gen.V m c main_arg15) (funext fun a => Fin.ext (match a with | ⟨0, _⟩ => whole 512 _))

theorem blk7 (y : S512.Idx) : Gen.iblk m c 7 t y = Gen.V m c main_arg16 y :=
  congrArg (Gen.V m c main_arg16) (funext fun a => Fin.ext (match a with | ⟨0, _⟩ => whole 512 _))

theorem blk8 (y : S512x512.Idx) : Gen.iblk m c 8 t y = Gen.V m c main_v5 y :=
  congrArg (Gen.V m c main_v5) (funext fun a => Fin.ext (match a with | ⟨0, _⟩ => whole 512 _ | ⟨1, _⟩ => whole 512 _))

theorem blk9 (y : S512x512.Idx) : Gen.iblk m c 9 t y = Gen.V m c main_v7 y :=
  congrArg (Gen.V m c main_v7) (funext fun a => Fin.ext (match a with | ⟨0, _⟩ => whole 512 _ | ⟨1, _⟩ => whole 512 _))

theorem blk10 (y : S512x512.Idx) : Gen.iblk m c 10 t y = Gen.V m c main_v9 y :=
  congrArg (Gen.V m c main_v9) (funext fun a => Fin.ext (match a with | ⟨0, _⟩ => whole 512 _ | ⟨1, _⟩ => whole 512 _))

theorem blk11 (y : S512x1536.Idx) : Gen.iblk m c 11 t y = Gen.V m c main_v11 y :=
  congrArg (Gen.V m c main_v11) (funext fun a => Fin.ext (match a with | ⟨0, _⟩ => whole 512 _ | ⟨1, _⟩ => whole 1536 _))

theorem blk12 (y : S512x1536.Idx) : Gen.iblk m c 12 t y = Gen.V m c main_v13 y :=
  congrArg (Gen.V m c main_v13) (funext fun a => Fin.ext (match a with | ⟨0, _⟩ => whole 512 _ | ⟨1, _⟩ => whole 1536 _))

theorem blk13 (y : S1536.Idx) : Gen.iblk m c 13 t y = Gen.V m c main_arg13 y :=
  congrArg (Gen.V m c main_arg13) (funext fun a => Fin.ext (match a with | ⟨0, _⟩ => whole 1536 _))

theorem blk14 (y : S1536.Idx) : Gen.iblk m c 14 t y = Gen.V m c main_arg14 y :=
  congrArg (Gen.V m c main_arg14) (funext fun a => Fin.ext (match a with | ⟨0, _⟩ => whole 1536 _))

theorem blk15 (y : S512x512.Idx) : Gen.iblk m c 15 t y = Gen.V m c main_v15 y :=
  congrArg (Gen.V m c main_v15) (funext fun a => Fin.ext (match a with | ⟨0, _⟩ => whole 512 _ | ⟨1, _⟩ => whole 512 _))

theorem blk16 (y : S512.Idx) : Gen.iblk m c 16 t y = Gen.V m c main_arg18 y :=
  congrArg (Gen.V m c main_arg18) (funext fun a => Fin.ext (match a with | ⟨0, _⟩ => whole 512 _))

theorem blk17 (y : S512x512.Idx) : Gen.iblk m c 17 t y = Gen.V m c main_v17 y :=
  congrArg (Gen.V m c main_v17) (funext fun a => Fin.ext (match a with | ⟨0, _⟩ => whole 512 _ | ⟨1, _⟩ => whole 512 _))

theorem blk18 (y : S512.Idx) : Gen.iblk m c 18 t y = Gen.V m c main_arg20 y :=
  congrArg (Gen.V m c main_arg20) (funext fun a => Fin.ext (match a with | ⟨0, _⟩ => whole 512 _))

end Cert.KernelIdeal.KBlocks

end
-- ==== Proof.Spec.lean ====
import Idealize.ShloMosaic.PureOps.Ideal

noncomputable section

namespace Cert.Spec

open Idealize.ShloMosaic

def c512 : EReal := Ideal.ofBits .f32 0x44000000#32

def epsLN : EReal := Ideal.ofBits .f32 0x3727C5AC#32

def epsA : EReal := Ideal.ofBits .f32 0x322BCC77#32

def one32 : EReal := Ideal.ofBits .f32 0x3F800000#32

def zero32 : EReal := Ideal.ofBits .f32 0x00000000#32

def band0 (k : Fin 512) : Fin 1536 := ⟨k.val, by omega⟩
def band1 (k : Fin 512) : Fin 1536 := ⟨512 + k.val, by omega⟩
def band2 (k : Fin 512) : Fin 1536 := ⟨1024 + k.val, by omega⟩

variable {n : ℕ}

def mean (x : Fin n → Fin 512 → EReal) (i : Fin n) : EReal := Ideal.div (∑ k, x i k) c512

def varOnePass (x : Fin n → Fin 512 → EReal) (i : Fin n) : EReal :=
  Ideal.div (∑ k, x i k * x i k) c512 - mean x i * mean x i

def varCentred (x : Fin n → Fin 512 → EReal) (i : Fin n) : EReal :=
  Ideal.div (∑ k, (x i k - mean x i) * (x i k - mean x i)) c512

def layerNorm (var : (Fin n → Fin 512 → EReal) → Fin n → EReal) (x : Fin n → Fin 512 → EReal) (g b : Fin 512 → EReal)
    (i : Fin n) (k : Fin 512) : EReal :=
  (x i k - mean x i) * Ideal.rsqrt (var x i + epsLN) * g k + b k

def lin {m : ℕ} (x : Fin n → Fin 512 → EReal) (w : Fin m → Fin 512 → EReal) (i : Fin n) (e : Fin m) : EReal :=
  ∑ d, x i d * w e d

def slots0 (mu sigma noise : Fin 8 → Fin 512 → EReal) (s : Fin 8) (k : Fin 512) : EReal :=
  mu s k + sigma s k * noise s k

structure Weights where
  ln_s_g : Fin 512 → EReal
  ln_s_b : Fin 512 → EReal
  wq : Fin 512 → Fin 512 → EReal
  w_ih : Fin 1536 → Fin 512 → EReal
  w_hh : Fin 1536 → Fin 512 → EReal
  b_ih : Fin 1536 → EReal
  b_hh : Fin 1536 → EReal
  ln_m_g : Fin 512 → EReal
  ln_m_b : Fin 512 → EReal
  w1 : Fin 512 → Fin 512 → EReal
  b1 : Fin 512 → EReal
  w2 : Fin 512 → Fin 512 → EReal
  b2 : Fin 512 → EReal

section Step

variable (var : (Fin 8 → Fin 512 → EReal) → Fin 8 → EReal) (W : Weights)
  (K V : Fin 4096 → Fin 512 → EReal) (s : Fin 8 → Fin 512 → EReal)

def query (i : Fin 8) (e : Fin 512) : EReal := lin (layerNorm var s W.ln_s_g W.ln_s_b) W.wq i e

def logit (i : Fin 8) (t : Fin 4096) : EReal := ∑ e, query var W s i e * K t e

def logitMax (t : Fin 4096) : EReal := Finset.univ.sup fun i => logit var W K s i t

def expo (i : Fin 8) (t : Fin 4096) : EReal := Ideal.exp (logit var W K s i t - logitMax var W K s t)

def softEps (i : Fin 8) (t : Fin 4096) : EReal :=
  Ideal.div (expo var W K s i t) (∑ j, expo var W K s j t) + epsA

def attn (i : Fin 8) (t : Fin 4096) : EReal :=
  Ideal.div (softEps var W K s i t) (∑ j, softEps var W K s j t)

def update (i : Fin 8) (k : Fin 512) : EReal := ∑ t, attn var W K s i t * V t k

def gateI (i : Fin 8) (j : Fin 1536) : EReal := lin (update var W K V s) W.w_ih i j + W.b_ih j
def gateH (i : Fin 8) (j : Fin 1536) : EReal := lin s W.w_hh i j + W.b_hh j

def gruR (i : Fin 8) (k : Fin 512) : EReal :=
  Ideal.logistic (gateI var W K V s i (band0 k) + gateH W s i (band0 k))
def gruZ (i : Fin 8) (k : Fin 512) : EReal :=
  Ideal.logistic (gateI var W K V s i (band1 k) + gateH W s i (band1 k))
def gruN (i : Fin 8) (k : Fin 512) : EReal :=
  Ideal.tanh (gateI var W K V s i (band2 k) + gruR var W K V s i k * gateH W s i (band2 k))

def gru (i : Fin 8) (k : Fin 512) : EReal :=
  (one32 - gruZ var W K V s i k) * gruN var W K V s i k + gruZ var W K V s i k * s i k

def hidden (i : Fin 8) (e : Fin 512) : EReal :=
  max (lin (layerNorm var (gru var W K V s) W.ln_m_g W.ln_m_b) W.w1 i e + W.b1 e) zero32

def step (i : Fin 8) (e : Fin 512) : EReal :=
  gru var W K V s i e + lin (hidden var W K V s) W.w2 i e + W.b2 e

end Step

def project (var : (Fin 4096 → Fin 512 → EReal) → Fin 4096 → EReal) (x : Fin 4096 → Fin 512 → EReal)
    (g b : Fin 512 → EReal) (w : Fin 512 → Fin 512 → EReal) : Fin 4096 → Fin 512 → EReal :=
  lin (layerNorm var x g b) w

def slotAttention (var8 : (Fin 8 → Fin 512 → EReal) → Fin 8 → EReal)
    (var4096 : (Fin 4096 → Fin 512 → EReal) → Fin 4096 → EReal) (W : Weights)
    (x : Fin 4096 → Fin 512 → EReal) (ln_in_g ln_in_b : Fin 512 → EReal) (wk wv : Fin 512 → Fin 512 → EReal)
    (mu sigma noise : Fin 8 → Fin 512 → EReal) : Fin 8 → Fin 512 → EReal :=
  let K := project var4096 x ln_in_g ln_in_b wk
  let V := project var4096 x ln_in_g ln_in_b wv
  step var8 W K V (step var8 W K V (step var8 W K V (slots0 mu sigma noise)))

def slotAttentionOnePass := slotAttention varOnePass varOnePass

def slotAttentionCentred := slotAttention varCentred varCentred

end Cert.Spec

end
-- ==== Proof.LibColumn.lean ====
import Idealize.ShloMosaic.Lib.Pipeline.Value
import Idealize.ShloMosaic.Lib.ValueIdx

namespace Cert.Column

open Idealize.ShloMosaic Idealize.ShloMosaic.ValueIdx

variable {α : Type}

theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.Column
-- ==== Proof.KStepDef.lean ====
import proofs.«417374_j33956011442443_3_alg».proof.KernelIdeal
import proofs.«417374_j33956011442443_3_alg».proof.Proof.Spec
import proofs.«417374_j33956011442443_3_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KStep

open Cert.KernelIdeal Idealize.ShloMosaic Idealize.SL.Sem Idealize.ShloMosaic.ValueIdx

variable [Facts]
open Facts₀ Facts

section Program

variable {F : FTy → Type} [FloatOps F]

def kLN (v69 : FVec F S8x512 .f32) (v64 v65 : Vec F S512 .f32) : FVec F S8x512 .f32 :=
  have cst_37 : FVec F S8 .f32 := constant S8 .f32 0x00000000#32
  have v70 : FVec F S8 .f32 := multiReduction .add [1] S8 v69 0x00000000#32 reduces_S8x512_S8 (.inl rfl) rfl
  have v71 : FVec F S8x1 .f32 := shapeCast S8x1 v70 shapeCasts_S8_S8x1
  have cst_38 : F .f32 := Scalar.ofBits .f32 0x44000000#32
  have v72 : FVec F S8x1 .f32 := broadcast S8x1 cst_38
  have v73 : FVec F S8x1 .f32 := divf v71 v72
  have v74 : FVec F S8x512 .f32 := mulf v69 v69
  have cst_39 : FVec F S8 .f32 := constant S8 .f32 0x00000000#32
  have v75 : FVec F S8 .f32 := multiReduction .add [1] S8 v74 0x00000000#32 reduces_S8x512_S8 (.inl rfl) rfl
  have v76 : FVec F S8x1 .f32 := shapeCast S8x1 v75 shapeCasts_S8_S8x1
  have cst_40 : F .f32 := Scalar.ofBits .f32 0x44000000#32
  have v77 : FVec F S8x1 .f32 := broadcast S8x1 cst_40
  have v78 : FVec F S8x1 .f32 := divf v76 v77
  have v79 : FVec F S8x1 .f32 := mulf v73 v73
  have v80 : FVec F S8x1 .f32 := subf v78 v79
  have v81 : FVec F S8x512 .f32 := broadcastTo S8x512 v73 broadcasts_S8x1_S8x512
  have v82 : FVec F S8x512 .f32 := subf v69 v81
  have cst_41 : F .f32 := Scalar.ofBits .f32 0x3727C5AC#32
  have v83 : FVec F S8x1 .f32 := broadcast S8x1 cst_41
  have v84 : FVec F S8x1 .f32 := addf v80 v83
  have v85 : FVec F S8x1 .f32 := rsqrt v84
  have v86 : FVec F S8x512 .f32 := broadcastTo S8x512 v85 broadcasts_S8x1_S8x512
  have v87 : FVec F S8x512 .f32 := mulf v82 v86
  have v88 : FVec F S1x512 .f32 := shapeCast S1x512 v64 shapeCasts_S512_S1x512
  have v89 : FVec F S8x512 .f32 := broadcastTo S8x512 v88 broadcasts_S1x512_S8x512
  have v90 : FVec F S8x512 .f32 := mulf v87 v89
  have v91 : FVec F S1x512 .f32 := shapeCast S1x512 v65 shapeCasts_S512_S1x512
  have v92 : FVec F S8x512 .f32 := broadcastTo S8x512 v91 broadcasts_S1x512_S8x512
  have v93 : FVec F S8x512 .f32 := addf v90 v92
  v93

def kQuery (v93 : FVec F S8x512 .f32) (v51 : FVec F S512x512 .bf16) : FVec F S8x512 .bf16 :=
  have v94 : FVec F S8x512 .bf16 := truncf .bf16 v93 bitsLt_bf16_f32
  have cst_42 : FVec F S8x512 .f32 := constant S8x512 .f32 0x00000000#32
  have v95 : FVec F S8x512 .f32 := matmul dot_S8x512_S512x512_S8x512_1_0_0_1_n_n none v94 v51 cst_42
  have v96 : FVec F S8x512 .bf16 := truncf .bf16 v95 bitsLt_bf16_f32
  v96

def kLogit (v96 : FVec F S8x512 .bf16) (v97 : Vec F S4096x512 .bf16) : FVec F S8x4096 .f32 :=
  have cst_45 : FVec F S8x4096 .f32 := constant S8x4096 .f32 0x00000000#32
  have v98 : FVec F S8x4096 .f32 := matmul dot_S8x512_S4096x512_S8x4096_1_1_0_0_n_n none v96 v97 cst_45
  v98

def kSoft (v98 : FVec F S8x4096 .f32) : FVec F S8x4096 .bf16 :=
  have cst_46 : FVec F S4096 .f32 := constant S4096 .f32 0xFF800000#32
  have v99 : FVec F S4096 .f32 := multiReduction .maximumf [0] S4096 v98 0xFF800000#32 reduces_S8x4096_S4096 (.inl rfl) rfl
  have v100 : FVec F S1x4096 .f32 := shapeCast S1x4096 v99 shapeCasts_S4096_S1x4096
  have v101 : FVec F S8x4096 .f32 := broadcastTo S8x4096 v100 broadcasts_S1x4096_S8x4096
  have v102 : FVec F S8x4096 .f32 := subf v98 v101
  have v103 : FVec F S8x4096 .f32 := exp v102
  have cst_47 : FVec F S4096 .f32 := constant S4096 .f32 0x00000000#32
  have v104 : FVec F S4096 .f32 := multiReduction .add [0] S4096 v103 0x00000000#32 reduces_S8x4096_S4096 (.inl rfl) rfl
  have v105 : FVec F S1x4096 .f32 := shapeCast S1x4096 v104 shapeCasts_S4096_S1x4096
  have v106 : FVec F S8x4096 .f32 := broadcastTo S8x4096 v105 broadcasts_S1x4096_S8x4096
  have v107 : FVec F S8x4096 .f32 := divf v103 v106
  have cst_48 : F .f32 := Scalar.ofBits .f32 0x322BCC77#32
  have v108 : FVec F S8x4096 .f32 := broadcast S8x4096 cst_48
  have v109 : FVec F S8x4096 .f32 := addf v107 v108
  have cst_49 : FVec F S4096 .f32 := constant S4096 .f32 0x00000000#32
  have v110 : FVec F S4096 .f32 := multiReduction .add [0] S4096 v109 0x00000000#32 reduces_S8x4096_S4096 (.inl rfl) rfl
  have v111 : FVec F S1x4096 .f32 := shapeCast S1x4096 v110 shapeCasts_S4096_S1x4096
  have v112 : FVec F S8x4096 .f32 := broadcastTo S8x4096 v111 broadcasts_S1x4096_S8x4096
  have v113 : FVec F S8x4096 .f32 := divf v109 v112
  have v114 : FVec F S8x4096 .bf16 := truncf .bf16 v113 bitsLt_bf16_f32
  v114

def kUpdate (v114 : FVec F S8x4096 .bf16) (v115 : Vec F S4096x512 .bf16) : FVec F S8x512 .bf16 :=
  have cst_52 : FVec F S8x512 .f32 := constant S8x512 .f32 0x00000000#32
  have v116 : FVec F S8x512 .f32 := matmul dot_S8x4096_S4096x512_S8x512_1_0_0_1_n_n none v114 v115 cst_52
  have v117 : FVec F S8x512 .bf16 := truncf .bf16 v116 bitsLt_bf16_f32
  v117

def kGate (v117 : FVec F S8x512 .bf16) (v53 : FVec F S512x1536 .bf16) (v56 : Vec F S1536 .f32) : FVec F S8x1536 .f32 :=
  have cst_53 : FVec F S8x1536 .f32 := constant S8x1536 .f32 0x00000000#32
  have v118 : FVec F S8x1536 .f32 := matmul dot_S8x512_S512x1536_S8x1536_1_0_0_1_n_n none v117 v53 cst_53
  have v119 : FVec F S1x1536 .f32 := shapeCast S1x1536 v56 shapeCasts_S1536_S1x1536
  have v120 : FVec F S8x1536 .f32 := broadcastTo S8x1536 v119 broadcasts_S1x1536_S8x1536
  have v121 : FVec F S8x1536 .f32 := addf v118 v120
  v121

def kGru (v121 v126 : FVec F S8x1536 .f32) (v69 : FVec F S8x512 .f32) : FVec F S8x512 .f32 :=
  have v127 : FVec F S8x512 .f32 := extractStridedSlice S8x512 ![0, 0] v121 slices_S8x1536_o0_0_S8x512
  have v128 : FVec F S8x512 .f32 := extractStridedSlice S8x512 ![0, 512] v121 slices_S8x1536_o0_512_S8x512
  have v129 : FVec F S8x512 .f32 := extractStridedSlice S8x512 ![0, 1024] v121 slices_S8x1536_o0_1024_S8x512
  have v130 : FVec F S8x512 .f32 := extractStridedSlice S8x512 ![0, 0] v126 slices_S8x1536_o0_0_S8x512
  have v131 : FVec F S8x512 .f32 := extractStridedSlice S8x512 ![0, 512] v126 slices_S8x1536_o0_512_S8x512
  have v132 : FVec F S8x512 .f32 := extractStridedSlice S8x512 ![0, 1024] v126 slices_S8x1536_o0_1024_S8x512
  have v133 : FVec F S8x512 .f32 := addf v127 v130
  have v134 : FVec F S8x512 .f32 := logistic v133
  have v135 : FVec F S8x512 .f32 := addf v128 v131
  have v136 : FVec F S8x512 .f32 := logistic v135
  have v137 : FVec F S8x512 .f32 := mulf v134 v132
  have v138 : FVec F S8x512 .f32 := addf v129 v137
  have v139 : FVec F S8x512 .f32 := tanh v138
  have cst_55 : F .f32 := Scalar.ofBits .f32 0x3F800000#32
  have v140 : FVec F S8x512 .f32 := broadcast S8x512 cst_55
  have v141 : FVec F S8x512 .f32 := subf v140 v136
  have v142 : FVec F S8x512 .f32 := mulf v141 v139
  have v143 : FVec F S8x512 .f32 := mulf v136 v69
  have v144 : FVec F S8x512 .f32 := addf v142 v143
  v144

def kMlp (v144 v168 : FVec F S8x512 .f32) (v59 : FVec F S512x512 .bf16) (v60 : Vec F S512 .f32) (v62 : FVec F S512x512 .bf16) (v63 : Vec F S512 .f32) : FVec F S8x512 .f32 :=
  have v169 : FVec F S8x512 .bf16 := truncf .bf16 v168 bitsLt_bf16_f32
  have cst_61 : FVec F S8x512 .f32 := constant S8x512 .f32 0x00000000#32
  have v170 : FVec F S8x512 .f32 := matmul dot_S8x512_S512x512_S8x512_1_0_0_1_n_n none v169 v59 cst_61
  have v171 : FVec F S1x512 .f32 := shapeCast S1x512 v60 shapeCasts_S512_S1x512
  have v172 : FVec F S8x512 .f32 := broadcastTo S8x512 v171 broadcasts_S1x512_S8x512
  have v173 : FVec F S8x512 .f32 := addf v170 v172
  have cst_62 : F .f32 := Scalar.ofBits .f32 0x00000000#32
  have v174 : FVec F S8x512 .f32 := broadcast S8x512 cst_62
  have v175 : FVec F S8x512 .f32 := maximumf v173 v174
  have v176 : FVec F S8x512 .bf16 := truncf .bf16 v175 bitsLt_bf16_f32
  have cst_63 : FVec F S8x512 .f32 := constant S8x512 .f32 0x00000000#32
  have v177 : FVec F S8x512 .f32 := matmul dot_S8x512_S512x512_S8x512_1_0_0_1_n_n none v176 v62 cst_63
  have v178 : FVec F S8x512 .f32 := addf v144 v177
  have v179 : FVec F S1x512 .f32 := shapeCast S1x512 v63 shapeCasts_S512_S1x512
  have v180 : FVec F S8x512 .f32 := broadcastTo S8x512 v179 broadcasts_S1x512_S8x512
  have v181 : FVec F S8x512 .f32 := addf v178 v180
  v181

def kStep (v51 : FVec F S512x512 .bf16) (v53 v55 : FVec F S512x1536 .bf16) (v56 v57 : Vec F S1536 .f32)
    (v59 : FVec F S512x512 .bf16) (v60 : Vec F S512 .f32) (v62 : FVec F S512x512 .bf16) (v63 v64 v65 v66 v67 : Vec F S512 .f32)
    (v97 v115 : Vec F S4096x512 .bf16) (v69 : FVec F S8x512 .f32) : FVec F S8x512 .f32 :=
  kMlp
          (kGru (kGate (kUpdate (kSoft (kLogit (kQuery (kLN v69 v64 v65) v51) v97)) v115) v53 v56)
            (kGate (truncf .bf16 v69 bitsLt_bf16_f32) v55 v57) v69)
          (kLN (kGru (kGate (kUpdate (kSoft (kLogit (kQuery (kLN v69 v64 v65) v51) v97)) v115) v53 v56)
            (kGate (truncf .bf16 v69 bitsLt_bf16_f32) v55 v57) v69) v66 v67)
          v59 v60 v62 v63

end Program

def kW (v51 : FVec Ideal S512x512 .bf16) (v53 v55 : FVec Ideal S512x1536 .bf16) (v56 v57 : Vec Ideal S1536 .f32)
    (v59 : FVec Ideal S512x512 .bf16) (v60 : Vec Ideal S512 .f32) (v62 : FVec Ideal S512x512 .bf16)
    (v63 v64 v65 v66 v67 : Vec Ideal S512 .f32) : Cert.Spec.Weights where
  ln_s_g k := v64 (ix1 k)
  ln_s_b k := v65 (ix1 k)
  wq e d := v51 (ix2 d e)
  w_ih j k := v53 (ix2 k j)
  w_hh j k := v55 (ix2 k j)
  b_ih j := v56 (ix1 j)
  b_hh j := v57 (ix1 j)
  ln_m_g k := v66 (ix1 k)
  ln_m_b k := v67 (ix1 k)
  w1 e k := v59 (ix2 k e)
  b1 e := v60 (ix1 e)
  w2 e k := v62 (ix2 k e)
  b2 e := v63 (ix1 e)

section Read

variable {s : Shape} {φ : FTy}

theorem rsqrt_apply (a : FVec Ideal s φ) (i : s.Idx) : rsqrt a i = Ideal.rsqrt (a i) := rfl
theorem exp_apply (a : FVec Ideal s φ) (i : s.Idx) : exp a i = Ideal.exp (a i) := rfl
theorem tanh_apply (a : FVec Ideal s φ) (i : s.Idx) : tanh a i = Ideal.tanh (a i) := rfl
theorem logistic_apply (a : FVec Ideal s φ) (i : s.Idx) : logistic a i = Ideal.logistic (a i) := rfl

theorem ofBits_neg_inf : Ideal.ofBits .f32 0xFF800000#32 = ⊥ := by simp [Ideal.ofBits, Ideal.ieee]

theorem rowSum_apply (x : FVec Ideal S8x512 .f32) (hφ : FTy.f32 = FTy.f32 ∨ FTy.f32 = FTy.bf16)
    (hacc : (0x00000000#32 : BitVec FTy.f32.bits) = 0x00000000#32) (i : Fin 8) :
    multiReduction (F := Ideal) .add [1] S8 x 0x00000000#32 reduces_S8x512_S8 hφ hacc (ix1 i)
      = ∑ k : Fin 512, x (ix2 i k) :=
  (Ideal.multiReduction_add_single x _ reduces_S8x512_S8 hφ hacc (ix1 i)).trans
    (Finset.sum_congr rfl fun k _ => congrArg x (funext fun a => Fin.ext (match a with | ⟨0, _⟩ => rfl | ⟨1, _⟩ => rfl)))

-- A column's index with the row put back.
theorem lift_col (t : Fin 4096) (k : Fin 8) : reduces_S8x4096_S4096.lift (ix1 t) k = ix2 k t :=
  funext fun a => Fin.ext (match a with | ⟨0, _⟩ => rfl | ⟨1, _⟩ => rfl)

theorem colSum_apply (x : FVec Ideal S8x4096 .f32) (t : Fin 4096) :
    multiReduction (F := Ideal) .add [0] S4096 x 0x00000000#32 reduces_S8x4096_S4096 (.inl rfl) rfl (ix1 t)
      = ∑ j : Fin 8, x (ix2 j t) :=
  (Ideal.multiReduction_add_single x _ _ _ _ (ix1 t)).trans (Finset.sum_congr rfl fun k _ => congrArg x (lift_col t k))

-- `Finset.sup` is the fold of `max` from `⊥`, which is what the accumulator's word reads as.
theorem colMax_apply (x : FVec Ideal S8x4096 .f32) (t : Fin 4096) :
    multiReduction (F := Ideal) .maximumf [0] S4096 x 0xFF800000#32 reduces_S8x4096_S4096 (.inl rfl) rfl (ix1 t)
      = Finset.univ.sup fun j : Fin 8 => x (ix2 j t) := by
  refine (Ideal.multiReduction_maximumf_single x _ _ _ _ (ix1 t)).trans ?_
  rw [Ideal.ofBits_def, ofBits_neg_inf]
  exact congrArg (Finset.sup Finset.univ) (funext fun k => congrArg x (lift_col t k))

theorem matmul_plain_apply {m k n : ℕ} {φ₁ φ₂ : FTy} (A : FVec Ideal ⟨2, ![m, k]⟩ φ₁) (B : FVec Ideal ⟨2, ![k, n]⟩ φ₂) (a : Fin m) (b : Fin n) :
    matmul (DotDims.plain m k n) none A B (constant (F := Ideal) ⟨2, ![m, n]⟩ .f32 0x00000000#32) (ix2 a b) = ∑ c : Fin k, A (ix2 a c) * B (ix2 c b) := by
  show FloatOps.matmul _ none A B _ (ix2 a b) = _
  rw [Ideal.matmul_constant_zero_apply, ← Equiv.sum_comp (contrEquiv1 (DotDims.plain m k n) k rfl rfl).symm]
  refine Finset.sum_congr rfl fun c _ => ?_
  have c2 := contrEquiv1_symm_val (DotDims.plain m k n) k rfl rfl c
  congr 2 <;> funext ax <;> apply Fin.ext <;> fin_cases ax <;> simp [DotDims.lhsIdx, DotDims.rhsIdx, DotDims.plain] <;> first | rfl | exact c2

theorem matmul_transposedRhs_apply {m k n : ℕ} {φ₁ φ₂ : FTy} (A : FVec Ideal ⟨2, ![m, k]⟩ φ₁) (B : FVec Ideal ⟨2, ![n, k]⟩ φ₂) (a : Fin m) (b : Fin n) :
    matmul (DotDims.transposedRhs m k n) none A B (constant (F := Ideal) ⟨2, ![m, n]⟩ .f32 0x00000000#32) (ix2 a b) = ∑ c : Fin k, A (ix2 a c) * B (ix2 b c) := by
  show FloatOps.matmul _ none A B _ (ix2 a b) = _
  rw [Ideal.matmul_constant_zero_apply, ← Equiv.sum_comp (contrEquiv1 (DotDims.transposedRhs m k n) k rfl rfl).symm]
  refine Finset.sum_congr rfl fun c _ => ?_
  have c2 := contrEquiv1_symm_val (DotDims.transposedRhs m k n) k rfl rfl c
  congr 2 <;> funext ax <;> apply Fin.ext <;> fin_cases ax <;> simp [DotDims.lhsIdx, DotDims.rhsIdx, DotDims.transposedRhs] <;> first | rfl | exact c2

end Read

section Stages

theorem kLN_apply (x : FVec Ideal S8x512 .f32) (g b : Vec Ideal S512 .f32) (i : Fin 8) (k : Fin 512) :
    kLN x g b (ix2 i k)
      = Spec.layerNorm Spec.varOnePass (fun i k => x (ix2 i k)) (fun k => g (ix1 k)) (fun k => b (ix1 k)) i k := by
  unfold kLN
  simp only [addf_apply, mulf_apply, subf_apply, divf_apply, broadcast_apply, rsqrt_apply,
    Cert.Column.broadcastTo_a1_ab_apply, Cert.Column.shapeCast_a_a1_apply, broadcastTo_1b_ab_apply, shapeCast_a_1a_apply]
  rw [rowSum_apply, rowSum_apply]
  simp only [mulf_apply]
  rfl

theorem kQuery_apply (y : FVec Ideal S8x512 .f32) (w : FVec Ideal S512x512 .bf16) (i : Fin 8) (e : Fin 512) :
    kQuery y w (ix2 i e) = ∑ d : Fin 512, y (ix2 i d) * w (ix2 d e) := by
  unfold kQuery
  simp only [truncf_apply]
  exact matmul_plain_apply _ w i e

theorem kLogit_apply (q : FVec Ideal S8x512 .bf16) (K : Vec Ideal S4096x512 .bf16) (i : Fin 8) (t : Fin 4096) :
    kLogit q K (ix2 i t) = ∑ e : Fin 512, q (ix2 i e) * K (ix2 t e) := by
  unfold kLogit
  exact matmul_transposedRhs_apply q K i t

def attnOf (l : Fin 8 → Fin 4096 → EReal) (i : Fin 8) (t : Fin 4096) : EReal :=
  Ideal.div
    (Ideal.div (Ideal.exp (l i t - Finset.univ.sup fun j => l j t))
      (∑ j, Ideal.exp (l j t - Finset.univ.sup fun j' => l j' t)) + Spec.epsA)
    (∑ j₁, (Ideal.div (Ideal.exp (l j₁ t - Finset.univ.sup fun j => l j t))
      (∑ j, Ideal.exp (l j t - Finset.univ.sup fun j' => l j' t)) + Spec.epsA))

theorem kSoft_apply (l : FVec Ideal S8x4096 .f32) (i : Fin 8) (t : Fin 4096) :
    kSoft l (ix2 i t) = attnOf (fun i t => l (ix2 i t)) i t := by
  unfold kSoft
  repeat (first
    | simp only [truncf_apply, divf_apply, addf_apply, subf_apply, exp_apply, broadcast_apply, broadcastTo_1b_ab_apply, shapeCast_a_1a_apply]
    | rw [colSum_apply]
    | rw [colMax_apply])
  rfl

theorem kUpdate_apply (a : FVec Ideal S8x4096 .bf16) (V : Vec Ideal S4096x512 .bf16) (i : Fin 8) (k : Fin 512) :
    kUpdate a V (ix2 i k) = ∑ t : Fin 4096, a (ix2 i t) * V (ix2 t k) := by
  unfold kUpdate
  simp only [truncf_apply]
  exact matmul_plain_apply a V i k

theorem kGate_apply (u : FVec Ideal S8x512 .bf16) (w : FVec Ideal S512x1536 .bf16) (b : Vec Ideal S1536 .f32)
    (i : Fin 8) (j : Fin 1536) :
    kGate u w b (ix2 i j) = (∑ k : Fin 512, u (ix2 i k) * w (ix2 k j)) + b (ix1 j) := by
  unfold kGate
  simp only [addf_apply, broadcastTo_1b_ab_apply, shapeCast_a_1a_apply]
  exact congrArg (· + b (ix1 j)) (matmul_plain_apply u w i j)

theorem kGru_apply (gi gh : FVec Ideal S8x1536 .f32) (s : FVec Ideal S8x512 .f32) (i : Fin 8) (k : Fin 512) :
    kGru gi gh s (ix2 i k)
      = (Spec.one32 - Ideal.logistic (gi (ix2 i (Spec.band1 k)) + gh (ix2 i (Spec.band1 k))))
          * Ideal.tanh (gi (ix2 i (Spec.band2 k))
              + Ideal.logistic (gi (ix2 i (Spec.band0 k)) + gh (ix2 i (Spec.band0 k))) * gh (ix2 i (Spec.band2 k)))
        + Ideal.logistic (gi (ix2 i (Spec.band1 k)) + gh (ix2 i (Spec.band1 k))) * s (ix2 i k) := by
  unfold kGru
  simp only [addf_apply, mulf_apply, subf_apply, broadcast_apply, logistic_apply, tanh_apply,
    slice2_axis1_apply 0 _ _ i k (Spec.band0 k) (by show k.val = 0 + k.val; omega),
    slice2_axis1_apply 512 _ _ i k (Spec.band1 k) rfl,
    slice2_axis1_apply 1024 _ _ i k (Spec.band2 k) rfl]
  rfl

theorem kMlp_apply (h y : FVec Ideal S8x512 .f32) (w1 : FVec Ideal S512x512 .bf16) (b1 : Vec Ideal S512 .f32)
    (w2 : FVec Ideal S512x512 .bf16) (b2 : Vec Ideal S512 .f32) (i : Fin 8) (e : Fin 512) :
    kMlp h y w1 b1 w2 b2 (ix2 i e)
      = h (ix2 i e)
          + (∑ k : Fin 512, max ((∑ d : Fin 512, y (ix2 i d) * w1 (ix2 d k)) + b1 (ix1 k)) Spec.zero32 * w2 (ix2 k e))
          + b2 (ix1 e) := by
  unfold kMlp
  simp only [addf_apply, broadcastTo_1b_ab_apply, shapeCast_a_1a_apply]
  refine congrArg (fun z => h (ix2 i e) + z + b2 (ix1 e)) ?_
  refine (matmul_plain_apply _ w2 i e).trans ?_
  refine Finset.sum_congr rfl fun k _ => congrArg (· * w2 (ix2 k e)) ?_
  simp only [truncf_apply, maximumf_apply, addf_apply, broadcast_apply, broadcastTo_1b_ab_apply, shapeCast_a_1a_apply]
  exact congrArg (fun z => max (z + b1 (ix1 k)) Spec.zero32) (matmul_plain_apply _ w1 i k)

end Stages

end Cert.KernelIdeal.KStep

end
-- ==== Proof.KStep.lean ====
import proofs.«417374_j33956011442443_3_alg».proof.Proof.KStepDef

noncomputable section

namespace Cert.KernelIdeal.KStep

open Cert.KernelIdeal Idealize.ShloMosaic Idealize.SL.Sem Idealize.ShloMosaic.ValueIdx

variable [Facts]
open Facts₀ Facts

variable (v51 : FVec Ideal S512x512 .bf16) (v53 v55 : FVec Ideal S512x1536 .bf16) (v56 v57 : Vec Ideal S1536 .f32)
  (v59 : FVec Ideal S512x512 .bf16) (v60 : Vec Ideal S512 .f32) (v62 : FVec Ideal S512x512 .bf16)
  (v63 v64 v65 v66 v67 : Vec Ideal S512 .f32) (v97 v115 : Vec Ideal S4096x512 .bf16) (v69 : FVec Ideal S8x512 .f32)

theorem kStep_eq (i : Fin 8) (e : Fin 512) :
    kStep (F := Ideal) v51 v53 v55 v56 v57 v59 v60 v62 v63 v64 v65 v66 v67 v97 v115 v69 (ix2 i e)
      = Cert.Spec.step Cert.Spec.varOnePass (kW v51 v53 v55 v56 v57 v59 v60 v62 v63 v64 v65 v66 v67)
          (fun t k => v97 (ix2 t k)) (fun t k => v115 (ix2 t k)) (fun i k => v69 (ix2 i k)) i e := by
  unfold kStep
  simp only [kMlp_apply, kLN_apply, kGru_apply, kGate_apply, kUpdate_apply, truncf_apply, kSoft_apply, kLogit_apply, kQuery_apply]
  rfl

theorem kStep_fun :
    (fun i k => kStep (F := Ideal) v51 v53 v55 v56 v57 v59 v60 v62 v63 v64 v65 v66 v67 v97 v115 v69 (ix2 i k))
      = Cert.Spec.step Cert.Spec.varOnePass (kW v51 v53 v55 v56 v57 v59 v60 v62 v63 v64 v65 v66 v67)
          (fun t k => v97 (ix2 t k)) (fun t k => v115 (ix2 t k)) (fun i k => v69 (ix2 i k)) :=
  funext fun i => funext fun k => kStep_eq v51 v53 v55 v56 v57 v59 v60 v62 v63 v64 v65 v66 v67 v97 v115 v69 i k

end Cert.KernelIdeal.KStep

end
-- ==== Proof.KOut.lean ====
import proofs.«417374_j33956011442443_3_alg».proof.Proof.KStep
import proofs.«417374_j33956011442443_3_alg».proof.Proof.KOutOf

namespace Cert.KernelIdeal.Body

open Cert.KernelIdeal Cert.KernelIdeal.Gen Cert.KernelIdeal.KStep Idealize.ShloMosaic Idealize.ShloMosaic.ValueIdx

variable {F : FTy → Type} [FloatOps F]

theorem outOf_eq_kStep3 (x1 : Vec F S1x8x512 .f32) (x4 x5 x6 x7 : Vec F S512 .f32) (x10 : Vec F S512x512 .bf16)
    (x11 x12 : Vec F S512x1536 .bf16) (x13 x14 : Vec F S1536 .f32) (x15 : Vec F S512x512 .bf16) (x16 : Vec F S512 .f32)
    (x17 : Vec F S512x512 .bf16) (x18 : Vec F S512 .f32) (kv vv : Vec F S4096x512 .bf16) :
    outOf x1 x4 x5 x6 x7 x10 x11 x12 x13 x14 x15 x16 x17 x18 kv vv
      = shapeCast S1x8x512
          (kStep (k0_pay4 x10) (k0_pay5 x11) (k0_pay6 x12) x13 x14 (k0_pay7 x15) x16 (k0_pay8 x17) x18 x4 x5 x6 x7 kv vv
            (kStep (k0_pay4 x10) (k0_pay5 x11) (k0_pay6 x12) x13 x14 (k0_pay7 x15) x16 (k0_pay8 x17) x18 x4 x5 x6 x7 kv vv
              (kStep (k0_pay4 x10) (k0_pay5 x11) (k0_pay6 x12) x13 x14 (k0_pay7 x15) x16 (k0_pay8 x17) x18 x4 x5 x6 x7 kv vv (k0_pay9 x1))))
          shapeCasts_S8x512_S1x8x512 := rfl

theorem outOf_eq (x1 : Vec Ideal S1x8x512 .f32) (x4 x5 x6 x7 : Vec Ideal S512 .f32) (x10 : Vec Ideal S512x512 .bf16)
    (x11 x12 : Vec Ideal S512x1536 .bf16) (x13 x14 : Vec Ideal S1536 .f32) (x15 : Vec Ideal S512x512 .bf16)
    (x16 : Vec Ideal S512 .f32) (x17 : Vec Ideal S512x512 .bf16) (x18 : Vec Ideal S512 .f32)
    (kv vv : Vec Ideal S4096x512 .bf16) (i : Fin 8) (e : Fin 512) :
    outOf (F := Ideal) x1 x4 x5 x6 x7 x10 x11 x12 x13 x14 x15 x16 x17 x18 kv vv (ix3 0 i e)
      = Cert.Spec.step Cert.Spec.varOnePass (kW x10 x11 x12 x13 x14 x15 x16 x17 x18 x4 x5 x6 x7)
          (fun t k => kv (ix2 t k)) (fun t k => vv (ix2 t k))
          (Cert.Spec.step Cert.Spec.varOnePass (kW x10 x11 x12 x13 x14 x15 x16 x17 x18 x4 x5 x6 x7)
            (fun t k => kv (ix2 t k)) (fun t k => vv (ix2 t k))
            (Cert.Spec.step Cert.Spec.varOnePass (kW x10 x11 x12 x13 x14 x15 x16 x17 x18 x4 x5 x6 x7)
              (fun t k => kv (ix2 t k)) (fun t k => vv (ix2 t k)) (fun i k => x1 (ix3 0 i k)))) i e := by
  have hW : kW (k0_pay4 x10) (k0_pay5 x11) (k0_pay6 x12) x13 x14 (k0_pay7 x15) x16 (k0_pay8 x17) x18 x4 x5 x6 x7 = kW x10 x11 x12 x13 x14 x15 x16 x17 x18 x4 x5 x6 x7 := by
    unfold k0_pay4 k0_pay5 k0_pay6 k0_pay7 k0_pay8
    simp only [shapeCast_self]
  have hs : (fun (i : Fin 8) (k : Fin 512) => k0_pay9 x1 (ix2 i k)) = fun i k => x1 (ix3 0 i k) := by
    funext i k
    unfold k0_pay9
    exact shapeCast_1ab_ab_apply x1 _ i k
  rw [outOf_eq_kStep3, shapeCast_ab_1ab_apply, kStep_eq, kStep_fun, kStep_fun, hW, hs]

end Cert.KernelIdeal.Body
-- ==== Proof.KProj.lean ====
import proofs.«417374_j33956011442443_3_alg».proof.Proof.Gen.KernelIdeal.Skeleton
import proofs.«417374_j33956011442443_3_alg».proof.Proof.Spec
import proofs.«417374_j33956011442443_3_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KProj

open Idealize.ShloMosaic Idealize.ShloMosaic.ValueIdx Idealize.SL.Sem
open Cert.KernelIdeal Cert.Column

theorem rowSum_apply (src : FVec Ideal S1024x512 .f32) (h : S1024x512.Reduces [1] S1024) (hφ : FTy.f32 = FTy.f32 ∨ FTy.f32 = FTy.bf16)
    (hacc : (0x00000000#32 : BitVec FTy.f32.bits) = 0x00000000#32) (r : Fin 1024) :
    multiReduction (F := Ideal) .add [1] S1024 src 0x00000000#32 h hφ hacc (ix1 r) = ∑ k : Fin 512, src (ix2 r k) := by
  refine (Ideal.multiReduction_add_single src 0x00000000#32 h hφ hacc (ix1 r)).trans ?_
  refine Finset.sum_congr rfl fun k _ => congrArg src ?_
  funext c
  match c with
  | ⟨0, _⟩ => rfl
  | ⟨1, _⟩ => rfl

theorem rsqrt_apply {s : Shape} {φ : FTy} (a : FVec Ideal s φ) (i : s.Idx) : rsqrt a i = Ideal.rsqrt (a i) := rfl

theorem pay30_apply (x : Vec Ideal S1x1024x512 .f32) (g b : Vec Ideal S512 .f32) (r : Fin 1024) (k : Fin 512) :
    Gen.k0_pay30 x g b (ix2 r k)
      = Cert.Spec.layerNorm Cert.Spec.varOnePass (fun r k => x (ix3 0 r k)) (fun k => g (ix1 k)) (fun k => b (ix1 k)) r k := by
  unfold Gen.k0_pay30
  simp only [truncf_apply, addf_apply, mulf_apply, subf_apply, broadcastTo_1b_ab_apply, shapeCast_a_1a_apply,
    broadcastTo_a1_ab_apply, rsqrt_apply, divf_apply, broadcast_apply, shapeCast_a_a1_apply, rowSum_apply,
    shapeCast_1ab_ab_apply]
  rw [rowSum_apply, rowSum_apply]
  simp only [mulf_apply, shapeCast_1ab_ab_apply]
  rfl

-- The projection's contraction: rows by the weights' first axis.
private abbrev D := dot_S1024x512_S512x512_S1024x512_1_0_0_1_n_n

theorem lhs_axis0 (j : S1024x512.Idx) (k : D.contr.Idx) :
    (D.lhsIdx j k 0).val = (j 0).val := by
  unfold DotDims.lhsIdx
  rw [dif_neg (show ¬(0 : Fin S1024x512.rank) ∈ D.lhsBatch by decide),
    dif_pos (show (0 : Fin S1024x512.rank) ∈ D.lhsNonContracting by decide)]
  rfl

theorem rhs_axis1 (j : S1024x512.Idx) (k : D.contr.Idx) :
    (D.rhsIdx j k 1).val = (j 1).val := by
  unfold DotDims.rhsIdx
  rw [dif_neg (show ¬(1 : Fin S512x512.rank) ∈ D.rhsBatch by decide),
    dif_pos (show (1 : Fin S512x512.rank) ∈ D.rhsNonContracting by decide)]
  rfl

theorem matmul_apply_re (A : FVec Ideal S1024x512 .bf16) (W : FVec Ideal S512x512 .bf16) (r : Fin 1024) (e : Fin 512) :
    matmul D none A W (constant (F := Ideal) S1024x512 .f32 0x00000000#32) (ix2 r e)
      = ∑ d : Fin 512, A (ix2 r d) * W (ix2 d e) := by
  show FloatOps.matmul _ none A W _ (ix2 r e) = _
  rw [Ideal.matmul_constant_zero_apply,
    ← Equiv.sum_comp (contrEquiv1 D 512 rfl rfl).symm]
  refine Finset.sum_congr rfl fun d _ => ?_
  have hk := contrEquiv1_symm_val D 512 rfl rfl d
  have hl : D.lhsIdx (ix2 r e)
      ((contrEquiv1 D 512 rfl rfl).symm d) = ix2 r d := by
    funext ax
    apply Fin.ext
    match ax with
    | ⟨0, _⟩ => exact lhs_axis0 _ _
    | ⟨1, _⟩ => exact (D.lhsIdx_val_of_single rfl _ _).trans hk
  have hr : D.rhsIdx (ix2 r e)
      ((contrEquiv1 D 512 rfl rfl).symm d) = ix2 d e := by
    funext ax
    apply Fin.ext
    match ax with
    | ⟨0, _⟩ => exact (D.rhsIdx_val_of_single rfl _ _).trans hk
    | ⟨1, _⟩ => exact rhs_axis1 _ _
  rw [hl, hr]

theorem kChunk_eq (x : Vec Ideal S1x1024x512 .f32) (g b : Vec Ideal S512 .f32) (w : Vec Ideal S512x512 .bf16)
    (r : Fin 1024) (e : Fin 512) :
    Gen.k0_pay1 (Gen.k0_pay32 x g b w) (ix2 r e)
      = Cert.Spec.lin (Cert.Spec.layerNorm Cert.Spec.varOnePass (fun r k => x (ix3 0 r k)) (fun k => g (ix1 k))
          (fun k => b (ix1 k))) (fun e d => w (ix2 d e)) r e := by
  unfold Gen.k0_pay1 Gen.k0_pay32
  simp only [shapeCast_self, truncf_apply]
  rw [matmul_apply_re]
  unfold Cert.Spec.lin
  refine Finset.sum_congr rfl fun d _ => ?_
  rw [pay30_apply]

theorem vChunk_eq (x : Vec Ideal S1x1024x512 .f32) (g b : Vec Ideal S512 .f32) (w : Vec Ideal S512x512 .bf16)
    (r : Fin 1024) (e : Fin 512) :
    Gen.k0_pay2 (Gen.k0_pay31 x g b w) (ix2 r e)
      = Cert.Spec.lin (Cert.Spec.layerNorm Cert.Spec.varOnePass (fun r k => x (ix3 0 r k)) (fun k => g (ix1 k))
          (fun k => b (ix1 k))) (fun e d => w (ix2 d e)) r e := by
  unfold Gen.k0_pay2 Gen.k0_pay31
  simp only [shapeCast_self, truncf_apply]
  rw [matmul_apply_re]
  unfold Cert.Spec.lin
  refine Finset.sum_congr rfl fun d _ => ?_
  rw [pay30_apply]

end Cert.KernelIdeal.KProj
-- ==== Proof.SpecRows.lean ====
import proofs.«417374_j33956011442443_3_alg».proof.Proof.Spec

namespace Cert.Spec

theorem layerNorm_onePass_row {n m : ℕ} (x : Fin n → Fin 512 → EReal) (y : Fin m → Fin 512 → EReal) (i : Fin n) (j : Fin m)
    (h : ∀ k, x i k = y j k) (g b : Fin 512 → EReal) (k : Fin 512) :
    layerNorm varOnePass x g b i k = layerNorm varOnePass y g b j k := by
  unfold layerNorm varOnePass mean
  simp only [h]

theorem project_rows_onePass (x : Fin 4096 → Fin 512 → EReal) (xc : Fin 1024 → Fin 512 → EReal) (q : ℕ) (hq : q < 4)
    (h : ∀ (r : Fin 1024) (k : Fin 512), xc r k = x ⟨1024 * q + r.val, by omega⟩ k) (g b : Fin 512 → EReal)
    (w : Fin 512 → Fin 512 → EReal) (r : Fin 1024) (e : Fin 512) :
    lin (layerNorm varOnePass xc g b) w r e = project varOnePass x g b w ⟨1024 * q + r.val, by omega⟩ e := by
  unfold project lin
  exact Finset.sum_congr rfl fun d _ =>
    congrArg (· * w e d) (layerNorm_onePass_row xc x r ⟨1024 * q + r.val, by omega⟩ (h r) g b d)

end Cert.Spec
-- ==== Proof.KHost.lean ====
import proofs.«417374_j33956011442443_3_alg».proof.Proof.Gen.KernelIdeal.Frame
import proofs.«417374_j33956011442443_3_alg».proof.Proof.Spec
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.KHost

open Idealize.ShloMosaic Idealize.ShloMosaic.TcCoe Cert.KernelIdeal Cert.KernelIdeal.Gen Idealize.ShloMosaic.ValueIdx
open Idealize.ShloMosaic.StableHlo

variable (m : (ℓ : Loc nD τ sig) → Buf (Elt Ideal) ℓ) (c : Dev nD)

theorem V_slots0 (b : Fin 32) (s : Fin 8) (k : Fin 512) : Gen.V m c main_v3 (ix3 b s k) = Cert.Spec.slots0 (fun s k => m ((c : Thread nD τ).loc main_arg2) (ix3 0 s k)) (fun s k => m ((c : Thread nD τ).loc main_arg3) (ix3 0 s k)) (fun s k => m ((c : Thread nD τ).loc main_arg1) (ix3 b s k)) s k := by
  have bc : ∀ x : S1x8x512.Idx → EReal,
      broadcastInDim S32x8x512 (![0, 1, 2] : Fin 3 → Fin S32x8x512.rank) bcast_S1x8x512_S32x8x512_0_1_2 x (ix3 b s k)
        = x (ix3 0 s k) := fun x =>
    broadcastInDim_apply _ _ x _ _ fun a => match a with | ⟨0, _⟩ => rfl | ⟨1, _⟩ => rfl | ⟨2, _⟩ => rfl
  dsimp only [Gen.V, Gen.hostOps0]; after_results
  rw [addf_apply, mulf_apply, bc, bc]
  rfl

theorem V_wkT (d e : Fin 512) : Gen.V m c main_v5 (ix2 d e) = m ((c : Thread nD τ).loc main_arg9) (ix2 e d) := by
  dsimp only [Gen.V, Gen.hostOps0]; after_results; rw [truncf_apply, transpose_ix2_apply]

theorem V_wvT (d e : Fin 512) : Gen.V m c main_v7 (ix2 d e) = m ((c : Thread nD τ).loc main_arg10) (ix2 e d) := by
  dsimp only [Gen.V, Gen.hostOps0]; after_results; rw [truncf_apply, transpose_ix2_apply]

theorem V_wqT (d e : Fin 512) : Gen.V m c main_v9 (ix2 d e) = m ((c : Thread nD τ).loc main_arg8) (ix2 e d) := by
  dsimp only [Gen.V, Gen.hostOps0]; after_results; rw [truncf_apply, transpose_ix2_apply]

theorem V_wihT (k : Fin 512) (j : Fin 1536) : Gen.V m c main_v11 (ix2 k j) = m ((c : Thread nD τ).loc main_arg11) (ix2 j k) := by
  dsimp only [Gen.V, Gen.hostOps0]; after_results; rw [truncf_apply, transpose_ix2_apply]

theorem V_whhT (k : Fin 512) (j : Fin 1536) : Gen.V m c main_v13 (ix2 k j) = m ((c : Thread nD τ).loc main_arg12) (ix2 j k) := by
  dsimp only [Gen.V, Gen.hostOps0]; after_results; rw [truncf_apply, transpose_ix2_apply]

theorem V_w1T (d e : Fin 512) : Gen.V m c main_v15 (ix2 d e) = m ((c : Thread nD τ).loc main_arg17) (ix2 e d) := by
  dsimp only [Gen.V, Gen.hostOps0]; after_results; rw [truncf_apply, transpose_ix2_apply]

theorem V_w2T (d e : Fin 512) : Gen.V m c main_v17 (ix2 d e) = m ((c : Thread nD τ).loc main_arg19) (ix2 e d) := by
  dsimp only [Gen.V, Gen.hostOps0]; after_results; rw [truncf_apply, transpose_ix2_apply]

end Cert.KernelIdeal.KHost

end
-- ==== Proof.KFinal.lean ====
import proofs.«417374_j33956011442443_3_alg».proof.Proof.KDatIdeal
import proofs.«417374_j33956011442443_3_alg».proof.Proof.KBlocks
import proofs.«417374_j33956011442443_3_alg».proof.Proof.KOut
import proofs.«417374_j33956011442443_3_alg».proof.Proof.KProj
import proofs.«417374_j33956011442443_3_alg».proof.Proof.SpecRows
import proofs.«417374_j33956011442443_3_alg».proof.Proof.KHost
import proofs.«417374_j33956011442443_3_alg».proof.Proof.Spec
import Idealize.ShloMosaic.Lib.ValueIdx

noncomputable section

namespace Cert.KernelIdeal.KFinal

open Idealize.ShloMosaic Idealize.ShloMosaic.TcCoe Cert.KernelIdeal Cert.KernelIdeal.Gen Idealize.ShloMosaic.ValueIdx
open Idealize.SL.Sem

variable (m : (ℓ : Loc nD τ sig) → Buf (Elt Ideal) ℓ) (c : Dev nD)

def specW : Cert.Spec.Weights where
  ln_s_g k := m ((c : Thread nD τ).loc main_arg6) (ix1 k)
  ln_s_b k := m ((c : Thread nD τ).loc main_arg7) (ix1 k)
  wq e d := m ((c : Thread nD τ).loc main_arg8) (ix2 e d)
  w_ih j k := m ((c : Thread nD τ).loc main_arg11) (ix2 j k)
  w_hh j k := m ((c : Thread nD τ).loc main_arg12) (ix2 j k)
  b_ih j := m ((c : Thread nD τ).loc main_arg13) (ix1 j)
  b_hh j := m ((c : Thread nD τ).loc main_arg14) (ix1 j)
  ln_m_g k := m ((c : Thread nD τ).loc main_arg15) (ix1 k)
  ln_m_b k := m ((c : Thread nD τ).loc main_arg16) (ix1 k)
  w1 e k := m ((c : Thread nD τ).loc main_arg17) (ix2 e k)
  b1 e := m ((c : Thread nD τ).loc main_arg18) (ix1 e)
  w2 e k := m ((c : Thread nD τ).loc main_arg19) (ix2 e k)
  b2 e := m ((c : Thread nD τ).loc main_arg20) (ix1 e)

theorem weights_at (t : Fin cfg0.N) :
    KStep.kW (iblk m c 10 t) (iblk m c 11 t) (iblk m c 12 t) (iblk m c 13 t) (iblk m c 14 t) (iblk m c 15 t) (iblk m c 16 t) (iblk m c 17 t) (iblk m c 18 t) (iblk m c 4 t) (iblk m c 5 t) (iblk m c 6 t) (iblk m c 7 t) = specW m c := by
  simp only [KStep.kW, specW, KBlocks.blk4, KBlocks.blk5, KBlocks.blk6, KBlocks.blk7, KBlocks.blk10, KBlocks.blk11,
    KBlocks.blk12, KBlocks.blk13, KBlocks.blk14, KBlocks.blk15, KBlocks.blk16, KBlocks.blk17, KBlocks.blk18]
  congr 1 <;> funext a <;> first
    | rw [V_main_arg6] | rw [V_main_arg7] | rw [V_main_arg13] | rw [V_main_arg14] | rw [V_main_arg15]
    | rw [V_main_arg16] | rw [V_main_arg18] | rw [V_main_arg20]
    | (funext b; first | rw [KHost.V_wqT] | rw [KHost.V_wihT] | rw [KHost.V_whhT] | rw [KHost.V_w1T] | rw [KHost.V_w2T])

-- An argument's contents at launch.
private abbrev A (r : Ref sig .tc) := m ((c : Thread nD τ).loc r)

-- The projection of batch element `a`'s inputs by the weights `w`.
private abbrev Pj (a : Fin 32) (w : Fin 512 → Fin 512 → EReal) :=
  Cert.Spec.project Cert.Spec.varOnePass (fun r k => A m c main_arg0 (ix3 a r k)) (fun k => A m c main_arg4 (ix1 k)) (fun k => A m c main_arg5 (ix1 k)) w

theorem g_at (t : Fin cfg0.N) : (fun k => iblk m c 2 t (ix1 k)) = (fun k => A m c main_arg4 (ix1 k)) := by
  funext k; rw [KBlocks.blk2, V_main_arg4]

theorem b_at (t : Fin cfg0.N) : (fun k => iblk m c 3 t (ix1 k)) = (fun k => A m c main_arg5 (ix1 k)) := by
  funext k; rw [KBlocks.blk3, V_main_arg5]

theorem wk_at (t : Fin cfg0.N) : (fun e d => iblk m c 8 t (ix2 d e)) = (fun e d => A m c main_arg9 (ix2 e d)) := by
  funext e d; rw [KBlocks.blk8, KHost.V_wkT]

theorem wv_at (t : Fin cfg0.N) : (fun e d => iblk m c 9 t (ix2 d e)) = (fun e d => A m c main_arg10 (ix2 e d)) := by
  funext e d; rw [KBlocks.blk9, KHost.V_wvT]

theorem x_at (p : Fin cfg0.N) (a : Fin 32) (q : ℕ) (hq : q < 4) (ha : p.val / 4 = a.val) (hp : p.val % 4 = q)
    (r : Fin 1024) (k : Fin 512) :
    iblk m c 0 p (ix3 0 r k)
      = A m c main_arg0 (ix3 a (⟨1024 * q + r.val, by have := r.isLt; omega⟩ : Fin 4096) k) := by
  subst hp
  rw [KBlocks.blk0, V_main_arg0]
  exact congrArg (fun z : Fin 32 => A m c main_arg0 (ix3 z (⟨1024 * (p.val % 4) + r.val, by have := r.isLt; omega⟩ : Fin 4096) k)) (Fin.ext ha)

theorem kPiece_at (p : Fin cfg0.N) (a : Fin 32) (q : ℕ) (hq : q < 4) (ha : p.val / 4 = a.val) (hp : p.val % 4 = q)
    (r : Fin 1024) (e : Fin 512) :
    Body.kPiece m c p (ix2 r e)
      = Pj m c a (fun e d => A m c main_arg9 (ix2 e d))
          (⟨1024 * q + r.val, by have := r.isLt; omega⟩ : Fin 4096) e := by
  unfold Body.kPiece
  rw [KProj.kChunk_eq, g_at, b_at, wk_at]
  exact Cert.Spec.project_rows_onePass (fun r k => A m c main_arg0 (ix3 a r k)) _ q hq (fun r k => x_at m c p a q hq ha hp r k) _ _ _ r e

theorem vPiece_at (p : Fin cfg0.N) (a : Fin 32) (q : ℕ) (hq : q < 4) (ha : p.val / 4 = a.val) (hp : p.val % 4 = q)
    (r : Fin 1024) (e : Fin 512) :
    Body.vPiece m c p (ix2 r e)
      = Pj m c a (fun e d => A m c main_arg10 (ix2 e d))
          (⟨1024 * q + r.val, by have := r.isLt; omega⟩ : Fin 4096) e := by
  unfold Body.vPiece
  rw [KProj.vChunk_eq, g_at, b_at, wv_at]
  exact Cert.Spec.project_rows_onePass (fun r k => A m c main_arg0 (ix3 a r k)) _ q hq (fun r k => x_at m c p a q hq ha hp r k) _ _ _ r e

theorem keys_at (t : Fin cfg0.N) (h3 : t.val % 4 = 3) :
    (fun t' k => Body.kFull m c t (ix2 t' k))
      = Pj m c (⟨t.val / 4, by have := KBlocks.t_lt t; omega⟩ : Fin 32) (fun e d => A m c main_arg9 (ix2 e d)) := by
  funext t' k
  have hN : t.val < 128 := lt_of_lt_of_eq t.isLt (show cfg0.N = 128 from Gen.N_0)
  have ht' := t'.isLt
  have key := kPiece_at m c (⟨t.val - t.val % 4 + t'.val / 1024, by have : cfg0.N = 128 := Gen.N_0; omega⟩ : Fin cfg0.N) (⟨t.val / 4, by have := KBlocks.t_lt t; omega⟩ : Fin 32)
    (t'.val / 1024) (by omega) (by show (t.val - t.val % 4 + t'.val / 1024) / 4 = t.val / 4; omega)
    (by show (t.val - t.val % 4 + t'.val / 1024) % 4 = t'.val / 1024; omega)
    (⟨t'.val % 1024, Nat.mod_lt _ (by norm_num)⟩ : Fin 1024) k
  have hrow : (⟨1024 * (t'.val / 1024) + t'.val % 1024, by omega⟩ : Fin 4096) = t' := Fin.ext (by show 1024 * (t'.val / 1024) + t'.val % 1024 = t'.val; omega)
  rw [hrow] at key
  exact key

theorem values_at (t : Fin cfg0.N) (h3 : t.val % 4 = 3) :
    (fun t' k => Body.vFull m c t (ix2 t' k))
      = Pj m c (⟨t.val / 4, by have := KBlocks.t_lt t; omega⟩ : Fin 32) (fun e d => A m c main_arg10 (ix2 e d)) := by
  funext t' k
  have hN : t.val < 128 := lt_of_lt_of_eq t.isLt (show cfg0.N = 128 from Gen.N_0)
  have ht' := t'.isLt
  have key := vPiece_at m c (⟨t.val - t.val % 4 + t'.val / 1024, by have : cfg0.N = 128 := Gen.N_0; omega⟩ : Fin cfg0.N) (⟨t.val / 4, by have := KBlocks.t_lt t; omega⟩ : Fin 32)
    (t'.val / 1024) (by omega) (by show (t.val - t.val % 4 + t'.val / 1024) / 4 = t.val / 4; omega)
    (by show (t.val - t.val % 4 + t'.val / 1024) % 4 = t'.val / 1024; omega)
    (⟨t'.val % 1024, Nat.mod_lt _ (by norm_num)⟩ : Fin 1024) k
  have hrow : (⟨1024 * (t'.val / 1024) + t'.val % 1024, by omega⟩ : Fin 4096) = t' := Fin.ext (by show 1024 * (t'.val / 1024) + t'.val % 1024 = t'.val; omega)
  rw [hrow] at key
  exact key

theorem slots_at (t : Fin cfg0.N) :
    (fun i k => iblk m c 1 t (ix3 0 i k))
      = Cert.Spec.slots0 (fun s k => A m c main_arg2 (ix3 0 s k)) (fun s k => A m c main_arg3 (ix3 0 s k)) (fun s k => A m c main_arg1 (ix3 (⟨t.val / 4, by have := KBlocks.t_lt t; omega⟩ : Fin 32) s k)) := by
  funext i k; rw [KBlocks.blk1, KHost.V_slots0]

theorem outVal_spec (m : (ℓ : Loc nD τ sig) → Buf (Elt Ideal) ℓ) (c : Dev nD) (t : Fin cfg0.N) (h3 : t.val % 4 = 3) (i : Fin 8) (e : Fin 512) :
    Cert.KernelIdeal.Body.outVal m c t (ix3 0 i e)
      = Cert.Spec.slotAttentionOnePass (specW m c) (fun r k => m ((c : Thread nD τ).loc main_arg0) (ix3 (⟨t.val / 4, by have := KBlocks.t_lt t; omega⟩ : Fin 32) r k)) (fun k => m ((c : Thread nD τ).loc main_arg4) (ix1 k)) (fun k => m ((c : Thread nD τ).loc main_arg5) (ix1 k)) (fun e d => m ((c : Thread nD τ).loc main_arg9) (ix2 e d)) (fun e d => m ((c : Thread nD τ).loc main_arg10) (ix2 e d)) (fun s k => m ((c : Thread nD τ).loc main_arg2) (ix3 0 s k)) (fun s k => m ((c : Thread nD τ).loc main_arg3) (ix3 0 s k)) (fun s k => m ((c : Thread nD τ).loc main_arg1) (ix3 (⟨t.val / 4, by have := KBlocks.t_lt t; omega⟩ : Fin 32) s k)) i e := by
  unfold Body.outVal
  rw [Body.outOf_eq, weights_at, keys_at m c t h3, values_at m c t h3, slots_at]
  rfl

end Cert.KernelIdeal.KFinal

end
-- ==== Proof.RefRunOps.lean ====
import proofs.«417374_j33956011442443_3_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

abbrev C (s : Shape) (e : EltTy := .f32) : Type := (⟨s, e⟩ : BufTy).Contents (Elt F)

abbrev ops_part0 : List (HloOp τ sig (Elt F)) :=
  [ unary main_arg3 main_v0 (broadcastInDim S32x8x512 ![0, 1, 2] bcast_S1x8x512_S32x8x512_0_1_2 : C S1x8x512 → C S32x8x512),
    binary main_v0 main_arg1 main_v1 (mulf : C S32x8x512 → C S32x8x512 → C S32x8x512),
    unary main_arg2 main_v2 (broadcastInDim S32x8x512 ![0, 1, 2] bcast_S1x8x512_S32x8x512_0_1_2 : C S1x8x512 → C S32x8x512),
    binary main_v2 main_v1 main_v3 (addf : C S32x8x512 → C S32x8x512 → C S32x8x512),
    nullary main_cst (constant S_ .f32 0x00000000#32),
    binary main_arg0 main_cst main_v4 ((fun x v => Host.reduceAdd x v reducesTo_S32x4096x512_S32x4096_d2 h_S_) : C S32x4096x512 → C S_ → C S32x4096),
    unary main_v4 main_v5 (broadcastInDim S32x4096x1 ![0, 1] bcast_S32x4096_S32x4096x1_0_1 : C S32x4096 → C S32x4096x1),
    nullary main_cst_0 (constant S_ .f32 0x44000000#32),
    unary main_cst_0 main_v6 (broadcastInDim S32x4096x1 ![] bcast_S_S32x4096x1 : C S_ → C S32x4096x1),
    binary main_v5 main_v6 main_v7 (Host.divf : C S32x4096x1 → C S32x4096x1 → C S32x4096x1),
    nullary main_c (constantI S_ 32 0#32),
    nullary main_call0_cst (constant S_ .f32 0x00000000#32),
    binary main_arg0 main_call0_cst main_call0_v0 ((fun x v => Host.reduceAdd x v reducesTo_S32x4096x512_S32x4096_d2 h_S_) : C S32x4096x512 → C S_ → C S32x4096),
    unary main_call0_v0 main_call0_v1 ((broadcastInDim S32x4096x1 ![0, 1] bcast_S32x4096_S32x4096x1_0_1) : C S32x4096 → C S32x4096x1),
    nullary main_call0_cst_0 (constant S_ .f32 0x44000000#32),
    unary main_call0_cst_0 main_call0_v2 ((broadcastInDim S32x4096x1 ![] bcast_S_S32x4096x1) : C S_ → C S32x4096x1),
    binary main_call0_v1 main_call0_v2 main_call0_v3 (Host.divf : C S32x4096x1 → C S32x4096x1 → C S32x4096x1),
    unary main_call0_v3 main_call0_v4 ((broadcastInDim S32x4096x512 ![0, 1, 2] bcast_S32x4096x1_S32x4096x512_0_1_2) : C S32x4096x1 → C S32x4096x512),
    binary main_arg0 main_call0_v4 main_call0_v5 (subf : C S32x4096x512 → C S32x4096x512 → C S32x4096x512),
    binary main_call0_v5 main_call0_v5 main_call0_v6 (mulf : C S32x4096x512 → C S32x4096x512 → C S32x4096x512),
    unary main_c main_call0_v7 ((sitofp .f32) : C S_ .i32 → C S_),
    nullary main_call0_cst_1 (constant S_ .f32 0x44000000#32),
    binary main_call0_cst_1 main_call0_v7 main_call0_v8 (subf : C S_ → C S_ → C S_),
    nullary main_call0_cst_2 (constant S_ .f32 0x00000000#32),
    binary main_call0_v6 main_call0_cst_2 main_call0_v9 ((fun x v => Host.reduceAdd x v reducesTo_S32x4096x512_S32x4096_d2 h_S_) : C S32x4096x512 → C S_ → C S32x4096),
    unary main_call0_v9 main_call0_v10 ((broadcastInDim S32x4096x1 ![0, 1] bcast_S32x4096_S32x4096x1_0_1) : C S32x4096 → C S32x4096x1),
    unary main_call0_v8 main_call0_v11 ((broadcastInDim S32x4096x1 ![] bcast_S_S32x4096x1) : C S_ → C S32x4096x1),
    binary main_call0_v10 main_call0_v11 main_call0_v12 (Host.divf : C S32x4096x1 → C S32x4096x1 → C S32x4096x1),
    nullary main_call0_cst_3 (constant S_ .f32 0x00000000#32),
    binary main_call0_v8 main_call0_cst_3 main_call0_v13 ((cmpf .ogt) : C S_ → C S_ → C S_ .i1),
    nullary main_call0_cst_4 (constant S_ .f32 0x7FC00000#32),
    unary main_call0_cst_4 main_call0_call0_v0 (id : C S_ → C S_),
    unary main_call0_call0_v0 main_call0_call0_v1 ((broadcastInDim S32x4096x1 ![] bcast_S_S32x4096x1) : C S_ → C S32x4096x1),
    ternary main_call0_v13 main_call0_v12 main_call0_call0_v1 main_v8 ((fun p a b => select (broadcastInDim S32x4096x1 ![] bcast_S_S32x4096x1 p) a b) : C S_ .i1 → C S32x4096x1 → C S32x4096x1 → C S32x4096x1),
    unary main_v7 main_v9 (broadcastInDim S32x4096x512 ![0, 1, 2] bcast_S32x4096x1_S32x4096x512_0_1_2 : C S32x4096x1 → C S32x4096x512),
    binary main_arg0 main_v9 main_v10 (subf : C S32x4096x512 → C S32x4096x512 → C S32x4096x512),
    nullary main_cst_1 (constant S_ .f32 0x3727C5AC#32),
    unary main_cst_1 main_v11 (broadcastInDim S32x4096x1 ![] bcast_S_S32x4096x1 : C S_ → C S32x4096x1),
    binary main_v8 main_v11 main_v12 (addf : C S32x4096x1 → C S32x4096x1 → C S32x4096x1),
    unary main_v12 main_v13 (Host.rsqrt : C S32x4096x1 → C S32x4096x1),
    unary main_v13 main_v14 (broadcastInDim S32x4096x512 ![0, 1, 2] bcast_S32x4096x1_S32x4096x512_0_1_2 : C S32x4096x1 → C S32x4096x512),
    binary main_v10 main_v14 main_v15 (mulf : C S32x4096x512 → C S32x4096x512 → C S32x4096x512),
    unary main_arg4 main_v16 (broadcastInDim S1x1x512 ![2] bcast_S512_S1x1x512_2 : C S512 → C S1x1x512),
    unary main_v16 main_v17 (broadcastInDim S32x4096x512 ![0, 1, 2] bcast_S1x1x512_S32x4096x512_0_1_2 : C S1x1x512 → C S32x4096x512),
    binary main_v15 main_v17 main_v18 (mulf : C S32x4096x512 → C S32x4096x512 → C S32x4096x512),
    unary main_arg5 main_v19 (broadcastInDim S1x1x512 ![2] bcast_S512_S1x1x512_2 : C S512 → C S1x1x512),
    unary main_v19 main_v20 (broadcastInDim S32x4096x512 ![0, 1, 2] bcast_S1x1x512_S32x4096x512_0_1_2 : C S1x1x512 → C S32x4096x512),
    binary main_v18 main_v20 main_v21 (addf : C S32x4096x512 → C S32x4096x512 → C S32x4096x512),
    binary main_v21 main_arg9 main_v22 ((fun l r => Host.dotGeneral dot_S32x4096x512_S512x512_S32x4096x512_2_1_01_0_n_n none l r) : C S32x4096x512 → C S512x512 → C S32x4096x512),
    binary main_v21 main_arg10 main_v23 ((fun l r => Host.dotGeneral dot_S32x4096x512_S512x512_S32x4096x512_2_1_01_0_n_n none l r) : C S32x4096x512 → C S512x512 → C S32x4096x512),
    nullary main_cst_2 (constant S_ .f32 0x00000000#32),
    binary main_v3 main_cst_2 main_v24 ((fun x v => Host.reduceAdd x v reducesTo_S32x8x512_S32x8_d2 h_S_) : C S32x8x512 → C S_ → C S32x8),
    unary main_v24 main_v25 (broadcastInDim S32x8x1 ![0, 1] bcast_S32x8_S32x8x1_0_1 : C S32x8 → C S32x8x1),
    nullary main_cst_3 (constant S_ .f32 0x44000000#32),
    unary main_cst_3 main_v26 (broadcastInDim S32x8x1 ![] bcast_S_S32x8x1 : C S_ → C S32x8x1),
    binary main_v25 main_v26 main_v27 (Host.divf : C S32x8x1 → C S32x8x1 → C S32x8x1),
    nullary main_c_4 (constantI S_ 32 0#32),
    nullary main_call1_cst (constant S_ .f32 0x00000000#32),
    binary main_v3 main_call1_cst main_call1_v0 ((fun x v => Host.reduceAdd x v reducesTo_S32x8x512_S32x8_d2 h_S_) : C S32x8x512 → C S_ → C S32x8),
    unary main_call1_v0 main_call1_v1 ((broadcastInDim S32x8x1 ![0, 1] bcast_S32x8_S32x8x1_0_1) : C S32x8 → C S32x8x1),
    nullary main_call1_cst_0 (constant S_ .f32 0x44000000#32),
    unary main_call1_cst_0 main_call1_v2 ((broadcastInDim S32x8x1 ![] bcast_S_S32x8x1) : C S_ → C S32x8x1),
    binary main_call1_v1 main_call1_v2 main_call1_v3 (Host.divf : C S32x8x1 → C S32x8x1 → C S32x8x1),
    unary main_call1_v3 main_call1_v4 ((broadcastInDim S32x8x512 ![0, 1, 2] bcast_S32x8x1_S32x8x512_0_1_2) : C S32x8x1 → C S32x8x512),
    binary main_v3 main_call1_v4 main_call1_v5 (subf : C S32x8x512 → C S32x8x512 → C S32x8x512),
    binary main_call1_v5 main_call1_v5 main_call1_v6 (mulf : C S32x8x512 → C S32x8x512 → C S32x8x512),
    unary main_c_4 main_call1_v7 ((sitofp .f32) : C S_ .i32 → C S_),
    nullary main_call1_cst_1 (constant S_ .f32 0x44000000#32),
    binary main_call1_cst_1 main_call1_v7 main_call1_v8 (subf : C S_ → C S_ → C S_),
    nullary main_call1_cst_2 (constant S_ .f32 0x00000000#32),
    binary main_call1_v6 main_call1_cst_2 main_call1_v9 ((fun x v => Host.reduceAdd x v reducesTo_S32x8x512_S32x8_d2 h_S_) : C S32x8x512 → C S_ → C S32x8),
    unary main_call1_v9 main_call1_v10 ((broadcastInDim S32x8x1 ![0, 1] bcast_S32x8_S32x8x1_0_1) : C S32x8 → C S32x8x1),
    unary main_call1_v8 main_call1_v11 ((broadcastInDim S32x8x1 ![] bcast_S_S32x8x1) : C S_ → C S32x8x1),
    binary main_call1_v10 main_call1_v11 main_call1_v12 (Host.divf : C S32x8x1 → C S32x8x1 → C S32x8x1),
    nullary main_call1_cst_3 (constant S_ .f32 0x00000000#32),
    binary main_call1_v8 main_call1_cst_3 main_call1_v13 ((cmpf .ogt) : C S_ → C S_ → C S_ .i1),
    nullary main_call1_cst_4 (constant S_ .f32 0x7FC00000#32),
    unary main_call1_cst_4 main_call1_call0_v0 (id : C S_ → C S_),
    unary main_call1_call0_v0 main_call1_call0_v1 ((broadcastInDim S32x8x1 ![] bcast_S_S32x8x1) : C S_ → C S32x8x1),
    ternary main_call1_v13 main_call1_v12 main_call1_call0_v1 main_v28 ((fun p a b => select (broadcastInDim S32x8x1 ![] bcast_S_S32x8x1 p) a b) : C S_ .i1 → C S32x8x1 → C S32x8x1 → C S32x8x1),
    unary main_v27 main_v29 (broadcastInDim S32x8x512 ![0, 1, 2] bcast_S32x8x1_S32x8x512_0_1_2 : C S32x8x1 → C S32x8x512),
    binary main_v3 main_v29 main_v30 (subf : C S32x8x512 → C S32x8x512 → C S32x8x512),
    nullary main_cst_5 (constant S_ .f32 0x3727C5AC#32),
    unary main_cst_5 main_v31 (broadcastInDim S32x8x1 ![] bcast_S_S32x8x1 : C S_ → C S32x8x1),
    binary main_v28 main_v31 main_v32 (addf : C S32x8x1 → C S32x8x1 → C S32x8x1),
    unary main_v32 main_v33 (Host.rsqrt : C S32x8x1 → C S32x8x1),
    unary main_v33 main_v34 (broadcastInDim S32x8x512 ![0, 1, 2] bcast_S32x8x1_S32x8x512_0_1_2 : C S32x8x1 → C S32x8x512),
    binary main_v30 main_v34 main_v35 (mulf : C S32x8x512 → C S32x8x512 → C S32x8x512),
    unary main_arg6 main_v36 (broadcastInDim S1x1x512 ![2] bcast_S512_S1x1x512_2 : C S512 → C S1x1x512),
    unary main_v36 main_v37 (broadcastInDim S32x8x512 ![0, 1, 2] bcast_S1x1x512_S32x8x512_0_1_2 : C S1x1x512 → C S32x8x512),
    binary main_v35 main_v37 main_v38 (mulf : C S32x8x512 → C S32x8x512 → C S32x8x512),
    unary main_arg7 main_v39 (broadcastInDim S1x1x512 ![2] bcast_S512_S1x1x512_2 : C S512 → C S1x1x512),
    unary main_v39 main_v40 (broadcastInDim S32x8x512 ![0, 1, 2] bcast_S1x1x512_S32x8x512_0_1_2 : C S1x1x512 → C S32x8x512),
    binary main_v38 main_v40 main_v41 (addf : C S32x8x512 → C S32x8x512 → C S32x8x512),
    binary main_v41 main_arg8 main_v42 ((fun l r => Host.dotGeneral dot_S32x8x512_S512x512_S32x8x512_2_1_01_0_n_n none l r) : C S32x8x512 → C S512x512 → C S32x8x512),
    binary main_v22 main_v42 main_v43 ((fun l r => Host.dotGeneral dot_S32x4096x512_S32x8x512_S32x4096x8_2_2_1_1_0_0 none l r) : C S32x4096x512 → C S32x8x512 → C S32x4096x8),
    nullary main_cst_6 (constant S_ .f32 0xFF800000#32),
    binary main_v43 main_cst_6 main_v44 ((fun x v => Host.reduce FloatOps.maximumf x v reducesTo_S32x4096x8_S32x4096_d2 h_S_) : C S32x4096x8 → C S_ → C S32x4096),
    nullary main_cst_7 (constant S_ .f32 0xFF800000#32),
    unary main_cst_7 main_v45 (broadcastInDim S32x4096 ![] bcast_S_S32x4096 : C S_ → C S32x4096),
    binary main_v45 main_v44 main_v46 (maximumf : C S32x4096 → C S32x4096 → C S32x4096),
    unary main_v46 main_v47 (broadcastInDim S32x4096x1 ![0, 1] bcast_S32x4096_S32x4096x1_0_1 : C S32x4096 → C S32x4096x1),
    unary main_v47 main_v48 (broadcastInDim S32x4096x8 ![0, 1, 2] bcast_S32x4096x1_S32x4096x8_0_1_2 : C S32x4096x1 → C S32x4096x8),
    binary main_v43 main_v48 main_v49 (subf : C S32x4096x8 → C S32x4096x8 → C S32x4096x8) ]

abbrev ops_part1 : List (HloOp τ sig (Elt F)) :=
  [ unary main_v49 main_v50 (Host.exp : C S32x4096x8 → C S32x4096x8),
    nullary main_cst_8 (constant S_ .f32 0x00000000#32),
    binary main_v50 main_cst_8 main_v51 ((fun x v => Host.reduceAdd x v reducesTo_S32x4096x8_S32x4096_d2 h_S_) : C S32x4096x8 → C S_ → C S32x4096),
    unary main_v51 main_v52 (broadcastInDim S32x4096x1 ![0, 1] bcast_S32x4096_S32x4096x1_0_1 : C S32x4096 → C S32x4096x1),
    unary main_v52 main_v53 (broadcastInDim S32x4096x8 ![0, 1, 2] bcast_S32x4096x1_S32x4096x8_0_1_2 : C S32x4096x1 → C S32x4096x8),
    binary main_v50 main_v53 main_v54 (Host.divf : C S32x4096x8 → C S32x4096x8 → C S32x4096x8),
    nullary main_cst_9 (constant S_ .f32 0x322BCC77#32),
    unary main_cst_9 main_v55 (broadcastInDim S32x4096x8 ![] bcast_S_S32x4096x8 : C S_ → C S32x4096x8),
    binary main_v54 main_v55 main_v56 (addf : C S32x4096x8 → C S32x4096x8 → C S32x4096x8),
    nullary main_cst_10 (constant S_ .f32 0x00000000#32),
    binary main_v56 main_cst_10 main_v57 ((fun x v => Host.reduceAdd x v reducesTo_S32x4096x8_S32x4096_d2 h_S_) : C S32x4096x8 → C S_ → C S32x4096),
    unary main_v57 main_v58 (broadcastInDim S32x4096x1 ![0, 1] bcast_S32x4096_S32x4096x1_0_1 : C S32x4096 → C S32x4096x1),
    unary main_v58 main_v59 (broadcastInDim S32x4096x8 ![0, 1, 2] bcast_S32x4096x1_S32x4096x8_0_1_2 : C S32x4096x1 → C S32x4096x8),
    binary main_v56 main_v59 main_v60 (Host.divf : C S32x4096x8 → C S32x4096x8 → C S32x4096x8),
    unary main_v60 main_v61 ((transpose S32x8x4096 [0, 2, 1] · transposes_S32x4096x8_S32x8x4096_0_2_1) : C S32x4096x8 → C S32x8x4096),
    binary main_v61 main_v23 main_v62 ((fun l r => Host.dotGeneral dot_S32x8x4096_S32x4096x512_S32x8x512_2_1_1_2_0_0 none l r) : C S32x8x4096 → C S32x4096x512 → C S32x8x512),
    binary main_v62 main_arg11 main_v63 ((fun l r => Host.dotGeneral dot_S32x8x512_S1536x512_S32x8x1536_2_1_01_0_n_n none l r) : C S32x8x512 → C S1536x512 → C S32x8x1536),
    unary main_arg13 main_v64 (broadcastInDim S1x1x1536 ![2] bcast_S1536_S1x1x1536_2 : C S1536 → C S1x1x1536),
    unary main_v64 main_v65 (broadcastInDim S32x8x1536 ![0, 1, 2] bcast_S1x1x1536_S32x8x1536_0_1_2 : C S1x1x1536 → C S32x8x1536),
    binary main_v63 main_v65 main_v66 (addf : C S32x8x1536 → C S32x8x1536 → C S32x8x1536),
    binary main_v3 main_arg12 main_v67 ((fun l r => Host.dotGeneral dot_S32x8x512_S1536x512_S32x8x1536_2_1_01_0_n_n none l r) : C S32x8x512 → C S1536x512 → C S32x8x1536),
    unary main_arg14 main_v68 (broadcastInDim S1x1x1536 ![2] bcast_S1536_S1x1x1536_2 : C S1536 → C S1x1x1536),
    unary main_v68 main_v69 (broadcastInDim S32x8x1536 ![0, 1, 2] bcast_S1x1x1536_S32x8x1536_0_1_2 : C S1x1x1536 → C S32x8x1536),
    binary main_v67 main_v69 main_v70 (addf : C S32x8x1536 → C S32x8x1536 → C S32x8x1536),
    unary main_v66 main_v71 ((extractStridedSlice S32x8x512 ![0, 0, 0] · slices_S32x8x1536_S32x8x512_0_0_0) : C S32x8x1536 → C S32x8x512),
    unary main_v66 main_v72 ((extractStridedSlice S32x8x512 ![0, 0, 512] · slices_S32x8x1536_S32x8x512_0_0_512) : C S32x8x1536 → C S32x8x512),
    unary main_v66 main_v73 ((extractStridedSlice S32x8x512 ![0, 0, 1024] · slices_S32x8x1536_S32x8x512_0_0_1024) : C S32x8x1536 → C S32x8x512),
    unary main_v70 main_v74 ((extractStridedSlice S32x8x512 ![0, 0, 0] · slices_S32x8x1536_S32x8x512_0_0_0) : C S32x8x1536 → C S32x8x512),
    unary main_v70 main_v75 ((extractStridedSlice S32x8x512 ![0, 0, 512] · slices_S32x8x1536_S32x8x512_0_0_512) : C S32x8x1536 → C S32x8x512),
    unary main_v70 main_v76 ((extractStridedSlice S32x8x512 ![0, 0, 1024] · slices_S32x8x1536_S32x8x512_0_0_1024) : C S32x8x1536 → C S32x8x512),
    binary main_v71 main_v74 main_v77 (addf : C S32x8x512 → C S32x8x512 → C S32x8x512),
    unary main_v77 main_v78 (Host.negf : C S32x8x512 → C S32x8x512),
    unary main_v78 main_v79 (Host.exp : C S32x8x512 → C S32x8x512),
    nullary main_cst_11 (constant S_ .f32 0x3F800000#32),
    unary main_cst_11 main_v80 (broadcastInDim S32x8x512 ![] bcast_S_S32x8x512 : C S_ → C S32x8x512),
    binary main_v80 main_v79 main_v81 (addf : C S32x8x512 → C S32x8x512 → C S32x8x512),
    nullary main_cst_12 (constant S_ .f32 0x3F800000#32),
    unary main_cst_12 main_v82 (broadcastInDim S32x8x512 ![] bcast_S_S32x8x512 : C S_ → C S32x8x512),
    binary main_v82 main_v81 main_v83 (Host.divf : C S32x8x512 → C S32x8x512 → C S32x8x512),
    binary main_v72 main_v75 main_v84 (addf : C S32x8x512 → C S32x8x512 → C S32x8x512),
    unary main_v84 main_v85 (Host.negf : C S32x8x512 → C S32x8x512),
    unary main_v85 main_v86 (Host.exp : C S32x8x512 → C S32x8x512),
    nullary main_cst_13 (constant S_ .f32 0x3F800000#32),
    unary main_cst_13 main_v87 (broadcastInDim S32x8x512 ![] bcast_S_S32x8x512 : C S_ → C S32x8x512),
    binary main_v87 main_v86 main_v88 (addf : C S32x8x512 → C S32x8x512 → C S32x8x512),
    nullary main_cst_14 (constant S_ .f32 0x3F800000#32),
    unary main_cst_14 main_v89 (broadcastInDim S32x8x512 ![] bcast_S_S32x8x512 : C S_ → C S32x8x512),
    binary main_v89 main_v88 main_v90 (Host.divf : C S32x8x512 → C S32x8x512 → C S32x8x512),
    binary main_v83 main_v76 main_v91 (mulf : C S32x8x512 → C S32x8x512 → C S32x8x512),
    binary main_v73 main_v91 main_v92 (addf : C S32x8x512 → C S32x8x512 → C S32x8x512),
    unary main_v92 main_v93 (Host.tanh : C S32x8x512 → C S32x8x512),
    nullary main_cst_15 (constant S_ .f32 0x3F800000#32),
    unary main_cst_15 main_v94 (broadcastInDim S32x8x512 ![] bcast_S_S32x8x512 : C S_ → C S32x8x512),
    binary main_v94 main_v90 main_v95 (subf : C S32x8x512 → C S32x8x512 → C S32x8x512),
    binary main_v95 main_v93 main_v96 (mulf : C S32x8x512 → C S32x8x512 → C S32x8x512),
    binary main_v90 main_v3 main_v97 (mulf : C S32x8x512 → C S32x8x512 → C S32x8x512),
    binary main_v96 main_v97 main_v98 (addf : C S32x8x512 → C S32x8x512 → C S32x8x512),
    nullary main_cst_16 (constant S_ .f32 0x00000000#32),
    binary main_v98 main_cst_16 main_v99 ((fun x v => Host.reduceAdd x v reducesTo_S32x8x512_S32x8_d2 h_S_) : C S32x8x512 → C S_ → C S32x8),
    unary main_v99 main_v100 (broadcastInDim S32x8x1 ![0, 1] bcast_S32x8_S32x8x1_0_1 : C S32x8 → C S32x8x1) ]

abbrev ops_part2 : List (HloOp τ sig (Elt F)) :=
  [ nullary main_cst_17 (constant S_ .f32 0x44000000#32),
    unary main_cst_17 main_v101 (broadcastInDim S32x8x1 ![] bcast_S_S32x8x1 : C S_ → C S32x8x1),
    binary main_v100 main_v101 main_v102 (Host.divf : C S32x8x1 → C S32x8x1 → C S32x8x1),
    nullary main_c_18 (constantI S_ 32 0#32),
    nullary main_call2_cst (constant S_ .f32 0x00000000#32),
    binary main_v98 main_call2_cst main_call2_v0 ((fun x v => Host.reduceAdd x v reducesTo_S32x8x512_S32x8_d2 h_S_) : C S32x8x512 → C S_ → C S32x8),
    unary main_call2_v0 main_call2_v1 ((broadcastInDim S32x8x1 ![0, 1] bcast_S32x8_S32x8x1_0_1) : C S32x8 → C S32x8x1),
    nullary main_call2_cst_0 (constant S_ .f32 0x44000000#32),
    unary main_call2_cst_0 main_call2_v2 ((broadcastInDim S32x8x1 ![] bcast_S_S32x8x1) : C S_ → C S32x8x1),
    binary main_call2_v1 main_call2_v2 main_call2_v3 (Host.divf : C S32x8x1 → C S32x8x1 → C S32x8x1),
    unary main_call2_v3 main_call2_v4 ((broadcastInDim S32x8x512 ![0, 1, 2] bcast_S32x8x1_S32x8x512_0_1_2) : C S32x8x1 → C S32x8x512),
    binary main_v98 main_call2_v4 main_call2_v5 (subf : C S32x8x512 → C S32x8x512 → C S32x8x512),
    binary main_call2_v5 main_call2_v5 main_call2_v6 (mulf : C S32x8x512 → C S32x8x512 → C S32x8x512),
    unary main_c_18 main_call2_v7 ((sitofp .f32) : C S_ .i32 → C S_),
    nullary main_call2_cst_1 (constant S_ .f32 0x44000000#32),
    binary main_call2_cst_1 main_call2_v7 main_call2_v8 (subf : C S_ → C S_ → C S_),
    nullary main_call2_cst_2 (constant S_ .f32 0x00000000#32),
    binary main_call2_v6 main_call2_cst_2 main_call2_v9 ((fun x v => Host.reduceAdd x v reducesTo_S32x8x512_S32x8_d2 h_S_) : C S32x8x512 → C S_ → C S32x8),
    unary main_call2_v9 main_call2_v10 ((broadcastInDim S32x8x1 ![0, 1] bcast_S32x8_S32x8x1_0_1) : C S32x8 → C S32x8x1),
    unary main_call2_v8 main_call2_v11 ((broadcastInDim S32x8x1 ![] bcast_S_S32x8x1) : C S_ → C S32x8x1),
    binary main_call2_v10 main_call2_v11 main_call2_v12 (Host.divf : C S32x8x1 → C S32x8x1 → C S32x8x1),
    nullary main_call2_cst_3 (constant S_ .f32 0x00000000#32),
    binary main_call2_v8 main_call2_cst_3 main_call2_v13 ((cmpf .ogt) : C S_ → C S_ → C S_ .i1),
    nullary main_call2_cst_4 (constant S_ .f32 0x7FC00000#32),
    unary main_call2_cst_4 main_call2_call0_v0 (id : C S_ → C S_),
    unary main_call2_call0_v0 main_call2_call0_v1 ((broadcastInDim S32x8x1 ![] bcast_S_S32x8x1) : C S_ → C S32x8x1),
    ternary main_call2_v13 main_call2_v12 main_call2_call0_v1 main_v103 ((fun p a b => select (broadcastInDim S32x8x1 ![] bcast_S_S32x8x1 p) a b) : C S_ .i1 → C S32x8x1 → C S32x8x1 → C S32x8x1),
    unary main_v102 main_v104 (broadcastInDim S32x8x512 ![0, 1, 2] bcast_S32x8x1_S32x8x512_0_1_2 : C S32x8x1 → C S32x8x512),
    binary main_v98 main_v104 main_v105 (subf : C S32x8x512 → C S32x8x512 → C S32x8x512),
    nullary main_cst_19 (constant S_ .f32 0x3727C5AC#32),
    unary main_cst_19 main_v106 (broadcastInDim S32x8x1 ![] bcast_S_S32x8x1 : C S_ → C S32x8x1),
    binary main_v103 main_v106 main_v107 (addf : C S32x8x1 → C S32x8x1 → C S32x8x1),
    unary main_v107 main_v108 (Host.rsqrt : C S32x8x1 → C S32x8x1),
    unary main_v108 main_v109 (broadcastInDim S32x8x512 ![0, 1, 2] bcast_S32x8x1_S32x8x512_0_1_2 : C S32x8x1 → C S32x8x512),
    binary main_v105 main_v109 main_v110 (mulf : C S32x8x512 → C S32x8x512 → C S32x8x512),
    unary main_arg15 main_v111 (broadcastInDim S1x1x512 ![2] bcast_S512_S1x1x512_2 : C S512 → C S1x1x512),
    unary main_v111 main_v112 (broadcastInDim S32x8x512 ![0, 1, 2] bcast_S1x1x512_S32x8x512_0_1_2 : C S1x1x512 → C S32x8x512),
    binary main_v110 main_v112 main_v113 (mulf : C S32x8x512 → C S32x8x512 → C S32x8x512),
    unary main_arg16 main_v114 (broadcastInDim S1x1x512 ![2] bcast_S512_S1x1x512_2 : C S512 → C S1x1x512),
    unary main_v114 main_v115 (broadcastInDim S32x8x512 ![0, 1, 2] bcast_S1x1x512_S32x8x512_0_1_2 : C S1x1x512 → C S32x8x512),
    binary main_v113 main_v115 main_v116 (addf : C S32x8x512 → C S32x8x512 → C S32x8x512),
    binary main_v116 main_arg17 main_v117 ((fun l r => Host.dotGeneral dot_S32x8x512_S512x512_S32x8x512_2_1_01_0_n_n none l r) : C S32x8x512 → C S512x512 → C S32x8x512),
    unary main_arg18 main_v118 (broadcastInDim S1x1x512 ![2] bcast_S512_S1x1x512_2 : C S512 → C S1x1x512),
    unary main_v118 main_v119 (broadcastInDim S32x8x512 ![0, 1, 2] bcast_S1x1x512_S32x8x512_0_1_2 : C S1x1x512 → C S32x8x512),
    binary main_v117 main_v119 main_v120 (addf : C S32x8x512 → C S32x8x512 → C S32x8x512),
    nullary main_call3_cst (constant S_ .f32 0x00000000#32),
    unary main_call3_cst main_call3_v0 ((broadcastInDim S32x8x512 ![] bcast_S_S32x8x512) : C S_ → C S32x8x512),
    binary main_v120 main_call3_v0 main_v121 (maximumf : C S32x8x512 → C S32x8x512 → C S32x8x512),
    binary main_v121 main_arg19 main_v122 ((fun l r => Host.dotGeneral dot_S32x8x512_S512x512_S32x8x512_2_1_01_0_n_n none l r) : C S32x8x512 → C S512x512 → C S32x8x512),
    binary main_v98 main_v122 main_v123 (addf : C S32x8x512 → C S32x8x512 → C S32x8x512),
    unary main_arg20 main_v124 (broadcastInDim S1x1x512 ![2] bcast_S512_S1x1x512_2 : C S512 → C S1x1x512),
    unary main_v124 main_v125 (broadcastInDim S32x8x512 ![0, 1, 2] bcast_S1x1x512_S32x8x512_0_1_2 : C S1x1x512 → C S32x8x512),
    binary main_v123 main_v125 main_v126 (addf : C S32x8x512 → C S32x8x512 → C S32x8x512),
    nullary main_cst_20 (constant S_ .f32 0x00000000#32),
    binary main_v126 main_cst_20 main_v127 ((fun x v => Host.reduceAdd x v reducesTo_S32x8x512_S32x8_d2 h_S_) : C S32x8x512 → C S_ → C S32x8),
    unary main_v127 main_v128 (broadcastInDim S32x8x1 ![0, 1] bcast_S32x8_S32x8x1_0_1 : C S32x8 → C S32x8x1),
    nullary main_cst_21 (constant S_ .f32 0x44000000#32),
    unary main_cst_21 main_v129 (broadcastInDim S32x8x1 ![] bcast_S_S32x8x1 : C S_ → C S32x8x1),
    binary main_v128 main_v129 main_v130 (Host.divf : C S32x8x1 → C S32x8x1 → C S32x8x1),
    nullary main_c_22 (constantI S_ 32 0#32),
    nullary main_call4_cst (constant S_ .f32 0x00000000#32),
    binary main_v126 main_call4_cst main_call4_v0 ((fun x v => Host.reduceAdd x v reducesTo_S32x8x512_S32x8_d2 h_S_) : C S32x8x512 → C S_ → C S32x8),
    unary main_call4_v0 main_call4_v1 ((broadcastInDim S32x8x1 ![0, 1] bcast_S32x8_S32x8x1_0_1) : C S32x8 → C S32x8x1),
    nullary main_call4_cst_0 (constant S_ .f32 0x44000000#32),
    unary main_call4_cst_0 main_call4_v2 ((broadcastInDim S32x8x1 ![] bcast_S_S32x8x1) : C S_ → C S32x8x1),
    binary main_call4_v1 main_call4_v2 main_call4_v3 (Host.divf : C S32x8x1 → C S32x8x1 → C S32x8x1),
    unary main_call4_v3 main_call4_v4 ((broadcastInDim S32x8x512 ![0, 1, 2] bcast_S32x8x1_S32x8x512_0_1_2) : C S32x8x1 → C S32x8x512),
    binary main_v126 main_call4_v4 main_call4_v5 (subf : C S32x8x512 → C S32x8x512 → C S32x8x512),
    binary main_call4_v5 main_call4_v5 main_call4_v6 (mulf : C S32x8x512 → C S32x8x512 → C S32x8x512),
    unary main_c_22 main_call4_v7 ((sitofp .f32) : C S_ .i32 → C S_),
    nullary main_call4_cst_1 (constant S_ .f32 0x44000000#32),
    binary main_call4_cst_1 main_call4_v7 main_call4_v8 (subf : C S_ → C S_ → C S_),
    nullary main_call4_cst_2 (constant S_ .f32 0x00000000#32),
    binary main_call4_v6 main_call4_cst_2 main_call4_v9 ((fun x v => Host.reduceAdd x v reducesTo_S32x8x512_S32x8_d2 h_S_) : C S32x8x512 → C S_ → C S32x8),
    unary main_call4_v9 main_call4_v10 ((broadcastInDim S32x8x1 ![0, 1] bcast_S32x8_S32x8x1_0_1) : C S32x8 → C S32x8x1),
    unary main_call4_v8 main_call4_v11 ((broadcastInDim S32x8x1 ![] bcast_S_S32x8x1) : C S_ → C S32x8x1),
    binary main_call4_v10 main_call4_v11 main_call4_v12 (Host.divf : C S32x8x1 → C S32x8x1 → C S32x8x1),
    nullary main_call4_cst_3 (constant S_ .f32 0x00000000#32),
    binary main_call4_v8 main_call4_cst_3 main_call4_v13 ((cmpf .ogt) : C S_ → C S_ → C S_ .i1),
    nullary main_call4_cst_4 (constant S_ .f32 0x7FC00000#32),
    unary main_call4_cst_4 main_call4_call0_v0 (id : C S_ → C S_),
    unary main_call4_call0_v0 main_call4_call0_v1 ((broadcastInDim S32x8x1 ![] bcast_S_S32x8x1) : C S_ → C S32x8x1),
    ternary main_call4_v13 main_call4_v12 main_call4_call0_v1 main_v131 ((fun p a b => select (broadcastInDim S32x8x1 ![] bcast_S_S32x8x1 p) a b) : C S_ .i1 → C S32x8x1 → C S32x8x1 → C S32x8x1),
    unary main_v130 main_v132 (broadcastInDim S32x8x512 ![0, 1, 2] bcast_S32x8x1_S32x8x512_0_1_2 : C S32x8x1 → C S32x8x512),
    binary main_v126 main_v132 main_v133 (subf : C S32x8x512 → C S32x8x512 → C S32x8x512),
    nullary main_cst_23 (constant S_ .f32 0x3727C5AC#32),
    unary main_cst_23 main_v134 (broadcastInDim S32x8x1 ![] bcast_S_S32x8x1 : C S_ → C S32x8x1),
    binary main_v131 main_v134 main_v135 (addf : C S32x8x1 → C S32x8x1 → C S32x8x1),
    unary main_v135 main_v136 (Host.rsqrt : C S32x8x1 → C S32x8x1),
    unary main_v136 main_v137 (broadcastInDim S32x8x512 ![0, 1, 2] bcast_S32x8x1_S32x8x512_0_1_2 : C S32x8x1 → C S32x8x512),
    binary main_v133 main_v137 main_v138 (mulf : C S32x8x512 → C S32x8x512 → C S32x8x512),
    unary main_arg6 main_v139 (broadcastInDim S1x1x512 ![2] bcast_S512_S1x1x512_2 : C S512 → C S1x1x512),
    unary main_v139 main_v140 (broadcastInDim S32x8x512 ![0, 1, 2] bcast_S1x1x512_S32x8x512_0_1_2 : C S1x1x512 → C S32x8x512),
    binary main_v138 main_v140 main_v141 (mulf : C S32x8x512 → C S32x8x512 → C S32x8x512),
    unary main_arg7 main_v142 (broadcastInDim S1x1x512 ![2] bcast_S512_S1x1x512_2 : C S512 → C S1x1x512),
    unary main_v142 main_v143 (broadcastInDim S32x8x512 ![0, 1, 2] bcast_S1x1x512_S32x8x512_0_1_2 : C S1x1x512 → C S32x8x512),
    binary main_v141 main_v143 main_v144 (addf : C S32x8x512 → C S32x8x512 → C S32x8x512),
    binary main_v144 main_arg8 main_v145 ((fun l r => Host.dotGeneral dot_S32x8x512_S512x512_S32x8x512_2_1_01_0_n_n none l r) : C S32x8x512 → C S512x512 → C S32x8x512),
    binary main_v22 main_v145 main_v146 ((fun l r => Host.dotGeneral dot_S32x4096x512_S32x8x512_S32x4096x8_2_2_1_1_0_0 none l r) : C S32x4096x512 → C S32x8x512 → C S32x4096x8),
    nullary main_cst_24 (constant S_ .f32 0xFF800000#32),
    binary main_v146 main_cst_24 main_v147 ((fun x v => Host.reduce FloatOps.maximumf x v reducesTo_S32x4096x8_S32x4096_d2 h_S_) : C S32x4096x8 → C S_ → C S32x4096),
    nullary main_cst_25 (constant S_ .f32 0xFF800000#32),
    unary main_cst_25 main_v148 (broadcastInDim S32x4096 ![] bcast_S_S32x4096 : C S_ → C S32x4096),
    binary main_v148 main_v147 main_v149 (maximumf : C S32x4096 → C S32x4096 → C S32x4096),
    unary main_v149 main_v150 (broadcastInDim S32x4096x1 ![0, 1] bcast_S32x4096_S32x4096x1_0_1 : C S32x4096 → C S32x4096x1),
    unary main_v150 main_v151 (broadcastInDim S32x4096x8 ![0, 1, 2] bcast_S32x4096x1_S32x4096x8_0_1_2 : C S32x4096x1 → C S32x4096x8) ]

abbrev ops_part3 : List (HloOp τ sig (Elt F)) :=
  [ binary main_v146 main_v151 main_v152 (subf : C S32x4096x8 → C S32x4096x8 → C S32x4096x8),
    unary main_v152 main_v153 (Host.exp : C S32x4096x8 → C S32x4096x8),
    nullary main_cst_26 (constant S_ .f32 0x00000000#32),
    binary main_v153 main_cst_26 main_v154 ((fun x v => Host.reduceAdd x v reducesTo_S32x4096x8_S32x4096_d2 h_S_) : C S32x4096x8 → C S_ → C S32x4096),
    unary main_v154 main_v155 (broadcastInDim S32x4096x1 ![0, 1] bcast_S32x4096_S32x4096x1_0_1 : C S32x4096 → C S32x4096x1),
    unary main_v155 main_v156 (broadcastInDim S32x4096x8 ![0, 1, 2] bcast_S32x4096x1_S32x4096x8_0_1_2 : C S32x4096x1 → C S32x4096x8),
    binary main_v153 main_v156 main_v157 (Host.divf : C S32x4096x8 → C S32x4096x8 → C S32x4096x8),
    nullary main_cst_27 (constant S_ .f32 0x322BCC77#32),
    unary main_cst_27 main_v158 (broadcastInDim S32x4096x8 ![] bcast_S_S32x4096x8 : C S_ → C S32x4096x8),
    binary main_v157 main_v158 main_v159 (addf : C S32x4096x8 → C S32x4096x8 → C S32x4096x8),
    nullary main_cst_28 (constant S_ .f32 0x00000000#32),
    binary main_v159 main_cst_28 main_v160 ((fun x v => Host.reduceAdd x v reducesTo_S32x4096x8_S32x4096_d2 h_S_) : C S32x4096x8 → C S_ → C S32x4096),
    unary main_v160 main_v161 (broadcastInDim S32x4096x1 ![0, 1] bcast_S32x4096_S32x4096x1_0_1 : C S32x4096 → C S32x4096x1),
    unary main_v161 main_v162 (broadcastInDim S32x4096x8 ![0, 1, 2] bcast_S32x4096x1_S32x4096x8_0_1_2 : C S32x4096x1 → C S32x4096x8),
    binary main_v159 main_v162 main_v163 (Host.divf : C S32x4096x8 → C S32x4096x8 → C S32x4096x8),
    unary main_v163 main_v164 ((transpose S32x8x4096 [0, 2, 1] · transposes_S32x4096x8_S32x8x4096_0_2_1) : C S32x4096x8 → C S32x8x4096),
    binary main_v164 main_v23 main_v165 ((fun l r => Host.dotGeneral dot_S32x8x4096_S32x4096x512_S32x8x512_2_1_1_2_0_0 none l r) : C S32x8x4096 → C S32x4096x512 → C S32x8x512),
    binary main_v165 main_arg11 main_v166 ((fun l r => Host.dotGeneral dot_S32x8x512_S1536x512_S32x8x1536_2_1_01_0_n_n none l r) : C S32x8x512 → C S1536x512 → C S32x8x1536),
    unary main_arg13 main_v167 (broadcastInDim S1x1x1536 ![2] bcast_S1536_S1x1x1536_2 : C S1536 → C S1x1x1536),
    unary main_v167 main_v168 (broadcastInDim S32x8x1536 ![0, 1, 2] bcast_S1x1x1536_S32x8x1536_0_1_2 : C S1x1x1536 → C S32x8x1536),
    binary main_v166 main_v168 main_v169 (addf : C S32x8x1536 → C S32x8x1536 → C S32x8x1536),
    binary main_v126 main_arg12 main_v170 ((fun l r => Host.dotGeneral dot_S32x8x512_S1536x512_S32x8x1536_2_1_01_0_n_n none l r) : C S32x8x512 → C S1536x512 → C S32x8x1536),
    unary main_arg14 main_v171 (broadcastInDim S1x1x1536 ![2] bcast_S1536_S1x1x1536_2 : C S1536 → C S1x1x1536),
    unary main_v171 main_v172 (broadcastInDim S32x8x1536 ![0, 1, 2] bcast_S1x1x1536_S32x8x1536_0_1_2 : C S1x1x1536 → C S32x8x1536),
    binary main_v170 main_v172 main_v173 (addf : C S32x8x1536 → C S32x8x1536 → C S32x8x1536),
    unary main_v169 main_v174 ((extractStridedSlice S32x8x512 ![0, 0, 0] · slices_S32x8x1536_S32x8x512_0_0_0) : C S32x8x1536 → C S32x8x512),
    unary main_v169 main_v175 ((extractStridedSlice S32x8x512 ![0, 0, 512] · slices_S32x8x1536_S32x8x512_0_0_512) : C S32x8x1536 → C S32x8x512),
    unary main_v169 main_v176 ((extractStridedSlice S32x8x512 ![0, 0, 1024] · slices_S32x8x1536_S32x8x512_0_0_1024) : C S32x8x1536 → C S32x8x512),
    unary main_v173 main_v177 ((extractStridedSlice S32x8x512 ![0, 0, 0] · slices_S32x8x1536_S32x8x512_0_0_0) : C S32x8x1536 → C S32x8x512),
    unary main_v173 main_v178 ((extractStridedSlice S32x8x512 ![0, 0, 512] · slices_S32x8x1536_S32x8x512_0_0_512) : C S32x8x1536 → C S32x8x512),
    unary main_v173 main_v179 ((extractStridedSlice S32x8x512 ![0, 0, 1024] · slices_S32x8x1536_S32x8x512_0_0_1024) : C S32x8x1536 → C S32x8x512),
    binary main_v174 main_v177 main_v180 (addf : C S32x8x512 → C S32x8x512 → C S32x8x512),
    unary main_v180 main_v181 (Host.negf : C S32x8x512 → C S32x8x512),
    unary main_v181 main_v182 (Host.exp : C S32x8x512 → C S32x8x512),
    nullary main_cst_29 (constant S_ .f32 0x3F800000#32),
    unary main_cst_29 main_v183 (broadcastInDim S32x8x512 ![] bcast_S_S32x8x512 : C S_ → C S32x8x512),
    binary main_v183 main_v182 main_v184 (addf : C S32x8x512 → C S32x8x512 → C S32x8x512),
    nullary main_cst_30 (constant S_ .f32 0x3F800000#32),
    unary main_cst_30 main_v185 (broadcastInDim S32x8x512 ![] bcast_S_S32x8x512 : C S_ → C S32x8x512),
    binary main_v185 main_v184 main_v186 (Host.divf : C S32x8x512 → C S32x8x512 → C S32x8x512),
    binary main_v175 main_v178 main_v187 (addf : C S32x8x512 → C S32x8x512 → C S32x8x512),
    unary main_v187 main_v188 (Host.negf : C S32x8x512 → C S32x8x512),
    unary main_v188 main_v189 (Host.exp : C S32x8x512 → C S32x8x512),
    nullary main_cst_31 (constant S_ .f32 0x3F800000#32),
    unary main_cst_31 main_v190 (broadcastInDim S32x8x512 ![] bcast_S_S32x8x512 : C S_ → C S32x8x512),
    binary main_v190 main_v189 main_v191 (addf : C S32x8x512 → C S32x8x512 → C S32x8x512),
    nullary main_cst_32 (constant S_ .f32 0x3F800000#32),
    unary main_cst_32 main_v192 (broadcastInDim S32x8x512 ![] bcast_S_S32x8x512 : C S_ → C S32x8x512),
    binary main_v192 main_v191 main_v193 (Host.divf : C S32x8x512 → C S32x8x512 → C S32x8x512),
    binary main_v186 main_v179 main_v194 (mulf : C S32x8x512 → C S32x8x512 → C S32x8x512),
    binary main_v176 main_v194 main_v195 (addf : C S32x8x512 → C S32x8x512 → C S32x8x512),
    unary main_v195 main_v196 (Host.tanh : C S32x8x512 → C S32x8x512),
    nullary main_cst_33 (constant S_ .f32 0x3F800000#32),
    unary main_cst_33 main_v197 (broadcastInDim S32x8x512 ![] bcast_S_S32x8x512 : C S_ → C S32x8x512),
    binary main_v197 main_v193 main_v198 (subf : C S32x8x512 → C S32x8x512 → C S32x8x512),
    binary main_v198 main_v196 main_v199 (mulf : C S32x8x512 → C S32x8x512 → C S32x8x512),
    binary main_v193 main_v126 main_v200 (mulf : C S32x8x512 → C S32x8x512 → C S32x8x512),
    binary main_v199 main_v200 main_v201 (addf : C S32x8x512 → C S32x8x512 → C S32x8x512),
    nullary main_cst_34 (constant S_ .f32 0x00000000#32),
    binary main_v201 main_cst_34 main_v202 ((fun x v => Host.reduceAdd x v reducesTo_S32x8x512_S32x8_d2 h_S_) : C S32x8x512 → C S_ → C S32x8) ]

abbrev ops_part4 : List (HloOp τ sig (Elt F)) :=
  [ unary main_v202 main_v203 (broadcastInDim S32x8x1 ![0, 1] bcast_S32x8_S32x8x1_0_1 : C S32x8 → C S32x8x1),
    nullary main_cst_35 (constant S_ .f32 0x44000000#32),
    unary main_cst_35 main_v204 (broadcastInDim S32x8x1 ![] bcast_S_S32x8x1 : C S_ → C S32x8x1),
    binary main_v203 main_v204 main_v205 (Host.divf : C S32x8x1 → C S32x8x1 → C S32x8x1),
    nullary main_c_36 (constantI S_ 32 0#32),
    nullary main_call5_cst (constant S_ .f32 0x00000000#32),
    binary main_v201 main_call5_cst main_call5_v0 ((fun x v => Host.reduceAdd x v reducesTo_S32x8x512_S32x8_d2 h_S_) : C S32x8x512 → C S_ → C S32x8),
    unary main_call5_v0 main_call5_v1 ((broadcastInDim S32x8x1 ![0, 1] bcast_S32x8_S32x8x1_0_1) : C S32x8 → C S32x8x1),
    nullary main_call5_cst_0 (constant S_ .f32 0x44000000#32),
    unary main_call5_cst_0 main_call5_v2 ((broadcastInDim S32x8x1 ![] bcast_S_S32x8x1) : C S_ → C S32x8x1),
    binary main_call5_v1 main_call5_v2 main_call5_v3 (Host.divf : C S32x8x1 → C S32x8x1 → C S32x8x1),
    unary main_call5_v3 main_call5_v4 ((broadcastInDim S32x8x512 ![0, 1, 2] bcast_S32x8x1_S32x8x512_0_1_2) : C S32x8x1 → C S32x8x512),
    binary main_v201 main_call5_v4 main_call5_v5 (subf : C S32x8x512 → C S32x8x512 → C S32x8x512),
    binary main_call5_v5 main_call5_v5 main_call5_v6 (mulf : C S32x8x512 → C S32x8x512 → C S32x8x512),
    unary main_c_36 main_call5_v7 ((sitofp .f32) : C S_ .i32 → C S_),
    nullary main_call5_cst_1 (constant S_ .f32 0x44000000#32),
    binary main_call5_cst_1 main_call5_v7 main_call5_v8 (subf : C S_ → C S_ → C S_),
    nullary main_call5_cst_2 (constant S_ .f32 0x00000000#32),
    binary main_call5_v6 main_call5_cst_2 main_call5_v9 ((fun x v => Host.reduceAdd x v reducesTo_S32x8x512_S32x8_d2 h_S_) : C S32x8x512 → C S_ → C S32x8),
    unary main_call5_v9 main_call5_v10 ((broadcastInDim S32x8x1 ![0, 1] bcast_S32x8_S32x8x1_0_1) : C S32x8 → C S32x8x1),
    unary main_call5_v8 main_call5_v11 ((broadcastInDim S32x8x1 ![] bcast_S_S32x8x1) : C S_ → C S32x8x1),
    binary main_call5_v10 main_call5_v11 main_call5_v12 (Host.divf : C S32x8x1 → C S32x8x1 → C S32x8x1),
    nullary main_call5_cst_3 (constant S_ .f32 0x00000000#32),
    binary main_call5_v8 main_call5_cst_3 main_call5_v13 ((cmpf .ogt) : C S_ → C S_ → C S_ .i1),
    nullary main_call5_cst_4 (constant S_ .f32 0x7FC00000#32),
    unary main_call5_cst_4 main_call5_call0_v0 (id : C S_ → C S_),
    unary main_call5_call0_v0 main_call5_call0_v1 ((broadcastInDim S32x8x1 ![] bcast_S_S32x8x1) : C S_ → C S32x8x1),
    ternary main_call5_v13 main_call5_v12 main_call5_call0_v1 main_v206 ((fun p a b => select (broadcastInDim S32x8x1 ![] bcast_S_S32x8x1 p) a b) : C S_ .i1 → C S32x8x1 → C S32x8x1 → C S32x8x1),
    unary main_v205 main_v207 (broadcastInDim S32x8x512 ![0, 1, 2] bcast_S32x8x1_S32x8x512_0_1_2 : C S32x8x1 → C S32x8x512),
    binary main_v201 main_v207 main_v208 (subf : C S32x8x512 → C S32x8x512 → C S32x8x512),
    nullary main_cst_37 (constant S_ .f32 0x3727C5AC#32),
    unary main_cst_37 main_v209 (broadcastInDim S32x8x1 ![] bcast_S_S32x8x1 : C S_ → C S32x8x1),
    binary main_v206 main_v209 main_v210 (addf : C S32x8x1 → C S32x8x1 → C S32x8x1),
    unary main_v210 main_v211 (Host.rsqrt : C S32x8x1 → C S32x8x1),
    unary main_v211 main_v212 (broadcastInDim S32x8x512 ![0, 1, 2] bcast_S32x8x1_S32x8x512_0_1_2 : C S32x8x1 → C S32x8x512),
    binary main_v208 main_v212 main_v213 (mulf : C S32x8x512 → C S32x8x512 → C S32x8x512),
    unary main_arg15 main_v214 (broadcastInDim S1x1x512 ![2] bcast_S512_S1x1x512_2 : C S512 → C S1x1x512),
    unary main_v214 main_v215 (broadcastInDim S32x8x512 ![0, 1, 2] bcast_S1x1x512_S32x8x512_0_1_2 : C S1x1x512 → C S32x8x512),
    binary main_v213 main_v215 main_v216 (mulf : C S32x8x512 → C S32x8x512 → C S32x8x512),
    unary main_arg16 main_v217 (broadcastInDim S1x1x512 ![2] bcast_S512_S1x1x512_2 : C S512 → C S1x1x512),
    unary main_v217 main_v218 (broadcastInDim S32x8x512 ![0, 1, 2] bcast_S1x1x512_S32x8x512_0_1_2 : C S1x1x512 → C S32x8x512),
    binary main_v216 main_v218 main_v219 (addf : C S32x8x512 → C S32x8x512 → C S32x8x512),
    binary main_v219 main_arg17 main_v220 ((fun l r => Host.dotGeneral dot_S32x8x512_S512x512_S32x8x512_2_1_01_0_n_n none l r) : C S32x8x512 → C S512x512 → C S32x8x512),
    unary main_arg18 main_v221 (broadcastInDim S1x1x512 ![2] bcast_S512_S1x1x512_2 : C S512 → C S1x1x512),
    unary main_v221 main_v222 (broadcastInDim S32x8x512 ![0, 1, 2] bcast_S1x1x512_S32x8x512_0_1_2 : C S1x1x512 → C S32x8x512),
    binary main_v220 main_v222 main_v223 (addf : C S32x8x512 → C S32x8x512 → C S32x8x512),
    nullary main_call6_cst (constant S_ .f32 0x00000000#32),
    unary main_call6_cst main_call6_v0 ((broadcastInDim S32x8x512 ![] bcast_S_S32x8x512) : C S_ → C S32x8x512),
    binary main_v223 main_call6_v0 main_v224 (maximumf : C S32x8x512 → C S32x8x512 → C S32x8x512),
    binary main_v224 main_arg19 main_v225 ((fun l r => Host.dotGeneral dot_S32x8x512_S512x512_S32x8x512_2_1_01_0_n_n none l r) : C S32x8x512 → C S512x512 → C S32x8x512),
    binary main_v201 main_v225 main_v226 (addf : C S32x8x512 → C S32x8x512 → C S32x8x512),
    unary main_arg20 main_v227 (broadcastInDim S1x1x512 ![2] bcast_S512_S1x1x512_2 : C S512 → C S1x1x512),
    unary main_v227 main_v228 (broadcastInDim S32x8x512 ![0, 1, 2] bcast_S1x1x512_S32x8x512_0_1_2 : C S1x1x512 → C S32x8x512),
    binary main_v226 main_v228 main_v229 (addf : C S32x8x512 → C S32x8x512 → C S32x8x512),
    nullary main_cst_38 (constant S_ .f32 0x00000000#32),
    binary main_v229 main_cst_38 main_v230 ((fun x v => Host.reduceAdd x v reducesTo_S32x8x512_S32x8_d2 h_S_) : C S32x8x512 → C S_ → C S32x8),
    unary main_v230 main_v231 (broadcastInDim S32x8x1 ![0, 1] bcast_S32x8_S32x8x1_0_1 : C S32x8 → C S32x8x1),
    nullary main_cst_39 (constant S_ .f32 0x44000000#32),
    unary main_cst_39 main_v232 (broadcastInDim S32x8x1 ![] bcast_S_S32x8x1 : C S_ → C S32x8x1),
    binary main_v231 main_v232 main_v233 (Host.divf : C S32x8x1 → C S32x8x1 → C S32x8x1),
    nullary main_c_40 (constantI S_ 32 0#32),
    nullary main_call7_cst (constant S_ .f32 0x00000000#32),
    binary main_v229 main_call7_cst main_call7_v0 ((fun x v => Host.reduceAdd x v reducesTo_S32x8x512_S32x8_d2 h_S_) : C S32x8x512 → C S_ → C S32x8),
    unary main_call7_v0 main_call7_v1 ((broadcastInDim S32x8x1 ![0, 1] bcast_S32x8_S32x8x1_0_1) : C S32x8 → C S32x8x1),
    nullary main_call7_cst_0 (constant S_ .f32 0x44000000#32),
    unary main_call7_cst_0 main_call7_v2 ((broadcastInDim S32x8x1 ![] bcast_S_S32x8x1) : C S_ → C S32x8x1),
    binary main_call7_v1 main_call7_v2 main_call7_v3 (Host.divf : C S32x8x1 → C S32x8x1 → C S32x8x1),
    unary main_call7_v3 main_call7_v4 ((broadcastInDim S32x8x512 ![0, 1, 2] bcast_S32x8x1_S32x8x512_0_1_2) : C S32x8x1 → C S32x8x512),
    binary main_v229 main_call7_v4 main_call7_v5 (subf : C S32x8x512 → C S32x8x512 → C S32x8x512),
    binary main_call7_v5 main_call7_v5 main_call7_v6 (mulf : C S32x8x512 → C S32x8x512 → C S32x8x512),
    unary main_c_40 main_call7_v7 ((sitofp .f32) : C S_ .i32 → C S_),
    nullary main_call7_cst_1 (constant S_ .f32 0x44000000#32),
    binary main_call7_cst_1 main_call7_v7 main_call7_v8 (subf : C S_ → C S_ → C S_),
    nullary main_call7_cst_2 (constant S_ .f32 0x00000000#32),
    binary main_call7_v6 main_call7_cst_2 main_call7_v9 ((fun x v => Host.reduceAdd x v reducesTo_S32x8x512_S32x8_d2 h_S_) : C S32x8x512 → C S_ → C S32x8),
    unary main_call7_v9 main_call7_v10 ((broadcastInDim S32x8x1 ![0, 1] bcast_S32x8_S32x8x1_0_1) : C S32x8 → C S32x8x1),
    unary main_call7_v8 main_call7_v11 ((broadcastInDim S32x8x1 ![] bcast_S_S32x8x1) : C S_ → C S32x8x1),
    binary main_call7_v10 main_call7_v11 main_call7_v12 (Host.divf : C S32x8x1 → C S32x8x1 → C S32x8x1),
    nullary main_call7_cst_3 (constant S_ .f32 0x00000000#32),
    binary main_call7_v8 main_call7_cst_3 main_call7_v13 ((cmpf .ogt) : C S_ → C S_ → C S_ .i1),
    nullary main_call7_cst_4 (constant S_ .f32 0x7FC00000#32),
    unary main_call7_cst_4 main_call7_call0_v0 (id : C S_ → C S_),
    unary main_call7_call0_v0 main_call7_call0_v1 ((broadcastInDim S32x8x1 ![] bcast_S_S32x8x1) : C S_ → C S32x8x1),
    ternary main_call7_v13 main_call7_v12 main_call7_call0_v1 main_v234 ((fun p a b => select (broadcastInDim S32x8x1 ![] bcast_S_S32x8x1 p) a b) : C S_ .i1 → C S32x8x1 → C S32x8x1 → C S32x8x1),
    unary main_v233 main_v235 (broadcastInDim S32x8x512 ![0, 1, 2] bcast_S32x8x1_S32x8x512_0_1_2 : C S32x8x1 → C S32x8x512),
    binary main_v229 main_v235 main_v236 (subf : C S32x8x512 → C S32x8x512 → C S32x8x512),
    nullary main_cst_41 (constant S_ .f32 0x3727C5AC#32),
    unary main_cst_41 main_v237 (broadcastInDim S32x8x1 ![] bcast_S_S32x8x1 : C S_ → C S32x8x1),
    binary main_v234 main_v237 main_v238 (addf : C S32x8x1 → C S32x8x1 → C S32x8x1),
    unary main_v238 main_v239 (Host.rsqrt : C S32x8x1 → C S32x8x1),
    unary main_v239 main_v240 (broadcastInDim S32x8x512 ![0, 1, 2] bcast_S32x8x1_S32x8x512_0_1_2 : C S32x8x1 → C S32x8x512),
    binary main_v236 main_v240 main_v241 (mulf : C S32x8x512 → C S32x8x512 → C S32x8x512),
    unary main_arg6 main_v242 (broadcastInDim S1x1x512 ![2] bcast_S512_S1x1x512_2 : C S512 → C S1x1x512),
    unary main_v242 main_v243 (broadcastInDim S32x8x512 ![0, 1, 2] bcast_S1x1x512_S32x8x512_0_1_2 : C S1x1x512 → C S32x8x512),
    binary main_v241 main_v243 main_v244 (mulf : C S32x8x512 → C S32x8x512 → C S32x8x512),
    unary main_arg7 main_v245 (broadcastInDim S1x1x512 ![2] bcast_S512_S1x1x512_2 : C S512 → C S1x1x512),
    unary main_v245 main_v246 (broadcastInDim S32x8x512 ![0, 1, 2] bcast_S1x1x512_S32x8x512_0_1_2 : C S1x1x512 → C S32x8x512),
    binary main_v244 main_v246 main_v247 (addf : C S32x8x512 → C S32x8x512 → C S32x8x512),
    binary main_v247 main_arg8 main_v248 ((fun l r => Host.dotGeneral dot_S32x8x512_S512x512_S32x8x512_2_1_01_0_n_n none l r) : C S32x8x512 → C S512x512 → C S32x8x512),
    binary main_v22 main_v248 main_v249 ((fun l r => Host.dotGeneral dot_S32x4096x512_S32x8x512_S32x4096x8_2_2_1_1_0_0 none l r) : C S32x4096x512 → C S32x8x512 → C S32x4096x8),
    nullary main_cst_42 (constant S_ .f32 0xFF800000#32),
    binary main_v249 main_cst_42 main_v250 ((fun x v => Host.reduce FloatOps.maximumf x v reducesTo_S32x4096x8_S32x4096_d2 h_S_) : C S32x4096x8 → C S_ → C S32x4096),
    nullary main_cst_43 (constant S_ .f32 0xFF800000#32),
    unary main_cst_43 main_v251 (broadcastInDim S32x4096 ![] bcast_S_S32x4096 : C S_ → C S32x4096),
    binary main_v251 main_v250 main_v252 (maximumf : C S32x4096 → C S32x4096 → C S32x4096),
    unary main_v252 main_v253 (broadcastInDim S32x4096x1 ![0, 1] bcast_S32x4096_S32x4096x1_0_1 : C S32x4096 → C S32x4096x1) ]

abbrev ops_part5 : List (HloOp τ sig (Elt F)) :=
  [ unary main_v253 main_v254 (broadcastInDim S32x4096x8 ![0, 1, 2] bcast_S32x4096x1_S32x4096x8_0_1_2 : C S32x4096x1 → C S32x4096x8),
    binary main_v249 main_v254 main_v255 (subf : C S32x4096x8 → C S32x4096x8 → C S32x4096x8),
    unary main_v255 main_v256 (Host.exp : C S32x4096x8 → C S32x4096x8),
    nullary main_cst_44 (constant S_ .f32 0x00000000#32),
    binary main_v256 main_cst_44 main_v257 ((fun x v => Host.reduceAdd x v reducesTo_S32x4096x8_S32x4096_d2 h_S_) : C S32x4096x8 → C S_ → C S32x4096),
    unary main_v257 main_v258 (broadcastInDim S32x4096x1 ![0, 1] bcast_S32x4096_S32x4096x1_0_1 : C S32x4096 → C S32x4096x1),
    unary main_v258 main_v259 (broadcastInDim S32x4096x8 ![0, 1, 2] bcast_S32x4096x1_S32x4096x8_0_1_2 : C S32x4096x1 → C S32x4096x8),
    binary main_v256 main_v259 main_v260 (Host.divf : C S32x4096x8 → C S32x4096x8 → C S32x4096x8),
    nullary main_cst_45 (constant S_ .f32 0x322BCC77#32),
    unary main_cst_45 main_v261 (broadcastInDim S32x4096x8 ![] bcast_S_S32x4096x8 : C S_ → C S32x4096x8),
    binary main_v260 main_v261 main_v262 (addf : C S32x4096x8 → C S32x4096x8 → C S32x4096x8),
    nullary main_cst_46 (constant S_ .f32 0x00000000#32),
    binary main_v262 main_cst_46 main_v263 ((fun x v => Host.reduceAdd x v reducesTo_S32x4096x8_S32x4096_d2 h_S_) : C S32x4096x8 → C S_ → C S32x4096),
    unary main_v263 main_v264 (broadcastInDim S32x4096x1 ![0, 1] bcast_S32x4096_S32x4096x1_0_1 : C S32x4096 → C S32x4096x1),
    unary main_v264 main_v265 (broadcastInDim S32x4096x8 ![0, 1, 2] bcast_S32x4096x1_S32x4096x8_0_1_2 : C S32x4096x1 → C S32x4096x8),
    binary main_v262 main_v265 main_v266 (Host.divf : C S32x4096x8 → C S32x4096x8 → C S32x4096x8),
    unary main_v266 main_v267 ((transpose S32x8x4096 [0, 2, 1] · transposes_S32x4096x8_S32x8x4096_0_2_1) : C S32x4096x8 → C S32x8x4096),
    binary main_v267 main_v23 main_v268 ((fun l r => Host.dotGeneral dot_S32x8x4096_S32x4096x512_S32x8x512_2_1_1_2_0_0 none l r) : C S32x8x4096 → C S32x4096x512 → C S32x8x512),
    binary main_v268 main_arg11 main_v269 ((fun l r => Host.dotGeneral dot_S32x8x512_S1536x512_S32x8x1536_2_1_01_0_n_n none l r) : C S32x8x512 → C S1536x512 → C S32x8x1536),
    unary main_arg13 main_v270 (broadcastInDim S1x1x1536 ![2] bcast_S1536_S1x1x1536_2 : C S1536 → C S1x1x1536),
    unary main_v270 main_v271 (broadcastInDim S32x8x1536 ![0, 1, 2] bcast_S1x1x1536_S32x8x1536_0_1_2 : C S1x1x1536 → C S32x8x1536),
    binary main_v269 main_v271 main_v272 (addf : C S32x8x1536 → C S32x8x1536 → C S32x8x1536),
    binary main_v229 main_arg12 main_v273 ((fun l r => Host.dotGeneral dot_S32x8x512_S1536x512_S32x8x1536_2_1_01_0_n_n none l r) : C S32x8x512 → C S1536x512 → C S32x8x1536),
    unary main_arg14 main_v274 (broadcastInDim S1x1x1536 ![2] bcast_S1536_S1x1x1536_2 : C S1536 → C S1x1x1536),
    unary main_v274 main_v275 (broadcastInDim S32x8x1536 ![0, 1, 2] bcast_S1x1x1536_S32x8x1536_0_1_2 : C S1x1x1536 → C S32x8x1536),
    binary main_v273 main_v275 main_v276 (addf : C S32x8x1536 → C S32x8x1536 → C S32x8x1536),
    unary main_v272 main_v277 ((extractStridedSlice S32x8x512 ![0, 0, 0] · slices_S32x8x1536_S32x8x512_0_0_0) : C S32x8x1536 → C S32x8x512),
    unary main_v272 main_v278 ((extractStridedSlice S32x8x512 ![0, 0, 512] · slices_S32x8x1536_S32x8x512_0_0_512) : C S32x8x1536 → C S32x8x512),
    unary main_v272 main_v279 ((extractStridedSlice S32x8x512 ![0, 0, 1024] · slices_S32x8x1536_S32x8x512_0_0_1024) : C S32x8x1536 → C S32x8x512),
    unary main_v276 main_v280 ((extractStridedSlice S32x8x512 ![0, 0, 0] · slices_S32x8x1536_S32x8x512_0_0_0) : C S32x8x1536 → C S32x8x512),
    unary main_v276 main_v281 ((extractStridedSlice S32x8x512 ![0, 0, 512] · slices_S32x8x1536_S32x8x512_0_0_512) : C S32x8x1536 → C S32x8x512),
    unary main_v276 main_v282 ((extractStridedSlice S32x8x512 ![0, 0, 1024] · slices_S32x8x1536_S32x8x512_0_0_1024) : C S32x8x1536 → C S32x8x512),
    binary main_v277 main_v280 main_v283 (addf : C S32x8x512 → C S32x8x512 → C S32x8x512),
    unary main_v283 main_v284 (Host.negf : C S32x8x512 → C S32x8x512),
    unary main_v284 main_v285 (Host.exp : C S32x8x512 → C S32x8x512),
    nullary main_cst_47 (constant S_ .f32 0x3F800000#32),
    unary main_cst_47 main_v286 (broadcastInDim S32x8x512 ![] bcast_S_S32x8x512 : C S_ → C S32x8x512),
    binary main_v286 main_v285 main_v287 (addf : C S32x8x512 → C S32x8x512 → C S32x8x512),
    nullary main_cst_48 (constant S_ .f32 0x3F800000#32),
    unary main_cst_48 main_v288 (broadcastInDim S32x8x512 ![] bcast_S_S32x8x512 : C S_ → C S32x8x512),
    binary main_v288 main_v287 main_v289 (Host.divf : C S32x8x512 → C S32x8x512 → C S32x8x512),
    binary main_v278 main_v281 main_v290 (addf : C S32x8x512 → C S32x8x512 → C S32x8x512),
    unary main_v290 main_v291 (Host.negf : C S32x8x512 → C S32x8x512),
    unary main_v291 main_v292 (Host.exp : C S32x8x512 → C S32x8x512),
    nullary main_cst_49 (constant S_ .f32 0x3F800000#32),
    unary main_cst_49 main_v293 (broadcastInDim S32x8x512 ![] bcast_S_S32x8x512 : C S_ → C S32x8x512),
    binary main_v293 main_v292 main_v294 (addf : C S32x8x512 → C S32x8x512 → C S32x8x512),
    nullary main_cst_50 (constant S_ .f32 0x3F800000#32),
    unary main_cst_50 main_v295 (broadcastInDim S32x8x512 ![] bcast_S_S32x8x512 : C S_ → C S32x8x512),
    binary main_v295 main_v294 main_v296 (Host.divf : C S32x8x512 → C S32x8x512 → C S32x8x512),
    binary main_v289 main_v282 main_v297 (mulf : C S32x8x512 → C S32x8x512 → C S32x8x512),
    binary main_v279 main_v297 main_v298 (addf : C S32x8x512 → C S32x8x512 → C S32x8x512),
    unary main_v298 main_v299 (Host.tanh : C S32x8x512 → C S32x8x512),
    nullary main_cst_51 (constant S_ .f32 0x3F800000#32),
    unary main_cst_51 main_v300 (broadcastInDim S32x8x512 ![] bcast_S_S32x8x512 : C S_ → C S32x8x512),
    binary main_v300 main_v296 main_v301 (subf : C S32x8x512 → C S32x8x512 → C S32x8x512),
    binary main_v301 main_v299 main_v302 (mulf : C S32x8x512 → C S32x8x512 → C S32x8x512),
    binary main_v296 main_v229 main_v303 (mulf : C S32x8x512 → C S32x8x512 → C S32x8x512),
    binary main_v302 main_v303 main_v304 (addf : C S32x8x512 → C S32x8x512 → C S32x8x512),
    nullary main_cst_52 (constant S_ .f32 0x00000000#32) ]

abbrev ops_part6 : List (HloOp τ sig (Elt F)) :=
  [ binary main_v304 main_cst_52 main_v305 ((fun x v => Host.reduceAdd x v reducesTo_S32x8x512_S32x8_d2 h_S_) : C S32x8x512 → C S_ → C S32x8),
    unary main_v305 main_v306 (broadcastInDim S32x8x1 ![0, 1] bcast_S32x8_S32x8x1_0_1 : C S32x8 → C S32x8x1),
    nullary main_cst_53 (constant S_ .f32 0x44000000#32),
    unary main_cst_53 main_v307 (broadcastInDim S32x8x1 ![] bcast_S_S32x8x1 : C S_ → C S32x8x1),
    binary main_v306 main_v307 main_v308 (Host.divf : C S32x8x1 → C S32x8x1 → C S32x8x1),
    nullary main_c_54 (constantI S_ 32 0#32),
    nullary main_call8_cst (constant S_ .f32 0x00000000#32),
    binary main_v304 main_call8_cst main_call8_v0 ((fun x v => Host.reduceAdd x v reducesTo_S32x8x512_S32x8_d2 h_S_) : C S32x8x512 → C S_ → C S32x8),
    unary main_call8_v0 main_call8_v1 ((broadcastInDim S32x8x1 ![0, 1] bcast_S32x8_S32x8x1_0_1) : C S32x8 → C S32x8x1),
    nullary main_call8_cst_0 (constant S_ .f32 0x44000000#32),
    unary main_call8_cst_0 main_call8_v2 ((broadcastInDim S32x8x1 ![] bcast_S_S32x8x1) : C S_ → C S32x8x1),
    binary main_call8_v1 main_call8_v2 main_call8_v3 (Host.divf : C S32x8x1 → C S32x8x1 → C S32x8x1),
    unary main_call8_v3 main_call8_v4 ((broadcastInDim S32x8x512 ![0, 1, 2] bcast_S32x8x1_S32x8x512_0_1_2) : C S32x8x1 → C S32x8x512),
    binary main_v304 main_call8_v4 main_call8_v5 (subf : C S32x8x512 → C S32x8x512 → C S32x8x512),
    binary main_call8_v5 main_call8_v5 main_call8_v6 (mulf : C S32x8x512 → C S32x8x512 → C S32x8x512),
    unary main_c_54 main_call8_v7 ((sitofp .f32) : C S_ .i32 → C S_),
    nullary main_call8_cst_1 (constant S_ .f32 0x44000000#32),
    binary main_call8_cst_1 main_call8_v7 main_call8_v8 (subf : C S_ → C S_ → C S_),
    nullary main_call8_cst_2 (constant S_ .f32 0x00000000#32),
    binary main_call8_v6 main_call8_cst_2 main_call8_v9 ((fun x v => Host.reduceAdd x v reducesTo_S32x8x512_S32x8_d2 h_S_) : C S32x8x512 → C S_ → C S32x8),
    unary main_call8_v9 main_call8_v10 ((broadcastInDim S32x8x1 ![0, 1] bcast_S32x8_S32x8x1_0_1) : C S32x8 → C S32x8x1),
    unary main_call8_v8 main_call8_v11 ((broadcastInDim S32x8x1 ![] bcast_S_S32x8x1) : C S_ → C S32x8x1),
    binary main_call8_v10 main_call8_v11 main_call8_v12 (Host.divf : C S32x8x1 → C S32x8x1 → C S32x8x1),
    nullary main_call8_cst_3 (constant S_ .f32 0x00000000#32),
    binary main_call8_v8 main_call8_cst_3 main_call8_v13 ((cmpf .ogt) : C S_ → C S_ → C S_ .i1),
    nullary main_call8_cst_4 (constant S_ .f32 0x7FC00000#32),
    unary main_call8_cst_4 main_call8_call0_v0 (id : C S_ → C S_),
    unary main_call8_call0_v0 main_call8_call0_v1 ((broadcastInDim S32x8x1 ![] bcast_S_S32x8x1) : C S_ → C S32x8x1),
    ternary main_call8_v13 main_call8_v12 main_call8_call0_v1 main_v309 ((fun p a b => select (broadcastInDim S32x8x1 ![] bcast_S_S32x8x1 p) a b) : C S_ .i1 → C S32x8x1 → C S32x8x1 → C S32x8x1),
    unary main_v308 main_v310 (broadcastInDim S32x8x512 ![0, 1, 2] bcast_S32x8x1_S32x8x512_0_1_2 : C S32x8x1 → C S32x8x512),
    binary main_v304 main_v310 main_v311 (subf : C S32x8x512 → C S32x8x512 → C S32x8x512),
    nullary main_cst_55 (constant S_ .f32 0x3727C5AC#32),
    unary main_cst_55 main_v312 (broadcastInDim S32x8x1 ![] bcast_S_S32x8x1 : C S_ → C S32x8x1),
    binary main_v309 main_v312 main_v313 (addf : C S32x8x1 → C S32x8x1 → C S32x8x1),
    unary main_v313 main_v314 (Host.rsqrt : C S32x8x1 → C S32x8x1),
    unary main_v314 main_v315 (broadcastInDim S32x8x512 ![0, 1, 2] bcast_S32x8x1_S32x8x512_0_1_2 : C S32x8x1 → C S32x8x512),
    binary main_v311 main_v315 main_v316 (mulf : C S32x8x512 → C S32x8x512 → C S32x8x512),
    unary main_arg15 main_v317 (broadcastInDim S1x1x512 ![2] bcast_S512_S1x1x512_2 : C S512 → C S1x1x512),
    unary main_v317 main_v318 (broadcastInDim S32x8x512 ![0, 1, 2] bcast_S1x1x512_S32x8x512_0_1_2 : C S1x1x512 → C S32x8x512),
    binary main_v316 main_v318 main_v319 (mulf : C S32x8x512 → C S32x8x512 → C S32x8x512),
    unary main_arg16 main_v320 (broadcastInDim S1x1x512 ![2] bcast_S512_S1x1x512_2 : C S512 → C S1x1x512),
    unary main_v320 main_v321 (broadcastInDim S32x8x512 ![0, 1, 2] bcast_S1x1x512_S32x8x512_0_1_2 : C S1x1x512 → C S32x8x512),
    binary main_v319 main_v321 main_v322 (addf : C S32x8x512 → C S32x8x512 → C S32x8x512),
    binary main_v322 main_arg17 main_v323 ((fun l r => Host.dotGeneral dot_S32x8x512_S512x512_S32x8x512_2_1_01_0_n_n none l r) : C S32x8x512 → C S512x512 → C S32x8x512),
    unary main_arg18 main_v324 (broadcastInDim S1x1x512 ![2] bcast_S512_S1x1x512_2 : C S512 → C S1x1x512),
    unary main_v324 main_v325 (broadcastInDim S32x8x512 ![0, 1, 2] bcast_S1x1x512_S32x8x512_0_1_2 : C S1x1x512 → C S32x8x512),
    binary main_v323 main_v325 main_v326 (addf : C S32x8x512 → C S32x8x512 → C S32x8x512),
    nullary main_call9_cst (constant S_ .f32 0x00000000#32),
    unary main_call9_cst main_call9_v0 ((broadcastInDim S32x8x512 ![] bcast_S_S32x8x512) : C S_ → C S32x8x512),
    binary main_v326 main_call9_v0 main_v327 (maximumf : C S32x8x512 → C S32x8x512 → C S32x8x512),
    binary main_v327 main_arg19 main_v328 ((fun l r => Host.dotGeneral dot_S32x8x512_S512x512_S32x8x512_2_1_01_0_n_n none l r) : C S32x8x512 → C S512x512 → C S32x8x512),
    binary main_v304 main_v328 main_v329 (addf : C S32x8x512 → C S32x8x512 → C S32x8x512),
    unary main_arg20 main_v330 (broadcastInDim S1x1x512 ![2] bcast_S512_S1x1x512_2 : C S512 → C S1x1x512),
    unary main_v330 main_v331 (broadcastInDim S32x8x512 ![0, 1, 2] bcast_S1x1x512_S32x8x512_0_1_2 : C S1x1x512 → C S32x8x512),
    binary main_v329 main_v331 main_v332 (addf : C S32x8x512 → C S32x8x512 → C S32x8x512) ]

abbrev ops : List (HloOp τ sig (Elt F)) :=
  ops_part0 ++ (ops_part1 ++ (ops_part2 ++ (ops_part3 ++ (ops_part4 ++ (ops_part5 ++ (ops_part6))))))

-- the windows in order are the concatenated list run in order
set_option maxRecDepth 8192 in
theorem main_eq (c : Dev nD) : main (F := F) c = seq ops := by
  simp only [ops, seq_append]; rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_part0_sub : (ops_part0 : List (HloOp τ sig (Elt F))).Forall fun op => op.bufs ⊆ tcRefs τ sig :=
  ⟨unary_bufs_sub .., binary_bufs_sub .., unary_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., binary_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., binary_bufs_sub .., binary_bufs_sub .., nullary_bufs_sub .., binary_bufs_sub .., nullary_bufs_sub .., unary_bufs_sub .., binary_bufs_sub .., unary_bufs_sub .., unary_bufs_sub .., binary_bufs_sub ..⟩
set_option maxRecDepth 8192 in
theorem ops_part1_sub : (ops_part1 : List (HloOp τ sig (Elt F))).Forall fun op => op.bufs ⊆ tcRefs τ sig :=
  ⟨unary_bufs_sub .., nullary_bufs_sub .., binary_bufs_sub .., unary_bufs_sub .., unary_bufs_sub .., binary_bufs_sub .., nullary_bufs_sub .., unary_bufs_sub .., binary_bufs_sub .., nullary_bufs_sub .., binary_bufs_sub .., unary_bufs_sub .., unary_bufs_sub .., binary_bufs_sub .., unary_bufs_sub .., binary_bufs_sub .., binary_bufs_sub .., unary_bufs_sub .., unary_bufs_sub .., binary_bufs_sub .., binary_bufs_sub .., unary_bufs_sub .., unary_bufs_sub .., binary_bufs_sub .., unary_bufs_sub .., unary_bufs_sub .., unary_bufs_sub .., unary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., nullary_bufs_sub .., unary_bufs_sub .., binary_bufs_sub .., binary_bufs_sub .., binary_bufs_sub .., binary_bufs_sub .., nullary_bufs_sub .., binary_bufs_sub .., unary_bufs_sub ..⟩
set_option maxRecDepth 8192 in
theorem ops_part2_sub : (ops_part2 : List (HloOp τ sig (Elt F))).Forall fun op => op.bufs ⊆ tcRefs τ sig :=
  ⟨nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., binary_bufs_sub .., binary_bufs_sub .., unary_bufs_sub .., unary_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., binary_bufs_sub .., binary_bufs_sub .., nullary_bufs_sub .., binary_bufs_sub .., nullary_bufs_sub .., unary_bufs_sub .., binary_bufs_sub .., unary_bufs_sub .., unary_bufs_sub ..⟩
set_option maxRecDepth 8192 in
theorem ops_part3_sub : (ops_part3 : List (HloOp τ sig (Elt F))).Forall fun op => op.bufs ⊆ tcRefs τ sig :=
  ⟨binary_bufs_sub .., unary_bufs_sub .., nullary_bufs_sub .., binary_bufs_sub .., unary_bufs_sub .., unary_bufs_sub .., binary_bufs_sub .., nullary_bufs_sub .., unary_bufs_sub .., binary_bufs_sub .., nullary_bufs_sub .., binary_bufs_sub .., unary_bufs_sub .., unary_bufs_sub .., binary_bufs_sub .., unary_bufs_sub .., binary_bufs_sub .., binary_bufs_sub .., unary_bufs_sub .., unary_bufs_sub .., binary_bufs_sub .., binary_bufs_sub .., unary_bufs_sub .., unary_bufs_sub .., binary_bufs_sub .., unary_bufs_sub .., unary_bufs_sub .., unary_bufs_sub .., unary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., nullary_bufs_sub .., unary_bufs_sub .., binary_bufs_sub .., binary_bufs_sub .., binary_bufs_sub .., binary_bufs_sub .., nullary_bufs_sub .., binary_bufs_sub ..⟩
set_option maxRecDepth 8192 in
theorem ops_part4_sub : (ops_part4 : List (HloOp τ sig (Elt F))).Forall fun op => op.bufs ⊆ tcRefs τ sig :=
  ⟨unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., binary_bufs_sub .., binary_bufs_sub .., unary_bufs_sub .., unary_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., binary_bufs_sub .., binary_bufs_sub .., nullary_bufs_sub .., binary_bufs_sub .., nullary_bufs_sub .., unary_bufs_sub .., binary_bufs_sub .., unary_bufs_sub ..⟩
set_option maxRecDepth 8192 in
theorem ops_part5_sub : (ops_part5 : List (HloOp τ sig (Elt F))).Forall fun op => op.bufs ⊆ tcRefs τ sig :=
  ⟨unary_bufs_sub .., binary_bufs_sub .., unary_bufs_sub .., nullary_bufs_sub .., binary_bufs_sub .., unary_bufs_sub .., unary_bufs_sub .., binary_bufs_sub .., nullary_bufs_sub .., unary_bufs_sub .., binary_bufs_sub .., nullary_bufs_sub .., binary_bufs_sub .., unary_bufs_sub .., unary_bufs_sub .., binary_bufs_sub .., unary_bufs_sub .., binary_bufs_sub .., binary_bufs_sub .., unary_bufs_sub .., unary_bufs_sub .., binary_bufs_sub .., binary_bufs_sub .., unary_bufs_sub .., unary_bufs_sub .., binary_bufs_sub .., unary_bufs_sub .., unary_bufs_sub .., unary_bufs_sub .., unary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., nullary_bufs_sub .., unary_bufs_sub .., binary_bufs_sub .., binary_bufs_sub .., binary_bufs_sub .., binary_bufs_sub .., nullary_bufs_sub ..⟩
set_option maxRecDepth 8192 in
theorem ops_part6_sub : (ops_part6 : List (HloOp τ sig (Elt F))).Forall fun op => op.bufs ⊆ tcRefs τ sig :=
  ⟨binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., binary_bufs_sub .., binary_bufs_sub .., unary_bufs_sub .., unary_bufs_sub .., binary_bufs_sub ..⟩
theorem ops_sub : (ops : List (HloOp τ sig (Elt F))).Forall fun op => op.bufs ⊆ tcRefs τ sig :=
  List.forall_iff_forall_mem.mpr fun op h => by
    simp only [ops, List.mem_append] at h
    rcases h with h | h | h | h | h | h | h
    exacts [List.forall_iff_forall_mem.mp ops_part0_sub op h, List.forall_iff_forall_mem.mp ops_part1_sub op h, List.forall_iff_forall_mem.mp ops_part2_sub op h, List.forall_iff_forall_mem.mp ops_part3_sub op h, List.forall_iff_forall_mem.mp ops_part4_sub op h, List.forall_iff_forall_mem.mp ops_part5_sub op h, List.forall_iff_forall_mem.mp ops_part6_sub op h]

theorem ops_fresh : ∀ op ∈ (ops : List (HloOp τ sig (Elt F))), op.fresh = ∅ := by
  refine List.forall_iff_forall_mem.mp ?_
  simp only [ops, List.forall_append]
  repeat' apply And.intro
  all_goals rfl

end Cert.ReferenceIdeal.RefRun

end
-- ==== Proof.RefRunStages.lean ====
import proofs.«417374_j33956011442443_3_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type}

-- The type of buffer `b`'s contents in a valuation; naming the valuation makes every value below a function of it.
private abbrev Ct (_ : Valuation τ sig (Elt F)) (b : Ref sig .tc) := (Proc.devRef .tc b : DevRef τ sig).ty.Contents (Elt F)

variable [FloatOps F] (V0 : Valuation τ sig (Elt F))

-- One value per buffer the program writes, in program order: its operation applied to the values of its operands.
def res_main_v0 : Ct V0 main_v0 :=
  broadcastInDim S32x8x512 ![0, 1, 2] bcast_S1x8x512_S32x8x512_0_1_2 (V0 (Proc.devRef .tc main_arg3))
def res_main_v1 : Ct V0 main_v1 :=
  mulf (res_main_v0 V0) (V0 (Proc.devRef .tc main_arg1))
def res_main_v2 : Ct V0 main_v2 :=
  broadcastInDim S32x8x512 ![0, 1, 2] bcast_S1x8x512_S32x8x512_0_1_2 (V0 (Proc.devRef .tc main_arg2))
def res_main_v3 : Ct V0 main_v3 :=
  addf (res_main_v2 V0) (res_main_v1 V0)
def res_main_cst : Ct V0 main_cst :=
  constant S_ .f32 0x00000000#32
def res_main_v4 : Ct V0 main_v4 :=
  Host.reduceAdd (V0 (Proc.devRef .tc main_arg0)) (res_main_cst V0) reducesTo_S32x4096x512_S32x4096_d2 h_S_
def res_main_v5 : Ct V0 main_v5 :=
  broadcastInDim S32x4096x1 ![0, 1] bcast_S32x4096_S32x4096x1_0_1 (res_main_v4 V0)
def res_main_cst_0 : Ct V0 main_cst_0 :=
  constant S_ .f32 0x44000000#32
def res_main_v6 : Ct V0 main_v6 :=
  broadcastInDim S32x4096x1 ![] bcast_S_S32x4096x1 (res_main_cst_0 V0)
def res_main_v7 : Ct V0 main_v7 :=
  Host.divf (res_main_v5 V0) (res_main_v6 V0)
def res_main_c : Ct V0 main_c :=
  constantI S_ 32 0#32
def res_main_call0_cst : Ct V0 main_call0_cst :=
  constant S_ .f32 0x00000000#32
def res_main_call0_v0 : Ct V0 main_call0_v0 :=
  Host.reduceAdd (V0 (Proc.devRef .tc main_arg0)) (res_main_call0_cst V0) reducesTo_S32x4096x512_S32x4096_d2 h_S_
def res_main_call0_v1 : Ct V0 main_call0_v1 :=
  broadcastInDim S32x4096x1 ![0, 1] bcast_S32x4096_S32x4096x1_0_1 (res_main_call0_v0 V0)
def res_main_call0_cst_0 : Ct V0 main_call0_cst_0 :=
  constant S_ .f32 0x44000000#32
def res_main_call0_v2 : Ct V0 main_call0_v2 :=
  broadcastInDim S32x4096x1 ![] bcast_S_S32x4096x1 (res_main_call0_cst_0 V0)
def res_main_call0_v3 : Ct V0 main_call0_v3 :=
  Host.divf (res_main_call0_v1 V0) (res_main_call0_v2 V0)
def res_main_call0_v4 : Ct V0 main_call0_v4 :=
  broadcastInDim S32x4096x512 ![0, 1, 2] bcast_S32x4096x1_S32x4096x512_0_1_2 (res_main_call0_v3 V0)
def res_main_call0_v5 : Ct V0 main_call0_v5 :=
  subf (V0 (Proc.devRef .tc main_arg0)) (res_main_call0_v4 V0)
def res_main_call0_v6 : Ct V0 main_call0_v6 :=
  mulf (res_main_call0_v5 V0) (res_main_call0_v5 V0)
def res_main_call0_v7 : Ct V0 main_call0_v7 :=
  sitofp .f32 (res_main_c V0)
def res_main_call0_cst_1 : Ct V0 main_call0_cst_1 :=
  constant S_ .f32 0x44000000#32
def res_main_call0_v8 : Ct V0 main_call0_v8 :=
  subf (res_main_call0_cst_1 V0) (res_main_call0_v7 V0)
def res_main_call0_cst_2 : Ct V0 main_call0_cst_2 :=
  constant S_ .f32 0x00000000#32
def res_main_call0_v9 : Ct V0 main_call0_v9 :=
  Host.reduceAdd (res_main_call0_v6 V0) (res_main_call0_cst_2 V0) reducesTo_S32x4096x512_S32x4096_d2 h_S_
def res_main_call0_v10 : Ct V0 main_call0_v10 :=
  broadcastInDim S32x4096x1 ![0, 1] bcast_S32x4096_S32x4096x1_0_1 (res_main_call0_v9 V0)
def res_main_call0_v11 : Ct V0 main_call0_v11 :=
  broadcastInDim S32x4096x1 ![] bcast_S_S32x4096x1 (res_main_call0_v8 V0)
def res_main_call0_v12 : Ct V0 main_call0_v12 :=
  Host.divf (res_main_call0_v10 V0) (res_main_call0_v11 V0)
def res_main_call0_cst_3 : Ct V0 main_call0_cst_3 :=
  constant S_ .f32 0x00000000#32
def res_main_call0_v13 : Ct V0 main_call0_v13 :=
  cmpf .ogt (res_main_call0_v8 V0) (res_main_call0_cst_3 V0)
def res_main_call0_cst_4 : Ct V0 main_call0_cst_4 :=
  constant S_ .f32 0x7FC00000#32
def res_main_call0_call0_v0 : Ct V0 main_call0_call0_v0 :=
  (res_main_call0_cst_4 V0)
def res_main_call0_call0_v1 : Ct V0 main_call0_call0_v1 :=
  broadcastInDim S32x4096x1 ![] bcast_S_S32x4096x1 (res_main_call0_call0_v0 V0)
def res_main_v8 : Ct V0 main_v8 :=
  select (broadcastInDim S32x4096x1 ![] bcast_S_S32x4096x1 (res_main_call0_v13 V0)) (res_main_call0_v12 V0) (res_main_call0_call0_v1 V0)
def res_main_v9 : Ct V0 main_v9 :=
  broadcastInDim S32x4096x512 ![0, 1, 2] bcast_S32x4096x1_S32x4096x512_0_1_2 (res_main_v7 V0)
def res_main_v10 : Ct V0 main_v10 :=
  subf (V0 (Proc.devRef .tc main_arg0)) (res_main_v9 V0)
def res_main_cst_1 : Ct V0 main_cst_1 :=
  constant S_ .f32 0x3727C5AC#32
def res_main_v11 : Ct V0 main_v11 :=
  broadcastInDim S32x4096x1 ![] bcast_S_S32x4096x1 (res_main_cst_1 V0)
def res_main_v12 : Ct V0 main_v12 :=
  addf (res_main_v8 V0) (res_main_v11 V0)
def res_main_v13 : Ct V0 main_v13 :=
  Host.rsqrt (res_main_v12 V0)
def res_main_v14 : Ct V0 main_v14 :=
  broadcastInDim S32x4096x512 ![0, 1, 2] bcast_S32x4096x1_S32x4096x512_0_1_2 (res_main_v13 V0)
def res_main_v15 : Ct V0 main_v15 :=
  mulf (res_main_v10 V0) (res_main_v14 V0)
def res_main_v16 : Ct V0 main_v16 :=
  broadcastInDim S1x1x512 ![2] bcast_S512_S1x1x512_2 (V0 (Proc.devRef .tc main_arg4))
def res_main_v17 : Ct V0 main_v17 :=
  broadcastInDim S32x4096x512 ![0, 1, 2] bcast_S1x1x512_S32x4096x512_0_1_2 (res_main_v16 V0)
def res_main_v18 : Ct V0 main_v18 :=
  mulf (res_main_v15 V0) (res_main_v17 V0)
def res_main_v19 : Ct V0 main_v19 :=
  broadcastInDim S1x1x512 ![2] bcast_S512_S1x1x512_2 (V0 (Proc.devRef .tc main_arg5))
def res_main_v20 : Ct V0 main_v20 :=
  broadcastInDim S32x4096x512 ![0, 1, 2] bcast_S1x1x512_S32x4096x512_0_1_2 (res_main_v19 V0)
def res_main_v21 : Ct V0 main_v21 :=
  addf (res_main_v18 V0) (res_main_v20 V0)
def res_main_v22 : Ct V0 main_v22 :=
  Host.dotGeneral dot_S32x4096x512_S512x512_S32x4096x512_2_1_01_0_n_n none (res_main_v21 V0) (V0 (Proc.devRef .tc main_arg9))
def res_main_v23 : Ct V0 main_v23 :=
  Host.dotGeneral dot_S32x4096x512_S512x512_S32x4096x512_2_1_01_0_n_n none (res_main_v21 V0) (V0 (Proc.devRef .tc main_arg10))
def res_main_cst_2 : Ct V0 main_cst_2 :=
  constant S_ .f32 0x00000000#32
def res_main_v24 : Ct V0 main_v24 :=
  Host.reduceAdd (res_main_v3 V0) (res_main_cst_2 V0) reducesTo_S32x8x512_S32x8_d2 h_S_
def res_main_v25 : Ct V0 main_v25 :=
  broadcastInDim S32x8x1 ![0, 1] bcast_S32x8_S32x8x1_0_1 (res_main_v24 V0)
def res_main_cst_3 : Ct V0 main_cst_3 :=
  constant S_ .f32 0x44000000#32
def res_main_v26 : Ct V0 main_v26 :=
  broadcastInDim S32x8x1 ![] bcast_S_S32x8x1 (res_main_cst_3 V0)
def res_main_v27 : Ct V0 main_v27 :=
  Host.divf (res_main_v25 V0) (res_main_v26 V0)
def res_main_c_4 : Ct V0 main_c_4 :=
  constantI S_ 32 0#32
def res_main_call1_cst : Ct V0 main_call1_cst :=
  constant S_ .f32 0x00000000#32
def res_main_call1_v0 : Ct V0 main_call1_v0 :=
  Host.reduceAdd (res_main_v3 V0) (res_main_call1_cst V0) reducesTo_S32x8x512_S32x8_d2 h_S_
def res_main_call1_v1 : Ct V0 main_call1_v1 :=
  broadcastInDim S32x8x1 ![0, 1] bcast_S32x8_S32x8x1_0_1 (res_main_call1_v0 V0)
def res_main_call1_cst_0 : Ct V0 main_call1_cst_0 :=
  constant S_ .f32 0x44000000#32
def res_main_call1_v2 : Ct V0 main_call1_v2 :=
  broadcastInDim S32x8x1 ![] bcast_S_S32x8x1 (res_main_call1_cst_0 V0)
def res_main_call1_v3 : Ct V0 main_call1_v3 :=
  Host.divf (res_main_call1_v1 V0) (res_main_call1_v2 V0)
def res_main_call1_v4 : Ct V0 main_call1_v4 :=
  broadcastInDim S32x8x512 ![0, 1, 2] bcast_S32x8x1_S32x8x512_0_1_2 (res_main_call1_v3 V0)
def res_main_call1_v5 : Ct V0 main_call1_v5 :=
  subf (res_main_v3 V0) (res_main_call1_v4 V0)
def res_main_call1_v6 : Ct V0 main_call1_v6 :=
  mulf (res_main_call1_v5 V0) (res_main_call1_v5 V0)
def res_main_call1_v7 : Ct V0 main_call1_v7 :=
  sitofp .f32 (res_main_c_4 V0)
def res_main_call1_cst_1 : Ct V0 main_call1_cst_1 :=
  constant S_ .f32 0x44000000#32
def res_main_call1_v8 : Ct V0 main_call1_v8 :=
  subf (res_main_call1_cst_1 V0) (res_main_call1_v7 V0)
def res_main_call1_cst_2 : Ct V0 main_call1_cst_2 :=
  constant S_ .f32 0x00000000#32
def res_main_call1_v9 : Ct V0 main_call1_v9 :=
  Host.reduceAdd (res_main_call1_v6 V0) (res_main_call1_cst_2 V0) reducesTo_S32x8x512_S32x8_d2 h_S_
def res_main_call1_v10 : Ct V0 main_call1_v10 :=
  broadcastInDim S32x8x1 ![0, 1] bcast_S32x8_S32x8x1_0_1 (res_main_call1_v9 V0)
def res_main_call1_v11 : Ct V0 main_call1_v11 :=
  broadcastInDim S32x8x1 ![] bcast_S_S32x8x1 (res_main_call1_v8 V0)
def res_main_call1_v12 : Ct V0 main_call1_v12 :=
  Host.divf (res_main_call1_v10 V0) (res_main_call1_v11 V0)
def res_main_call1_cst_3 : Ct V0 main_call1_cst_3 :=
  constant S_ .f32 0x00000000#32
def res_main_call1_v13 : Ct V0 main_call1_v13 :=
  cmpf .ogt (res_main_call1_v8 V0) (res_main_call1_cst_3 V0)
def res_main_call1_cst_4 : Ct V0 main_call1_cst_4 :=
  constant S_ .f32 0x7FC00000#32
def res_main_call1_call0_v0 : Ct V0 main_call1_call0_v0 :=
  (res_main_call1_cst_4 V0)
def res_main_call1_call0_v1 : Ct V0 main_call1_call0_v1 :=
  broadcastInDim S32x8x1 ![] bcast_S_S32x8x1 (res_main_call1_call0_v0 V0)
def res_main_v28 : Ct V0 main_v28 :=
  select (broadcastInDim S32x8x1 ![] bcast_S_S32x8x1 (res_main_call1_v13 V0)) (res_main_call1_v12 V0) (res_main_call1_call0_v1 V0)
def res_main_v29 : Ct V0 main_v29 :=
  broadcastInDim S32x8x512 ![0, 1, 2] bcast_S32x8x1_S32x8x512_0_1_2 (res_main_v27 V0)
def res_main_v30 : Ct V0 main_v30 :=
  subf (res_main_v3 V0) (res_main_v29 V0)
def res_main_cst_5 : Ct V0 main_cst_5 :=
  constant S_ .f32 0x3727C5AC#32
def res_main_v31 : Ct V0 main_v31 :=
  broadcastInDim S32x8x1 ![] bcast_S_S32x8x1 (res_main_cst_5 V0)
def res_main_v32 : Ct V0 main_v32 :=
  addf (res_main_v28 V0) (res_main_v31 V0)
def res_main_v33 : Ct V0 main_v33 :=
  Host.rsqrt (res_main_v32 V0)
def res_main_v34 : Ct V0 main_v34 :=
  broadcastInDim S32x8x512 ![0, 1, 2] bcast_S32x8x1_S32x8x512_0_1_2 (res_main_v33 V0)
def res_main_v35 : Ct V0 main_v35 :=
  mulf (res_main_v30 V0) (res_main_v34 V0)
def res_main_v36 : Ct V0 main_v36 :=
  broadcastInDim S1x1x512 ![2] bcast_S512_S1x1x512_2 (V0 (Proc.devRef .tc main_arg6))
def res_main_v37 : Ct V0 main_v37 :=
  broadcastInDim S32x8x512 ![0, 1, 2] bcast_S1x1x512_S32x8x512_0_1_2 (res_main_v36 V0)
def res_main_v38 : Ct V0 main_v38 :=
  mulf (res_main_v35 V0) (res_main_v37 V0)
def res_main_v39 : Ct V0 main_v39 :=
  broadcastInDim S1x1x512 ![2] bcast_S512_S1x1x512_2 (V0 (Proc.devRef .tc main_arg7))
def res_main_v40 : Ct V0 main_v40 :=
  broadcastInDim S32x8x512 ![0, 1, 2] bcast_S1x1x512_S32x8x512_0_1_2 (res_main_v39 V0)
def res_main_v41 : Ct V0 main_v41 :=
  addf (res_main_v38 V0) (res_main_v40 V0)
def res_main_v42 : Ct V0 main_v42 :=
  Host.dotGeneral dot_S32x8x512_S512x512_S32x8x512_2_1_01_0_n_n none (res_main_v41 V0) (V0 (Proc.devRef .tc main_arg8))
def res_main_v43 : Ct V0 main_v43 :=
  Host.dotGeneral dot_S32x4096x512_S32x8x512_S32x4096x8_2_2_1_1_0_0 none (res_main_v22 V0) (res_main_v42 V0)
def res_main_cst_6 : Ct V0 main_cst_6 :=
  constant S_ .f32 0xFF800000#32
def res_main_v44 : Ct V0 main_v44 :=
  Host.reduce FloatOps.maximumf (res_main_v43 V0) (res_main_cst_6 V0) reducesTo_S32x4096x8_S32x4096_d2 h_S_
def res_main_cst_7 : Ct V0 main_cst_7 :=
  constant S_ .f32 0xFF800000#32
def res_main_v45 : Ct V0 main_v45 :=
  broadcastInDim S32x4096 ![] bcast_S_S32x4096 (res_main_cst_7 V0)
def res_main_v46 : Ct V0 main_v46 :=
  maximumf (res_main_v45 V0) (res_main_v44 V0)
def res_main_v47 : Ct V0 main_v47 :=
  broadcastInDim S32x4096x1 ![0, 1] bcast_S32x4096_S32x4096x1_0_1 (res_main_v46 V0)
def res_main_v48 : Ct V0 main_v48 :=
  broadcastInDim S32x4096x8 ![0, 1, 2] bcast_S32x4096x1_S32x4096x8_0_1_2 (res_main_v47 V0)
def res_main_v49 : Ct V0 main_v49 :=
  subf (res_main_v43 V0) (res_main_v48 V0)
def res_main_v50 : Ct V0 main_v50 :=
  Host.exp (res_main_v49 V0)
def res_main_cst_8 : Ct V0 main_cst_8 :=
  constant S_ .f32 0x00000000#32
def res_main_v51 : Ct V0 main_v51 :=
  Host.reduceAdd (res_main_v50 V0) (res_main_cst_8 V0) reducesTo_S32x4096x8_S32x4096_d2 h_S_
def res_main_v52 : Ct V0 main_v52 :=
  broadcastInDim S32x4096x1 ![0, 1] bcast_S32x4096_S32x4096x1_0_1 (res_main_v51 V0)
def res_main_v53 : Ct V0 main_v53 :=
  broadcastInDim S32x4096x8 ![0, 1, 2] bcast_S32x4096x1_S32x4096x8_0_1_2 (res_main_v52 V0)
def res_main_v54 : Ct V0 main_v54 :=
  Host.divf (res_main_v50 V0) (res_main_v53 V0)
def res_main_cst_9 : Ct V0 main_cst_9 :=
  constant S_ .f32 0x322BCC77#32
def res_main_v55 : Ct V0 main_v55 :=
  broadcastInDim S32x4096x8 ![] bcast_S_S32x4096x8 (res_main_cst_9 V0)
def res_main_v56 : Ct V0 main_v56 :=
  addf (res_main_v54 V0) (res_main_v55 V0)
def res_main_cst_10 : Ct V0 main_cst_10 :=
  constant S_ .f32 0x00000000#32
def res_main_v57 : Ct V0 main_v57 :=
  Host.reduceAdd (res_main_v56 V0) (res_main_cst_10 V0) reducesTo_S32x4096x8_S32x4096_d2 h_S_
def res_main_v58 : Ct V0 main_v58 :=
  broadcastInDim S32x4096x1 ![0, 1] bcast_S32x4096_S32x4096x1_0_1 (res_main_v57 V0)
def res_main_v59 : Ct V0 main_v59 :=
  broadcastInDim S32x4096x8 ![0, 1, 2] bcast_S32x4096x1_S32x4096x8_0_1_2 (res_main_v58 V0)
def res_main_v60 : Ct V0 main_v60 :=
  Host.divf (res_main_v56 V0) (res_main_v59 V0)
def res_main_v61 : Ct V0 main_v61 :=
  transpose S32x8x4096 [0, 2, 1] (res_main_v60 V0) transposes_S32x4096x8_S32x8x4096_0_2_1
def res_main_v62 : Ct V0 main_v62 :=
  Host.dotGeneral dot_S32x8x4096_S32x4096x512_S32x8x512_2_1_1_2_0_0 none (res_main_v61 V0) (res_main_v23 V0)
def res_main_v63 : Ct V0 main_v63 :=
  Host.dotGeneral dot_S32x8x512_S1536x512_S32x8x1536_2_1_01_0_n_n none (res_main_v62 V0) (V0 (Proc.devRef .tc main_arg11))
def res_main_v64 : Ct V0 main_v64 :=
  broadcastInDim S1x1x1536 ![2] bcast_S1536_S1x1x1536_2 (V0 (Proc.devRef .tc main_arg13))
def res_main_v65 : Ct V0 main_v65 :=
  broadcastInDim S32x8x1536 ![0, 1, 2] bcast_S1x1x1536_S32x8x1536_0_1_2 (res_main_v64 V0)
def res_main_v66 : Ct V0 main_v66 :=
  addf (res_main_v63 V0) (res_main_v65 V0)
def res_main_v67 : Ct V0 main_v67 :=
  Host.dotGeneral dot_S32x8x512_S1536x512_S32x8x1536_2_1_01_0_n_n none (res_main_v3 V0) (V0 (Proc.devRef .tc main_arg12))
def res_main_v68 : Ct V0 main_v68 :=
  broadcastInDim S1x1x1536 ![2] bcast_S1536_S1x1x1536_2 (V0 (Proc.devRef .tc main_arg14))
def res_main_v69 : Ct V0 main_v69 :=
  broadcastInDim S32x8x1536 ![0, 1, 2] bcast_S1x1x1536_S32x8x1536_0_1_2 (res_main_v68 V0)
def res_main_v70 : Ct V0 main_v70 :=
  addf (res_main_v67 V0) (res_main_v69 V0)
def res_main_v71 : Ct V0 main_v71 :=
  extractStridedSlice S32x8x512 ![0, 0, 0] (res_main_v66 V0) slices_S32x8x1536_S32x8x512_0_0_0
def res_main_v72 : Ct V0 main_v72 :=
  extractStridedSlice S32x8x512 ![0, 0, 512] (res_main_v66 V0) slices_S32x8x1536_S32x8x512_0_0_512
def res_main_v73 : Ct V0 main_v73 :=
  extractStridedSlice S32x8x512 ![0, 0, 1024] (res_main_v66 V0) slices_S32x8x1536_S32x8x512_0_0_1024
def res_main_v74 : Ct V0 main_v74 :=
  extractStridedSlice S32x8x512 ![0, 0, 0] (res_main_v70 V0) slices_S32x8x1536_S32x8x512_0_0_0
def res_main_v75 : Ct V0 main_v75 :=
  extractStridedSlice S32x8x512 ![0, 0, 512] (res_main_v70 V0) slices_S32x8x1536_S32x8x512_0_0_512
def res_main_v76 : Ct V0 main_v76 :=
  extractStridedSlice S32x8x512 ![0, 0, 1024] (res_main_v70 V0) slices_S32x8x1536_S32x8x512_0_0_1024
def res_main_v77 : Ct V0 main_v77 :=
  addf (res_main_v71 V0) (res_main_v74 V0)
def res_main_v78 : Ct V0 main_v78 :=
  Host.negf (res_main_v77 V0)
def res_main_v79 : Ct V0 main_v79 :=
  Host.exp (res_main_v78 V0)
def res_main_cst_11 : Ct V0 main_cst_11 :=
  constant S_ .f32 0x3F800000#32
def res_main_v80 : Ct V0 main_v80 :=
  broadcastInDim S32x8x512 ![] bcast_S_S32x8x512 (res_main_cst_11 V0)
def res_main_v81 : Ct V0 main_v81 :=
  addf (res_main_v80 V0) (res_main_v79 V0)
def res_main_cst_12 : Ct V0 main_cst_12 :=
  constant S_ .f32 0x3F800000#32
def res_main_v82 : Ct V0 main_v82 :=
  broadcastInDim S32x8x512 ![] bcast_S_S32x8x512 (res_main_cst_12 V0)
def res_main_v83 : Ct V0 main_v83 :=
  Host.divf (res_main_v82 V0) (res_main_v81 V0)
def res_main_v84 : Ct V0 main_v84 :=
  addf (res_main_v72 V0) (res_main_v75 V0)
def res_main_v85 : Ct V0 main_v85 :=
  Host.negf (res_main_v84 V0)
def res_main_v86 : Ct V0 main_v86 :=
  Host.exp (res_main_v85 V0)
def res_main_cst_13 : Ct V0 main_cst_13 :=
  constant S_ .f32 0x3F800000#32
def res_main_v87 : Ct V0 main_v87 :=
  broadcastInDim S32x8x512 ![] bcast_S_S32x8x512 (res_main_cst_13 V0)
def res_main_v88 : Ct V0 main_v88 :=
  addf (res_main_v87 V0) (res_main_v86 V0)
def res_main_cst_14 : Ct V0 main_cst_14 :=
  constant S_ .f32 0x3F800000#32
def res_main_v89 : Ct V0 main_v89 :=
  broadcastInDim S32x8x512 ![] bcast_S_S32x8x512 (res_main_cst_14 V0)
def res_main_v90 : Ct V0 main_v90 :=
  Host.divf (res_main_v89 V0) (res_main_v88 V0)
def res_main_v91 : Ct V0 main_v91 :=
  mulf (res_main_v83 V0) (res_main_v76 V0)
def res_main_v92 : Ct V0 main_v92 :=
  addf (res_main_v73 V0) (res_main_v91 V0)
def res_main_v93 : Ct V0 main_v93 :=
  Host.tanh (res_main_v92 V0)
def res_main_cst_15 : Ct V0 main_cst_15 :=
  constant S_ .f32 0x3F800000#32
def res_main_v94 : Ct V0 main_v94 :=
  broadcastInDim S32x8x512 ![] bcast_S_S32x8x512 (res_main_cst_15 V0)
def res_main_v95 : Ct V0 main_v95 :=
  subf (res_main_v94 V0) (res_main_v90 V0)
def res_main_v96 : Ct V0 main_v96 :=
  mulf (res_main_v95 V0) (res_main_v93 V0)
def res_main_v97 : Ct V0 main_v97 :=
  mulf (res_main_v90 V0) (res_main_v3 V0)
def res_main_v98 : Ct V0 main_v98 :=
  addf (res_main_v96 V0) (res_main_v97 V0)
def res_main_cst_16 : Ct V0 main_cst_16 :=
  constant S_ .f32 0x00000000#32
def res_main_v99 : Ct V0 main_v99 :=
  Host.reduceAdd (res_main_v98 V0) (res_main_cst_16 V0) reducesTo_S32x8x512_S32x8_d2 h_S_
def res_main_v100 : Ct V0 main_v100 :=
  broadcastInDim S32x8x1 ![0, 1] bcast_S32x8_S32x8x1_0_1 (res_main_v99 V0)
def res_main_cst_17 : Ct V0 main_cst_17 :=
  constant S_ .f32 0x44000000#32
def res_main_v101 : Ct V0 main_v101 :=
  broadcastInDim S32x8x1 ![] bcast_S_S32x8x1 (res_main_cst_17 V0)
def res_main_v102 : Ct V0 main_v102 :=
  Host.divf (res_main_v100 V0) (res_main_v101 V0)
def res_main_c_18 : Ct V0 main_c_18 :=
  constantI S_ 32 0#32
def res_main_call2_cst : Ct V0 main_call2_cst :=
  constant S_ .f32 0x00000000#32
def res_main_call2_v0 : Ct V0 main_call2_v0 :=
  Host.reduceAdd (res_main_v98 V0) (res_main_call2_cst V0) reducesTo_S32x8x512_S32x8_d2 h_S_
def res_main_call2_v1 : Ct V0 main_call2_v1 :=
  broadcastInDim S32x8x1 ![0, 1] bcast_S32x8_S32x8x1_0_1 (res_main_call2_v0 V0)
def res_main_call2_cst_0 : Ct V0 main_call2_cst_0 :=
  constant S_ .f32 0x44000000#32
def res_main_call2_v2 : Ct V0 main_call2_v2 :=
  broadcastInDim S32x8x1 ![] bcast_S_S32x8x1 (res_main_call2_cst_0 V0)
def res_main_call2_v3 : Ct V0 main_call2_v3 :=
  Host.divf (res_main_call2_v1 V0) (res_main_call2_v2 V0)
def res_main_call2_v4 : Ct V0 main_call2_v4 :=
  broadcastInDim S32x8x512 ![0, 1, 2] bcast_S32x8x1_S32x8x512_0_1_2 (res_main_call2_v3 V0)
def res_main_call2_v5 : Ct V0 main_call2_v5 :=
  subf (res_main_v98 V0) (res_main_call2_v4 V0)
def res_main_call2_v6 : Ct V0 main_call2_v6 :=
  mulf (res_main_call2_v5 V0) (res_main_call2_v5 V0)
def res_main_call2_v7 : Ct V0 main_call2_v7 :=
  sitofp .f32 (res_main_c_18 V0)
def res_main_call2_cst_1 : Ct V0 main_call2_cst_1 :=
  constant S_ .f32 0x44000000#32
def res_main_call2_v8 : Ct V0 main_call2_v8 :=
  subf (res_main_call2_cst_1 V0) (res_main_call2_v7 V0)
def res_main_call2_cst_2 : Ct V0 main_call2_cst_2 :=
  constant S_ .f32 0x00000000#32
def res_main_call2_v9 : Ct V0 main_call2_v9 :=
  Host.reduceAdd (res_main_call2_v6 V0) (res_main_call2_cst_2 V0) reducesTo_S32x8x512_S32x8_d2 h_S_
def res_main_call2_v10 : Ct V0 main_call2_v10 :=
  broadcastInDim S32x8x1 ![0, 1] bcast_S32x8_S32x8x1_0_1 (res_main_call2_v9 V0)
def res_main_call2_v11 : Ct V0 main_call2_v11 :=
  broadcastInDim S32x8x1 ![] bcast_S_S32x8x1 (res_main_call2_v8 V0)
def res_main_call2_v12 : Ct V0 main_call2_v12 :=
  Host.divf (res_main_call2_v10 V0) (res_main_call2_v11 V0)
def res_main_call2_cst_3 : Ct V0 main_call2_cst_3 :=
  constant S_ .f32 0x00000000#32
def res_main_call2_v13 : Ct V0 main_call2_v13 :=
  cmpf .ogt (res_main_call2_v8 V0) (res_main_call2_cst_3 V0)
def res_main_call2_cst_4 : Ct V0 main_call2_cst_4 :=
  constant S_ .f32 0x7FC00000#32
def res_main_call2_call0_v0 : Ct V0 main_call2_call0_v0 :=
  (res_main_call2_cst_4 V0)
def res_main_call2_call0_v1 : Ct V0 main_call2_call0_v1 :=
  broadcastInDim S32x8x1 ![] bcast_S_S32x8x1 (res_main_call2_call0_v0 V0)
def res_main_v103 : Ct V0 main_v103 :=
  select (broadcastInDim S32x8x1 ![] bcast_S_S32x8x1 (res_main_call2_v13 V0)) (res_main_call2_v12 V0) (res_main_call2_call0_v1 V0)
def res_main_v104 : Ct V0 main_v104 :=
  broadcastInDim S32x8x512 ![0, 1, 2] bcast_S32x8x1_S32x8x512_0_1_2 (res_main_v102 V0)
def res_main_v105 : Ct V0 main_v105 :=
  subf (res_main_v98 V0) (res_main_v104 V0)
def res_main_cst_19 : Ct V0 main_cst_19 :=
  constant S_ .f32 0x3727C5AC#32
def res_main_v106 : Ct V0 main_v106 :=
  broadcastInDim S32x8x1 ![] bcast_S_S32x8x1 (res_main_cst_19 V0)
def res_main_v107 : Ct V0 main_v107 :=
  addf (res_main_v103 V0) (res_main_v106 V0)
def res_main_v108 : Ct V0 main_v108 :=
  Host.rsqrt (res_main_v107 V0)
def res_main_v109 : Ct V0 main_v109 :=
  broadcastInDim S32x8x512 ![0, 1, 2] bcast_S32x8x1_S32x8x512_0_1_2 (res_main_v108 V0)
def res_main_v110 : Ct V0 main_v110 :=
  mulf (res_main_v105 V0) (res_main_v109 V0)
def res_main_v111 : Ct V0 main_v111 :=
  broadcastInDim S1x1x512 ![2] bcast_S512_S1x1x512_2 (V0 (Proc.devRef .tc main_arg15))
def res_main_v112 : Ct V0 main_v112 :=
  broadcastInDim S32x8x512 ![0, 1, 2] bcast_S1x1x512_S32x8x512_0_1_2 (res_main_v111 V0)
def res_main_v113 : Ct V0 main_v113 :=
  mulf (res_main_v110 V0) (res_main_v112 V0)
def res_main_v114 : Ct V0 main_v114 :=
  broadcastInDim S1x1x512 ![2] bcast_S512_S1x1x512_2 (V0 (Proc.devRef .tc main_arg16))
def res_main_v115 : Ct V0 main_v115 :=
  broadcastInDim S32x8x512 ![0, 1, 2] bcast_S1x1x512_S32x8x512_0_1_2 (res_main_v114 V0)
def res_main_v116 : Ct V0 main_v116 :=
  addf (res_main_v113 V0) (res_main_v115 V0)
def res_main_v117 : Ct V0 main_v117 :=
  Host.dotGeneral dot_S32x8x512_S512x512_S32x8x512_2_1_01_0_n_n none (res_main_v116 V0) (V0 (Proc.devRef .tc main_arg17))
def res_main_v118 : Ct V0 main_v118 :=
  broadcastInDim S1x1x512 ![2] bcast_S512_S1x1x512_2 (V0 (Proc.devRef .tc main_arg18))
def res_main_v119 : Ct V0 main_v119 :=
  broadcastInDim S32x8x512 ![0, 1, 2] bcast_S1x1x512_S32x8x512_0_1_2 (res_main_v118 V0)
def res_main_v120 : Ct V0 main_v120 :=
  addf (res_main_v117 V0) (res_main_v119 V0)
def res_main_call3_cst : Ct V0 main_call3_cst :=
  constant S_ .f32 0x00000000#32
def res_main_call3_v0 : Ct V0 main_call3_v0 :=
  broadcastInDim S32x8x512 ![] bcast_S_S32x8x512 (res_main_call3_cst V0)
def res_main_v121 : Ct V0 main_v121 :=
  maximumf (res_main_v120 V0) (res_main_call3_v0 V0)
def res_main_v122 : Ct V0 main_v122 :=
  Host.dotGeneral dot_S32x8x512_S512x512_S32x8x512_2_1_01_0_n_n none (res_main_v121 V0) (V0 (Proc.devRef .tc main_arg19))
def res_main_v123 : Ct V0 main_v123 :=
  addf (res_main_v98 V0) (res_main_v122 V0)
def res_main_v124 : Ct V0 main_v124 :=
  broadcastInDim S1x1x512 ![2] bcast_S512_S1x1x512_2 (V0 (Proc.devRef .tc main_arg20))
def res_main_v125 : Ct V0 main_v125 :=
  broadcastInDim S32x8x512 ![0, 1, 2] bcast_S1x1x512_S32x8x512_0_1_2 (res_main_v124 V0)
def res_main_v126 : Ct V0 main_v126 :=
  addf (res_main_v123 V0) (res_main_v125 V0)
def res_main_cst_20 : Ct V0 main_cst_20 :=
  constant S_ .f32 0x00000000#32
def res_main_v127 : Ct V0 main_v127 :=
  Host.reduceAdd (res_main_v126 V0) (res_main_cst_20 V0) reducesTo_S32x8x512_S32x8_d2 h_S_
def res_main_v128 : Ct V0 main_v128 :=
  broadcastInDim S32x8x1 ![0, 1] bcast_S32x8_S32x8x1_0_1 (res_main_v127 V0)
def res_main_cst_21 : Ct V0 main_cst_21 :=
  constant S_ .f32 0x44000000#32
def res_main_v129 : Ct V0 main_v129 :=
  broadcastInDim S32x8x1 ![] bcast_S_S32x8x1 (res_main_cst_21 V0)
def res_main_v130 : Ct V0 main_v130 :=
  Host.divf (res_main_v128 V0) (res_main_v129 V0)
def res_main_c_22 : Ct V0 main_c_22 :=
  constantI S_ 32 0#32
def res_main_call4_cst : Ct V0 main_call4_cst :=
  constant S_ .f32 0x00000000#32
def res_main_call4_v0 : Ct V0 main_call4_v0 :=
  Host.reduceAdd (res_main_v126 V0) (res_main_call4_cst V0) reducesTo_S32x8x512_S32x8_d2 h_S_
def res_main_call4_v1 : Ct V0 main_call4_v1 :=
  broadcastInDim S32x8x1 ![0, 1] bcast_S32x8_S32x8x1_0_1 (res_main_call4_v0 V0)
def res_main_call4_cst_0 : Ct V0 main_call4_cst_0 :=
  constant S_ .f32 0x44000000#32
def res_main_call4_v2 : Ct V0 main_call4_v2 :=
  broadcastInDim S32x8x1 ![] bcast_S_S32x8x1 (res_main_call4_cst_0 V0)
def res_main_call4_v3 : Ct V0 main_call4_v3 :=
  Host.divf (res_main_call4_v1 V0) (res_main_call4_v2 V0)
def res_main_call4_v4 : Ct V0 main_call4_v4 :=
  broadcastInDim S32x8x512 ![0, 1, 2] bcast_S32x8x1_S32x8x512_0_1_2 (res_main_call4_v3 V0)
def res_main_call4_v5 : Ct V0 main_call4_v5 :=
  subf (res_main_v126 V0) (res_main_call4_v4 V0)
def res_main_call4_v6 : Ct V0 main_call4_v6 :=
  mulf (res_main_call4_v5 V0) (res_main_call4_v5 V0)
def res_main_call4_v7 : Ct V0 main_call4_v7 :=
  sitofp .f32 (res_main_c_22 V0)
def res_main_call4_cst_1 : Ct V0 main_call4_cst_1 :=
  constant S_ .f32 0x44000000#32
def res_main_call4_v8 : Ct V0 main_call4_v8 :=
  subf (res_main_call4_cst_1 V0) (res_main_call4_v7 V0)
def res_main_call4_cst_2 : Ct V0 main_call4_cst_2 :=
  constant S_ .f32 0x00000000#32
def res_main_call4_v9 : Ct V0 main_call4_v9 :=
  Host.reduceAdd (res_main_call4_v6 V0) (res_main_call4_cst_2 V0) reducesTo_S32x8x512_S32x8_d2 h_S_
def res_main_call4_v10 : Ct V0 main_call4_v10 :=
  broadcastInDim S32x8x1 ![0, 1] bcast_S32x8_S32x8x1_0_1 (res_main_call4_v9 V0)
def res_main_call4_v11 : Ct V0 main_call4_v11 :=
  broadcastInDim S32x8x1 ![] bcast_S_S32x8x1 (res_main_call4_v8 V0)
def res_main_call4_v12 : Ct V0 main_call4_v12 :=
  Host.divf (res_main_call4_v10 V0) (res_main_call4_v11 V0)
def res_main_call4_cst_3 : Ct V0 main_call4_cst_3 :=
  constant S_ .f32 0x00000000#32
def res_main_call4_v13 : Ct V0 main_call4_v13 :=
  cmpf .ogt (res_main_call4_v8 V0) (res_main_call4_cst_3 V0)
def res_main_call4_cst_4 : Ct V0 main_call4_cst_4 :=
  constant S_ .f32 0x7FC00000#32
def res_main_call4_call0_v0 : Ct V0 main_call4_call0_v0 :=
  (res_main_call4_cst_4 V0)
def res_main_call4_call0_v1 : Ct V0 main_call4_call0_v1 :=
  broadcastInDim S32x8x1 ![] bcast_S_S32x8x1 (res_main_call4_call0_v0 V0)
def res_main_v131 : Ct V0 main_v131 :=
  select (broadcastInDim S32x8x1 ![] bcast_S_S32x8x1 (res_main_call4_v13 V0)) (res_main_call4_v12 V0) (res_main_call4_call0_v1 V0)
def res_main_v132 : Ct V0 main_v132 :=
  broadcastInDim S32x8x512 ![0, 1, 2] bcast_S32x8x1_S32x8x512_0_1_2 (res_main_v130 V0)
def res_main_v133 : Ct V0 main_v133 :=
  subf (res_main_v126 V0) (res_main_v132 V0)
def res_main_cst_23 : Ct V0 main_cst_23 :=
  constant S_ .f32 0x3727C5AC#32
def res_main_v134 : Ct V0 main_v134 :=
  broadcastInDim S32x8x1 ![] bcast_S_S32x8x1 (res_main_cst_23 V0)
def res_main_v135 : Ct V0 main_v135 :=
  addf (res_main_v131 V0) (res_main_v134 V0)
def res_main_v136 : Ct V0 main_v136 :=
  Host.rsqrt (res_main_v135 V0)
def res_main_v137 : Ct V0 main_v137 :=
  broadcastInDim S32x8x512 ![0, 1, 2] bcast_S32x8x1_S32x8x512_0_1_2 (res_main_v136 V0)
def res_main_v138 : Ct V0 main_v138 :=
  mulf (res_main_v133 V0) (res_main_v137 V0)
def res_main_v139 : Ct V0 main_v139 :=
  broadcastInDim S1x1x512 ![2] bcast_S512_S1x1x512_2 (V0 (Proc.devRef .tc main_arg6))
def res_main_v140 : Ct V0 main_v140 :=
  broadcastInDim S32x8x512 ![0, 1, 2] bcast_S1x1x512_S32x8x512_0_1_2 (res_main_v139 V0)
def res_main_v141 : Ct V0 main_v141 :=
  mulf (res_main_v138 V0) (res_main_v140 V0)
def res_main_v142 : Ct V0 main_v142 :=
  broadcastInDim S1x1x512 ![2] bcast_S512_S1x1x512_2 (V0 (Proc.devRef .tc main_arg7))
def res_main_v143 : Ct V0 main_v143 :=
  broadcastInDim S32x8x512 ![0, 1, 2] bcast_S1x1x512_S32x8x512_0_1_2 (res_main_v142 V0)
def res_main_v144 : Ct V0 main_v144 :=
  addf (res_main_v141 V0) (res_main_v143 V0)
def res_main_v145 : Ct V0 main_v145 :=
  Host.dotGeneral dot_S32x8x512_S512x512_S32x8x512_2_1_01_0_n_n none (res_main_v144 V0) (V0 (Proc.devRef .tc main_arg8))
def res_main_v146 : Ct V0 main_v146 :=
  Host.dotGeneral dot_S32x4096x512_S32x8x512_S32x4096x8_2_2_1_1_0_0 none (res_main_v22 V0) (res_main_v145 V0)
def res_main_cst_24 : Ct V0 main_cst_24 :=
  constant S_ .f32 0xFF800000#32
def res_main_v147 : Ct V0 main_v147 :=
  Host.reduce FloatOps.maximumf (res_main_v146 V0) (res_main_cst_24 V0) reducesTo_S32x4096x8_S32x4096_d2 h_S_
def res_main_cst_25 : Ct V0 main_cst_25 :=
  constant S_ .f32 0xFF800000#32
def res_main_v148 : Ct V0 main_v148 :=
  broadcastInDim S32x4096 ![] bcast_S_S32x4096 (res_main_cst_25 V0)
def res_main_v149 : Ct V0 main_v149 :=
  maximumf (res_main_v148 V0) (res_main_v147 V0)
def res_main_v150 : Ct V0 main_v150 :=
  broadcastInDim S32x4096x1 ![0, 1] bcast_S32x4096_S32x4096x1_0_1 (res_main_v149 V0)
def res_main_v151 : Ct V0 main_v151 :=
  broadcastInDim S32x4096x8 ![0, 1, 2] bcast_S32x4096x1_S32x4096x8_0_1_2 (res_main_v150 V0)
def res_main_v152 : Ct V0 main_v152 :=
  subf (res_main_v146 V0) (res_main_v151 V0)
def res_main_v153 : Ct V0 main_v153 :=
  Host.exp (res_main_v152 V0)
def res_main_cst_26 : Ct V0 main_cst_26 :=
  constant S_ .f32 0x00000000#32
def res_main_v154 : Ct V0 main_v154 :=
  Host.reduceAdd (res_main_v153 V0) (res_main_cst_26 V0) reducesTo_S32x4096x8_S32x4096_d2 h_S_
def res_main_v155 : Ct V0 main_v155 :=
  broadcastInDim S32x4096x1 ![0, 1] bcast_S32x4096_S32x4096x1_0_1 (res_main_v154 V0)
def res_main_v156 : Ct V0 main_v156 :=
  broadcastInDim S32x4096x8 ![0, 1, 2] bcast_S32x4096x1_S32x4096x8_0_1_2 (res_main_v155 V0)
def res_main_v157 : Ct V0 main_v157 :=
  Host.divf (res_main_v153 V0) (res_main_v156 V0)
def res_main_cst_27 : Ct V0 main_cst_27 :=
  constant S_ .f32 0x322BCC77#32
def res_main_v158 : Ct V0 main_v158 :=
  broadcastInDim S32x4096x8 ![] bcast_S_S32x4096x8 (res_main_cst_27 V0)
def res_main_v159 : Ct V0 main_v159 :=
  addf (res_main_v157 V0) (res_main_v158 V0)
def res_main_cst_28 : Ct V0 main_cst_28 :=
  constant S_ .f32 0x00000000#32
def res_main_v160 : Ct V0 main_v160 :=
  Host.reduceAdd (res_main_v159 V0) (res_main_cst_28 V0) reducesTo_S32x4096x8_S32x4096_d2 h_S_
def res_main_v161 : Ct V0 main_v161 :=
  broadcastInDim S32x4096x1 ![0, 1] bcast_S32x4096_S32x4096x1_0_1 (res_main_v160 V0)
def res_main_v162 : Ct V0 main_v162 :=
  broadcastInDim S32x4096x8 ![0, 1, 2] bcast_S32x4096x1_S32x4096x8_0_1_2 (res_main_v161 V0)
def res_main_v163 : Ct V0 main_v163 :=
  Host.divf (res_main_v159 V0) (res_main_v162 V0)
def res_main_v164 : Ct V0 main_v164 :=
  transpose S32x8x4096 [0, 2, 1] (res_main_v163 V0) transposes_S32x4096x8_S32x8x4096_0_2_1
def res_main_v165 : Ct V0 main_v165 :=
  Host.dotGeneral dot_S32x8x4096_S32x4096x512_S32x8x512_2_1_1_2_0_0 none (res_main_v164 V0) (res_main_v23 V0)
def res_main_v166 : Ct V0 main_v166 :=
  Host.dotGeneral dot_S32x8x512_S1536x512_S32x8x1536_2_1_01_0_n_n none (res_main_v165 V0) (V0 (Proc.devRef .tc main_arg11))
def res_main_v167 : Ct V0 main_v167 :=
  broadcastInDim S1x1x1536 ![2] bcast_S1536_S1x1x1536_2 (V0 (Proc.devRef .tc main_arg13))
def res_main_v168 : Ct V0 main_v168 :=
  broadcastInDim S32x8x1536 ![0, 1, 2] bcast_S1x1x1536_S32x8x1536_0_1_2 (res_main_v167 V0)
def res_main_v169 : Ct V0 main_v169 :=
  addf (res_main_v166 V0) (res_main_v168 V0)
def res_main_v170 : Ct V0 main_v170 :=
  Host.dotGeneral dot_S32x8x512_S1536x512_S32x8x1536_2_1_01_0_n_n none (res_main_v126 V0) (V0 (Proc.devRef .tc main_arg12))
def res_main_v171 : Ct V0 main_v171 :=
  broadcastInDim S1x1x1536 ![2] bcast_S1536_S1x1x1536_2 (V0 (Proc.devRef .tc main_arg14))
def res_main_v172 : Ct V0 main_v172 :=
  broadcastInDim S32x8x1536 ![0, 1, 2] bcast_S1x1x1536_S32x8x1536_0_1_2 (res_main_v171 V0)
def res_main_v173 : Ct V0 main_v173 :=
  addf (res_main_v170 V0) (res_main_v172 V0)
def res_main_v174 : Ct V0 main_v174 :=
  extractStridedSlice S32x8x512 ![0, 0, 0] (res_main_v169 V0) slices_S32x8x1536_S32x8x512_0_0_0
def res_main_v175 : Ct V0 main_v175 :=
  extractStridedSlice S32x8x512 ![0, 0, 512] (res_main_v169 V0) slices_S32x8x1536_S32x8x512_0_0_512
def res_main_v176 : Ct V0 main_v176 :=
  extractStridedSlice S32x8x512 ![0, 0, 1024] (res_main_v169 V0) slices_S32x8x1536_S32x8x512_0_0_1024
def res_main_v177 : Ct V0 main_v177 :=
  extractStridedSlice S32x8x512 ![0, 0, 0] (res_main_v173 V0) slices_S32x8x1536_S32x8x512_0_0_0
def res_main_v178 : Ct V0 main_v178 :=
  extractStridedSlice S32x8x512 ![0, 0, 512] (res_main_v173 V0) slices_S32x8x1536_S32x8x512_0_0_512
def res_main_v179 : Ct V0 main_v179 :=
  extractStridedSlice S32x8x512 ![0, 0, 1024] (res_main_v173 V0) slices_S32x8x1536_S32x8x512_0_0_1024
def res_main_v180 : Ct V0 main_v180 :=
  addf (res_main_v174 V0) (res_main_v177 V0)
def res_main_v181 : Ct V0 main_v181 :=
  Host.negf (res_main_v180 V0)
def res_main_v182 : Ct V0 main_v182 :=
  Host.exp (res_main_v181 V0)
def res_main_cst_29 : Ct V0 main_cst_29 :=
  constant S_ .f32 0x3F800000#32
def res_main_v183 : Ct V0 main_v183 :=
  broadcastInDim S32x8x512 ![] bcast_S_S32x8x512 (res_main_cst_29 V0)
def res_main_v184 : Ct V0 main_v184 :=
  addf (res_main_v183 V0) (res_main_v182 V0)
def res_main_cst_30 : Ct V0 main_cst_30 :=
  constant S_ .f32 0x3F800000#32
def res_main_v185 : Ct V0 main_v185 :=
  broadcastInDim S32x8x512 ![] bcast_S_S32x8x512 (res_main_cst_30 V0)
def res_main_v186 : Ct V0 main_v186 :=
  Host.divf (res_main_v185 V0) (res_main_v184 V0)
def res_main_v187 : Ct V0 main_v187 :=
  addf (res_main_v175 V0) (res_main_v178 V0)
def res_main_v188 : Ct V0 main_v188 :=
  Host.negf (res_main_v187 V0)
def res_main_v189 : Ct V0 main_v189 :=
  Host.exp (res_main_v188 V0)
def res_main_cst_31 : Ct V0 main_cst_31 :=
  constant S_ .f32 0x3F800000#32
def res_main_v190 : Ct V0 main_v190 :=
  broadcastInDim S32x8x512 ![] bcast_S_S32x8x512 (res_main_cst_31 V0)
def res_main_v191 : Ct V0 main_v191 :=
  addf (res_main_v190 V0) (res_main_v189 V0)
def res_main_cst_32 : Ct V0 main_cst_32 :=
  constant S_ .f32 0x3F800000#32
def res_main_v192 : Ct V0 main_v192 :=
  broadcastInDim S32x8x512 ![] bcast_S_S32x8x512 (res_main_cst_32 V0)
def res_main_v193 : Ct V0 main_v193 :=
  Host.divf (res_main_v192 V0) (res_main_v191 V0)
def res_main_v194 : Ct V0 main_v194 :=
  mulf (res_main_v186 V0) (res_main_v179 V0)
def res_main_v195 : Ct V0 main_v195 :=
  addf (res_main_v176 V0) (res_main_v194 V0)
def res_main_v196 : Ct V0 main_v196 :=
  Host.tanh (res_main_v195 V0)
def res_main_cst_33 : Ct V0 main_cst_33 :=
  constant S_ .f32 0x3F800000#32
def res_main_v197 : Ct V0 main_v197 :=
  broadcastInDim S32x8x512 ![] bcast_S_S32x8x512 (res_main_cst_33 V0)
def res_main_v198 : Ct V0 main_v198 :=
  subf (res_main_v197 V0) (res_main_v193 V0)
def res_main_v199 : Ct V0 main_v199 :=
  mulf (res_main_v198 V0) (res_main_v196 V0)
def res_main_v200 : Ct V0 main_v200 :=
  mulf (res_main_v193 V0) (res_main_v126 V0)
def res_main_v201 : Ct V0 main_v201 :=
  addf (res_main_v199 V0) (res_main_v200 V0)
def res_main_cst_34 : Ct V0 main_cst_34 :=
  constant S_ .f32 0x00000000#32
def res_main_v202 : Ct V0 main_v202 :=
  Host.reduceAdd (res_main_v201 V0) (res_main_cst_34 V0) reducesTo_S32x8x512_S32x8_d2 h_S_
def res_main_v203 : Ct V0 main_v203 :=
  broadcastInDim S32x8x1 ![0, 1] bcast_S32x8_S32x8x1_0_1 (res_main_v202 V0)
def res_main_cst_35 : Ct V0 main_cst_35 :=
  constant S_ .f32 0x44000000#32
def res_main_v204 : Ct V0 main_v204 :=
  broadcastInDim S32x8x1 ![] bcast_S_S32x8x1 (res_main_cst_35 V0)
def res_main_v205 : Ct V0 main_v205 :=
  Host.divf (res_main_v203 V0) (res_main_v204 V0)
def res_main_c_36 : Ct V0 main_c_36 :=
  constantI S_ 32 0#32
def res_main_call5_cst : Ct V0 main_call5_cst :=
  constant S_ .f32 0x00000000#32
def res_main_call5_v0 : Ct V0 main_call5_v0 :=
  Host.reduceAdd (res_main_v201 V0) (res_main_call5_cst V0) reducesTo_S32x8x512_S32x8_d2 h_S_
def res_main_call5_v1 : Ct V0 main_call5_v1 :=
  broadcastInDim S32x8x1 ![0, 1] bcast_S32x8_S32x8x1_0_1 (res_main_call5_v0 V0)
def res_main_call5_cst_0 : Ct V0 main_call5_cst_0 :=
  constant S_ .f32 0x44000000#32
def res_main_call5_v2 : Ct V0 main_call5_v2 :=
  broadcastInDim S32x8x1 ![] bcast_S_S32x8x1 (res_main_call5_cst_0 V0)
def res_main_call5_v3 : Ct V0 main_call5_v3 :=
  Host.divf (res_main_call5_v1 V0) (res_main_call5_v2 V0)
def res_main_call5_v4 : Ct V0 main_call5_v4 :=
  broadcastInDim S32x8x512 ![0, 1, 2] bcast_S32x8x1_S32x8x512_0_1_2 (res_main_call5_v3 V0)
def res_main_call5_v5 : Ct V0 main_call5_v5 :=
  subf (res_main_v201 V0) (res_main_call5_v4 V0)
def res_main_call5_v6 : Ct V0 main_call5_v6 :=
  mulf (res_main_call5_v5 V0) (res_main_call5_v5 V0)
def res_main_call5_v7 : Ct V0 main_call5_v7 :=
  sitofp .f32 (res_main_c_36 V0)
def res_main_call5_cst_1 : Ct V0 main_call5_cst_1 :=
  constant S_ .f32 0x44000000#32
def res_main_call5_v8 : Ct V0 main_call5_v8 :=
  subf (res_main_call5_cst_1 V0) (res_main_call5_v7 V0)
def res_main_call5_cst_2 : Ct V0 main_call5_cst_2 :=
  constant S_ .f32 0x00000000#32
def res_main_call5_v9 : Ct V0 main_call5_v9 :=
  Host.reduceAdd (res_main_call5_v6 V0) (res_main_call5_cst_2 V0) reducesTo_S32x8x512_S32x8_d2 h_S_
def res_main_call5_v10 : Ct V0 main_call5_v10 :=
  broadcastInDim S32x8x1 ![0, 1] bcast_S32x8_S32x8x1_0_1 (res_main_call5_v9 V0)
def res_main_call5_v11 : Ct V0 main_call5_v11 :=
  broadcastInDim S32x8x1 ![] bcast_S_S32x8x1 (res_main_call5_v8 V0)
def res_main_call5_v12 : Ct V0 main_call5_v12 :=
  Host.divf (res_main_call5_v10 V0) (res_main_call5_v11 V0)
def res_main_call5_cst_3 : Ct V0 main_call5_cst_3 :=
  constant S_ .f32 0x00000000#32
def res_main_call5_v13 : Ct V0 main_call5_v13 :=
  cmpf .ogt (res_main_call5_v8 V0) (res_main_call5_cst_3 V0)
def res_main_call5_cst_4 : Ct V0 main_call5_cst_4 :=
  constant S_ .f32 0x7FC00000#32
def res_main_call5_call0_v0 : Ct V0 main_call5_call0_v0 :=
  (res_main_call5_cst_4 V0)
def res_main_call5_call0_v1 : Ct V0 main_call5_call0_v1 :=
  broadcastInDim S32x8x1 ![] bcast_S_S32x8x1 (res_main_call5_call0_v0 V0)
def res_main_v206 : Ct V0 main_v206 :=
  select (broadcastInDim S32x8x1 ![] bcast_S_S32x8x1 (res_main_call5_v13 V0)) (res_main_call5_v12 V0) (res_main_call5_call0_v1 V0)
def res_main_v207 : Ct V0 main_v207 :=
  broadcastInDim S32x8x512 ![0, 1, 2] bcast_S32x8x1_S32x8x512_0_1_2 (res_main_v205 V0)
def res_main_v208 : Ct V0 main_v208 :=
  subf (res_main_v201 V0) (res_main_v207 V0)
def res_main_cst_37 : Ct V0 main_cst_37 :=
  constant S_ .f32 0x3727C5AC#32
def res_main_v209 : Ct V0 main_v209 :=
  broadcastInDim S32x8x1 ![] bcast_S_S32x8x1 (res_main_cst_37 V0)
def res_main_v210 : Ct V0 main_v210 :=
  addf (res_main_v206 V0) (res_main_v209 V0)
def res_main_v211 : Ct V0 main_v211 :=
  Host.rsqrt (res_main_v210 V0)
def res_main_v212 : Ct V0 main_v212 :=
  broadcastInDim S32x8x512 ![0, 1, 2] bcast_S32x8x1_S32x8x512_0_1_2 (res_main_v211 V0)
def res_main_v213 : Ct V0 main_v213 :=
  mulf (res_main_v208 V0) (res_main_v212 V0)
def res_main_v214 : Ct V0 main_v214 :=
  broadcastInDim S1x1x512 ![2] bcast_S512_S1x1x512_2 (V0 (Proc.devRef .tc main_arg15))
def res_main_v215 : Ct V0 main_v215 :=
  broadcastInDim S32x8x512 ![0, 1, 2] bcast_S1x1x512_S32x8x512_0_1_2 (res_main_v214 V0)
def res_main_v216 : Ct V0 main_v216 :=
  mulf (res_main_v213 V0) (res_main_v215 V0)
def res_main_v217 : Ct V0 main_v217 :=
  broadcastInDim S1x1x512 ![2] bcast_S512_S1x1x512_2 (V0 (Proc.devRef .tc main_arg16))
def res_main_v218 : Ct V0 main_v218 :=
  broadcastInDim S32x8x512 ![0, 1, 2] bcast_S1x1x512_S32x8x512_0_1_2 (res_main_v217 V0)
def res_main_v219 : Ct V0 main_v219 :=
  addf (res_main_v216 V0) (res_main_v218 V0)
def res_main_v220 : Ct V0 main_v220 :=
  Host.dotGeneral dot_S32x8x512_S512x512_S32x8x512_2_1_01_0_n_n none (res_main_v219 V0) (V0 (Proc.devRef .tc main_arg17))
def res_main_v221 : Ct V0 main_v221 :=
  broadcastInDim S1x1x512 ![2] bcast_S512_S1x1x512_2 (V0 (Proc.devRef .tc main_arg18))
def res_main_v222 : Ct V0 main_v222 :=
  broadcastInDim S32x8x512 ![0, 1, 2] bcast_S1x1x512_S32x8x512_0_1_2 (res_main_v221 V0)
def res_main_v223 : Ct V0 main_v223 :=
  addf (res_main_v220 V0) (res_main_v222 V0)
def res_main_call6_cst : Ct V0 main_call6_cst :=
  constant S_ .f32 0x00000000#32
def res_main_call6_v0 : Ct V0 main_call6_v0 :=
  broadcastInDim S32x8x512 ![] bcast_S_S32x8x512 (res_main_call6_cst V0)
def res_main_v224 : Ct V0 main_v224 :=
  maximumf (res_main_v223 V0) (res_main_call6_v0 V0)
def res_main_v225 : Ct V0 main_v225 :=
  Host.dotGeneral dot_S32x8x512_S512x512_S32x8x512_2_1_01_0_n_n none (res_main_v224 V0) (V0 (Proc.devRef .tc main_arg19))
def res_main_v226 : Ct V0 main_v226 :=
  addf (res_main_v201 V0) (res_main_v225 V0)
def res_main_v227 : Ct V0 main_v227 :=
  broadcastInDim S1x1x512 ![2] bcast_S512_S1x1x512_2 (V0 (Proc.devRef .tc main_arg20))
def res_main_v228 : Ct V0 main_v228 :=
  broadcastInDim S32x8x512 ![0, 1, 2] bcast_S1x1x512_S32x8x512_0_1_2 (res_main_v227 V0)
def res_main_v229 : Ct V0 main_v229 :=
  addf (res_main_v226 V0) (res_main_v228 V0)
def res_main_cst_38 : Ct V0 main_cst_38 :=
  constant S_ .f32 0x00000000#32
def res_main_v230 : Ct V0 main_v230 :=
  Host.reduceAdd (res_main_v229 V0) (res_main_cst_38 V0) reducesTo_S32x8x512_S32x8_d2 h_S_
def res_main_v231 : Ct V0 main_v231 :=
  broadcastInDim S32x8x1 ![0, 1] bcast_S32x8_S32x8x1_0_1 (res_main_v230 V0)
def res_main_cst_39 : Ct V0 main_cst_39 :=
  constant S_ .f32 0x44000000#32
def res_main_v232 : Ct V0 main_v232 :=
  broadcastInDim S32x8x1 ![] bcast_S_S32x8x1 (res_main_cst_39 V0)
def res_main_v233 : Ct V0 main_v233 :=
  Host.divf (res_main_v231 V0) (res_main_v232 V0)
def res_main_c_40 : Ct V0 main_c_40 :=
  constantI S_ 32 0#32
def res_main_call7_cst : Ct V0 main_call7_cst :=
  constant S_ .f32 0x00000000#32
def res_main_call7_v0 : Ct V0 main_call7_v0 :=
  Host.reduceAdd (res_main_v229 V0) (res_main_call7_cst V0) reducesTo_S32x8x512_S32x8_d2 h_S_
def res_main_call7_v1 : Ct V0 main_call7_v1 :=
  broadcastInDim S32x8x1 ![0, 1] bcast_S32x8_S32x8x1_0_1 (res_main_call7_v0 V0)
def res_main_call7_cst_0 : Ct V0 main_call7_cst_0 :=
  constant S_ .f32 0x44000000#32
def res_main_call7_v2 : Ct V0 main_call7_v2 :=
  broadcastInDim S32x8x1 ![] bcast_S_S32x8x1 (res_main_call7_cst_0 V0)
def res_main_call7_v3 : Ct V0 main_call7_v3 :=
  Host.divf (res_main_call7_v1 V0) (res_main_call7_v2 V0)
def res_main_call7_v4 : Ct V0 main_call7_v4 :=
  broadcastInDim S32x8x512 ![0, 1, 2] bcast_S32x8x1_S32x8x512_0_1_2 (res_main_call7_v3 V0)
def res_main_call7_v5 : Ct V0 main_call7_v5 :=
  subf (res_main_v229 V0) (res_main_call7_v4 V0)
def res_main_call7_v6 : Ct V0 main_call7_v6 :=
  mulf (res_main_call7_v5 V0) (res_main_call7_v5 V0)
def res_main_call7_v7 : Ct V0 main_call7_v7 :=
  sitofp .f32 (res_main_c_40 V0)
def res_main_call7_cst_1 : Ct V0 main_call7_cst_1 :=
  constant S_ .f32 0x44000000#32
def res_main_call7_v8 : Ct V0 main_call7_v8 :=
  subf (res_main_call7_cst_1 V0) (res_main_call7_v7 V0)
def res_main_call7_cst_2 : Ct V0 main_call7_cst_2 :=
  constant S_ .f32 0x00000000#32
def res_main_call7_v9 : Ct V0 main_call7_v9 :=
  Host.reduceAdd (res_main_call7_v6 V0) (res_main_call7_cst_2 V0) reducesTo_S32x8x512_S32x8_d2 h_S_
def res_main_call7_v10 : Ct V0 main_call7_v10 :=
  broadcastInDim S32x8x1 ![0, 1] bcast_S32x8_S32x8x1_0_1 (res_main_call7_v9 V0)
def res_main_call7_v11 : Ct V0 main_call7_v11 :=
  broadcastInDim S32x8x1 ![] bcast_S_S32x8x1 (res_main_call7_v8 V0)
def res_main_call7_v12 : Ct V0 main_call7_v12 :=
  Host.divf (res_main_call7_v10 V0) (res_main_call7_v11 V0)
def res_main_call7_cst_3 : Ct V0 main_call7_cst_3 :=
  constant S_ .f32 0x00000000#32
def res_main_call7_v13 : Ct V0 main_call7_v13 :=
  cmpf .ogt (res_main_call7_v8 V0) (res_main_call7_cst_3 V0)
def res_main_call7_cst_4 : Ct V0 main_call7_cst_4 :=
  constant S_ .f32 0x7FC00000#32
def res_main_call7_call0_v0 : Ct V0 main_call7_call0_v0 :=
  (res_main_call7_cst_4 V0)
def res_main_call7_call0_v1 : Ct V0 main_call7_call0_v1 :=
  broadcastInDim S32x8x1 ![] bcast_S_S32x8x1 (res_main_call7_call0_v0 V0)
def res_main_v234 : Ct V0 main_v234 :=
  select (broadcastInDim S32x8x1 ![] bcast_S_S32x8x1 (res_main_call7_v13 V0)) (res_main_call7_v12 V0) (res_main_call7_call0_v1 V0)
def res_main_v235 : Ct V0 main_v235 :=
  broadcastInDim S32x8x512 ![0, 1, 2] bcast_S32x8x1_S32x8x512_0_1_2 (res_main_v233 V0)
def res_main_v236 : Ct V0 main_v236 :=
  subf (res_main_v229 V0) (res_main_v235 V0)
def res_main_cst_41 : Ct V0 main_cst_41 :=
  constant S_ .f32 0x3727C5AC#32
def res_main_v237 : Ct V0 main_v237 :=
  broadcastInDim S32x8x1 ![] bcast_S_S32x8x1 (res_main_cst_41 V0)
def res_main_v238 : Ct V0 main_v238 :=
  addf (res_main_v234 V0) (res_main_v237 V0)
def res_main_v239 : Ct V0 main_v239 :=
  Host.rsqrt (res_main_v238 V0)
def res_main_v240 : Ct V0 main_v240 :=
  broadcastInDim S32x8x512 ![0, 1, 2] bcast_S32x8x1_S32x8x512_0_1_2 (res_main_v239 V0)
def res_main_v241 : Ct V0 main_v241 :=
  mulf (res_main_v236 V0) (res_main_v240 V0)
def res_main_v242 : Ct V0 main_v242 :=
  broadcastInDim S1x1x512 ![2] bcast_S512_S1x1x512_2 (V0 (Proc.devRef .tc main_arg6))
def res_main_v243 : Ct V0 main_v243 :=
  broadcastInDim S32x8x512 ![0, 1, 2] bcast_S1x1x512_S32x8x512_0_1_2 (res_main_v242 V0)
def res_main_v244 : Ct V0 main_v244 :=
  mulf (res_main_v241 V0) (res_main_v243 V0)
def res_main_v245 : Ct V0 main_v245 :=
  broadcastInDim S1x1x512 ![2] bcast_S512_S1x1x512_2 (V0 (Proc.devRef .tc main_arg7))
def res_main_v246 : Ct V0 main_v246 :=
  broadcastInDim S32x8x512 ![0, 1, 2] bcast_S1x1x512_S32x8x512_0_1_2 (res_main_v245 V0)
def res_main_v247 : Ct V0 main_v247 :=
  addf (res_main_v244 V0) (res_main_v246 V0)
def res_main_v248 : Ct V0 main_v248 :=
  Host.dotGeneral dot_S32x8x512_S512x512_S32x8x512_2_1_01_0_n_n none (res_main_v247 V0) (V0 (Proc.devRef .tc main_arg8))
def res_main_v249 : Ct V0 main_v249 :=
  Host.dotGeneral dot_S32x4096x512_S32x8x512_S32x4096x8_2_2_1_1_0_0 none (res_main_v22 V0) (res_main_v248 V0)
def res_main_cst_42 : Ct V0 main_cst_42 :=
  constant S_ .f32 0xFF800000#32
def res_main_v250 : Ct V0 main_v250 :=
  Host.reduce FloatOps.maximumf (res_main_v249 V0) (res_main_cst_42 V0) reducesTo_S32x4096x8_S32x4096_d2 h_S_
def res_main_cst_43 : Ct V0 main_cst_43 :=
  constant S_ .f32 0xFF800000#32
def res_main_v251 : Ct V0 main_v251 :=
  broadcastInDim S32x4096 ![] bcast_S_S32x4096 (res_main_cst_43 V0)
def res_main_v252 : Ct V0 main_v252 :=
  maximumf (res_main_v251 V0) (res_main_v250 V0)
def res_main_v253 : Ct V0 main_v253 :=
  broadcastInDim S32x4096x1 ![0, 1] bcast_S32x4096_S32x4096x1_0_1 (res_main_v252 V0)
def res_main_v254 : Ct V0 main_v254 :=
  broadcastInDim S32x4096x8 ![0, 1, 2] bcast_S32x4096x1_S32x4096x8_0_1_2 (res_main_v253 V0)
def res_main_v255 : Ct V0 main_v255 :=
  subf (res_main_v249 V0) (res_main_v254 V0)
def res_main_v256 : Ct V0 main_v256 :=
  Host.exp (res_main_v255 V0)
def res_main_cst_44 : Ct V0 main_cst_44 :=
  constant S_ .f32 0x00000000#32
def res_main_v257 : Ct V0 main_v257 :=
  Host.reduceAdd (res_main_v256 V0) (res_main_cst_44 V0) reducesTo_S32x4096x8_S32x4096_d2 h_S_
def res_main_v258 : Ct V0 main_v258 :=
  broadcastInDim S32x4096x1 ![0, 1] bcast_S32x4096_S32x4096x1_0_1 (res_main_v257 V0)
def res_main_v259 : Ct V0 main_v259 :=
  broadcastInDim S32x4096x8 ![0, 1, 2] bcast_S32x4096x1_S32x4096x8_0_1_2 (res_main_v258 V0)
def res_main_v260 : Ct V0 main_v260 :=
  Host.divf (res_main_v256 V0) (res_main_v259 V0)
def res_main_cst_45 : Ct V0 main_cst_45 :=
  constant S_ .f32 0x322BCC77#32
def res_main_v261 : Ct V0 main_v261 :=
  broadcastInDim S32x4096x8 ![] bcast_S_S32x4096x8 (res_main_cst_45 V0)
def res_main_v262 : Ct V0 main_v262 :=
  addf (res_main_v260 V0) (res_main_v261 V0)
def res_main_cst_46 : Ct V0 main_cst_46 :=
  constant S_ .f32 0x00000000#32
def res_main_v263 : Ct V0 main_v263 :=
  Host.reduceAdd (res_main_v262 V0) (res_main_cst_46 V0) reducesTo_S32x4096x8_S32x4096_d2 h_S_
def res_main_v264 : Ct V0 main_v264 :=
  broadcastInDim S32x4096x1 ![0, 1] bcast_S32x4096_S32x4096x1_0_1 (res_main_v263 V0)
def res_main_v265 : Ct V0 main_v265 :=
  broadcastInDim S32x4096x8 ![0, 1, 2] bcast_S32x4096x1_S32x4096x8_0_1_2 (res_main_v264 V0)
def res_main_v266 : Ct V0 main_v266 :=
  Host.divf (res_main_v262 V0) (res_main_v265 V0)
def res_main_v267 : Ct V0 main_v267 :=
  transpose S32x8x4096 [0, 2, 1] (res_main_v266 V0) transposes_S32x4096x8_S32x8x4096_0_2_1
def res_main_v268 : Ct V0 main_v268 :=
  Host.dotGeneral dot_S32x8x4096_S32x4096x512_S32x8x512_2_1_1_2_0_0 none (res_main_v267 V0) (res_main_v23 V0)
def res_main_v269 : Ct V0 main_v269 :=
  Host.dotGeneral dot_S32x8x512_S1536x512_S32x8x1536_2_1_01_0_n_n none (res_main_v268 V0) (V0 (Proc.devRef .tc main_arg11))
def res_main_v270 : Ct V0 main_v270 :=
  broadcastInDim S1x1x1536 ![2] bcast_S1536_S1x1x1536_2 (V0 (Proc.devRef .tc main_arg13))
def res_main_v271 : Ct V0 main_v271 :=
  broadcastInDim S32x8x1536 ![0, 1, 2] bcast_S1x1x1536_S32x8x1536_0_1_2 (res_main_v270 V0)
def res_main_v272 : Ct V0 main_v272 :=
  addf (res_main_v269 V0) (res_main_v271 V0)
def res_main_v273 : Ct V0 main_v273 :=
  Host.dotGeneral dot_S32x8x512_S1536x512_S32x8x1536_2_1_01_0_n_n none (res_main_v229 V0) (V0 (Proc.devRef .tc main_arg12))
def res_main_v274 : Ct V0 main_v274 :=
  broadcastInDim S1x1x1536 ![2] bcast_S1536_S1x1x1536_2 (V0 (Proc.devRef .tc main_arg14))
def res_main_v275 : Ct V0 main_v275 :=
  broadcastInDim S32x8x1536 ![0, 1, 2] bcast_S1x1x1536_S32x8x1536_0_1_2 (res_main_v274 V0)
def res_main_v276 : Ct V0 main_v276 :=
  addf (res_main_v273 V0) (res_main_v275 V0)
def res_main_v277 : Ct V0 main_v277 :=
  extractStridedSlice S32x8x512 ![0, 0, 0] (res_main_v272 V0) slices_S32x8x1536_S32x8x512_0_0_0
def res_main_v278 : Ct V0 main_v278 :=
  extractStridedSlice S32x8x512 ![0, 0, 512] (res_main_v272 V0) slices_S32x8x1536_S32x8x512_0_0_512
def res_main_v279 : Ct V0 main_v279 :=
  extractStridedSlice S32x8x512 ![0, 0, 1024] (res_main_v272 V0) slices_S32x8x1536_S32x8x512_0_0_1024
def res_main_v280 : Ct V0 main_v280 :=
  extractStridedSlice S32x8x512 ![0, 0, 0] (res_main_v276 V0) slices_S32x8x1536_S32x8x512_0_0_0
def res_main_v281 : Ct V0 main_v281 :=
  extractStridedSlice S32x8x512 ![0, 0, 512] (res_main_v276 V0) slices_S32x8x1536_S32x8x512_0_0_512
def res_main_v282 : Ct V0 main_v282 :=
  extractStridedSlice S32x8x512 ![0, 0, 1024] (res_main_v276 V0) slices_S32x8x1536_S32x8x512_0_0_1024
def res_main_v283 : Ct V0 main_v283 :=
  addf (res_main_v277 V0) (res_main_v280 V0)
def res_main_v284 : Ct V0 main_v284 :=
  Host.negf (res_main_v283 V0)
def res_main_v285 : Ct V0 main_v285 :=
  Host.exp (res_main_v284 V0)
def res_main_cst_47 : Ct V0 main_cst_47 :=
  constant S_ .f32 0x3F800000#32
def res_main_v286 : Ct V0 main_v286 :=
  broadcastInDim S32x8x512 ![] bcast_S_S32x8x512 (res_main_cst_47 V0)
def res_main_v287 : Ct V0 main_v287 :=
  addf (res_main_v286 V0) (res_main_v285 V0)
def res_main_cst_48 : Ct V0 main_cst_48 :=
  constant S_ .f32 0x3F800000#32
def res_main_v288 : Ct V0 main_v288 :=
  broadcastInDim S32x8x512 ![] bcast_S_S32x8x512 (res_main_cst_48 V0)
def res_main_v289 : Ct V0 main_v289 :=
  Host.divf (res_main_v288 V0) (res_main_v287 V0)
def res_main_v290 : Ct V0 main_v290 :=
  addf (res_main_v278 V0) (res_main_v281 V0)
def res_main_v291 : Ct V0 main_v291 :=
  Host.negf (res_main_v290 V0)
def res_main_v292 : Ct V0 main_v292 :=
  Host.exp (res_main_v291 V0)
def res_main_cst_49 : Ct V0 main_cst_49 :=
  constant S_ .f32 0x3F800000#32
def res_main_v293 : Ct V0 main_v293 :=
  broadcastInDim S32x8x512 ![] bcast_S_S32x8x512 (res_main_cst_49 V0)
def res_main_v294 : Ct V0 main_v294 :=
  addf (res_main_v293 V0) (res_main_v292 V0)
def res_main_cst_50 : Ct V0 main_cst_50 :=
  constant S_ .f32 0x3F800000#32
def res_main_v295 : Ct V0 main_v295 :=
  broadcastInDim S32x8x512 ![] bcast_S_S32x8x512 (res_main_cst_50 V0)
def res_main_v296 : Ct V0 main_v296 :=
  Host.divf (res_main_v295 V0) (res_main_v294 V0)
def res_main_v297 : Ct V0 main_v297 :=
  mulf (res_main_v289 V0) (res_main_v282 V0)
def res_main_v298 : Ct V0 main_v298 :=
  addf (res_main_v279 V0) (res_main_v297 V0)
def res_main_v299 : Ct V0 main_v299 :=
  Host.tanh (res_main_v298 V0)
def res_main_cst_51 : Ct V0 main_cst_51 :=
  constant S_ .f32 0x3F800000#32
def res_main_v300 : Ct V0 main_v300 :=
  broadcastInDim S32x8x512 ![] bcast_S_S32x8x512 (res_main_cst_51 V0)
def res_main_v301 : Ct V0 main_v301 :=
  subf (res_main_v300 V0) (res_main_v296 V0)
def res_main_v302 : Ct V0 main_v302 :=
  mulf (res_main_v301 V0) (res_main_v299 V0)
def res_main_v303 : Ct V0 main_v303 :=
  mulf (res_main_v296 V0) (res_main_v229 V0)
def res_main_v304 : Ct V0 main_v304 :=
  addf (res_main_v302 V0) (res_main_v303 V0)
def res_main_cst_52 : Ct V0 main_cst_52 :=
  constant S_ .f32 0x00000000#32
def res_main_v305 : Ct V0 main_v305 :=
  Host.reduceAdd (res_main_v304 V0) (res_main_cst_52 V0) reducesTo_S32x8x512_S32x8_d2 h_S_
def res_main_v306 : Ct V0 main_v306 :=
  broadcastInDim S32x8x1 ![0, 1] bcast_S32x8_S32x8x1_0_1 (res_main_v305 V0)
def res_main_cst_53 : Ct V0 main_cst_53 :=
  constant S_ .f32 0x44000000#32
def res_main_v307 : Ct V0 main_v307 :=
  broadcastInDim S32x8x1 ![] bcast_S_S32x8x1 (res_main_cst_53 V0)
def res_main_v308 : Ct V0 main_v308 :=
  Host.divf (res_main_v306 V0) (res_main_v307 V0)
def res_main_c_54 : Ct V0 main_c_54 :=
  constantI S_ 32 0#32
def res_main_call8_cst : Ct V0 main_call8_cst :=
  constant S_ .f32 0x00000000#32
def res_main_call8_v0 : Ct V0 main_call8_v0 :=
  Host.reduceAdd (res_main_v304 V0) (res_main_call8_cst V0) reducesTo_S32x8x512_S32x8_d2 h_S_
def res_main_call8_v1 : Ct V0 main_call8_v1 :=
  broadcastInDim S32x8x1 ![0, 1] bcast_S32x8_S32x8x1_0_1 (res_main_call8_v0 V0)
def res_main_call8_cst_0 : Ct V0 main_call8_cst_0 :=
  constant S_ .f32 0x44000000#32
def res_main_call8_v2 : Ct V0 main_call8_v2 :=
  broadcastInDim S32x8x1 ![] bcast_S_S32x8x1 (res_main_call8_cst_0 V0)
def res_main_call8_v3 : Ct V0 main_call8_v3 :=
  Host.divf (res_main_call8_v1 V0) (res_main_call8_v2 V0)
def res_main_call8_v4 : Ct V0 main_call8_v4 :=
  broadcastInDim S32x8x512 ![0, 1, 2] bcast_S32x8x1_S32x8x512_0_1_2 (res_main_call8_v3 V0)
def res_main_call8_v5 : Ct V0 main_call8_v5 :=
  subf (res_main_v304 V0) (res_main_call8_v4 V0)
def res_main_call8_v6 : Ct V0 main_call8_v6 :=
  mulf (res_main_call8_v5 V0) (res_main_call8_v5 V0)
def res_main_call8_v7 : Ct V0 main_call8_v7 :=
  sitofp .f32 (res_main_c_54 V0)
def res_main_call8_cst_1 : Ct V0 main_call8_cst_1 :=
  constant S_ .f32 0x44000000#32
def res_main_call8_v8 : Ct V0 main_call8_v8 :=
  subf (res_main_call8_cst_1 V0) (res_main_call8_v7 V0)
def res_main_call8_cst_2 : Ct V0 main_call8_cst_2 :=
  constant S_ .f32 0x00000000#32
def res_main_call8_v9 : Ct V0 main_call8_v9 :=
  Host.reduceAdd (res_main_call8_v6 V0) (res_main_call8_cst_2 V0) reducesTo_S32x8x512_S32x8_d2 h_S_
def res_main_call8_v10 : Ct V0 main_call8_v10 :=
  broadcastInDim S32x8x1 ![0, 1] bcast_S32x8_S32x8x1_0_1 (res_main_call8_v9 V0)
def res_main_call8_v11 : Ct V0 main_call8_v11 :=
  broadcastInDim S32x8x1 ![] bcast_S_S32x8x1 (res_main_call8_v8 V0)
def res_main_call8_v12 : Ct V0 main_call8_v12 :=
  Host.divf (res_main_call8_v10 V0) (res_main_call8_v11 V0)
def res_main_call8_cst_3 : Ct V0 main_call8_cst_3 :=
  constant S_ .f32 0x00000000#32
def res_main_call8_v13 : Ct V0 main_call8_v13 :=
  cmpf .ogt (res_main_call8_v8 V0) (res_main_call8_cst_3 V0)
def res_main_call8_cst_4 : Ct V0 main_call8_cst_4 :=
  constant S_ .f32 0x7FC00000#32
def res_main_call8_call0_v0 : Ct V0 main_call8_call0_v0 :=
  (res_main_call8_cst_4 V0)
def res_main_call8_call0_v1 : Ct V0 main_call8_call0_v1 :=
  broadcastInDim S32x8x1 ![] bcast_S_S32x8x1 (res_main_call8_call0_v0 V0)
def res_main_v309 : Ct V0 main_v309 :=
  select (broadcastInDim S32x8x1 ![] bcast_S_S32x8x1 (res_main_call8_v13 V0)) (res_main_call8_v12 V0) (res_main_call8_call0_v1 V0)
def res_main_v310 : Ct V0 main_v310 :=
  broadcastInDim S32x8x512 ![0, 1, 2] bcast_S32x8x1_S32x8x512_0_1_2 (res_main_v308 V0)
def res_main_v311 : Ct V0 main_v311 :=
  subf (res_main_v304 V0) (res_main_v310 V0)
def res_main_cst_55 : Ct V0 main_cst_55 :=
  constant S_ .f32 0x3727C5AC#32
def res_main_v312 : Ct V0 main_v312 :=
  broadcastInDim S32x8x1 ![] bcast_S_S32x8x1 (res_main_cst_55 V0)
def res_main_v313 : Ct V0 main_v313 :=
  addf (res_main_v309 V0) (res_main_v312 V0)
def res_main_v314 : Ct V0 main_v314 :=
  Host.rsqrt (res_main_v313 V0)
def res_main_v315 : Ct V0 main_v315 :=
  broadcastInDim S32x8x512 ![0, 1, 2] bcast_S32x8x1_S32x8x512_0_1_2 (res_main_v314 V0)
def res_main_v316 : Ct V0 main_v316 :=
  mulf (res_main_v311 V0) (res_main_v315 V0)
def res_main_v317 : Ct V0 main_v317 :=
  broadcastInDim S1x1x512 ![2] bcast_S512_S1x1x512_2 (V0 (Proc.devRef .tc main_arg15))
def res_main_v318 : Ct V0 main_v318 :=
  broadcastInDim S32x8x512 ![0, 1, 2] bcast_S1x1x512_S32x8x512_0_1_2 (res_main_v317 V0)
def res_main_v319 : Ct V0 main_v319 :=
  mulf (res_main_v316 V0) (res_main_v318 V0)
def res_main_v320 : Ct V0 main_v320 :=
  broadcastInDim S1x1x512 ![2] bcast_S512_S1x1x512_2 (V0 (Proc.devRef .tc main_arg16))
def res_main_v321 : Ct V0 main_v321 :=
  broadcastInDim S32x8x512 ![0, 1, 2] bcast_S1x1x512_S32x8x512_0_1_2 (res_main_v320 V0)
def res_main_v322 : Ct V0 main_v322 :=
  addf (res_main_v319 V0) (res_main_v321 V0)
def res_main_v323 : Ct V0 main_v323 :=
  Host.dotGeneral dot_S32x8x512_S512x512_S32x8x512_2_1_01_0_n_n none (res_main_v322 V0) (V0 (Proc.devRef .tc main_arg17))
def res_main_v324 : Ct V0 main_v324 :=
  broadcastInDim S1x1x512 ![2] bcast_S512_S1x1x512_2 (V0 (Proc.devRef .tc main_arg18))
def res_main_v325 : Ct V0 main_v325 :=
  broadcastInDim S32x8x512 ![0, 1, 2] bcast_S1x1x512_S32x8x512_0_1_2 (res_main_v324 V0)
def res_main_v326 : Ct V0 main_v326 :=
  addf (res_main_v323 V0) (res_main_v325 V0)
def res_main_call9_cst : Ct V0 main_call9_cst :=
  constant S_ .f32 0x00000000#32
def res_main_call9_v0 : Ct V0 main_call9_v0 :=
  broadcastInDim S32x8x512 ![] bcast_S_S32x8x512 (res_main_call9_cst V0)
def res_main_v327 : Ct V0 main_v327 :=
  maximumf (res_main_v326 V0) (res_main_call9_v0 V0)
def res_main_v328 : Ct V0 main_v328 :=
  Host.dotGeneral dot_S32x8x512_S512x512_S32x8x512_2_1_01_0_n_n none (res_main_v327 V0) (V0 (Proc.devRef .tc main_arg19))
def res_main_v329 : Ct V0 main_v329 :=
  addf (res_main_v304 V0) (res_main_v328 V0)
def res_main_v330 : Ct V0 main_v330 :=
  broadcastInDim S1x1x512 ![2] bcast_S512_S1x1x512_2 (V0 (Proc.devRef .tc main_arg20))
def res_main_v331 : Ct V0 main_v331 :=
  broadcastInDim S32x8x512 ![0, 1, 2] bcast_S1x1x512_S32x8x512_0_1_2 (res_main_v330 V0)
def res_main_v332 : Ct V0 main_v332 :=
  addf (res_main_v329 V0) (res_main_v331 V0)

end Cert.ReferenceIdeal.RefRun

end
-- ==== Proof.RefRunEntry.lean ====
import proofs.«417374_j33956011442443_3_alg».proof.Proof.RefRunStages
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F] (V0 V : Valuation τ sig (Elt F))

-- A line whose operations each write one buffer numbered from `n` on leaves every buffer numbered below `n` as it was.
theorem after_of_lt {ops : List (HloOp τ sig (Elt F))} {n : ℕ} {r : Ref sig .tc}
    (hW : ops.Forall fun op => ∃ y : Ref sig .tc, op.writes = {Proc.devRef .tc y} ∧ n ≤ y.idx.val) (hr : r.idx.val < n) :
    after ops V (Proc.devRef .tc r) = V (Proc.devRef .tc r) :=
  after_of_forall_not_mem ops V fun op hop hb => by
    obtain ⟨y, hy, hn⟩ := List.forall_iff_forall_mem.mp hW op hop
    rw [hy, Finset.mem_singleton] at hb
    cases Proc.devRef_injective _ hb
    omega

abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20]

-- `V` holds every argument of the program as the launch contents `V0` do.
structure Args : Prop where
  main_arg0 : V (no_index (Proc.devRef .tc main_arg0)) = V0 (Proc.devRef .tc main_arg0)
  main_arg1 : V (no_index (Proc.devRef .tc main_arg1)) = V0 (Proc.devRef .tc main_arg1)
  main_arg2 : V (no_index (Proc.devRef .tc main_arg2)) = V0 (Proc.devRef .tc main_arg2)
  main_arg3 : V (no_index (Proc.devRef .tc main_arg3)) = V0 (Proc.devRef .tc main_arg3)
  main_arg4 : V (no_index (Proc.devRef .tc main_arg4)) = V0 (Proc.devRef .tc main_arg4)
  main_arg5 : V (no_index (Proc.devRef .tc main_arg5)) = V0 (Proc.devRef .tc main_arg5)
  main_arg6 : V (no_index (Proc.devRef .tc main_arg6)) = V0 (Proc.devRef .tc main_arg6)
  main_arg7 : V (no_index (Proc.devRef .tc main_arg7)) = V0 (Proc.devRef .tc main_arg7)
  main_arg8 : V (no_index (Proc.devRef .tc main_arg8)) = V0 (Proc.devRef .tc main_arg8)
  main_arg9 : V (no_index (Proc.devRef .tc main_arg9)) = V0 (Proc.devRef .tc main_arg9)
  main_arg10 : V (no_index (Proc.devRef .tc main_arg10)) = V0 (Proc.devRef .tc main_arg10)
  main_arg11 : V (no_index (Proc.devRef .tc main_arg11)) = V0 (Proc.devRef .tc main_arg11)
  main_arg12 : V (no_index (Proc.devRef .tc main_arg12)) = V0 (Proc.devRef .tc main_arg12)
  main_arg13 : V (no_index (Proc.devRef .tc main_arg13)) = V0 (Proc.devRef .tc main_arg13)
  main_arg14 : V (no_index (Proc.devRef .tc main_arg14)) = V0 (Proc.devRef .tc main_arg14)
  main_arg15 : V (no_index (Proc.devRef .tc main_arg15)) = V0 (Proc.devRef .tc main_arg15)
  main_arg16 : V (no_index (Proc.devRef .tc main_arg16)) = V0 (Proc.devRef .tc main_arg16)
  main_arg17 : V (no_index (Proc.devRef .tc main_arg17)) = V0 (Proc.devRef .tc main_arg17)
  main_arg18 : V (no_index (Proc.devRef .tc main_arg18)) = V0 (Proc.devRef .tc main_arg18)
  main_arg19 : V (no_index (Proc.devRef .tc main_arg19)) = V0 (Proc.devRef .tc main_arg19)
  main_arg20 : V (no_index (Proc.devRef .tc main_arg20)) = V0 (Proc.devRef .tc main_arg20)

variable {V0 V}

-- Contents that agree with `V` at every argument hold the arguments as `V` does.
theorem Args.keep {V' : Valuation τ sig (Elt F)} (h : Args V0 V)
    (k : ∀ r ∈ argRefs, V' (Proc.devRef .tc r) = V (Proc.devRef .tc r)) : Args V0 V' := by
  cases h; constructor <;> exact (k _ (by decide)).trans (by assumption)

variable (V0 V)

-- What window `k` finds: the arguments, and the value of each earlier buffer that it or a later window reads.
structure At0 : Prop extends Args V0 V

structure At1 : Prop extends Args V0 V where
  main_v3 : V (no_index (Proc.devRef .tc main_v3)) = res_main_v3 V0
  main_v22 : V (no_index (Proc.devRef .tc main_v22)) = res_main_v22 V0
  main_v23 : V (no_index (Proc.devRef .tc main_v23)) = res_main_v23 V0
  main_v49 : V (no_index (Proc.devRef .tc main_v49)) = res_main_v49 V0

structure At2 : Prop extends Args V0 V where
  main_v22 : V (no_index (Proc.devRef .tc main_v22)) = res_main_v22 V0
  main_v23 : V (no_index (Proc.devRef .tc main_v23)) = res_main_v23 V0
  main_v98 : V (no_index (Proc.devRef .tc main_v98)) = res_main_v98 V0
  main_v100 : V (no_index (Proc.devRef .tc main_v100)) = res_main_v100 V0

structure At3 : Prop extends Args V0 V where
  main_v22 : V (no_index (Proc.devRef .tc main_v22)) = res_main_v22 V0
  main_v23 : V (no_index (Proc.devRef .tc main_v23)) = res_main_v23 V0
  main_v126 : V (no_index (Proc.devRef .tc main_v126)) = res_main_v126 V0
  main_v146 : V (no_index (Proc.devRef .tc main_v146)) = res_main_v146 V0
  main_v151 : V (no_index (Proc.devRef .tc main_v151)) = res_main_v151 V0

structure At4 : Prop extends Args V0 V where
  main_v22 : V (no_index (Proc.devRef .tc main_v22)) = res_main_v22 V0
  main_v23 : V (no_index (Proc.devRef .tc main_v23)) = res_main_v23 V0
  main_v201 : V (no_index (Proc.devRef .tc main_v201)) = res_main_v201 V0
  main_v202 : V (no_index (Proc.devRef .tc main_v202)) = res_main_v202 V0

structure At5 : Prop extends Args V0 V where
  main_v23 : V (no_index (Proc.devRef .tc main_v23)) = res_main_v23 V0
  main_v229 : V (no_index (Proc.devRef .tc main_v229)) = res_main_v229 V0
  main_v249 : V (no_index (Proc.devRef .tc main_v249)) = res_main_v249 V0
  main_v253 : V (no_index (Proc.devRef .tc main_v253)) = res_main_v253 V0

structure At6 : Prop extends Args V0 V where
  main_v304 : V (no_index (Proc.devRef .tc main_v304)) = res_main_v304 V0
  main_cst_52 : V (no_index (Proc.devRef .tc main_cst_52)) = res_main_cst_52 V0

structure At7 : Prop extends Args V0 V where
  main_v332 : V (no_index (Proc.devRef .tc main_v332)) = res_main_v332 V0

theorem at0 : At0 V0 V0 := ⟨by constructor <;> rfl⟩

end Cert.ReferenceIdeal.RefRun

end
-- ==== Proof.RefRunW0.lean ====
import proofs.«417374_j33956011442443_3_alg».proof.Proof.RefRunOps
import proofs.«417374_j33956011442443_3_alg».proof.Proof.RefRunEntry

namespace Cert.ReferenceIdeal.RefRun

open Idealize.ShloMosaic Idealize.ShloMosaic.StableHlo

variable {F : FTy → Type} [FloatOps F] (V0 V : Valuation τ sig (Elt F))

-- Each operation of the window writes one buffer, numbered from 21 on.
theorem keep0 (r : Ref sig .tc) (h : r.idx.val < 21) :
    after ops_part0 V (Proc.devRef .tc r) = V (Proc.devRef .tc r) :=
  after_of_lt V (by simp only [List.Forall]; and_intros <;> exact ⟨_, rfl, by decide⟩) h

set_option maxHeartbeats 4000000 in
-- The fold at each buffer a later window reads, its operands read through `h`, is that buffer's stage by definition.
theorem w0 (h : At0 V0 V) :
    after ops_part0 V (Proc.devRef .tc main_v3) = res_main_v3 V0
    ∧ after ops_part0 V (Proc.devRef .tc main_v22) = res_main_v22 V0
    ∧ after ops_part0 V (Proc.devRef .tc main_v23) = res_main_v23 V0
    ∧ after ops_part0 V (Proc.devRef .tc main_v49) = res_main_v49 V0 := by
  simp only [ops_part0]
  after_results_simp
  simp only [h.main_arg0, h.main_arg1, h.main_arg2, h.main_arg3, h.main_arg4, h.main_arg5, h.main_arg6, h.main_arg7, h.main_arg8, h.main_arg9, h.main_arg10, h.main_arg11, h.main_arg12, h.main_arg13, h.main_arg14, h.main_arg15, h.main_arg16, h.main_arg17, h.main_arg18, h.main_arg19, h.main_arg20]
  exact ⟨rfl, rfl, rfl, rfl⟩

theorem window0 (h : At0 V0 V) : At1 V0 (after ops_part0 V) :=
  let ⟨a, b, c, d⟩ := w0 V0 V h
  ⟨h.toArgs.keep fun r hr => keep0 V r ((by decide : ∀ r ∈ argRefs, r.idx.val < 21) r hr), a, b, c, d⟩

end Cert.ReferenceIdeal.RefRun
-- ==== Proof.RefRunW1.lean ====
import proofs.«417374_j33956011442443_3_alg».proof.Proof.RefRunOps
import proofs.«417374_j33956011442443_3_alg».proof.Proof.RefRunEntry

namespace Cert.ReferenceIdeal.RefRun

open Idealize.ShloMosaic Idealize.ShloMosaic.StableHlo

variable {F : FTy → Type} [FloatOps F] (V0 V : Valuation τ sig (Elt F))

-- Each operation of the window writes one buffer, numbered from 125 on.
theorem keep1 (r : Ref sig .tc) (h : r.idx.val < 125) :
    after ops_part1 V (Proc.devRef .tc r) = V (Proc.devRef .tc r) :=
  after_of_lt V (by simp only [List.Forall]; and_intros <;> exact ⟨_, rfl, by decide⟩) h

-- The fold at each buffer a later window reads, its operands read through `h`, is that buffer's stage by definition.
theorem w1 (h : At1 V0 V) :
    after ops_part1 V (Proc.devRef .tc main_v98) = res_main_v98 V0
    ∧ after ops_part1 V (Proc.devRef .tc main_v100) = res_main_v100 V0 := by
  simp only [ops_part1]
  after_results_simp
  simp only [h.main_arg0, h.main_arg1, h.main_arg2, h.main_arg3, h.main_arg4, h.main_arg5, h.main_arg6, h.main_arg7, h.main_arg8, h.main_arg9, h.main_arg10, h.main_arg11, h.main_arg12, h.main_arg13, h.main_arg14, h.main_arg15, h.main_arg16, h.main_arg17, h.main_arg18, h.main_arg19, h.main_arg20, h.main_v3, h.main_v22, h.main_v23, h.main_v49]
  exact ⟨rfl, rfl⟩

theorem window1 (h : At1 V0 V) : At2 V0 (after ops_part1 V) :=
  let ⟨a, b⟩ := w1 V0 V h
  ⟨h.toArgs.keep fun r hr => keep1 V r ((by decide : ∀ r ∈ argRefs, r.idx.val < 125) r hr),
    (keep1 V main_v22 (by decide)).trans h.main_v22, (keep1 V main_v23 (by decide)).trans h.main_v23, a, b⟩

end Cert.ReferenceIdeal.RefRun
-- ==== Proof.RefRunW2.lean ====
import proofs.«417374_j33956011442443_3_alg».proof.Proof.RefRunOps
import proofs.«417374_j33956011442443_3_alg».proof.Proof.RefRunEntry

namespace Cert.ReferenceIdeal.RefRun

open Idealize.ShloMosaic Idealize.ShloMosaic.StableHlo

variable {F : FTy → Type} [FloatOps F] (V0 V : Valuation τ sig (Elt F))

-- Each operation of the window writes one buffer, numbered from 185 on.
theorem keep2 (r : Ref sig .tc) (h : r.idx.val < 185) :
    after ops_part2 V (Proc.devRef .tc r) = V (Proc.devRef .tc r) :=
  after_of_lt V (by simp only [List.Forall]; and_intros <;> exact ⟨_, rfl, by decide⟩) h

set_option maxHeartbeats 4000000 in
-- The fold at each buffer a later window reads, its operands read through `h`, is that buffer's stage by definition.
theorem w2 (h : At2 V0 V) :
    after ops_part2 V (Proc.devRef .tc main_v126) = res_main_v126 V0
    ∧ after ops_part2 V (Proc.devRef .tc main_v146) = res_main_v146 V0
    ∧ after ops_part2 V (Proc.devRef .tc main_v151) = res_main_v151 V0 := by
  simp only [ops_part2]
  after_results_simp
  simp only [h.main_arg0, h.main_arg1, h.main_arg2, h.main_arg3, h.main_arg4, h.main_arg5, h.main_arg6, h.main_arg7, h.main_arg8, h.main_arg9, h.main_arg10, h.main_arg11, h.main_arg12, h.main_arg13, h.main_arg14, h.main_arg15, h.main_arg16, h.main_arg17, h.main_arg18, h.main_arg19, h.main_arg20, h.main_v22, h.main_v23, h.main_v98, h.main_v100]
  exact ⟨rfl, rfl, rfl⟩

theorem window2 (h : At2 V0 V) : At3 V0 (after ops_part2 V) :=
  let ⟨a, b, c⟩ := w2 V0 V h
  ⟨h.toArgs.keep fun r hr => keep2 V r ((by decide : ∀ r ∈ argRefs, r.idx.val < 185) r hr),
    (keep2 V main_v22 (by decide)).trans h.main_v22, (keep2 V main_v23 (by decide)).trans h.main_v23, a, b, c⟩

end Cert.ReferenceIdeal.RefRun
-- ==== Proof.RefRunW3.lean ====
import proofs.«417374_j33956011442443_3_alg».proof.Proof.RefRunOps
import proofs.«417374_j33956011442443_3_alg».proof.Proof.RefRunEntry

namespace Cert.ReferenceIdeal.RefRun

open Idealize.ShloMosaic Idealize.ShloMosaic.StableHlo

variable {F : FTy → Type} [FloatOps F] (V0 V : Valuation τ sig (Elt F))

-- The window's operations write the buffers numbered from 291 on.
theorem keep3 (r : Ref sig .tc) (h : r.idx.val < 291) : after ops_part3 V (Proc.devRef .tc r) = V (Proc.devRef .tc r) :=
  after_of_lt V (by simp only [List.Forall]; and_intros <;> exact ⟨_, rfl, by decide⟩) h

-- Unfolding the window's operations leaves each stage's term over what the window found.
set_option maxHeartbeats 1000000 in
theorem w3 (h : At3 V0 V) : after ops_part3 V (Proc.devRef .tc main_v201) = res_main_v201 V0
    ∧ after ops_part3 V (Proc.devRef .tc main_v202) = res_main_v202 V0 := by
  after_results_simp
  simp only [h.main_v146, h.main_v151, h.main_v23, h.main_arg11, h.main_arg13, h.main_v126, h.main_arg12, h.main_arg14]
  exact ⟨rfl, rfl⟩

theorem window3 (h : At3 V0 V) : At4 V0 (after ops_part3 V) where
  toArgs := h.toArgs.keep fun r hr => keep3 V r ((by decide : ∀ r ∈ argRefs, r.idx.val < 291) r hr)
  main_v22 := (keep3 V main_v22 (by decide)).trans h.main_v22
  main_v23 := (keep3 V main_v23 (by decide)).trans h.main_v23
  main_v201 := (w3 V0 V h).1
  main_v202 := (w3 V0 V h).2

end Cert.ReferenceIdeal.RefRun
-- ==== Proof.RefRunW4.lean ====
import proofs.«417374_j33956011442443_3_alg».proof.Proof.RefRunOps
import proofs.«417374_j33956011442443_3_alg».proof.Proof.RefRunEntry

namespace Cert.ReferenceIdeal.RefRun

open Idealize.ShloMosaic Idealize.ShloMosaic.StableHlo

variable {F : FTy → Type} [FloatOps F] (V0 V : Valuation τ sig (Elt F))

-- The window's operations write the buffers numbered from 351 on.
theorem keep4 (r : Ref sig .tc) (h : r.idx.val < 351) : after ops_part4 V (Proc.devRef .tc r) = V (Proc.devRef .tc r) :=
  after_of_lt V (by simp only [List.Forall]; and_intros <;> exact ⟨_, rfl, by decide⟩) h

-- Unfolding the window's operations leaves each stage's term over what the window found.
set_option maxHeartbeats 2000000 in
theorem w4 (h : At4 V0 V) : after ops_part4 V (Proc.devRef .tc main_v229) = res_main_v229 V0
    ∧ after ops_part4 V (Proc.devRef .tc main_v249) = res_main_v249 V0
    ∧ after ops_part4 V (Proc.devRef .tc main_v253) = res_main_v253 V0 := by
  after_results_simp
  simp only [h.main_v202, h.main_v201, h.main_arg15, h.main_arg16, h.main_arg17, h.main_arg18, h.main_arg19, h.main_arg20, h.main_arg6, h.main_arg7, h.main_arg8, h.main_v22]
  exact ⟨rfl, rfl, rfl⟩

theorem window4 (h : At4 V0 V) : At5 V0 (after ops_part4 V) where
  toArgs := h.toArgs.keep fun r hr => keep4 V r ((by decide : ∀ r ∈ argRefs, r.idx.val < 351) r hr)
  main_v23 := (keep4 V main_v23 (by decide)).trans h.main_v23
  main_v229 := (w4 V0 V h).1
  main_v249 := (w4 V0 V h).2.1
  main_v253 := (w4 V0 V h).2.2

end Cert.ReferenceIdeal.RefRun
-- ==== Proof.RefRunW5.lean ====
import proofs.«417374_j33956011442443_3_alg».proof.Proof.RefRunOps
import proofs.«417374_j33956011442443_3_alg».proof.Proof.RefRunEntry

namespace Cert.ReferenceIdeal.RefRun

open Idealize.ShloMosaic Idealize.ShloMosaic.StableHlo

variable {F : FTy → Type} [FloatOps F] (V0 V : Valuation τ sig (Elt F))

-- The window's operations write the buffers numbered from 457 on.
theorem keep5 (r : Ref sig .tc) (h : r.idx.val < 457) : after ops_part5 V (Proc.devRef .tc r) = V (Proc.devRef .tc r) :=
  after_of_lt V (by simp only [List.Forall]; and_intros <;> exact ⟨_, rfl, by decide⟩) h

-- Unfolding the window's operations leaves each stage's term over what the window found.
set_option maxHeartbeats 1000000 in
theorem w5 (h : At5 V0 V) : after ops_part5 V (Proc.devRef .tc main_v304) = res_main_v304 V0
    ∧ after ops_part5 V (Proc.devRef .tc main_cst_52) = res_main_cst_52 V0 := by
  after_results_simp
  simp only [h.main_v249, h.main_v253, h.main_v23, h.main_arg11, h.main_arg13, h.main_v229, h.main_arg12, h.main_arg14]
  exact ⟨rfl, rfl⟩

theorem window5 (h : At5 V0 V) : At6 V0 (after ops_part5 V) where
  toArgs := h.toArgs.keep fun r hr => keep5 V r ((by decide : ∀ r ∈ argRefs, r.idx.val < 457) r hr)
  main_v304 := (w5 V0 V h).1
  main_cst_52 := (w5 V0 V h).2

end Cert.ReferenceIdeal.RefRun
-- ==== Proof.RefRunW6.lean ====
import proofs.«417374_j33956011442443_3_alg».proof.Proof.RefRunOps
import proofs.«417374_j33956011442443_3_alg».proof.Proof.RefRunEntry

namespace Cert.ReferenceIdeal.RefRun

open Idealize.ShloMosaic Idealize.ShloMosaic.StableHlo

variable {F : FTy → Type} [FloatOps F] (V0 V : Valuation τ sig (Elt F))

-- The window's operations write the buffers numbered from 517 on.
theorem keep6 (r : Ref sig .tc) (h : r.idx.val < 517) : after ops_part6 V (Proc.devRef .tc r) = V (Proc.devRef .tc r) :=
  after_of_lt V (by simp only [List.Forall]; and_intros <;> exact ⟨_, rfl, by decide⟩) h

-- Unfolding the window's operations leaves the last stage's term over what the window found.
theorem window6 (h : At6 V0 V) : At7 V0 (after ops_part6 V) where
  toArgs := h.toArgs.keep fun r hr => keep6 V r ((by decide : ∀ r ∈ argRefs, r.idx.val < 517) r hr)
  main_v332 := by
    after_results_simp
    simp only [h.main_v304, h.main_cst_52, h.main_arg15, h.main_arg16, h.main_arg17, h.main_arg18, h.main_arg19, h.main_arg20]
    rfl

end Cert.ReferenceIdeal.RefRun
-- ==== Proof.RefRun.lean ====
import proofs.«417374_j33956011442443_3_alg».proof.Proof.RefRunW0
import proofs.«417374_j33956011442443_3_alg».proof.Proof.RefRunW1
import proofs.«417374_j33956011442443_3_alg».proof.Proof.RefRunW2
import proofs.«417374_j33956011442443_3_alg».proof.Proof.RefRunW3
import proofs.«417374_j33956011442443_3_alg».proof.Proof.RefRunW4
import proofs.«417374_j33956011442443_3_alg».proof.Proof.RefRunW5
import proofs.«417374_j33956011442443_3_alg».proof.Proof.RefRunW6
import Idealize.ShloMosaic.Lib.Pipeline.Frame

namespace Cert.ReferenceIdeal.RefRun

open Idealize.ShloMosaic Idealize.ShloMosaic.StableHlo

variable {F : FTy → Type} [FloatOps F]

-- The seven windows in turn, each carrying what it finds to what the next finds.
theorem after_ops (V0 : Valuation τ sig (Elt F)) : At7 V0 (after ops V0) := by
  simp only [ops, after_append]
  exact window6 V0 _ (window5 V0 _ (window4 V0 _ (window3 V0 _ (window2 V0 _ (window1 V0 _ (window0 V0 _ (at0 V0)))))))

-- Every final state holds each buffer at the fold over the launch contents, and the fold holds what the last window leaves.
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v332) = res_main_v332 (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20) :=
  (θ_run defs _ _).mono (fun _ h c => have A := after_ops (launchContents m c)
      ⟨(h c main_v332).trans A.main_v332, (h c main_arg0).trans A.main_arg0, (h c main_arg1).trans A.main_arg1,
        (h c main_arg2).trans A.main_arg2, (h c main_arg3).trans A.main_arg3, (h c main_arg4).trans A.main_arg4,
        (h c main_arg5).trans A.main_arg5, (h c main_arg6).trans A.main_arg6, (h c main_arg7).trans A.main_arg7,
        (h c main_arg8).trans A.main_arg8, (h c main_arg9).trans A.main_arg9, (h c main_arg10).trans A.main_arg10,
        (h c main_arg11).trans A.main_arg11, (h c main_arg12).trans A.main_arg12, (h c main_arg13).trans A.main_arg13,
        (h c main_arg14).trans A.main_arg14, (h c main_arg15).trans A.main_arg15, (h c main_arg16).trans A.main_arg16,
        (h c main_arg17).trans A.main_arg17, (h c main_arg18).trans A.main_arg18, (h c main_arg19).trans A.main_arg19,
        (h c main_arg20).trans A.main_arg20⟩)
    (run_seq scopedRefs_eq scopedSems_eq defs main (fun _ => ops) main_eq (fun _ => ops_sub) m ρ (fun _ => ops_fresh))

end Cert.ReferenceIdeal.RefRun
-- ==== Proof.RefProj.lean ====
import proofs.«417374_j33956011442443_3_alg».proof.ReferenceIdeal
import proofs.«417374_j33956011442443_3_alg».proof.Proof.Spec
import Idealize.ShloMosaic.Lib.IdealHost
import Idealize.ShloMosaic.Lib.ValueIdx
import Idealize.ShloMosaic.Lib.Pipeline.Value
import Idealize.ShloMosaic.PureOps.Ideal.Laws

noncomputable section

namespace Cert.ReferenceIdeal.RefProj

open Cert.ReferenceIdeal Idealize.ShloMosaic Idealize.ShloMosaic.ValueIdx
open Facts₀

variable [Facts₀]

section Defs
variable {F : FTy → Type} [FloatOps F]

def refSlots0 (arg1 : (⟨S32x8x512, .f32⟩ : BufTy).Contents (Elt F)) (arg2 arg3 : (⟨S1x8x512, .f32⟩ : BufTy).Contents (Elt F)) :
    (⟨S32x8x512, .f32⟩ : BufTy).Contents (Elt F) :=
  have v0 := broadcastInDim S32x8x512 ![0, 1, 2] bcast_S1x8x512_S32x8x512_0_1_2 arg3
  have v1 := mulf v0 arg1
  have v2 := broadcastInDim S32x8x512 ![0, 1, 2] bcast_S1x8x512_S32x8x512_0_1_2 arg2
  have v3 := addf v2 v1
  v3

def refLN (arg0 : (⟨S32x4096x512, .f32⟩ : BufTy).Contents (Elt F)) (arg4 arg5 : (⟨S512, .f32⟩ : BufTy).Contents (Elt F)) :
    (⟨S32x4096x512, .f32⟩ : BufTy).Contents (Elt F) :=
  have cst := constant S_ .f32 0x00000000#32
  have v4 := Host.reduceAdd arg0 cst reducesTo_S32x4096x512_S32x4096_d2 h_S_
  have v5 := broadcastInDim S32x4096x1 ![0, 1] bcast_S32x4096_S32x4096x1_0_1 v4
  have cst_0 := constant S_ .f32 0x44000000#32
  have v6 := broadcastInDim S32x4096x1 ![] bcast_S_S32x4096x1 cst_0
  have v7 := Host.divf v5 v6
  have c := constantI S_ 32 0#32

  have f_cst := constant S_ .f32 0x00000000#32
  have f0 := Host.reduceAdd arg0 f_cst reducesTo_S32x4096x512_S32x4096_d2 h_S_
  have f1 := broadcastInDim S32x4096x1 ![0, 1] bcast_S32x4096_S32x4096x1_0_1 f0
  have f_cst_0 := constant S_ .f32 0x44000000#32
  have f2 := broadcastInDim S32x4096x1 ![] bcast_S_S32x4096x1 f_cst_0
  have f3 := Host.divf f1 f2
  have f4 := broadcastInDim S32x4096x512 ![0, 1, 2] bcast_S32x4096x1_S32x4096x512_0_1_2 f3
  have f5 := subf arg0 f4
  have f6 := mulf f5 f5
  have f7 := sitofp .f32 c
  have f_cst_1 := constant S_ .f32 0x44000000#32
  have f8 := subf f_cst_1 f7
  have f_cst_2 := constant S_ .f32 0x00000000#32
  have f9 := Host.reduceAdd f6 f_cst_2 reducesTo_S32x4096x512_S32x4096_d2 h_S_
  have f10 := broadcastInDim S32x4096x1 ![0, 1] bcast_S32x4096_S32x4096x1_0_1 f9
  have f11 := broadcastInDim S32x4096x1 ![] bcast_S_S32x4096x1 f8
  have f12 := Host.divf f10 f11
  have f_cst_3 := constant S_ .f32 0x00000000#32
  have f13 := cmpf .ogt f8 f_cst_3
  have f_cst_4 := constant S_ .f32 0x7FC00000#32

  have w0 := id f_cst_4
  have w1 := broadcastInDim S32x4096x1 ![] bcast_S_S32x4096x1 w0
  have v8 := select (broadcastInDim S32x4096x1 ![] bcast_S_S32x4096x1 f13) f12 w1
  have v9 := broadcastInDim S32x4096x512 ![0, 1, 2] bcast_S32x4096x1_S32x4096x512_0_1_2 v7
  have v10 := subf arg0 v9
  have cst_1 := constant S_ .f32 0x3727C5AC#32
  have v11 := broadcastInDim S32x4096x1 ![] bcast_S_S32x4096x1 cst_1
  have v12 := addf v8 v11
  have v13 := Host.rsqrt v12
  have v14 := broadcastInDim S32x4096x512 ![0, 1, 2] bcast_S32x4096x1_S32x4096x512_0_1_2 v13
  have v15 := mulf v10 v14
  have v16 := broadcastInDim S1x1x512 ![2] bcast_S512_S1x1x512_2 arg4
  have v17 := broadcastInDim S32x4096x512 ![0, 1, 2] bcast_S1x1x512_S32x4096x512_0_1_2 v16
  have v18 := mulf v15 v17
  have v19 := broadcastInDim S1x1x512 ![2] bcast_S512_S1x1x512_2 arg5
  have v20 := broadcastInDim S32x4096x512 ![0, 1, 2] bcast_S1x1x512_S32x4096x512_0_1_2 v19
  have v21 := addf v18 v20
  v21

def refK (x : (⟨S32x4096x512, .f32⟩ : BufTy).Contents (Elt F)) (w : (⟨S512x512, .f32⟩ : BufTy).Contents (Elt F)) :
    (⟨S32x4096x512, .f32⟩ : BufTy).Contents (Elt F) :=
  Host.dotGeneral dot_S32x4096x512_S512x512_S32x4096x512_2_1_01_0_n_n none x w

end Defs

section Read
variable {α : Type}

theorem bcast_batch_apply (h : S1x8x512.BroadcastsInDim S32x8x512 (![0, 1, 2] : Fin 3 → Fin S32x8x512.rank))
    (x : S1x8x512.Idx → α) (b : Fin 32) (s : Fin 8) (k : Fin 512) :
    broadcastInDim S32x8x512 ![0, 1, 2] h x (ix3 b s k) = x (ix3 0 s k) :=
  broadcastInDim_apply _ h x _ _ fun a => match a with | ⟨0, _⟩ => rfl | ⟨1, _⟩ => rfl | ⟨2, _⟩ => rfl

theorem bcast_cols_apply (h : S32x4096x1.BroadcastsInDim S32x4096x512 (![0, 1, 2] : Fin 3 → Fin S32x4096x512.rank))
    (x : S32x4096x1.Idx → α) (b : Fin 32) (t : Fin 4096) (k : Fin 512) :
    broadcastInDim S32x4096x512 ![0, 1, 2] h x (ix3 b t k) = x (ix3 b t 0) :=
  broadcastInDim_apply _ h x _ _ fun a => match a with | ⟨0, _⟩ => rfl | ⟨1, _⟩ => rfl | ⟨2, _⟩ => rfl

theorem bcast_unit_apply (h : S32x4096.BroadcastsInDim S32x4096x1 (![0, 1] : Fin 2 → Fin S32x4096x1.rank))
    (x : S32x4096.Idx → α) (b : Fin 32) (t : Fin 4096) :
    broadcastInDim S32x4096x1 ![0, 1] h x (ix3 b t 0) = x (ix2 b t) :=
  broadcastInDim_apply _ h x _ _ fun a => match a with | ⟨0, _⟩ => rfl | ⟨1, _⟩ => rfl

theorem bcast_vec_apply (h : S512.BroadcastsInDim S1x1x512 (![2] : Fin 1 → Fin S1x1x512.rank))
    (x : S512.Idx → α) (k : Fin 512) :
    broadcastInDim S1x1x512 ![2] h x (ix3 0 0 k) = x (ix1 k) :=
  broadcastInDim_apply _ h x _ _ fun a => match a with | ⟨0, _⟩ => rfl

theorem bcast_rows_apply (h : S1x1x512.BroadcastsInDim S32x4096x512 (![0, 1, 2] : Fin 3 → Fin S32x4096x512.rank))
    (x : S1x1x512.Idx → α) (b : Fin 32) (t : Fin 4096) (k : Fin 512) :
    broadcastInDim S32x4096x512 ![0, 1, 2] h x (ix3 b t k) = x (ix3 0 0 k) :=
  broadcastInDim_apply _ h x _ _ fun a => match a with | ⟨0, _⟩ => rfl | ⟨1, _⟩ => rfl | ⟨2, _⟩ => rfl

end Read

theorem reduce_last_apply (x : S32x4096x512.Idx → EReal) (init : S_.Idx → EReal) (b : Fin 32) (t : Fin 4096) :
    Host.reduceAdd (F := Ideal) (φ := .f32) x init reducesTo_S32x4096x512_S32x4096_d2 h_S_ (ix2 b t)
      = init ix0 + ∑ k : Fin 512, x (ix3 b t k) := by
  have hr : S32x4096x512.Reduces [2] S32x4096 := by decide
  rw [hostReduceAdd_apply, Ideal.hostReduceAdd_single reducesTo_S32x4096x512_S32x4096_d2 hr]
  congr 1
  · exact congrArg init (eq_ix0 _)
  · refine Finset.sum_congr rfl fun k _ => congrArg x ?_
    funext a
    apply Fin.ext
    match a with
    | ⟨0, _⟩ => rfl
    | ⟨1, _⟩ => rfl
    | ⟨2, _⟩ => rfl

theorem ofBits_512 : Ideal.ofBits .f32 0x44000000#32 = ((512 : ℝ) : EReal) := by
  simp [Ideal.ofBits, Ideal.ieee, -EReal.coe_mul]; norm_num

theorem divisor_eq :
    (Ideal.ofBits .f32 0x44000000#32 : EReal) - (FloatOps.sitofp (F := Ideal) .f32 (0#32 : BitVec 32) : EReal) = Cert.Spec.c512 := by
  show (Ideal.ofBits .f32 0x44000000#32 : EReal) - (((0#32 : BitVec 32).toInt : ℝ) : EReal) = Ideal.ofBits .f32 0x44000000#32
  simp

theorem divisor_pos : FloatOps.cmpf (F := Ideal) (φ := .f32) .ogt Cert.Spec.c512 (Ideal.ofBits .f32 0x00000000#32) = 1#1 := by
  show Ideal.cmp .ogt (Ideal.ofBits .f32 0x44000000#32) (Ideal.ofBits .f32 0x00000000#32) = 1#1
  rw [ofBits_512, Ideal.ofBits_zero_f32]
  unfold Ideal.cmp
  have h : (0 : EReal) < ((512 : ℝ) : EReal) := by exact_mod_cast (by norm_num : (0 : ℝ) < 512)
  simp [h]

theorem hostRsqrt_apply {s : Shape} {φ : FTy} (a : FVec Ideal s φ) (i : s.Idx) : Host.rsqrt a i = Ideal.rsqrt (a i) := rfl

theorem mean_apply (arg0 : S32x4096x512.Idx → EReal) (b : Fin 32) (t : Fin 4096) :
    Host.divf (F := Ideal) (φ := .f32)
      (broadcastInDim S32x4096x1 ![0, 1] bcast_S32x4096_S32x4096x1_0_1
        (Host.reduceAdd (F := Ideal) (φ := .f32) arg0 (constant S_ .f32 0x00000000#32) reducesTo_S32x4096x512_S32x4096_d2 h_S_))
      (broadcastInDim S32x4096x1 ![] bcast_S_S32x4096x1 (constant (F := Ideal) S_ .f32 0x44000000#32)) (ix3 b t 0)
      = Cert.Spec.mean (fun t k => arg0 (ix3 b t k)) t := by
  rw [hostDivf_apply, bcast_unit_apply, reduce_last_apply, broadcastInDim_scalar_apply, constant_apply, constant_apply,
    Ideal.ofBits_zero_f32, zero_add]
  rfl

theorem cond_apply (c : S_.Idx → BitVec 32) (hc : c ix0 = 0#32) (j : S32x4096x1.Idx) :
    broadcastInDim S32x4096x1 ![] bcast_S_S32x4096x1
      (cmpf (F := Ideal) (φ := .f32) .ogt (subf (constant S_ .f32 0x44000000#32) (sitofp .f32 c)) (constant S_ .f32 0x00000000#32)) j
      = 1#1 := by
  rw [broadcastInDim_scalar_apply, cmpf_apply, subf_apply, constant_apply, constant_apply, sitofp_apply, hc, divisor_eq]
  exact divisor_pos

theorem divisor_apply (c : S_.Idx → BitVec 32) (hc : c ix0 = 0#32) (j : S32x4096x1.Idx) :
    broadcastInDim S32x4096x1 ![] bcast_S_S32x4096x1
      (subf (constant (F := Ideal) S_ .f32 0x44000000#32) (sitofp .f32 c)) j = Cert.Spec.c512 := by
  rw [broadcastInDim_scalar_apply, subf_apply, constant_apply, sitofp_apply, hc]
  exact divisor_eq

theorem sumsq_apply (arg0 : S32x4096x512.Idx → EReal) (m : S32x4096x1.Idx → EReal) (b : Fin 32) (t : Fin 4096) :
    broadcastInDim S32x4096x1 ![0, 1] bcast_S32x4096_S32x4096x1_0_1
      (Host.reduceAdd (F := Ideal) (φ := .f32)
        (mulf (subf arg0 (broadcastInDim S32x4096x512 ![0, 1, 2] bcast_S32x4096x1_S32x4096x512_0_1_2 m))
          (subf arg0 (broadcastInDim S32x4096x512 ![0, 1, 2] bcast_S32x4096x1_S32x4096x512_0_1_2 m)))
        (constant S_ .f32 0x00000000#32) reducesTo_S32x4096x512_S32x4096_d2 h_S_) (ix3 b t 0)
      = ∑ k : Fin 512, (arg0 (ix3 b t k) - m (ix3 b t 0)) * (arg0 (ix3 b t k) - m (ix3 b t 0)) := by
  rw [bcast_unit_apply, reduce_last_apply, constant_apply, Ideal.ofBits_zero_f32, zero_add]
  refine Finset.sum_congr rfl fun k _ => ?_
  rw [mulf_apply, subf_apply, bcast_cols_apply]

theorem refSlots0_eq (arg1 : (⟨S32x8x512, .f32⟩ : BufTy).Contents (Elt Ideal))
    (arg2 arg3 : (⟨S1x8x512, .f32⟩ : BufTy).Contents (Elt Ideal)) (b : Fin 32) (s : Fin 8) (k : Fin 512) :
    refSlots0 (F := Ideal) arg1 arg2 arg3 (ix3 b s k)
      = Cert.Spec.slots0 (fun s k => arg2 (ix3 0 s k)) (fun s k => arg3 (ix3 0 s k)) (fun s k => arg1 (ix3 b s k)) s k := by
  unfold refSlots0
  simp only [addf_apply, mulf_apply]
  rw [bcast_batch_apply, bcast_batch_apply]
  rfl

theorem refLN_eq (arg0 : (⟨S32x4096x512, .f32⟩ : BufTy).Contents (Elt Ideal))
    (arg4 arg5 : (⟨S512, .f32⟩ : BufTy).Contents (Elt Ideal)) (b : Fin 32) (t : Fin 4096) (k : Fin 512) :
    refLN (F := Ideal) arg0 arg4 arg5 (ix3 b t k)
      = Cert.Spec.layerNorm Cert.Spec.varCentred (fun t k => arg0 (ix3 b t k)) (fun k => arg4 (ix1 k)) (fun k => arg5 (ix1 k)) t k := by
  have hmean := mean_apply arg0 b t
  unfold refLN
  simp only [addf_apply, mulf_apply, subf_apply]
  rw [bcast_cols_apply, bcast_cols_apply, hmean, hostRsqrt_apply, addf_apply,
    select_apply, cond_apply (constantI S_ 32 0#32) rfl, select_one, hostDivf_apply, sumsq_apply,
    divisor_apply (constantI S_ 32 0#32) rfl, hmean,
    broadcastInDim_scalar_apply, constant_apply, bcast_rows_apply, bcast_rows_apply, bcast_vec_apply, bcast_vec_apply]
  rfl

theorem refK_eq (x : (⟨S32x4096x512, .f32⟩ : BufTy).Contents (Elt Ideal)) (w : (⟨S512x512, .f32⟩ : BufTy).Contents (Elt Ideal))
    (b : Fin 32) (t : Fin 4096) (e : Fin 512) :
    refK (F := Ideal) x w (ix3 b t e) = Cert.Spec.lin (fun t d => x (ix3 b t d)) (fun e d => w (ix2 e d)) t e := by
  show FloatOps.dotGeneral (F := Ideal) (φ₁ := .f32) (φ₂ := .f32) dot_S32x4096x512_S512x512_S32x4096x512_2_1_01_0_n_n none _ x w (ix3 b t e) = _
  rw [Ideal.dotGeneral_apply,
    ← Equiv.sum_comp (contrEquiv1 dot_S32x4096x512_S512x512_S32x4096x512_2_1_01_0_n_n 512 rfl rfl).symm]
  unfold Cert.Spec.lin
  refine Finset.sum_congr rfl fun c _ => ?_
  have c3 := contrEquiv1_symm_val dot_S32x4096x512_S512x512_S32x4096x512_2_1_01_0_n_n 512 rfl rfl c
  have l3 : dot_S32x4096x512_S512x512_S32x4096x512_2_1_01_0_n_n.lhsIdx (ix3 b t e)
      ((contrEquiv1 _ 512 rfl rfl).symm c) = ix3 b t c := by
    funext ax; apply Fin.ext
    match ax with
    | ⟨0, _⟩ => simp [DotDims.lhsIdx, dot_S32x4096x512_S512x512_S32x4096x512_2_1_01_0_n_n]; rfl
    | ⟨1, _⟩ => simp [DotDims.lhsIdx, dot_S32x4096x512_S512x512_S32x4096x512_2_1_01_0_n_n]; rfl
    | ⟨2, _⟩ => simp [DotDims.lhsIdx, dot_S32x4096x512_S512x512_S32x4096x512_2_1_01_0_n_n]; exact c3
  have r3 : dot_S32x4096x512_S512x512_S32x4096x512_2_1_01_0_n_n.rhsIdx (ix3 b t e)
      ((contrEquiv1 _ 512 rfl rfl).symm c) = ix2 e c := by
    funext ax; apply Fin.ext
    match ax with
    | ⟨0, _⟩ => simp [DotDims.rhsIdx, dot_S32x4096x512_S512x512_S32x4096x512_2_1_01_0_n_n]; rfl
    | ⟨1, _⟩ => simp [DotDims.rhsIdx, dot_S32x4096x512_S512x512_S32x4096x512_2_1_01_0_n_n]; exact c3
  rw [l3, r3]

end Cert.ReferenceIdeal.RefProj

end
-- ==== Proof.RefUnfold.lean ====
import proofs.«417374_j33956011442443_3_alg».proof.Proof.RefRunStages
import proofs.«417374_j33956011442443_3_alg».proof.Proof.RefProj

noncomputable section

namespace Cert.ReferenceIdeal.RefValue

open Cert.ReferenceIdeal Cert.ReferenceIdeal.Gen Cert.ReferenceIdeal.RefRun Cert.ReferenceIdeal.RefProj
open Idealize.ShloMosaic Idealize.ShloMosaic.TcCoe Idealize.SL.Sem Idealize.ShloMosaic.StableHlo

variable {F : FTy → Type} [FloatOps F]

theorem res_main_v3_eq (V0 : Valuation τ sig (Elt F)) :
    res_main_v3 V0 = refSlots0 (V0 (Proc.devRef .tc main_arg1)) (V0 (Proc.devRef .tc main_arg2)) (V0 (Proc.devRef .tc main_arg3)) := rfl

theorem res_main_v21_eq (V0 : Valuation τ sig (Elt F)) :
    res_main_v21 V0 = refLN (V0 (Proc.devRef .tc main_arg0)) (V0 (Proc.devRef .tc main_arg4)) (V0 (Proc.devRef .tc main_arg5)) := rfl

theorem res_main_v22_eq (V0 : Valuation τ sig (Elt F)) :
    res_main_v22 V0 = refK (res_main_v21 V0) (V0 (Proc.devRef .tc main_arg9)) := rfl

theorem res_main_v23_eq (V0 : Valuation τ sig (Elt F)) :
    res_main_v23 V0 = refK (res_main_v21 V0) (V0 (Proc.devRef .tc main_arg10)) := rfl

end Cert.ReferenceIdeal.RefValue

end
-- ==== Proof.SpecReal.lean ====
import proofs.«417374_j33956011442443_3_alg».proof.Proof.Spec

noncomputable section

namespace Cert.Spec

open Idealize.ShloMosaic

def IsReal1 {α : Type} (f : α → EReal) : Prop := ∀ a, ∃ r : ℝ, f a = (r : EReal)
def IsReal2 {α β : Type} (f : α → β → EReal) : Prop := ∀ a b, ∃ r : ℝ, f a b = (r : EReal)

structure Weights.IsReal (W : Weights) : Prop where
  ln_s_g : IsReal1 W.ln_s_g
  ln_s_b : IsReal1 W.ln_s_b
  wq : IsReal2 W.wq
  w_ih : IsReal2 W.w_ih
  w_hh : IsReal2 W.w_hh
  b_ih : IsReal1 W.b_ih
  b_hh : IsReal1 W.b_hh
  ln_m_g : IsReal1 W.ln_m_g
  ln_m_b : IsReal1 W.ln_m_b
  w1 : IsReal2 W.w1
  b1 : IsReal1 W.b1
  w2 : IsReal2 W.w2
  b2 : IsReal1 W.b2

def IsR (a : EReal) : Prop := ∃ r : ℝ, a = (r : EReal)

def IsPos (a : EReal) : Prop := ∃ r : ℝ, 0 < r ∧ a = (r : EReal)

def IsNonneg (a : EReal) : Prop := ∃ r : ℝ, 0 ≤ r ∧ a = (r : EReal)

theorem IsReal1.r {α : Type} {f : α → EReal} (h : IsReal1 f) (a : α) : IsR (f a) := h a
theorem IsReal2.r {α β : Type} {f : α → β → EReal} (h : IsReal2 f) (a : α) (b : β) : IsR (f a b) := h a b

theorem IsPos.toR {a : EReal} (h : IsPos a) : IsR a := by obtain ⟨r, _, rfl⟩ := h; exact ⟨r, rfl⟩

theorem IsR.add {a b : EReal} (ha : IsR a) (hb : IsR b) : IsR (a + b) := by
  obtain ⟨r, rfl⟩ := ha; obtain ⟨s, rfl⟩ := hb; exact ⟨r + s, (EReal.coe_add r s).symm⟩
theorem IsR.sub {a b : EReal} (ha : IsR a) (hb : IsR b) : IsR (a - b) := by
  obtain ⟨r, rfl⟩ := ha; obtain ⟨s, rfl⟩ := hb; exact ⟨r - s, (EReal.coe_sub r s).symm⟩
theorem IsR.mul {a b : EReal} (ha : IsR a) (hb : IsR b) : IsR (a * b) := by
  obtain ⟨r, rfl⟩ := ha; obtain ⟨s, rfl⟩ := hb; exact ⟨r * s, (EReal.coe_mul r s).symm⟩
theorem IsPos.add {a b : EReal} (ha : IsPos a) (hb : IsPos b) : IsPos (a + b) := by
  obtain ⟨r, hr, rfl⟩ := ha; obtain ⟨s, hs, rfl⟩ := hb; exact ⟨r + s, add_pos hr hs, (EReal.coe_add r s).symm⟩
theorem IsNonneg.add_pos {a b : EReal} (ha : IsNonneg a) (hb : IsPos b) : IsPos (a + b) := by
  obtain ⟨r, hr, rfl⟩ := ha; obtain ⟨s, hs, rfl⟩ := hb
  exact ⟨r + s, add_pos_of_nonneg_of_pos hr hs, (EReal.coe_add r s).symm⟩

theorem sum_coe {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem IsR.sum {ι : Type} (s : Finset ι) (f : ι → EReal) (h : ∀ i, IsR (f i)) : IsR (∑ i ∈ s, f i) := by
  choose g hg using h
  exact ⟨∑ i ∈ s, g i, by rw [← sum_coe]; exact Finset.sum_congr rfl fun i _ => hg i⟩

theorem IsPos.sum {ι : Type} (s : Finset ι) (hs : s.Nonempty) (f : ι → EReal) (h : ∀ i, IsPos (f i)) :
    IsPos (∑ i ∈ s, f i) := by
  choose g hg0 hg using h
  exact ⟨∑ i ∈ s, g i, Finset.sum_pos (fun i _ => hg0 i) hs,
    by rw [← sum_coe]; exact Finset.sum_congr rfl fun i _ => hg i⟩

theorem IsR.div {a b : EReal} (ha : IsR a) (hb : IsR b) (h0 : b ≠ 0) : IsR (Ideal.div a b) := by
  obtain ⟨r, rfl⟩ := ha; obtain ⟨s, rfl⟩ := hb
  have hs : s ≠ 0 := EReal.coe_ne_zero.mp h0
  exact ⟨r * (1 / s), by rw [Ideal.div_coe hs, EReal.coe_mul]⟩

theorem IsPos.div {a b : EReal} (ha : IsPos a) (hb : IsPos b) : IsPos (Ideal.div a b) := by
  obtain ⟨r, hr, rfl⟩ := ha; obtain ⟨s, hs, rfl⟩ := hb
  exact ⟨r * (1 / s), by positivity, by rw [Ideal.div_coe hs.ne', EReal.coe_mul]⟩

theorem IsPos.rsqrt {a : EReal} (ha : IsPos a) : IsR (Ideal.rsqrt a) := by
  obtain ⟨r, hr, rfl⟩ := ha
  exact ⟨(Real.sqrt r)⁻¹, by rw [Ideal.rsqrt_coe, if_neg (not_lt.mpr hr.le), if_neg hr.ne']⟩

theorem IsR.exp {a : EReal} (ha : IsR a) : IsPos (Ideal.exp a) := by
  obtain ⟨r, rfl⟩ := ha; exact ⟨Real.exp r, Real.exp_pos r, Ideal.exp_coe r⟩
theorem IsR.tanh {a : EReal} (ha : IsR a) : IsR (Ideal.tanh a) := by
  obtain ⟨r, rfl⟩ := ha; exact ⟨Real.tanh r, Ideal.tanh_coe r⟩
theorem IsR.logistic {a : EReal} (ha : IsR a) : IsR (Ideal.logistic a) := by
  obtain ⟨r, rfl⟩ := ha; exact ⟨_, Ideal.logistic_coe r⟩
theorem IsR.max {a b : EReal} (ha : IsR a) (hb : IsR b) : IsR (max a b) := by
  rcases max_choice a b with h | h <;> rw [h] <;> assumption

theorem IsR.sup {ι : Type} (s : Finset ι) (hs : s.Nonempty) (f : ι → EReal) (h : ∀ i, IsR (f i)) : IsR (s.sup f) := by
  obtain ⟨i, _, hi⟩ := Finset.exists_mem_eq_sup s hs f
  rw [hi]; exact h i

theorem c512_eq : c512 = ((512 : ℝ) : EReal) := by
  simp [c512, Ideal.ofBits, Ideal.ieee, -EReal.coe_mul]; norm_num

theorem epsLN_pos : IsPos epsLN := by
  simp [epsLN, Ideal.ofBits, Ideal.ieee, -EReal.coe_mul]
  exact ⟨_, by positivity, rfl⟩

theorem epsA_pos : IsPos epsA := by
  simp [epsA, Ideal.ofBits, Ideal.ieee, -EReal.coe_mul]
  exact ⟨_, by positivity, rfl⟩
theorem c512_R : IsR c512 := ⟨512, c512_eq⟩
theorem c512_ne : c512 ≠ 0 := by rw [c512_eq]; exact EReal.coe_ne_zero.mpr (by norm_num)
theorem one32_R : IsR one32 := ⟨1, by simp [one32, Ideal.ofBits, Ideal.ieee, -EReal.coe_mul]; norm_num⟩
theorem zero32_R : IsR zero32 := ⟨0, by simp [zero32, Ideal.ofBits, Ideal.ieee]⟩

variable {n : ℕ}

theorem mean_coe (r : Fin n → Fin 512 → ℝ) (i : Fin n) :
    mean (fun i k => ((r i k : ℝ) : EReal)) i = (((∑ k, r i k) * (1 / 512) : ℝ) : EReal) := by
  simp only [mean, c512_eq, sum_coe]
  rw [Ideal.div_coe (by norm_num), ← EReal.coe_mul]

theorem varOnePass_coe (r : Fin n → Fin 512 → ℝ) (i : Fin n) :
    varOnePass (fun i k => ((r i k : ℝ) : EReal)) i
      = (((∑ k, r i k * r i k) * (1 / 512)
          - ((∑ k, r i k) * (1 / 512)) * ((∑ k, r i k) * (1 / 512)) : ℝ) : EReal) := by
  simp only [varOnePass, mean_coe, c512_eq, ← EReal.coe_mul, sum_coe]
  rw [Ideal.div_coe (by norm_num), ← EReal.coe_mul, ← EReal.coe_sub]

theorem varCentred_coe (r : Fin n → Fin 512 → ℝ) (i : Fin n) :
    varCentred (fun i k => ((r i k : ℝ) : EReal)) i
      = (((∑ k, (r i k - (∑ k, r i k) * (1 / 512)) * (r i k - (∑ k, r i k) * (1 / 512))) * (1 / 512) : ℝ) : EReal) := by
  simp only [varCentred, mean_coe, c512_eq, ← EReal.coe_sub, ← EReal.coe_mul, sum_coe]
  rw [Ideal.div_coe (by norm_num), ← EReal.coe_mul]

theorem var_identity (f : Fin 512 → ℝ) :
    (∑ k, f k * f k) * (1 / 512) - ((∑ k, f k) * (1 / 512)) * ((∑ k, f k) * (1 / 512))
      = (∑ k, (f k - (∑ k, f k) * (1 / 512)) * (f k - (∑ k, f k) * (1 / 512))) * (1 / 512) := by
  have h : ∀ m : ℝ, ∑ k, (f k - m) * (f k - m) = (∑ k, f k * f k) - 2 * m * (∑ k, f k) + 512 * (m * m) := by
    intro m
    simp only [show ∀ k, (f k - m) * (f k - m) = f k * f k - 2 * m * f k + m * m from fun k => by ring,
      Finset.sum_add_distrib, Finset.sum_sub_distrib, ← Finset.mul_sum, Finset.sum_const, Finset.card_univ,
      Fintype.card_fin, nsmul_eq_mul]
    push_cast; ring
  rw [h]; ring

theorem IsReal2.eq_coe {α β : Type} {x : α → β → EReal} (hx : IsReal2 x) :
    ∃ r : α → β → ℝ, x = fun a b => ((r a b : ℝ) : EReal) := by
  choose r hr using hx
  exact ⟨r, funext fun a => funext fun b => hr a b⟩

theorem var_agree {x : Fin n → Fin 512 → EReal} (hx : IsReal2 x) (i : Fin n) : varOnePass x i = varCentred x i := by
  obtain ⟨r, rfl⟩ := hx.eq_coe
  rw [varOnePass_coe, varCentred_coe, var_identity (r i)]

theorem varCentred_nonneg {x : Fin n → Fin 512 → EReal} (hx : IsReal2 x) (i : Fin n) : IsNonneg (varCentred x i) := by
  obtain ⟨r, rfl⟩ := hx.eq_coe
  exact ⟨_, mul_nonneg (Finset.sum_nonneg fun k _ => mul_self_nonneg _) (by norm_num), varCentred_coe r i⟩

theorem mean_real {x : Fin n → Fin 512 → EReal} (hx : IsReal2 x) (i : Fin n) : IsR (mean x i) :=
  (IsR.sum _ _ fun k => hx.r i k).div c512_R c512_ne

theorem layerNorm_real {x : Fin n → Fin 512 → EReal} {g b : Fin 512 → EReal} (hx : IsReal2 x) (hg : IsReal1 g)
    (hb : IsReal1 b) : IsReal2 (layerNorm varCentred x g b) := fun i k =>
  ((((hx.r i k).sub (mean_real hx i)).mul ((varCentred_nonneg hx i).add_pos epsLN_pos).rsqrt).mul (hg.r k)).add (hb.r k)

theorem layerNorm_agree {x : Fin n → Fin 512 → EReal} {g b : Fin 512 → EReal} (hx : IsReal2 x) :
    layerNorm varOnePass x g b = layerNorm varCentred x g b := by
  funext i k; simp only [layerNorm, var_agree hx i]

theorem lin_real {m : ℕ} {x : Fin n → Fin 512 → EReal} {w : Fin m → Fin 512 → EReal} (hx : IsReal2 x)
    (hw : IsReal2 w) : IsReal2 (lin x w) := fun i e =>
  IsR.sum _ _ fun d => (hx.r i d).mul (hw.r e d)

theorem slots0_real {mu sigma noise : Fin 8 → Fin 512 → EReal} (hmu : IsReal2 mu) (hsigma : IsReal2 sigma)
    (hnoise : IsReal2 noise) : IsReal2 (slots0 mu sigma noise) := fun s k =>
  (hmu.r s k).add ((hsigma.r s k).mul (hnoise.r s k))

theorem project_real {x : Fin 4096 → Fin 512 → EReal} {g b : Fin 512 → EReal} {w : Fin 512 → Fin 512 → EReal}
    (hx : IsReal2 x) (hg : IsReal1 g) (hb : IsReal1 b) (hw : IsReal2 w) : IsReal2 (project varCentred x g b w) :=
  lin_real (layerNorm_real hx hg hb) hw

theorem project_agree {x : Fin 4096 → Fin 512 → EReal} {g b : Fin 512 → EReal} {w : Fin 512 → Fin 512 → EReal}
    (hx : IsReal2 x) : project varOnePass x g b w = project varCentred x g b w := by
  simp only [project, layerNorm_agree hx]

section Step

variable {W : Weights} {K V : Fin 4096 → Fin 512 → EReal} {s : Fin 8 → Fin 512 → EReal}

theorem query_real (hW : W.IsReal) (hs : IsReal2 s) : IsReal2 (query varCentred W s) :=
  lin_real (layerNorm_real hs hW.ln_s_g hW.ln_s_b) hW.wq

theorem logit_real (hW : W.IsReal) (hK : IsReal2 K) (hs : IsReal2 s) : IsReal2 (logit varCentred W K s) := fun i t =>
  IsR.sum _ _ fun e => ((query_real hW hs).r i e).mul (hK.r t e)

theorem logitMax_real (hW : W.IsReal) (hK : IsReal2 K) (hs : IsReal2 s) : IsReal1 (logitMax varCentred W K s) := fun t =>
  IsR.sup _ Finset.univ_nonempty _ fun i => (logit_real hW hK hs).r i t

theorem expo_pos (hW : W.IsReal) (hK : IsReal2 K) (hs : IsReal2 s) (i : Fin 8) (t : Fin 4096) :
    IsPos (expo varCentred W K s i t) :=
  (((logit_real hW hK hs).r i t).sub ((logitMax_real hW hK hs).r t)).exp

theorem softEps_pos (hW : W.IsReal) (hK : IsReal2 K) (hs : IsReal2 s) (i : Fin 8) (t : Fin 4096) :
    IsPos (softEps varCentred W K s i t) :=
  ((expo_pos hW hK hs i t).div (IsPos.sum _ Finset.univ_nonempty _ fun j => expo_pos hW hK hs j t)).add epsA_pos

theorem attn_real (hW : W.IsReal) (hK : IsReal2 K) (hs : IsReal2 s) : IsReal2 (attn varCentred W K s) := fun i t =>
  ((softEps_pos hW hK hs i t).div (IsPos.sum _ Finset.univ_nonempty _ fun j => softEps_pos hW hK hs j t)).toR

theorem update_real (hW : W.IsReal) (hK : IsReal2 K) (hV : IsReal2 V) (hs : IsReal2 s) :
    IsReal2 (update varCentred W K V s) := fun i k =>
  IsR.sum _ _ fun t => ((attn_real hW hK hs).r i t).mul (hV.r t k)

theorem gateI_real (hW : W.IsReal) (hK : IsReal2 K) (hV : IsReal2 V) (hs : IsReal2 s) :
    IsReal2 (gateI varCentred W K V s) := fun i j =>
  ((lin_real (update_real hW hK hV hs) hW.w_ih).r i j).add (hW.b_ih.r j)

theorem gateH_real (hW : W.IsReal) (hs : IsReal2 s) : IsReal2 (gateH W s) := fun i j =>
  ((lin_real hs hW.w_hh).r i j).add (hW.b_hh.r j)

theorem gruR_real (hW : W.IsReal) (hK : IsReal2 K) (hV : IsReal2 V) (hs : IsReal2 s) :
    IsReal2 (gruR varCentred W K V s) := fun i k =>
  (((gateI_real hW hK hV hs).r i (band0 k)).add ((gateH_real hW hs).r i (band0 k))).logistic

theorem gruZ_real (hW : W.IsReal) (hK : IsReal2 K) (hV : IsReal2 V) (hs : IsReal2 s) :
    IsReal2 (gruZ varCentred W K V s) := fun i k =>
  (((gateI_real hW hK hV hs).r i (band1 k)).add ((gateH_real hW hs).r i (band1 k))).logistic

theorem gruN_real (hW : W.IsReal) (hK : IsReal2 K) (hV : IsReal2 V) (hs : IsReal2 s) :
    IsReal2 (gruN varCentred W K V s) := fun i k =>
  (((gateI_real hW hK hV hs).r i (band2 k)).add
    (((gruR_real hW hK hV hs).r i k).mul ((gateH_real hW hs).r i (band2 k)))).tanh

theorem gru_real (hW : W.IsReal) (hK : IsReal2 K) (hV : IsReal2 V) (hs : IsReal2 s) :
    IsReal2 (gru varCentred W K V s) := fun i k =>
  ((one32_R.sub ((gruZ_real hW hK hV hs).r i k)).mul ((gruN_real hW hK hV hs).r i k)).add
    (((gruZ_real hW hK hV hs).r i k).mul (hs.r i k))

theorem hidden_real (hW : W.IsReal) (hK : IsReal2 K) (hV : IsReal2 V) (hs : IsReal2 s) :
    IsReal2 (hidden varCentred W K V s) := fun i e =>
  (((lin_real (layerNorm_real (gru_real hW hK hV hs) hW.ln_m_g hW.ln_m_b) hW.w1).r i e).add (hW.b1.r e)).max zero32_R

theorem step_real (hW : W.IsReal) (hK : IsReal2 K) (hV : IsReal2 V) (hs : IsReal2 s) :
    IsReal2 (step varCentred W K V s) := fun i e =>
  (((gru_real hW hK hV hs).r i e).add ((lin_real (hidden_real hW hK hV hs) hW.w2).r i e)).add (hW.b2.r e)

-- A step reads the variance only through two layer norms: of the slots (into the update) and of the cell's output.
theorem step_agree (hW : W.IsReal) (hK : IsReal2 K) (hV : IsReal2 V) (hs : IsReal2 s) :
    step varOnePass W K V s = step varCentred W K V s := by
  have hu : update varOnePass W K V s = update varCentred W K V s := by
    funext i k; simp only [update, attn, softEps, expo, logitMax, logit, query, layerNorm_agree hs]
  have hg : gru varOnePass W K V s = gru varCentred W K V s := by
    funext i k; simp only [gru, gruZ, gruN, gruR, gateI, hu]
  have hh : hidden varOnePass W K V s = hidden varCentred W K V s := by
    funext i e; simp only [hidden, hg, layerNorm_agree (gru_real hW hK hV hs)]
  funext i e; simp only [step, hg, hh]

end Step

theorem slotAttention_forms_agree (W : Weights) (hW : W.IsReal)
    (x : Fin 4096 → Fin 512 → EReal) (hx : IsReal2 x)
    (ln_in_g ln_in_b : Fin 512 → EReal) (hg : IsReal1 ln_in_g) (hb : IsReal1 ln_in_b)
    (wk wv : Fin 512 → Fin 512 → EReal) (hwk : IsReal2 wk) (hwv : IsReal2 wv)
    (mu sigma noise : Fin 8 → Fin 512 → EReal) (hmu : IsReal2 mu) (hsigma : IsReal2 sigma) (hnoise : IsReal2 noise) :
    slotAttentionOnePass W x ln_in_g ln_in_b wk wv mu sigma noise
      = slotAttentionCentred W x ln_in_g ln_in_b wk wv mu sigma noise := by
  have hK := project_real hx hg hb hwk
  have hV := project_real hx hg hb hwv
  have h0 := slots0_real hmu hsigma hnoise
  have h1 := step_real hW hK hV h0
  have h2 := step_real hW hK hV h1
  simp only [slotAttentionOnePass, slotAttentionCentred, slotAttention, project_agree hx]
  rw [step_agree hW hK hV h0, step_agree hW hK hV h1, step_agree hW hK hV h2]

end Cert.Spec

end
-- ==== Proof.RefVar.lean ====
import proofs.«417374_j33956011442443_3_alg».proof.ReferenceIdeal
import proofs.«417374_j33956011442443_3_alg».proof.Proof.Spec
import proofs.«417374_j33956011442443_3_alg».proof.Proof.SpecReal
import Idealize.ShloMosaic.Lib.IdealHost
import Idealize.ShloMosaic.Lib.Pipeline.Value

noncomputable section

namespace Cert.ReferenceIdeal.RefVar

open Idealize.ShloMosaic Idealize.ShloMosaic.ValueIdx
open Cert.ReferenceIdeal

section Def
variable {F : FTy → Type} [FloatOps F] [Facts₀]
open Facts₀

def refVar8 (x : (⟨S32x8x512, .f32⟩ : BufTy).Contents (Elt F)) (ddof : (⟨S_, .i32⟩ : BufTy).Contents (Elt F)) :
    (⟨S32x8x1, .f32⟩ : BufTy).Contents (Elt F) :=
  have cst : (⟨S_, .f32⟩ : BufTy).Contents (Elt F) := constant S_ .f32 0x00000000#32
  have v0 : (⟨S32x8, .f32⟩ : BufTy).Contents (Elt F) := (fun x v => Host.reduceAdd x v reducesTo_S32x8x512_S32x8_d2 h_S_) x cst
  have v1 : (⟨S32x8x1, .f32⟩ : BufTy).Contents (Elt F) := broadcastInDim S32x8x1 ![0, 1] bcast_S32x8_S32x8x1_0_1 v0
  have cst_0 : (⟨S_, .f32⟩ : BufTy).Contents (Elt F) := constant S_ .f32 0x44000000#32
  have v2 : (⟨S32x8x1, .f32⟩ : BufTy).Contents (Elt F) := broadcastInDim S32x8x1 ![] bcast_S_S32x8x1 cst_0
  have v3 : (⟨S32x8x1, .f32⟩ : BufTy).Contents (Elt F) := Host.divf v1 v2
  have v4 : (⟨S32x8x512, .f32⟩ : BufTy).Contents (Elt F) := broadcastInDim S32x8x512 ![0, 1, 2] bcast_S32x8x1_S32x8x512_0_1_2 v3
  have v5 : (⟨S32x8x512, .f32⟩ : BufTy).Contents (Elt F) := subf x v4
  have v6 : (⟨S32x8x512, .f32⟩ : BufTy).Contents (Elt F) := mulf v5 v5
  have v7 : (⟨S_, .f32⟩ : BufTy).Contents (Elt F) := sitofp .f32 ddof
  have cst_1 : (⟨S_, .f32⟩ : BufTy).Contents (Elt F) := constant S_ .f32 0x44000000#32
  have v8 : (⟨S_, .f32⟩ : BufTy).Contents (Elt F) := subf cst_1 v7
  have cst_2 : (⟨S_, .f32⟩ : BufTy).Contents (Elt F) := constant S_ .f32 0x00000000#32
  have v9 : (⟨S32x8, .f32⟩ : BufTy).Contents (Elt F) := (fun x v => Host.reduceAdd x v reducesTo_S32x8x512_S32x8_d2 h_S_) v6 cst_2
  have v10 : (⟨S32x8x1, .f32⟩ : BufTy).Contents (Elt F) := broadcastInDim S32x8x1 ![0, 1] bcast_S32x8_S32x8x1_0_1 v9
  have v11 : (⟨S32x8x1, .f32⟩ : BufTy).Contents (Elt F) := broadcastInDim S32x8x1 ![] bcast_S_S32x8x1 v8
  have v12 : (⟨S32x8x1, .f32⟩ : BufTy).Contents (Elt F) := Host.divf v10 v11
  have cst_3 : (⟨S_, .f32⟩ : BufTy).Contents (Elt F) := constant S_ .f32 0x00000000#32
  have v13 : (⟨S_, .i1⟩ : BufTy).Contents (Elt F) := cmpf .ogt v8 cst_3
  have cst_4 : (⟨S_, .f32⟩ : BufTy).Contents (Elt F) := constant S_ .f32 0x7FC00000#32
  have w0 : (⟨S_, .f32⟩ : BufTy).Contents (Elt F) := id cst_4
  have w1 : (⟨S32x8x1, .f32⟩ : BufTy).Contents (Elt F) := broadcastInDim S32x8x1 ![] bcast_S_S32x8x1 w0
  have w2 : (⟨S32x8x1, .f32⟩ : BufTy).Contents (Elt F) := (fun p a b => select (broadcastInDim S32x8x1 ![] bcast_S_S32x8x1 p) a b) v13 v12 w1
  w2

end Def

section AtIdeal
variable [Facts₀]
open Facts₀

theorem lift_row (h : S32x8x512.Reduces [2] S32x8) (b : Fin 32) (i : Fin 8) (k : Fin 512) :
    h.lift (ix2 b i) k = ix3 b i k := by
  funext a
  match a with
  | ⟨0, _⟩ => exact Fin.ext rfl
  | ⟨1, _⟩ => exact Fin.ext rfl
  | ⟨2, _⟩ => exact Fin.ext rfl

theorem rowSum (y : FVec Ideal S32x8x512 .f32) (b : Fin 32) (i : Fin 8) :
    Host.reduceAdd y (constant (F := Ideal) S_ .f32 0x00000000#32) reducesTo_S32x8x512_S32x8_d2 h_S_ (ix2 b i)
      = ∑ k : Fin 512, y (ix3 b i k) := by
  have hR : S32x8x512.Reduces [2] S32x8 := by decide
  rw [hostReduceAdd_apply, Ideal.hostReduceAdd_single _ hR, constant_apply, Ideal.ofBits_zero_f32, zero_add]
  exact Finset.sum_congr rfl fun k _ => congrArg y (lift_row hR b i k)

theorem bcast_row {α : Type} (v : S32x8.Idx → α) (b : Fin 32) (i : Fin 8) (u : Fin 1) :
    broadcastInDim S32x8x1 ![0, 1] bcast_S32x8_S32x8x1_0_1 v (ix3 b i u) = v (ix2 b i) := by
  refine broadcastInDim_apply _ _ _ _ _ fun a => ?_
  match a with
  | ⟨0, _⟩ => rfl
  | ⟨1, _⟩ => rfl

theorem bcast_col {α : Type} (v : S32x8x1.Idx → α) (b : Fin 32) (i : Fin 8) (k : Fin 512) :
    broadcastInDim S32x8x512 ![0, 1, 2] bcast_S32x8x1_S32x8x512_0_1_2 v (ix3 b i k) = v (ix3 b i (0 : Fin 1)) := by
  refine broadcastInDim_apply _ _ _ _ _ fun a => ?_
  match a with
  | ⟨0, _⟩ => rfl
  | ⟨1, _⟩ => rfl
  | ⟨2, _⟩ => rfl

theorem meanAt (x : FVec Ideal S32x8x512 .f32) (b : Fin 32) (i : Fin 8) (u : Fin 1) :
    Host.divf (broadcastInDim S32x8x1 ![0, 1] bcast_S32x8_S32x8x1_0_1
        (Host.reduceAdd x (constant (F := Ideal) S_ .f32 0x00000000#32) reducesTo_S32x8x512_S32x8_d2 h_S_))
      (broadcastInDim S32x8x1 ![] bcast_S_S32x8x1 (constant (F := Ideal) S_ .f32 0x44000000#32)) (ix3 b i u)
      = Ideal.div (∑ k : Fin 512, x (ix3 b i k)) Cert.Spec.c512 := by
  rw [hostDivf_apply, bcast_row, rowSum, broadcastInDim_scalar_apply, constant_apply]
  rfl

theorem divisor :
    subf (constant (F := Ideal) S_ .f32 0x44000000#32) (sitofp .f32 (constantI S_ 32 0#32)) ix0 = Cert.Spec.c512 := by
  show Ideal.ofBits .f32 0x44000000#32 - (((0#32 : BitVec 32).toInt : ℝ) : EReal) = Cert.Spec.c512
  simp [Cert.Spec.c512]

theorem cond_true :
    cmpf .ogt (subf (constant (F := Ideal) S_ .f32 0x44000000#32) (sitofp .f32 (constantI S_ 32 0#32)))
      (constant (F := Ideal) S_ .f32 0x00000000#32) ix0 = 1#1 := by
  rw [cmpf_apply, divisor, constant_apply, Ideal.ofBits_zero_f32, Cert.Spec.c512_eq]
  show BitVec.ofBool (decide ((0 : EReal) < ((512 : ℝ) : EReal))) = 1#1
  rw [decide_eq_true (EReal.coe_pos.mpr (by norm_num))]
  rfl

theorem refVar8_eq (x : (⟨S32x8x512, .f32⟩ : BufTy).Contents (Elt Ideal)) (b : Fin 32) (i : Fin 8) (u : Fin 1) :
    refVar8 (F := Ideal) x (constantI S_ 32 0#32) (ix3 b i u) = Cert.Spec.varCentred (fun i k => x (ix3 b i k)) i := by
  unfold refVar8
  simp only [select_apply, hostDivf_apply]
  rw [bcast_row, rowSum, broadcastInDim_scalar_apply, broadcastInDim_scalar_apply, cond_true, divisor, select_one]
  unfold Cert.Spec.varCentred Cert.Spec.mean
  congr 1
  refine Finset.sum_congr rfl fun k _ => ?_
  rw [mulf_apply, subf_apply, bcast_col, meanAt]

end AtIdeal

end Cert.ReferenceIdeal.RefVar

end
-- ==== Proof.RefStepDef.lean ====
import proofs.«417374_j33956011442443_3_alg».proof.ReferenceIdeal
import proofs.«417374_j33956011442443_3_alg».proof.Proof.Spec
import proofs.«417374_j33956011442443_3_alg».proof.Proof.RefVar

noncomputable section

namespace Cert.ReferenceIdeal.RefStep

open Cert.ReferenceIdeal Idealize.ShloMosaic Idealize.ShloMosaic.ValueIdx
open Cert.ReferenceIdeal.RefVar
open Facts₀

variable {F : FTy → Type} [FloatOps F] [Facts₀]

set_option hygiene false in
set_option quotPrecheck false in
local notation "A(" s ")" => ((⟨s, .f32⟩ : BufTy).Contents (Elt F))

def refRelu (x : A(S32x8x512)) : A(S32x8x512) :=
  have cst : A(S_) := constant S_ .f32 0x00000000#32
  have v0 : A(S32x8x512) := broadcastInDim S32x8x512 ![] bcast_S_S32x8x512 cst
  maximumf x v0

def refLN (x : A(S32x8x512)) (g b : A(S512)) : A(S32x8x512) :=
  have cst_2 : A(S_) := constant S_ .f32 0x00000000#32
  have v24 : A(S32x8) := Host.reduceAdd x cst_2 reducesTo_S32x8x512_S32x8_d2 h_S_
  have v25 : A(S32x8x1) := broadcastInDim S32x8x1 ![0, 1] bcast_S32x8_S32x8x1_0_1 v24
  have cst_3 : A(S_) := constant S_ .f32 0x44000000#32
  have v26 : A(S32x8x1) := broadcastInDim S32x8x1 ![] bcast_S_S32x8x1 cst_3
  have v27 : A(S32x8x1) := Host.divf v25 v26
  have c_4 : (⟨S_, .i32⟩ : BufTy).Contents (Elt F) := constantI S_ 32 0#32
  have v28 : A(S32x8x1) := refVar8 x c_4
  have v29 : A(S32x8x512) := broadcastInDim S32x8x512 ![0, 1, 2] bcast_S32x8x1_S32x8x512_0_1_2 v27
  have v30 : A(S32x8x512) := subf x v29
  have cst_5 : A(S_) := constant S_ .f32 0x3727C5AC#32
  have v31 : A(S32x8x1) := broadcastInDim S32x8x1 ![] bcast_S_S32x8x1 cst_5
  have v32 : A(S32x8x1) := addf v28 v31
  have v33 : A(S32x8x1) := Host.rsqrt v32
  have v34 : A(S32x8x512) := broadcastInDim S32x8x512 ![0, 1, 2] bcast_S32x8x1_S32x8x512_0_1_2 v33
  have v35 : A(S32x8x512) := mulf v30 v34
  have v36 : A(S1x1x512) := broadcastInDim S1x1x512 ![2] bcast_S512_S1x1x512_2 g
  have v37 : A(S32x8x512) := broadcastInDim S32x8x512 ![0, 1, 2] bcast_S1x1x512_S32x8x512_0_1_2 v36
  have v38 : A(S32x8x512) := mulf v35 v37
  have v39 : A(S1x1x512) := broadcastInDim S1x1x512 ![2] bcast_S512_S1x1x512_2 b
  have v40 : A(S32x8x512) := broadcastInDim S32x8x512 ![0, 1, 2] bcast_S1x1x512_S32x8x512_0_1_2 v39
  addf v38 v40

def refAttn (q : A(S32x8x512)) (k : A(S32x4096x512)) : A(S32x8x4096) :=
  have v43 : A(S32x4096x8) := Host.dotGeneral dot_S32x4096x512_S32x8x512_S32x4096x8_2_2_1_1_0_0 none k q
  have cst_6 : A(S_) := constant S_ .f32 0xFF800000#32
  have v44 : A(S32x4096) := Host.reduce FloatOps.maximumf v43 cst_6 reducesTo_S32x4096x8_S32x4096_d2 h_S_
  have cst_7 : A(S_) := constant S_ .f32 0xFF800000#32
  have v45 : A(S32x4096) := broadcastInDim S32x4096 ![] bcast_S_S32x4096 cst_7
  have v46 : A(S32x4096) := maximumf v45 v44
  have v47 : A(S32x4096x1) := broadcastInDim S32x4096x1 ![0, 1] bcast_S32x4096_S32x4096x1_0_1 v46
  have v48 : A(S32x4096x8) := broadcastInDim S32x4096x8 ![0, 1, 2] bcast_S32x4096x1_S32x4096x8_0_1_2 v47
  have v49 : A(S32x4096x8) := subf v43 v48
  have v50 : A(S32x4096x8) := Host.exp v49
  have cst_8 : A(S_) := constant S_ .f32 0x00000000#32
  have v51 : A(S32x4096) := Host.reduceAdd v50 cst_8 reducesTo_S32x4096x8_S32x4096_d2 h_S_
  have v52 : A(S32x4096x1) := broadcastInDim S32x4096x1 ![0, 1] bcast_S32x4096_S32x4096x1_0_1 v51
  have v53 : A(S32x4096x8) := broadcastInDim S32x4096x8 ![0, 1, 2] bcast_S32x4096x1_S32x4096x8_0_1_2 v52
  have v54 : A(S32x4096x8) := Host.divf v50 v53
  have cst_9 : A(S_) := constant S_ .f32 0x322BCC77#32
  have v55 : A(S32x4096x8) := broadcastInDim S32x4096x8 ![] bcast_S_S32x4096x8 cst_9
  have v56 : A(S32x4096x8) := addf v54 v55
  have cst_10 : A(S_) := constant S_ .f32 0x00000000#32
  have v57 : A(S32x4096) := Host.reduceAdd v56 cst_10 reducesTo_S32x4096x8_S32x4096_d2 h_S_
  have v58 : A(S32x4096x1) := broadcastInDim S32x4096x1 ![0, 1] bcast_S32x4096_S32x4096x1_0_1 v57
  have v59 : A(S32x4096x8) := broadcastInDim S32x4096x8 ![0, 1, 2] bcast_S32x4096x1_S32x4096x8_0_1_2 v58
  have v60 : A(S32x4096x8) := Host.divf v56 v59
  transpose S32x8x4096 [0, 2, 1] v60 transposes_S32x4096x8_S32x8x4096_0_2_1

def refGru (u s : A(S32x8x512)) (arg11 arg12 : A(S1536x512)) (arg13 arg14 : A(S1536)) : A(S32x8x512) :=
  have v63 : A(S32x8x1536) := Host.dotGeneral dot_S32x8x512_S1536x512_S32x8x1536_2_1_01_0_n_n none u arg11
  have v64 : A(S1x1x1536) := broadcastInDim S1x1x1536 ![2] bcast_S1536_S1x1x1536_2 arg13
  have v65 : A(S32x8x1536) := broadcastInDim S32x8x1536 ![0, 1, 2] bcast_S1x1x1536_S32x8x1536_0_1_2 v64
  have v66 : A(S32x8x1536) := addf v63 v65
  have v67 : A(S32x8x1536) := Host.dotGeneral dot_S32x8x512_S1536x512_S32x8x1536_2_1_01_0_n_n none s arg12
  have v68 : A(S1x1x1536) := broadcastInDim S1x1x1536 ![2] bcast_S1536_S1x1x1536_2 arg14
  have v69 : A(S32x8x1536) := broadcastInDim S32x8x1536 ![0, 1, 2] bcast_S1x1x1536_S32x8x1536_0_1_2 v68
  have v70 : A(S32x8x1536) := addf v67 v69
  have v71 : A(S32x8x512) := extractStridedSlice S32x8x512 ![0, 0, 0] v66 slices_S32x8x1536_S32x8x512_0_0_0
  have v72 : A(S32x8x512) := extractStridedSlice S32x8x512 ![0, 0, 512] v66 slices_S32x8x1536_S32x8x512_0_0_512
  have v73 : A(S32x8x512) := extractStridedSlice S32x8x512 ![0, 0, 1024] v66 slices_S32x8x1536_S32x8x512_0_0_1024
  have v74 : A(S32x8x512) := extractStridedSlice S32x8x512 ![0, 0, 0] v70 slices_S32x8x1536_S32x8x512_0_0_0
  have v75 : A(S32x8x512) := extractStridedSlice S32x8x512 ![0, 0, 512] v70 slices_S32x8x1536_S32x8x512_0_0_512
  have v76 : A(S32x8x512) := extractStridedSlice S32x8x512 ![0, 0, 1024] v70 slices_S32x8x1536_S32x8x512_0_0_1024
  have v77 : A(S32x8x512) := addf v71 v74
  have v78 : A(S32x8x512) := Host.negf v77
  have v79 : A(S32x8x512) := Host.exp v78
  have cst_11 : A(S_) := constant S_ .f32 0x3F800000#32
  have v80 : A(S32x8x512) := broadcastInDim S32x8x512 ![] bcast_S_S32x8x512 cst_11
  have v81 : A(S32x8x512) := addf v80 v79
  have cst_12 : A(S_) := constant S_ .f32 0x3F800000#32
  have v82 : A(S32x8x512) := broadcastInDim S32x8x512 ![] bcast_S_S32x8x512 cst_12
  have v83 : A(S32x8x512) := Host.divf v82 v81
  have v84 : A(S32x8x512) := addf v72 v75
  have v85 : A(S32x8x512) := Host.negf v84
  have v86 : A(S32x8x512) := Host.exp v85
  have cst_13 : A(S_) := constant S_ .f32 0x3F800000#32
  have v87 : A(S32x8x512) := broadcastInDim S32x8x512 ![] bcast_S_S32x8x512 cst_13
  have v88 : A(S32x8x512) := addf v87 v86
  have cst_14 : A(S_) := constant S_ .f32 0x3F800000#32
  have v89 : A(S32x8x512) := broadcastInDim S32x8x512 ![] bcast_S_S32x8x512 cst_14
  have v90 : A(S32x8x512) := Host.divf v89 v88
  have v91 : A(S32x8x512) := mulf v83 v76
  have v92 : A(S32x8x512) := addf v73 v91
  have v93 : A(S32x8x512) := Host.tanh v92
  have cst_15 : A(S_) := constant S_ .f32 0x3F800000#32
  have v94 : A(S32x8x512) := broadcastInDim S32x8x512 ![] bcast_S_S32x8x512 cst_15
  have v95 : A(S32x8x512) := subf v94 v90
  have v96 : A(S32x8x512) := mulf v95 v93
  have v97 : A(S32x8x512) := mulf v90 s
  addf v96 v97

def refMlp (g : A(S32x8x512)) (arg15 arg16 : A(S512)) (arg17 : A(S512x512)) (arg18 : A(S512)) (arg19 : A(S512x512))
    (arg20 : A(S512)) : A(S32x8x512) :=
  have v116 : A(S32x8x512) := refLN g arg15 arg16
  have v117 : A(S32x8x512) := Host.dotGeneral dot_S32x8x512_S512x512_S32x8x512_2_1_01_0_n_n none v116 arg17
  have v118 : A(S1x1x512) := broadcastInDim S1x1x512 ![2] bcast_S512_S1x1x512_2 arg18
  have v119 : A(S32x8x512) := broadcastInDim S32x8x512 ![0, 1, 2] bcast_S1x1x512_S32x8x512_0_1_2 v118
  have v120 : A(S32x8x512) := addf v117 v119
  have v121 : A(S32x8x512) := refRelu v120
  have v122 : A(S32x8x512) := Host.dotGeneral dot_S32x8x512_S512x512_S32x8x512_2_1_01_0_n_n none v121 arg19
  have v123 : A(S32x8x512) := addf g v122
  have v124 : A(S1x1x512) := broadcastInDim S1x1x512 ![2] bcast_S512_S1x1x512_2 arg20
  have v125 : A(S32x8x512) := broadcastInDim S32x8x512 ![0, 1, 2] bcast_S1x1x512_S32x8x512_0_1_2 v124
  addf v123 v125

def refStep (slots : A(S32x8x512)) (k v : A(S32x4096x512)) (arg6 arg7 : A(S512)) (arg8 : A(S512x512))
    (arg11 arg12 : A(S1536x512)) (arg13 arg14 : A(S1536)) (arg15 arg16 : A(S512)) (arg17 : A(S512x512))
    (arg18 : A(S512)) (arg19 : A(S512x512)) (arg20 : A(S512)) : A(S32x8x512) :=
  have v41 : A(S32x8x512) := refLN slots arg6 arg7
  have v42 : A(S32x8x512) := Host.dotGeneral dot_S32x8x512_S512x512_S32x8x512_2_1_01_0_n_n none v41 arg8
  have v61 : A(S32x8x4096) := refAttn v42 k
  have v62 : A(S32x8x512) := Host.dotGeneral dot_S32x8x4096_S32x4096x512_S32x8x512_2_1_1_2_0_0 none v61 v
  have v98 : A(S32x8x512) := refGru v62 slots arg11 arg12 arg13 arg14
  refMlp v98 arg15 arg16 arg17 arg18 arg19 arg20

def rW (arg6 arg7 : (⟨S512, .f32⟩ : BufTy).Contents (Elt Ideal)) (arg8 : (⟨S512x512, .f32⟩ : BufTy).Contents (Elt Ideal))
    (arg11 arg12 : (⟨S1536x512, .f32⟩ : BufTy).Contents (Elt Ideal)) (arg13 arg14 : (⟨S1536, .f32⟩ : BufTy).Contents (Elt Ideal))
    (arg15 arg16 : (⟨S512, .f32⟩ : BufTy).Contents (Elt Ideal)) (arg17 : (⟨S512x512, .f32⟩ : BufTy).Contents (Elt Ideal))
    (arg18 : (⟨S512, .f32⟩ : BufTy).Contents (Elt Ideal)) (arg19 : (⟨S512x512, .f32⟩ : BufTy).Contents (Elt Ideal))
    (arg20 : (⟨S512, .f32⟩ : BufTy).Contents (Elt Ideal)) : Cert.Spec.Weights where
  ln_s_g k := arg6 (ix1 k)
  ln_s_b k := arg7 (ix1 k)
  wq e d := arg8 (ix2 e d)
  w_ih j k := arg11 (ix2 j k)
  w_hh j k := arg12 (ix2 j k)
  b_ih j := arg13 (ix1 j)
  b_hh j := arg14 (ix1 j)
  ln_m_g k := arg15 (ix1 k)
  ln_m_b k := arg16 (ix1 k)
  w1 e k := arg17 (ix2 e k)
  b1 e := arg18 (ix1 e)
  w2 e k := arg19 (ix2 e k)
  b2 e := arg20 (ix1 e)

end Cert.ReferenceIdeal.RefStep

end
-- ==== Proof.RefUnfoldIter.lean ====
import proofs.«417374_j33956011442443_3_alg».proof.Proof.RefRunStages
import proofs.«417374_j33956011442443_3_alg».proof.Proof.RefStepDef

set_option maxRecDepth 8192

noncomputable section

namespace Cert.ReferenceIdeal.RefValue

open Cert.ReferenceIdeal Cert.ReferenceIdeal.Gen Cert.ReferenceIdeal.RefRun Cert.ReferenceIdeal.RefStep Cert.ReferenceIdeal.RefVar
open Idealize.ShloMosaic Idealize.ShloMosaic.TcCoe Idealize.SL.Sem Idealize.ShloMosaic.StableHlo

variable {F : FTy → Type} [FloatOps F]

theorem res_main_v41_eq (V0 : Valuation τ sig (Elt F)) :
    res_main_v41 V0 = refLN (res_main_v3 V0) (V0 (Proc.devRef .tc main_arg6)) (V0 (Proc.devRef .tc main_arg7)) := rfl

theorem res_main_v42_eq (V0 : Valuation τ sig (Elt F)) :
    res_main_v42 V0 = Host.dotGeneral dot_S32x8x512_S512x512_S32x8x512_2_1_01_0_n_n none (res_main_v41 V0) (V0 (Proc.devRef .tc main_arg8)) := rfl

theorem res_main_v61_eq (V0 : Valuation τ sig (Elt F)) :
    res_main_v61 V0 = refAttn (res_main_v42 V0) (res_main_v22 V0) := rfl

theorem res_main_v62_eq (V0 : Valuation τ sig (Elt F)) :
    res_main_v62 V0 = Host.dotGeneral dot_S32x8x4096_S32x4096x512_S32x8x512_2_1_1_2_0_0 none (res_main_v61 V0) (res_main_v23 V0) := rfl

theorem res_main_v98_eq (V0 : Valuation τ sig (Elt F)) :
    res_main_v98 V0 = refGru (res_main_v62 V0) (res_main_v3 V0) (V0 (Proc.devRef .tc main_arg11)) (V0 (Proc.devRef .tc main_arg12)) (V0 (Proc.devRef .tc main_arg13)) (V0 (Proc.devRef .tc main_arg14)) := rfl

theorem res_main_v116_eq (V0 : Valuation τ sig (Elt F)) :
    res_main_v116 V0 = refLN (res_main_v98 V0) (V0 (Proc.devRef .tc main_arg15)) (V0 (Proc.devRef .tc main_arg16)) := rfl

theorem res_main_v126_mlp (V0 : Valuation τ sig (Elt F)) :
    res_main_v126 V0 = refMlp (res_main_v98 V0) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) := by
  unfold refMlp
  rw [← res_main_v116_eq V0]
  unfold refRelu
    res_main_v126 res_main_v125 res_main_v124 res_main_v123 res_main_v122 res_main_v121 res_main_call3_v0
    res_main_call3_cst res_main_v120 res_main_v119 res_main_v118 res_main_v117
  rfl

theorem res_main_v126_eq (V0 : Valuation τ sig (Elt F)) :
    res_main_v126 V0 = refStep (res_main_v3 V0) (res_main_v22 V0) (res_main_v23 V0)
      (V0 (Proc.devRef .tc main_arg6)) (V0 (Proc.devRef .tc main_arg7)) (V0 (Proc.devRef .tc main_arg8)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) := by
  rw [res_main_v126_mlp V0, res_main_v98_eq V0, res_main_v62_eq V0, res_main_v61_eq V0,
    res_main_v42_eq V0, res_main_v41_eq V0]
  rfl

theorem res_main_v144_eq (V0 : Valuation τ sig (Elt F)) :
    res_main_v144 V0 = refLN (res_main_v126 V0) (V0 (Proc.devRef .tc main_arg6)) (V0 (Proc.devRef .tc main_arg7)) := rfl

theorem res_main_v145_eq (V0 : Valuation τ sig (Elt F)) :
    res_main_v145 V0 = Host.dotGeneral dot_S32x8x512_S512x512_S32x8x512_2_1_01_0_n_n none (res_main_v144 V0) (V0 (Proc.devRef .tc main_arg8)) := rfl

theorem res_main_v164_eq (V0 : Valuation τ sig (Elt F)) :
    res_main_v164 V0 = refAttn (res_main_v145 V0) (res_main_v22 V0) := rfl

theorem res_main_v165_eq (V0 : Valuation τ sig (Elt F)) :
    res_main_v165 V0 = Host.dotGeneral dot_S32x8x4096_S32x4096x512_S32x8x512_2_1_1_2_0_0 none (res_main_v164 V0) (res_main_v23 V0) := rfl

theorem res_main_v201_eq (V0 : Valuation τ sig (Elt F)) :
    res_main_v201 V0 = refGru (res_main_v165 V0) (res_main_v126 V0) (V0 (Proc.devRef .tc main_arg11)) (V0 (Proc.devRef .tc main_arg12)) (V0 (Proc.devRef .tc main_arg13)) (V0 (Proc.devRef .tc main_arg14)) := rfl

theorem res_main_v219_eq (V0 : Valuation τ sig (Elt F)) :
    res_main_v219 V0 = refLN (res_main_v201 V0) (V0 (Proc.devRef .tc main_arg15)) (V0 (Proc.devRef .tc main_arg16)) := rfl

theorem res_main_v229_mlp (V0 : Valuation τ sig (Elt F)) :
    res_main_v229 V0 = refMlp (res_main_v201 V0) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) := by
  unfold refMlp
  rw [← res_main_v219_eq V0]
  unfold refRelu
    res_main_v229 res_main_v228 res_main_v227 res_main_v226 res_main_v225 res_main_v224 res_main_call6_v0
    res_main_call6_cst res_main_v223 res_main_v222 res_main_v221 res_main_v220
  rfl

theorem res_main_v229_eq (V0 : Valuation τ sig (Elt F)) :
    res_main_v229 V0 = refStep (res_main_v126 V0) (res_main_v22 V0) (res_main_v23 V0)
      (V0 (Proc.devRef .tc main_arg6)) (V0 (Proc.devRef .tc main_arg7)) (V0 (Proc.devRef .tc main_arg8)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) := by
  rw [res_main_v229_mlp V0, res_main_v201_eq V0, res_main_v165_eq V0, res_main_v164_eq V0,
    res_main_v145_eq V0, res_main_v144_eq V0]
  rfl

theorem res_main_v247_eq (V0 : Valuation τ sig (Elt F)) :
    res_main_v247 V0 = refLN (res_main_v229 V0) (V0 (Proc.devRef .tc main_arg6)) (V0 (Proc.devRef .tc main_arg7)) := rfl

theorem res_main_v248_eq (V0 : Valuation τ sig (Elt F)) :
    res_main_v248 V0 = Host.dotGeneral dot_S32x8x512_S512x512_S32x8x512_2_1_01_0_n_n none (res_main_v247 V0) (V0 (Proc.devRef .tc main_arg8)) := rfl

theorem res_main_v267_eq (V0 : Valuation τ sig (Elt F)) :
    res_main_v267 V0 = refAttn (res_main_v248 V0) (res_main_v22 V0) := rfl

theorem res_main_v268_eq (V0 : Valuation τ sig (Elt F)) :
    res_main_v268 V0 = Host.dotGeneral dot_S32x8x4096_S32x4096x512_S32x8x512_2_1_1_2_0_0 none (res_main_v267 V0) (res_main_v23 V0) := rfl

theorem res_main_v304_eq (V0 : Valuation τ sig (Elt F)) :
    res_main_v304 V0 = refGru (res_main_v268 V0) (res_main_v229 V0) (V0 (Proc.devRef .tc main_arg11)) (V0 (Proc.devRef .tc main_arg12)) (V0 (Proc.devRef .tc main_arg13)) (V0 (Proc.devRef .tc main_arg14)) := rfl

theorem res_main_v322_eq (V0 : Valuation τ sig (Elt F)) :
    res_main_v322 V0 = refLN (res_main_v304 V0) (V0 (Proc.devRef .tc main_arg15)) (V0 (Proc.devRef .tc main_arg16)) := rfl

theorem res_main_v332_mlp (V0 : Valuation τ sig (Elt F)) :
    res_main_v332 V0 = refMlp (res_main_v304 V0) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) := by
  unfold refMlp
  rw [← res_main_v322_eq V0]
  unfold refRelu
    res_main_v332 res_main_v331 res_main_v330 res_main_v329 res_main_v328 res_main_v327 res_main_call9_v0
    res_main_call9_cst res_main_v326 res_main_v325 res_main_v324 res_main_v323
  rfl

theorem res_main_v332_eq (V0 : Valuation τ sig (Elt F)) :
    res_main_v332 V0 = refStep (res_main_v229 V0) (res_main_v22 V0) (res_main_v23 V0)
      (V0 (Proc.devRef .tc main_arg6)) (V0 (Proc.devRef .tc main_arg7)) (V0 (Proc.devRef .tc main_arg8)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) := by
  rw [res_main_v332_mlp V0, res_main_v304_eq V0, res_main_v268_eq V0, res_main_v267_eq V0,
    res_main_v248_eq V0, res_main_v247_eq V0]
  rfl

end Cert.ReferenceIdeal.RefValue

end
-- ==== Proof.RefStepRead.lean ====
import proofs.«417374_j33956011442443_3_alg».proof.Proof.RefStepDef
import Idealize.ShloMosaic.Lib.IdealHost
import Idealize.ShloMosaic.Lib.Pipeline.Value
import Idealize.ShloMosaic.Lib.ValueIdx
import Idealize.ShloMosaic.PureOps.Ideal.Laws

noncomputable section

namespace Cert.ReferenceIdeal.RefStep

open Cert.ReferenceIdeal Idealize.ShloMosaic Idealize.ShloMosaic.ValueIdx
open Facts₀

section Layout
variable {α : Type}

-- An axis the broadcast keeps is read where it is indexed (an axis of size one has no other index).
theorem keep_axis {n : ℕ} (p : Fin n) : p.val = if n = 1 then 0 else p.val := by
  split
  · have := p.isLt; omega
  · rfl

theorem bcast_ab_ab1_apply {a b : ℕ} (h : (⟨2, ![a, b]⟩ : Shape).BroadcastsInDim ⟨3, ![a, b, 1]⟩ ![0, 1])
    (v : (⟨2, ![a, b]⟩ : Shape).Idx → α) (p : Fin a) (q : Fin b) (u : Fin 1) :
    broadcastInDim ⟨3, ![a, b, 1]⟩ ![0, 1] h v (ix3 p q u) = v (ix2 p q) := by
  refine broadcastInDim_apply _ h v _ (ix2 p q) fun ax => ?_
  match ax with
  | ⟨0, _⟩ => exact keep_axis p
  | ⟨1, _⟩ => exact keep_axis q

theorem bcast_ab1_abc_apply {a b c : ℕ} (h : (⟨3, ![a, b, 1]⟩ : Shape).BroadcastsInDim ⟨3, ![a, b, c]⟩ ![0, 1, 2])
    (v : (⟨3, ![a, b, 1]⟩ : Shape).Idx → α) (p : Fin a) (q : Fin b) (r : Fin c) :
    broadcastInDim ⟨3, ![a, b, c]⟩ ![0, 1, 2] h v (ix3 p q r) = v (ix3 p q (0 : Fin 1)) := by
  refine broadcastInDim_apply _ h v _ (ix3 p q (0 : Fin 1)) fun ax => ?_
  match ax with
  | ⟨0, _⟩ => exact keep_axis p
  | ⟨1, _⟩ => exact keep_axis q
  | ⟨2, _⟩ => rfl

theorem bcast_c_11c_apply {c : ℕ} (h : (⟨1, ![c]⟩ : Shape).BroadcastsInDim ⟨3, ![1, 1, c]⟩ ![2])
    (g : (⟨1, ![c]⟩ : Shape).Idx → α) (p q : Fin 1) (r : Fin c) :
    broadcastInDim ⟨3, ![1, 1, c]⟩ ![2] h g (ix3 p q r) = g (ix1 r) := by
  refine broadcastInDim_apply _ h g _ (ix1 r) fun ax => ?_
  match ax with
  | ⟨0, _⟩ => exact keep_axis r

theorem bcast_11c_abc_apply {a b c : ℕ} (h : (⟨3, ![1, 1, c]⟩ : Shape).BroadcastsInDim ⟨3, ![a, b, c]⟩ ![0, 1, 2])
    (v : (⟨3, ![1, 1, c]⟩ : Shape).Idx → α) (p : Fin a) (q : Fin b) (r : Fin c) :
    broadcastInDim ⟨3, ![a, b, c]⟩ ![0, 1, 2] h v (ix3 p q r) = v (ix3 (0 : Fin 1) (0 : Fin 1) r) := by
  refine broadcastInDim_apply _ h v _ (ix3 (0 : Fin 1) (0 : Fin 1) r) fun ax => ?_
  match ax with
  | ⟨0, _⟩ => rfl
  | ⟨1, _⟩ => rfl
  | ⟨2, _⟩ => exact keep_axis r

end Layout

theorem ofBits_neg_inf_f32 : Ideal.ofBits .f32 0xFF800000#32 = ⊥ := by simp [Ideal.ofBits, Ideal.ieee]

theorem reduceAdd_last_apply {a b n : ℕ} (h' : (⟨3, ![a, b, n]⟩ : Shape).ReducesTo [2] ⟨2, ![a, b]⟩)
    (h : (⟨3, ![a, b, n]⟩ : Shape).Reduces [2] ⟨2, ![a, b]⟩) (hu : 0 < (⟨0, ![]⟩ : Shape).numel)
    (x : FVec Ideal ⟨3, ![a, b, n]⟩ .f32) (p : Fin a) (q : Fin b) :
    Host.reduceAdd x (constant ⟨0, ![]⟩ .f32 0x00000000#32) h' hu (ix2 p q) = ∑ k : Fin n, x (ix3 p q k) := by
  rw [hostReduceAdd_apply, Ideal.hostReduceAdd_single h' h, constant_apply, Ideal.ofBits_zero_f32, zero_add]
  refine Finset.sum_congr rfl fun k _ => congrArg x ?_
  funext c
  apply Fin.ext
  match c with
  | ⟨0, _⟩ => rfl
  | ⟨1, _⟩ => rfl
  | ⟨2, _⟩ => rfl

theorem reduceMax_last_apply {a b n : ℕ} (h' : (⟨3, ![a, b, n]⟩ : Shape).ReducesTo [2] ⟨2, ![a, b]⟩)
    (h : (⟨3, ![a, b, n]⟩ : Shape).Reduces [2] ⟨2, ![a, b]⟩) (hu : 0 < (⟨0, ![]⟩ : Shape).numel)
    (x : FVec Ideal ⟨3, ![a, b, n]⟩ .f32) (p : Fin a) (q : Fin b) :
    Host.reduce FloatOps.maximumf x (constant ⟨0, ![]⟩ .f32 0xFF800000#32) h' hu (ix2 p q)
      = Finset.univ.sup fun k : Fin n => x (ix3 p q k) := by
  rw [Host.reduce_eq_fold_single FloatOps.maximumf x _ h' h hu, constant_apply, ofBits_neg_inf_f32]
  have e : (x ∘ h.lift (ix2 p q)) = fun k : Fin n => x (ix3 p q k) := by
    funext k
    refine congrArg x ?_
    funext c
    apply Fin.ext
    match c with
    | ⟨0, _⟩ => rfl
    | ⟨1, _⟩ => rfl
    | ⟨2, _⟩ => rfl
  rw [e]
  rfl

variable [Facts₀]

theorem dot_apply_of {sl sr so : Shape} (D : DotDims sl sr so) (n : ℕ) (hr : D.contr.rank = 1)
    (hs : D.contr.size ⟨0, by omega⟩ = n) (x : FVec Ideal sl .f32) (w : FVec Ideal sr .f32) (j : so.Idx)
    (L : Fin n → sl.Idx) (R : Fin n → sr.Idx)
    (hl : ∀ d, D.lhsIdx j ((contrEquiv1 D n hr hs).symm d) = L d)
    (hR : ∀ d, D.rhsIdx j ((contrEquiv1 D n hr hs).symm d) = R d) :
    Host.dotGeneral D none x w j = ∑ d : Fin n, x (L d) * w (R d) := by
  simp only [Host.dotGeneral]
  rw [Ideal.dotGeneral_apply, ← Equiv.sum_comp (contrEquiv1 D n hr hs).symm]
  exact Finset.sum_congr rfl fun d _ => by rw [hl d, hR d]

theorem dotW512_apply (x : FVec Ideal S32x8x512 .f32) (w : FVec Ideal S512x512 .f32) (b : Fin 32) (i : Fin 8) (e : Fin 512) :
    Host.dotGeneral dot_S32x8x512_S512x512_S32x8x512_2_1_01_0_n_n none x w (ix3 b i e)
      = ∑ d : Fin 512, x (ix3 b i d) * w (ix2 e d) :=
  dot_apply_of dot_S32x8x512_S512x512_S32x8x512_2_1_01_0_n_n 512 rfl rfl x w (ix3 b i e) (fun d => ix3 b i d) (fun d => ix2 e d)
    (fun d => funext fun c => Fin.ext (match c with | ⟨0, _⟩ => rfl | ⟨1, _⟩ => rfl | ⟨2, _⟩ => contrEquiv1_symm_val dot_S32x8x512_S512x512_S32x8x512_2_1_01_0_n_n 512 rfl rfl d))
    (fun d => funext fun c => Fin.ext (match c with | ⟨0, _⟩ => rfl | ⟨1, _⟩ => contrEquiv1_symm_val dot_S32x8x512_S512x512_S32x8x512_2_1_01_0_n_n 512 rfl rfl d))

theorem dotW1536_apply (x : FVec Ideal S32x8x512 .f32) (w : FVec Ideal S1536x512 .f32) (b : Fin 32) (i : Fin 8) (j : Fin 1536) :
    Host.dotGeneral dot_S32x8x512_S1536x512_S32x8x1536_2_1_01_0_n_n none x w (ix3 b i j)
      = ∑ d : Fin 512, x (ix3 b i d) * w (ix2 j d) :=
  dot_apply_of dot_S32x8x512_S1536x512_S32x8x1536_2_1_01_0_n_n 512 rfl rfl x w (ix3 b i j) (fun d => ix3 b i d) (fun d => ix2 j d)
    (fun d => funext fun c => Fin.ext (match c with | ⟨0, _⟩ => rfl | ⟨1, _⟩ => rfl | ⟨2, _⟩ => contrEquiv1_symm_val dot_S32x8x512_S1536x512_S32x8x1536_2_1_01_0_n_n 512 rfl rfl d))
    (fun d => funext fun c => Fin.ext (match c with | ⟨0, _⟩ => rfl | ⟨1, _⟩ => contrEquiv1_symm_val dot_S32x8x512_S1536x512_S32x8x1536_2_1_01_0_n_n 512 rfl rfl d))

theorem dotLogit_apply (k : FVec Ideal S32x4096x512 .f32) (q : FVec Ideal S32x8x512 .f32) (b : Fin 32) (t : Fin 4096) (i : Fin 8) :
    Host.dotGeneral dot_S32x4096x512_S32x8x512_S32x4096x8_2_2_1_1_0_0 none k q (ix3 b t i)
      = ∑ e : Fin 512, k (ix3 b t e) * q (ix3 b i e) :=
  dot_apply_of dot_S32x4096x512_S32x8x512_S32x4096x8_2_2_1_1_0_0 512 rfl rfl k q (ix3 b t i) (fun e => ix3 b t e) (fun e => ix3 b i e)
    (fun e => funext fun c => Fin.ext (match c with | ⟨0, _⟩ => rfl | ⟨1, _⟩ => rfl | ⟨2, _⟩ => contrEquiv1_symm_val dot_S32x4096x512_S32x8x512_S32x4096x8_2_2_1_1_0_0 512 rfl rfl e))
    (fun e => funext fun c => Fin.ext (match c with | ⟨0, _⟩ => rfl | ⟨1, _⟩ => rfl | ⟨2, _⟩ => contrEquiv1_symm_val dot_S32x4096x512_S32x8x512_S32x4096x8_2_2_1_1_0_0 512 rfl rfl e))

theorem dotUpdate_apply (a : FVec Ideal S32x8x4096 .f32) (v : FVec Ideal S32x4096x512 .f32) (b : Fin 32) (i : Fin 8) (k : Fin 512) :
    Host.dotGeneral dot_S32x8x4096_S32x4096x512_S32x8x512_2_1_1_2_0_0 none a v (ix3 b i k)
      = ∑ t : Fin 4096, a (ix3 b i t) * v (ix3 b t k) :=
  dot_apply_of dot_S32x8x4096_S32x4096x512_S32x8x512_2_1_1_2_0_0 4096 rfl rfl a v (ix3 b i k) (fun t => ix3 b i t) (fun t => ix3 b t k)
    (fun t => funext fun c => Fin.ext (match c with | ⟨0, _⟩ => rfl | ⟨1, _⟩ => rfl | ⟨2, _⟩ => contrEquiv1_symm_val dot_S32x8x4096_S32x4096x512_S32x8x512_2_1_1_2_0_0 4096 rfl rfl t))
    (fun t => funext fun c => Fin.ext (match c with | ⟨0, _⟩ => rfl | ⟨1, _⟩ => contrEquiv1_symm_val dot_S32x8x4096_S32x4096x512_S32x8x512_2_1_1_2_0_0 4096 rfl rfl t | ⟨2, _⟩ => rfl))

end Cert.ReferenceIdeal.RefStep

end
-- ==== Proof.RefStepAttn.lean ====
import proofs.«417374_j33956011442443_3_alg».proof.Proof.RefStepRead
import Idealize.ShloMosaic.Lib.ValueLayout

noncomputable section

namespace Cert.ReferenceIdeal.RefStep

open Cert.ReferenceIdeal Idealize.ShloMosaic Idealize.ShloMosaic.ValueIdx
open Facts₀

variable [Facts₀]

theorem hostExp_at {s : Shape} (a : FVec Ideal s .f32) (i : s.Idx) : Host.exp a i = Ideal.exp (a i) := rfl

theorem slotSum_apply (y : FVec Ideal S32x4096x8 .f32) (h1 : S32x4096x1.BroadcastsInDim S32x4096x8 ![0, 1, 2])
    (h2 : S32x4096.BroadcastsInDim S32x4096x1 ![0, 1]) (h3 : S32x4096x8.ReducesTo [2] S32x4096) (hu : 0 < S_.numel)
    (b : Fin 32) (t : Fin 4096) (j : Fin 8) :
    broadcastInDim S32x4096x8 ![0, 1, 2] h1 (broadcastInDim S32x4096x1 ![0, 1] h2
        (Host.reduceAdd y (constant S_ .f32 0x00000000#32) h3 hu)) (ix3 b t j)
      = ∑ j' : Fin 8, y (ix3 b t j') := by
  rw [bcast_ab1_abc_apply, bcast_ab_ab1_apply, reduceAdd_last_apply h3 (by decide)]

theorem slotMax_apply (l : FVec Ideal S32x4096x8 .f32) (h1 : S32x4096x1.BroadcastsInDim S32x4096x8 ![0, 1, 2])
    (h2 : S32x4096.BroadcastsInDim S32x4096x1 ![0, 1]) (h0 : S_.BroadcastsInDim S32x4096 ![])
    (h3 : S32x4096x8.ReducesTo [2] S32x4096) (hu : 0 < S_.numel) (b : Fin 32) (t : Fin 4096) (j : Fin 8) :
    broadcastInDim S32x4096x8 ![0, 1, 2] h1 (broadcastInDim S32x4096x1 ![0, 1] h2
        (maximumf (broadcastInDim S32x4096 ![] h0 (constant S_ .f32 0xFF800000#32))
          (Host.reduce FloatOps.maximumf l (constant S_ .f32 0xFF800000#32) h3 hu))) (ix3 b t j)
      = Finset.univ.sup fun j' : Fin 8 => l (ix3 b t j') := by
  rw [bcast_ab1_abc_apply, bcast_ab_ab1_apply, maximumf_apply, broadcastInDim_scalar_apply, constant_apply,
    ofBits_neg_inf_f32, reduceMax_last_apply h3 (by decide)]
  exact max_eq_right bot_le

theorem refAttn_eq (var : (Fin 8 → Fin 512 → EReal) → Fin 8 → EReal) (W : Cert.Spec.Weights)
    (K : Fin 4096 → Fin 512 → EReal) (sS : Fin 8 → Fin 512 → EReal)
    (q : FVec Ideal S32x8x512 .f32) (k : FVec Ideal S32x4096x512 .f32) (b : Fin 32)
    (hq : ∀ i e, q (ix3 b i e) = Cert.Spec.query var W sS i e) (hK : ∀ t e, k (ix3 b t e) = K t e)
    (i : Fin 8) (t : Fin 4096) :
    refAttn (F := Ideal) q k (ix3 b i t) = Cert.Spec.attn var W K sS i t := by
  unfold refAttn
  simp only []
  generalize hl : Host.dotGeneral dot_S32x4096x512_S32x8x512_S32x4096x8_2_2_1_1_0_0 none k q = l
  have hlog : ∀ j : Fin 8, l (ix3 b t j) = Cert.Spec.logit var W K sS j t := fun j => by
    rw [← hl, dotLogit_apply]
    unfold Cert.Spec.logit
    exact Finset.sum_congr rfl fun e _ => by rw [hq j e, hK t e, mul_comm]
  generalize hex : Host.exp (subf l (broadcastInDim S32x4096x8 ![0, 1, 2] bcast_S32x4096x1_S32x4096x8_0_1_2
        (broadcastInDim S32x4096x1 ![0, 1] bcast_S32x4096_S32x4096x1_0_1
          (maximumf (broadcastInDim S32x4096 ![] bcast_S_S32x4096 (constant S_ .f32 0xFF800000#32))
            (Host.reduce FloatOps.maximumf l (constant S_ .f32 0xFF800000#32) reducesTo_S32x4096x8_S32x4096_d2 h_S_))))) = ex
  have hexp : ∀ j : Fin 8, ex (ix3 b t j) = Cert.Spec.expo var W K sS j t := fun j => by
    rw [← hex, hostExp_at, subf_apply, slotMax_apply, hlog j]
    unfold Cert.Spec.expo Cert.Spec.logitMax
    exact congrArg (fun m => Ideal.exp (Cert.Spec.logit var W K sS j t - m))
      (Finset.sup_congr rfl fun j' _ => hlog j')
  generalize hsm : addf (Host.divf ex (broadcastInDim S32x4096x8 ![0, 1, 2] bcast_S32x4096x1_S32x4096x8_0_1_2
          (broadcastInDim S32x4096x1 ![0, 1] bcast_S32x4096_S32x4096x1_0_1
            (Host.reduceAdd ex (constant S_ .f32 0x00000000#32) reducesTo_S32x4096x8_S32x4096_d2 h_S_))))
        (broadcastInDim S32x4096x8 ![] bcast_S_S32x4096x8 (constant S_ .f32 0x322BCC77#32)) = sm
  have hsoft : ∀ j : Fin 8, sm (ix3 b t j) = Cert.Spec.softEps var W K sS j t := fun j => by
    rw [← hsm, addf_apply, hostDivf_apply, slotSum_apply, broadcastInDim_scalar_apply, constant_apply, hexp j]
    unfold Cert.Spec.softEps Cert.Spec.epsA
    exact congrArg (fun m => Ideal.div (Cert.Spec.expo var W K sS j t) m + Ideal.ofBits .f32 0x322BCC77#32)
      (Finset.sum_congr rfl fun j' _ => hexp j')
  rw [transpose_ix3_021_apply, hostDivf_apply, slotSum_apply, hsoft i]
  unfold Cert.Spec.attn
  exact congrArg (fun m => Ideal.div (Cert.Spec.softEps var W K sS i t) m)
    (Finset.sum_congr rfl fun j' _ => hsoft j')

theorem refUpdate_eq (var : (Fin 8 → Fin 512 → EReal) → Fin 8 → EReal) (W : Cert.Spec.Weights)
    (K V : Fin 4096 → Fin 512 → EReal) (sS : Fin 8 → Fin 512 → EReal)
    (q : FVec Ideal S32x8x512 .f32) (k v : FVec Ideal S32x4096x512 .f32) (b : Fin 32)
    (hq : ∀ i e, q (ix3 b i e) = Cert.Spec.query var W sS i e) (hK : ∀ t e, k (ix3 b t e) = K t e)
    (hV : ∀ t e, v (ix3 b t e) = V t e) (i : Fin 8) (c : Fin 512) :
    Host.dotGeneral (φ₁ := .f32) dot_S32x8x4096_S32x4096x512_S32x8x512_2_1_1_2_0_0 none (refAttn (F := Ideal) q k) v (ix3 b i c)
      = Cert.Spec.update var W K V sS i c := by
  rw [dotUpdate_apply]
  unfold Cert.Spec.update
  exact Finset.sum_congr rfl fun t _ => by rw [refAttn_eq var W K sS q k b hq hK i t, hV t c]

end Cert.ReferenceIdeal.RefStep

end
-- ==== Proof.RefStepTail.lean ====
import proofs.«417374_j33956011442443_3_alg».proof.Proof.RefStepRead
import Idealize.ShloMosaic.Lib.IdealHost
import Idealize.ShloMosaic.Lib.Pipeline.Value
import Idealize.ShloMosaic.Lib.ValueIdx

noncomputable section

namespace Cert.ReferenceIdeal.RefStep

open Cert.ReferenceIdeal Idealize.ShloMosaic Idealize.ShloMosaic.ValueIdx
open Cert.ReferenceIdeal.RefVar
open Facts₀

variable [Facts₀]

section Tail

theorem hostNegf_apply {s : Shape} (a : FVec Ideal s .f32) (j : s.Idx) : Host.negf a j = -(a j) := rfl
theorem hostExp_apply {s : Shape} (a : FVec Ideal s .f32) (j : s.Idx) : Host.exp a j = Ideal.exp (a j) := rfl
theorem hostTanh_apply {s : Shape} (a : FVec Ideal s .f32) (j : s.Idx) : Host.tanh a j = Ideal.tanh (a j) := rfl

theorem slice_band0 {α : Type} (v : S32x8x1536.Idx → α) (b : Fin 32) (i : Fin 8) (k : Fin 512) :
    extractStridedSlice S32x8x512 ![0, 0, 0] v slices_S32x8x1536_S32x8x512_0_0_0 (ix3 b i k) = v (ix3 b i (Cert.Spec.band0 k)) := by
  refine extractStridedSlice_apply _ _ _ _ _ fun a => ?_
  match a with
  | ⟨0, _⟩ => exact (Nat.zero_add _).symm
  | ⟨1, _⟩ => exact (Nat.zero_add _).symm
  | ⟨2, _⟩ => exact (Nat.zero_add _).symm
theorem slice_band1 {α : Type} (v : S32x8x1536.Idx → α) (b : Fin 32) (i : Fin 8) (k : Fin 512) :
    extractStridedSlice S32x8x512 ![0, 0, 512] v slices_S32x8x1536_S32x8x512_0_0_512 (ix3 b i k) = v (ix3 b i (Cert.Spec.band1 k)) := by
  refine extractStridedSlice_apply _ _ _ _ _ fun a => ?_
  match a with
  | ⟨0, _⟩ => exact (Nat.zero_add _).symm
  | ⟨1, _⟩ => exact (Nat.zero_add _).symm
  | ⟨2, _⟩ => rfl
theorem slice_band2 {α : Type} (v : S32x8x1536.Idx → α) (b : Fin 32) (i : Fin 8) (k : Fin 512) :
    extractStridedSlice S32x8x512 ![0, 0, 1024] v slices_S32x8x1536_S32x8x512_0_0_1024 (ix3 b i k) = v (ix3 b i (Cert.Spec.band2 k)) := by
  refine extractStridedSlice_apply _ _ _ _ _ fun a => ?_
  match a with
  | ⟨0, _⟩ => exact (Nat.zero_add _).symm
  | ⟨1, _⟩ => exact (Nat.zero_add _).symm
  | ⟨2, _⟩ => rfl

theorem gate_apply (x : FVec Ideal S32x8x512 .f32) (w : FVec Ideal S1536x512 .f32) (bias : FVec Ideal S1536 .f32)
    (b : Fin 32) (i : Fin 8) (j : Fin 1536) :
    addf (Host.dotGeneral dot_S32x8x512_S1536x512_S32x8x1536_2_1_01_0_n_n none x w)
        (broadcastInDim S32x8x1536 ![0, 1, 2] bcast_S1x1x1536_S32x8x1536_0_1_2
          (broadcastInDim S1x1x1536 ![2] bcast_S1536_S1x1x1536_2 bias)) (ix3 b i j)
      = Cert.Spec.lin (fun i d => x (ix3 b i d)) (fun e d => w (ix2 e d)) i j + bias (ix1 j) := by
  rw [addf_apply, dotW1536_apply, bcast_11c_abc_apply, bcast_c_11c_apply]
  rfl

-- The contents of an f32 buffer of a given shape.
private abbrev C (s : Shape) := (⟨s, .f32⟩ : BufTy).Contents (Elt Ideal)

variable (u s g : C S32x8x512) (arg6 arg7 : C S512) (arg8 : C S512x512) (arg11 arg12 : C S1536x512) (arg13 arg14 : C S1536)
  (arg15 arg16 : C S512) (arg17 : C S512x512) (arg18 : C S512) (arg19 : C S512x512) (arg20 : C S512)

theorem refGru_eq (var : (Fin 8 → Fin 512 → EReal) → Fin 8 → EReal) (K V : Fin 4096 → Fin 512 → EReal) (sS : Fin 8 → Fin 512 → EReal)
    (b : Fin 32) (hs : ∀ i k, s (ix3 b i k) = sS i k)
    (hu : ∀ i k, u (ix3 b i k) = Cert.Spec.update var (rW arg6 arg7 arg8 arg11 arg12 arg13 arg14 arg15 arg16 arg17 arg18 arg19 arg20) K V sS i k)
    (i : Fin 8) (k : Fin 512) :
    refGru (F := Ideal) u s arg11 arg12 arg13 arg14 (ix3 b i k) = Cert.Spec.gru var (rW arg6 arg7 arg8 arg11 arg12 arg13 arg14 arg15 arg16 arg17 arg18 arg19 arg20) K V sS i k := by
  have hU : (fun i d => u (ix3 b i d)) = Cert.Spec.update var (rW arg6 arg7 arg8 arg11 arg12 arg13 arg14 arg15 arg16 arg17 arg18 arg19 arg20) K V sS :=
    funext fun i => funext fun d => hu i d
  have hS : (fun i d => s (ix3 b i d)) = sS := funext fun i => funext fun d => hs i d
  unfold refGru
  simp only [addf_apply, mulf_apply, subf_apply, hostDivf_apply, hostNegf_apply, hostExp_apply, hostTanh_apply]
  rw [broadcastInDim_scalar_apply, constant_apply, slice_band0, slice_band0, slice_band1, slice_band1, slice_band2, slice_band2,
    gate_apply, gate_apply, gate_apply, gate_apply, gate_apply, gate_apply, hU, hS, hs]
  unfold Cert.Spec.gru Cert.Spec.gruZ Cert.Spec.gruN Cert.Spec.gruR Cert.Spec.gateI Cert.Spec.gateH Cert.Spec.one32
  rw [Ideal.ofBits_one_f32]
  rfl

theorem hostRsqrt_apply {s : Shape} (a : FVec Ideal s .f32) (j : s.Idx) : Host.rsqrt a j = Ideal.rsqrt (a j) := rfl

theorem refLN_eq (x : C S32x8x512) (g b : C S512) (bb : Fin 32) (i : Fin 8) (k : Fin 512) :
    refLN (F := Ideal) x g b (ix3 bb i k)
      = Cert.Spec.layerNorm Cert.Spec.varCentred (fun i k => x (ix3 bb i k)) (fun k => g (ix1 k)) (fun k => b (ix1 k)) i k := by
  unfold refLN
  simp only [addf_apply, mulf_apply, subf_apply]
  rw [bcast_col, bcast_col, meanAt, hostRsqrt_apply, addf_apply, refVar8_eq, broadcastInDim_scalar_apply, constant_apply,
    bcast_11c_abc_apply, bcast_c_11c_apply, bcast_11c_abc_apply, bcast_c_11c_apply]
  rfl

theorem refMlp_eq (K V : Fin 4096 → Fin 512 → EReal) (sS : Fin 8 → Fin 512 → EReal) (bb : Fin 32)
    (hg : ∀ i k, g (ix3 bb i k) = Cert.Spec.gru Cert.Spec.varCentred (rW arg6 arg7 arg8 arg11 arg12 arg13 arg14 arg15 arg16 arg17 arg18 arg19 arg20) K V sS i k)
    (i : Fin 8) (e : Fin 512) :
    refMlp (F := Ideal) g arg15 arg16 arg17 arg18 arg19 arg20 (ix3 bb i e)
      = Cert.Spec.step Cert.Spec.varCentred (rW arg6 arg7 arg8 arg11 arg12 arg13 arg14 arg15 arg16 arg17 arg18 arg19 arg20) K V sS i e := by
  have hG : (fun i k => g (ix3 bb i k)) = Cert.Spec.gru Cert.Spec.varCentred (rW arg6 arg7 arg8 arg11 arg12 arg13 arg14 arg15 arg16 arg17 arg18 arg19 arg20) K V sS :=
    funext fun i => funext fun k => hg i k
  unfold refMlp
  rw [addf_apply, addf_apply, dotW512_apply, bcast_11c_abc_apply, bcast_c_11c_apply]
  unfold Cert.Spec.step
  refine congrArg₂ (· + ·) (congrArg₂ (· + ·) (hg i e) ?_) rfl
  unfold Cert.Spec.lin
  refine Finset.sum_congr rfl fun d _ => congrArg₂ (· * ·) ?_ rfl
  unfold refRelu
  rw [maximumf_apply, broadcastInDim_scalar_apply, constant_apply, addf_apply, dotW512_apply, bcast_11c_abc_apply,
    bcast_c_11c_apply]
  unfold Cert.Spec.hidden Cert.Spec.lin Cert.Spec.zero32
  refine congrArg₂ max (congrArg₂ (· + ·) (Finset.sum_congr rfl fun d' _ => ?_) rfl) rfl
  rw [refLN_eq, hG]
  rfl

end Tail

end Cert.ReferenceIdeal.RefStep

end
-- ==== Proof.RefStep.lean ====
import proofs.«417374_j33956011442443_3_alg».proof.Proof.RefStepAttn
import proofs.«417374_j33956011442443_3_alg».proof.Proof.RefStepTail

noncomputable section

namespace Cert.ReferenceIdeal.RefStep

open Cert.ReferenceIdeal Idealize.ShloMosaic Idealize.ShloMosaic.ValueIdx
open Facts₀

variable [Facts₀]

theorem refStep_eq (slots : (⟨S32x8x512, .f32⟩ : BufTy).Contents (Elt Ideal)) (k v : (⟨S32x4096x512, .f32⟩ : BufTy).Contents (Elt Ideal))
    (arg6 arg7 : (⟨S512, .f32⟩ : BufTy).Contents (Elt Ideal)) (arg8 : (⟨S512x512, .f32⟩ : BufTy).Contents (Elt Ideal))
    (arg11 arg12 : (⟨S1536x512, .f32⟩ : BufTy).Contents (Elt Ideal)) (arg13 arg14 : (⟨S1536, .f32⟩ : BufTy).Contents (Elt Ideal))
    (arg15 arg16 : (⟨S512, .f32⟩ : BufTy).Contents (Elt Ideal)) (arg17 : (⟨S512x512, .f32⟩ : BufTy).Contents (Elt Ideal))
    (arg18 : (⟨S512, .f32⟩ : BufTy).Contents (Elt Ideal)) (arg19 : (⟨S512x512, .f32⟩ : BufTy).Contents (Elt Ideal))
    (arg20 : (⟨S512, .f32⟩ : BufTy).Contents (Elt Ideal)) (b : Fin 32) (i : Fin 8) (e : Fin 512) :
    refStep (F := Ideal) slots k v arg6 arg7 arg8 arg11 arg12 arg13 arg14 arg15 arg16 arg17 arg18 arg19 arg20 (ix3 b i e)
      = Cert.Spec.step Cert.Spec.varCentred (rW arg6 arg7 arg8 arg11 arg12 arg13 arg14 arg15 arg16 arg17 arg18 arg19 arg20)
          (fun t d => k (ix3 b t d)) (fun t d => v (ix3 b t d)) (fun i d => slots (ix3 b i d)) i e := by
  unfold refStep
  simp only []
  refine refMlp_eq _ arg6 arg7 arg8 arg11 arg12 arg13 arg14 arg15 arg16 arg17 arg18 arg19 arg20
    (fun t d => k (ix3 b t d)) (fun t d => v (ix3 b t d)) (fun i d => slots (ix3 b i d)) b (fun i' c' => ?_) i e
  refine refGru_eq _ slots arg6 arg7 arg8 arg11 arg12 arg13 arg14 arg15 arg16 arg17 arg18 arg19 arg20 Cert.Spec.varCentred
    (fun t d => k (ix3 b t d)) (fun t d => v (ix3 b t d)) (fun i d => slots (ix3 b i d)) b (fun _ _ => rfl) (fun i'' c'' => ?_) i' c'
  exact refUpdate_eq Cert.Spec.varCentred (rW arg6 arg7 arg8 arg11 arg12 arg13 arg14 arg15 arg16 arg17 arg18 arg19 arg20)
    (fun t d => k (ix3 b t d)) (fun t d => v (ix3 b t d)) (fun i d => slots (ix3 b i d)) _ k v b
    (fun i₀ e₀ => by rw [dotW512_apply]; unfold Cert.Spec.query Cert.Spec.lin; exact Finset.sum_congr rfl fun d _ => by rw [refLN_eq]; rfl) (fun _ _ => rfl) (fun _ _ => rfl) i'' c''

end Cert.ReferenceIdeal.RefStep

end
-- ==== Proof.RefValue.lean ====
import proofs.«417374_j33956011442443_3_alg».proof.Proof.RefRunStages
import proofs.«417374_j33956011442443_3_alg».proof.Proof.RefUnfold
import proofs.«417374_j33956011442443_3_alg».proof.Proof.RefUnfoldIter
import proofs.«417374_j33956011442443_3_alg».proof.Proof.RefProj
import proofs.«417374_j33956011442443_3_alg».proof.Proof.RefStep
import proofs.«417374_j33956011442443_3_alg».proof.Proof.Spec
import Idealize.ShloMosaic.Lib.ValueIdx

set_option maxRecDepth 8192

noncomputable section

namespace Cert.ReferenceIdeal.RefValue

open Cert.ReferenceIdeal Cert.ReferenceIdeal.Gen Cert.ReferenceIdeal.RefRun Idealize.ShloMosaic Idealize.ShloMosaic.TcCoe Idealize.SL.Sem
open Idealize.ShloMosaic.StableHlo Idealize.ShloMosaic.ValueIdx

section Value

variable (V0 : Valuation τ sig (Elt Ideal)) (b : Fin 32)

abbrev weights := RefStep.rW (V0 (Proc.devRef .tc main_arg6)) (V0 (Proc.devRef .tc main_arg7)) (V0 (Proc.devRef .tc main_arg8)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20))
abbrev keys := Cert.Spec.project Cert.Spec.varCentred (fun t k => V0 (Proc.devRef .tc main_arg0) (ix3 b t k)) (fun k => V0 (Proc.devRef .tc main_arg4) (ix1 k)) (fun k => V0 (Proc.devRef .tc main_arg5) (ix1 k)) (fun e d => V0 (Proc.devRef .tc main_arg9) (ix2 e d))
abbrev vals := Cert.Spec.project Cert.Spec.varCentred (fun t k => V0 (Proc.devRef .tc main_arg0) (ix3 b t k)) (fun k => V0 (Proc.devRef .tc main_arg4) (ix1 k)) (fun k => V0 (Proc.devRef .tc main_arg5) (ix1 k)) (fun e d => V0 (Proc.devRef .tc main_arg10) (ix2 e d))
abbrev slots := Cert.Spec.slots0 (fun s k => V0 (Proc.devRef .tc main_arg2) (ix3 0 s k)) (fun s k => V0 (Proc.devRef .tc main_arg3) (ix3 0 s k)) (fun s k => V0 (Proc.devRef .tc main_arg1) (ix3 b s k))

theorem slots0_at :
    (fun i d => res_main_v3 V0 (ix3 b i d)) = (slots V0 b) := by
  funext i d; rw [res_main_v3_eq, RefProj.refSlots0_eq]

theorem ln_at :
    (fun t k => res_main_v21 V0 (ix3 b t k))
      = Cert.Spec.layerNorm Cert.Spec.varCentred (fun t k => V0 (Proc.devRef .tc main_arg0) (ix3 b t k)) (fun k => V0 (Proc.devRef .tc main_arg4) (ix1 k)) (fun k => V0 (Proc.devRef .tc main_arg5) (ix1 k)) := by
  funext t k; rw [res_main_v21_eq, RefProj.refLN_eq]

theorem keys_at :
    (fun t d => res_main_v22 V0 (ix3 b t d)) = (keys V0 b) := by
  funext t d; rw [res_main_v22_eq, RefProj.refK_eq, ln_at]; rfl

theorem values_at :
    (fun t d => res_main_v23 V0 (ix3 b t d)) = (vals V0 b) := by
  funext t d; rw [res_main_v23_eq, RefProj.refK_eq, ln_at]; rfl

theorem step_at (S : (⟨S32x8x512, .f32⟩ : BufTy).Contents (Elt Ideal)) (s : Fin 8 → Fin 512 → EReal)
    (hS : (fun i d => S (ix3 b i d)) = s) :
    (fun i e => RefStep.refStep S (res_main_v22 V0) (res_main_v23 V0) (V0 (Proc.devRef .tc main_arg6)) (V0 (Proc.devRef .tc main_arg7)) (V0 (Proc.devRef .tc main_arg8)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) (ix3 b i e))
      = (Cert.Spec.step Cert.Spec.varCentred (weights V0)
        (keys V0 b)
        (vals V0 b)
        s) := by
  funext i e; rw [RefStep.refStep_eq, keys_at, values_at, hS]

theorem iter1_at :
    (fun i e => res_main_v126 V0 (ix3 b i e))
      = (Cert.Spec.step Cert.Spec.varCentred (weights V0)
        (keys V0 b)
        (vals V0 b)
        (slots V0 b)) := by
  rw [res_main_v126_eq]; exact step_at V0 b (res_main_v3 V0) _ (slots0_at V0 b)

theorem iter2_at :
    (fun i e => res_main_v229 V0 (ix3 b i e))
      = (Cert.Spec.step Cert.Spec.varCentred (weights V0)
        (keys V0 b)
        (vals V0 b)
        (Cert.Spec.step Cert.Spec.varCentred (weights V0)
        (keys V0 b)
        (vals V0 b)
        (slots V0 b))) := by
  rw [res_main_v229_eq]; exact step_at V0 b (res_main_v126 V0) _ (iter1_at V0 b)

theorem iter3_at :
    (fun i e => res_main_v332 V0 (ix3 b i e))
      = (Cert.Spec.step Cert.Spec.varCentred (weights V0)
        (keys V0 b)
        (vals V0 b)
        (Cert.Spec.step Cert.Spec.varCentred (weights V0)
        (keys V0 b)
        (vals V0 b)
        (Cert.Spec.step Cert.Spec.varCentred (weights V0)
        (keys V0 b)
        (vals V0 b)
        (slots V0 b)))) := by
  rw [res_main_v332_eq]; exact step_at V0 b (res_main_v229 V0) _ (iter2_at V0 b)

end Value

theorem ref_value (V0 : Valuation τ sig (Elt Ideal)) (b : Fin 32) (i : Fin 8) (e : Fin 512) :
    res_main_v332 V0 (ix3 b i e) = Cert.Spec.slotAttentionCentred (RefStep.rW (V0 (Proc.devRef .tc main_arg6)) (V0 (Proc.devRef .tc main_arg7)) (V0 (Proc.devRef .tc main_arg8)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20))) (fun t k => V0 (Proc.devRef .tc main_arg0) (ix3 b t k)) (fun k => V0 (Proc.devRef .tc main_arg4) (ix1 k)) (fun k => V0 (Proc.devRef .tc main_arg5) (ix1 k)) (fun e d => V0 (Proc.devRef .tc main_arg9) (ix2 e d)) (fun e d => V0 (Proc.devRef .tc main_arg10) (ix2 e d)) (fun s k => V0 (Proc.devRef .tc main_arg2) (ix3 0 s k)) (fun s k => V0 (Proc.devRef .tc main_arg3) (ix3 0 s k)) (fun s k => V0 (Proc.devRef .tc main_arg1) (ix3 b s k)) i e :=
  congrFun (congrFun (iter3_at V0 b) i) e

end Cert.ReferenceIdeal.RefValue

end
-- ==== Proof.Finite.lean ====
import proofs.«417374_j33956011442443_3_alg».proof.Defs
import Idealize.ShloMosaic.Lib.ReduceAll
import Idealize.ShloMosaic.Lib.ValueIdx

namespace Cert.Proof.Finite

open Idealize.ShloMosaic Idealize.SL.Sem
open Cert.Pre_finite_inputs

instance : Subsingleton S_.Idx := ⟨fun a b => funext fun d => d.elim0⟩

-- |x| < +inf excludes both infinities.
theorem real_of_abs_lt (x : EReal)
    (e : FloatOps.cmpf (F := Ideal) (φ := .f32) .olt (FloatOps.hostAbsf (F := Ideal) (φ := .f32) x) (FloatOps.ofBits (F := Ideal) .f32 0x7F800000#32) = 1#1) :
    ∃ r : ℝ, x = (r : EReal) := by
  have hb : Ideal.ofBits .f32 0x7F800000#32 = (⊤ : EReal) := by simp [Ideal.ofBits, Ideal.ieee]
  change BitVec.ofBool (decide (max x (-x) < Ideal.ofBits .f32 0x7F800000#32)) = 1#1 at e
  rw [hb] at e
  induction x using EReal.rec with
  | bot => simp at e
  | coe r => exact ⟨r, rfl⟩
  | top => simp at e

theorem real_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi (cmpf .olt (Host.absf x) (broadcastInDim s ![] hb (constant S_ .f32 0x7F800000#32)))
          (constantI S_ 1 1#1) hr hu ValueIdx.ix0 = 1#1) :
    ∀ i, ∃ r : ℝ, x i = (r : EReal) := fun i =>
  real_of_abs_lt (x i) (Host.reduce_andi_all _ _ hr hu ValueIdx.ix0 e i)

variable [Cert.Pre_finite_inputs.Facts]
  {m : (ℓ : Loc Cert.KernelIdeal.nD Cert.KernelIdeal.τ Cert.KernelIdeal.sig) → Buf (Elt Ideal) ℓ}

abbrev arg (m : (ℓ : Loc Cert.KernelIdeal.nD Cert.KernelIdeal.τ Cert.KernelIdeal.sig) → Buf (Elt Ideal) ℓ)
    (c : Dev Cert.KernelIdeal.nD) (r : Ref Cert.KernelIdeal.sig .tc) :=
  m ((c.tc : Thread Cert.KernelIdeal.nD Cert.KernelIdeal.τ).loc r)

open Cert.KernelIdeal in
-- The precondition is the conjunction, over the twenty-one inputs, of "every entry has a finite absolute value".
theorem all_real (h : Cert.Pre_KernelIdeal m) (c : Dev Cert.KernelIdeal.nD) :
    (∀ i, ∃ r : ℝ, arg m c main_arg0 i = (r : EReal)) ∧ (∀ i, ∃ r : ℝ, arg m c main_arg1 i = (r : EReal)) ∧
    (∀ i, ∃ r : ℝ, arg m c main_arg2 i = (r : EReal)) ∧ (∀ i, ∃ r : ℝ, arg m c main_arg3 i = (r : EReal)) ∧
    (∀ i, ∃ r : ℝ, arg m c main_arg4 i = (r : EReal)) ∧ (∀ i, ∃ r : ℝ, arg m c main_arg5 i = (r : EReal)) ∧
    (∀ i, ∃ r : ℝ, arg m c main_arg6 i = (r : EReal)) ∧ (∀ i, ∃ r : ℝ, arg m c main_arg7 i = (r : EReal)) ∧
    (∀ i, ∃ r : ℝ, arg m c main_arg8 i = (r : EReal)) ∧ (∀ i, ∃ r : ℝ, arg m c main_arg9 i = (r : EReal)) ∧
    (∀ i, ∃ r : ℝ, arg m c main_arg10 i = (r : EReal)) ∧ (∀ i, ∃ r : ℝ, arg m c main_arg11 i = (r : EReal)) ∧
    (∀ i, ∃ r : ℝ, arg m c main_arg12 i = (r : EReal)) ∧ (∀ i, ∃ r : ℝ, arg m c main_arg13 i = (r : EReal)) ∧
    (∀ i, ∃ r : ℝ, arg m c main_arg14 i = (r : EReal)) ∧ (∀ i, ∃ r : ℝ, arg m c main_arg15 i = (r : EReal)) ∧
    (∀ i, ∃ r : ℝ, arg m c main_arg16 i = (r : EReal)) ∧ (∀ i, ∃ r : ℝ, arg m c main_arg17 i = (r : EReal)) ∧
    (∀ i, ∃ r : ℝ, arg m c main_arg18 i = (r : EReal)) ∧ (∀ i, ∃ r : ℝ, arg m c main_arg19 i = (r : EReal)) ∧
    (∀ i, ∃ r : ℝ, arg m c main_arg20 i = (r : EReal)) := by
  have e := congrFun (h c) ValueIdx.ix0
  dsimp only [fn, fn_part1, fn_part2, fn_part3, fn_part4, fn_part5, fn_part6, andi] at e
  simp only [IntOp.andi_eq_one] at e
  obtain ⟨⟨⟨⟨⟨⟨⟨⟨⟨⟨⟨⟨⟨⟨⟨⟨⟨⟨⟨⟨e0, e1⟩, e2⟩, e3⟩, e4⟩, e5⟩, e6⟩, e7⟩, e8⟩, e9⟩, e10⟩, e11⟩, e12⟩, e13⟩, e14⟩, e15⟩, e16⟩, e17⟩, e18⟩, e19⟩, e20⟩ := e
  exact ⟨real_of_all _ _ _ _ e0, real_of_all _ _ _ _ e1, real_of_all _ _ _ _ e2, real_of_all _ _ _ _ e3,
    real_of_all _ _ _ _ e4, real_of_all _ _ _ _ e5, real_of_all _ _ _ _ e6, real_of_all _ _ _ _ e7,
    real_of_all _ _ _ _ e8, real_of_all _ _ _ _ e9, real_of_all _ _ _ _ e10, real_of_all _ _ _ _ e11,
    real_of_all _ _ _ _ e12, real_of_all _ _ _ _ e13, real_of_all _ _ _ _ e14, real_of_all _ _ _ _ e15,
    real_of_all _ _ _ _ e16, real_of_all _ _ _ _ e17, real_of_all _ _ _ _ e18, real_of_all _ _ _ _ e19,
    real_of_all _ _ _ _ e20⟩

end Cert.Proof.Finite
-- ==== Proof.Algebraic.lean ====
import proofs.«417374_j33956011442443_3_alg».proof.Defs
import proofs.«417374_j33956011442443_3_alg».proof.Proof.Gen.KernelIdeal
import proofs.«417374_j33956011442443_3_alg».proof.Proof.Gen.ReferenceIdeal
import proofs.«417374_j33956011442443_3_alg».proof.Proof.Gen.Pre_finite_inputs
import proofs.«417374_j33956011442443_3_alg».proof.Proof.KValue
import proofs.«417374_j33956011442443_3_alg».proof.Proof.KFinal
import proofs.«417374_j33956011442443_3_alg».proof.Proof.RefRun
import proofs.«417374_j33956011442443_3_alg».proof.Proof.RefValue
import proofs.«417374_j33956011442443_3_alg».proof.Proof.SpecReal
import proofs.«417374_j33956011442443_3_alg».proof.Proof.Finite
import Idealize.ShloMosaic.Lib.ValueIdx

set_option maxRecDepth 16384

noncomputable section

namespace Cert.Proof

open Idealize.ShloMosaic Idealize.ShloMosaic.TcCoe Idealize.SL.Sem Idealize.ShloMosaic.ValueIdx

-- On agreeing real inputs the centred variance of the reference and the one-pass variance of the kernel give one slot attention.
theorem algebraic : Cert.algebraic_KernelIdeal_ReferenceIdeal := by
  intro m ρ m' ρ' hpre hagree
  refine ⟨Cert.KernelIdeal.Body.kResult (F := Ideal) m, Cert.KernelIdeal.Body.kernel_run (F := Ideal) m ρ, ?_⟩
  refine (θ_run Cert.ReferenceIdeal.defs _ _).mono (fun _ h c => ⟨(h c).1.trans ?_, (h c).2⟩)
    (Cert.ReferenceIdeal.RefRun.run (F := Ideal) m' ρ')
  refine @funext Cert.KernelIdeal.S32x8x512.Idx (fun _ => EReal) _ _ (fun y => ?_)
  obtain ⟨b, i, e, rfl⟩ : ∃ (b : Fin 32) (i : Fin 8) (e : Fin 512), y = ix3 b i e := ⟨y 0, y 1, y 2, eq_ix3 y⟩
  obtain ⟨h0, h1, h2, h3, h4, h5, h6, h7, h8, h9, h10, h11, h12, h13, h14, h15, h16, h17, h18, h19, h20⟩ := hagree c
  obtain ⟨r0, r1, r2, r3, r4, r5, r6, r7, r8, r9, r10, r11, r12, r13, r14, r15, r16, r17, r18, r19, r20⟩ := Finite.all_real hpre c
  have el : ∀ r, StableHlo.launchContents m' c (Proc.devRef .tc r)
      = m' ((c.tc : Thread Cert.ReferenceIdeal.nD Cert.ReferenceIdeal.τ).loc r) := fun _ => rfl
  have hb : (⟨(Cert.KernelIdeal.Body.lastPt b).val / 4, by have := Cert.KernelIdeal.KBlocks.t_lt (Cert.KernelIdeal.Body.lastPt b); omega⟩ : Fin 32) = b :=
    Fin.ext (by show (4 * b.val + 3) / 4 = b.val; omega)
  rw [Cert.ReferenceIdeal.RefValue.ref_value, Cert.KernelIdeal.Body.kResult_apply,
    Cert.KernelIdeal.KFinal.outVal_spec m c (Cert.KernelIdeal.Body.lastPt b) (by show (4 * b.val + 3) % 4 = 3; omega), hb]
  rw [Cert.Spec.slotAttention_forms_agree (Cert.KernelIdeal.KFinal.specW m c)
    ⟨fun k => r6 (ix1 k), fun k => r7 (ix1 k), fun e d => r8 (ix2 e d), fun j k => r11 (ix2 j k), fun j k => r12 (ix2 j k),
      fun j => r13 (ix1 j), fun j => r14 (ix1 j), fun k => r15 (ix1 k), fun k => r16 (ix1 k), fun e k => r17 (ix2 e k),
      fun e => r18 (ix1 e), fun e k => r19 (ix2 e k), fun e => r20 (ix1 e)⟩
    _ (fun r k => r0 (ix3 b r k)) _ _ (fun k => r4 (ix1 k)) (fun k => r5 (ix1 k))
    _ _ (fun e d => r9 (ix2 e d)) (fun e d => r10 (ix2 e d))
    _ _ _ (fun s k => r2 (ix3 0 s k)) (fun s k => r3 (ix3 0 s k)) (fun s k => r1 (ix3 b s k))]
  simp only [el, h0, h1, h2, h3, h4, h5, h6, h7, h8, h9, h10, h11, h12, h13, h14, h15, h16, h17, h18, h19, h20]
  rfl

end Cert.Proof

end
-- ==== Proof.lean ====
import proofs.«417374_j33956011442443_3_alg».proof.Defs
import proofs.«417374_j33956011442443_3_alg».proof.Proof.Gen.Kernel
import proofs.«417374_j33956011442443_3_alg».proof.Proof.Gen.KernelIdeal
import proofs.«417374_j33956011442443_3_alg».proof.Proof.Gen.ReferenceIdeal
import proofs.«417374_j33956011442443_3_alg».proof.Proof.Gen.Pre_finite_inputs
import proofs.«417374_j33956011442443_3_alg».proof.Proof.KBodyBits
import proofs.«417374_j33956011442443_3_alg».proof.Proof.KValue
import proofs.«417374_j33956011442443_3_alg».proof.Proof.Algebraic
import proofs.«417374_j33956011442443_3_alg».proof.Proof.RefRun
import proofs.«417374_j33956011442443_3_alg».proof.Proof.RefValue
import proofs.«417374_j33956011442443_3_alg».proof.Proof.SpecReal
import proofs.«417374_j33956011442443_3_alg».proof.Proof.Finite
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

theorem frame_k : Cert.frame_Kernel := fun m ρ _ =>
  Cert.Kernel.Gen.frame_of m ρ (Cert.Kernel.Body.dats m) (Cert.Kernel.Body.A_eq m) (Cert.Kernel.Body.run_main m ρ)

theorem frame_ki : Cert.frame_KernelIdeal := fun m ρ _ =>
  Cert.KernelIdeal.Gen.frame_of m ρ (Cert.KernelIdeal.Body.dats m) (Cert.KernelIdeal.Body.A_eq m) (Cert.KernelIdeal.Body.run_main m ρ)

theorem frame_ri : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
